-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg9 : FVec F S3x64 .f32) (main_arg10 : FVec F S3x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg6 : FVec F S3x64 .f32) (main_arg7 : FVec F S3x64x64 .f32) (main_arg8 : FVec F S3x64 .f32) (main_arg9 : FVec F S3x64 .f32) (main_arg10 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S3200000 32) (main_arg2 : IVec S3200000 32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) (main_arg9 : FVec F S3x64 .f32) (main_arg10 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S10000x64 : Shape := ⟨2, ![10000, 64]⟩
abbrev S100000x192 : Shape := ⟨2, ![100000, 192]⟩
abbrev S1x192 : Shape := ⟨2, ![1, 192]⟩

abbrev nBuf : Space → Nat
  | .hbm => 145
  | .vmem => 102
  | .smem => 0
  | _ => 0

abbrev hbmTy0_0 (i : Nat) : BufTy := match i % 128 with
  | 0 => ⟨S100000x64, .f32⟩
  | 1 => ⟨S3200000, .i32⟩
  | 2 => ⟨S3200000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x64, .f32⟩
  | 20 => ⟨S_, .f32⟩
  | 21 => ⟨S100000x64, .f32⟩
  | 22 => ⟨S3200000x1, .i32⟩
  | 23 => ⟨S100000x64, .f32⟩
  | 24 => ⟨S100000x64, .f32⟩
  | 25 => ⟨S1x64, .f32⟩
  | 26 => ⟨S64, .f32⟩
  | 27 => ⟨S1x64, .f32⟩
  | 28 => ⟨S1x64, .f32⟩
  | 29 => ⟨S64, .f32⟩
  | 30 => ⟨S1x64, .f32⟩
  | 31 => ⟨S1x64, .f32⟩
  | 32 => ⟨S64, .f32⟩
  | 33 => ⟨S1x64, .f32⟩
  | 34 => ⟨S1x64, .f32⟩
  | 35 => ⟨S64, .f32⟩
  | 36 => ⟨S1x64, .f32⟩
  | 37 => ⟨S1x64, .f32⟩
  | 38 => ⟨S64, .f32⟩
  | 39 => ⟨S1x64, .f32⟩
  | 40 => ⟨S1x64, .f32⟩
  | 41 => ⟨S64, .f32⟩
  | 42 => ⟨S1x64, .f32⟩
  | 43 => ⟨S1x64x64, .f32⟩
  | 44 => ⟨S64x64, .f32⟩
  | 45 => ⟨S100000x64, .f32⟩
  | 46 => ⟨S1x64, .f32⟩
  | 47 => ⟨S1x64, .f32⟩
  | 48 => ⟨S1x64x64, .f32⟩
  | 49 => ⟨S64x64, .f32⟩
  | 50 => ⟨S100000x64, .f32⟩
  | 51 => ⟨S1x64, .f32⟩
  | 52 => ⟨S1x64, .f32⟩
  | 53 => ⟨S100000x64, .f32⟩
  | 54 => ⟨S1x64, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S1x64, .f32⟩
  | 73 => ⟨S64, .f32⟩
  | 74 => ⟨S1x64, .f32⟩
  | 75 => ⟨S1x64, .f32⟩
  | 76 => ⟨S64, .f32⟩
  | 77 => ⟨S1x64, .f32⟩
  | 78 => ⟨S1x64, .f32⟩
  | 79 => ⟨S64, .f32⟩
  | 80 => ⟨S1x64, .f32⟩
  | 81 => ⟨S1x64, .f32⟩
  | 82 => ⟨S64, .f32⟩
  | 83 => ⟨S1x64, .f32⟩
  | 84 => ⟨S1x64, .f32⟩
  | 85 => ⟨S64, .f32⟩
  | 86 => ⟨S1x64, .f32⟩
  | 87 => ⟨S1x64x64, .f32⟩
  | 88 => ⟨S64x64, .f32⟩
  | 89 => ⟨S100000x64, .f32⟩
  | 90 => ⟨S1x64, .f32⟩
  | 91 => ⟨S1x64, .f32⟩
  | 92 => ⟨S1x64x64, .f32⟩
  | 93 => ⟨S64x64, .f32⟩
  | 94 => ⟨S100000x64, .f32⟩
  | 95 => ⟨S1x64, .f32⟩
  | 96 => ⟨S1x64, .f32⟩
  | 97 => ⟨S100000x64, .f32⟩
  | 98 => ⟨S1x64, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x64, .f32⟩
  | 108 => ⟨S_, .f32⟩
  | 109 => ⟨S100000x64, .f32⟩
  | 110 => ⟨S3200000x1, .i32⟩
  | 111 => ⟨S100000x64, .f32⟩
  | 112 => ⟨S100000x64, .f32⟩
  | 113 => ⟨S1x64, .f32⟩
  | 114 => ⟨S64, .f32⟩
  | 115 => ⟨S1x64, .f32⟩
  | 116 => ⟨S1x64, .f32⟩
  | 117 => ⟨S64, .f32⟩
  | 118 => ⟨S1x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S1x64, .f32⟩
  | 1 => ⟨S64, .f32⟩
  | 2 => ⟨S1x64, .f32⟩
  | 3 => ⟨S1x64x64, .f32⟩
  | 4 => ⟨S64x64, .f32⟩
  | 5 => ⟨S100000x64, .f32⟩
  | 6 => ⟨S1x64, .f32⟩
  | 7 => ⟨S1x64, .f32⟩
  | 8 => ⟨S1x64x64, .f32⟩
  | 9 => ⟨S64x64, .f32⟩
  | 10 => ⟨S100000x64, .f32⟩
  | 11 => ⟨S1x64, .f32⟩
  | 12 => ⟨S1x64, .f32⟩
  | 13 => ⟨S100000x64, .f32⟩
  | 14 => ⟨S1x64, .f32⟩
  | 15 => ⟨S100000x192, .f32⟩
  | 16 => ⟨S1x192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S1x64, .f32⟩
  | .local _ .vmem, ⟨67, _⟩ => ⟨S1x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S1x64, .f32⟩
  | .local _ .vmem, ⟨72, _⟩ => ⟨S10000x64, .f32⟩
  | .local _ .vmem, ⟨73, _⟩ => ⟨S10000x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | .local _ .vmem, ⟨80, _⟩ => ⟨S1x64, .f32⟩
  | .local _ .vmem, ⟨81, _⟩ => ⟨S1x64, .f32⟩
  | .local _ .vmem, ⟨82, _⟩ => ⟨S1x64, .f32⟩
  | .local _ .vmem, ⟨83, _⟩ => ⟨S1x64, .f32⟩
  | .local _ .vmem, ⟨84, _⟩ => ⟨S64x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S1x64, .f32⟩
  | .local _ .vmem, ⟨89, _⟩ => ⟨S1x64, .f32⟩
  | .local _ .vmem, ⟨90, _⟩ => ⟨S1x64, .f32⟩
  | .local _ .vmem, ⟨91, _⟩ => ⟨S1x64, .f32⟩
  | .local _ .vmem, ⟨92, _⟩ => ⟨S10000x64, .f32⟩
  | .local _ .vmem, ⟨93, _⟩ => ⟨S10000x64, .f32⟩
  | .local _ .vmem, ⟨94, _⟩ => ⟨S1x64, .f32⟩
  | .local _ .vmem, ⟨95, _⟩ => ⟨S1x64, .f32⟩
  | .local _ .vmem, ⟨96, _⟩ => ⟨S1x64, .f32⟩
  | .local _ .vmem, ⟨97, _⟩ => ⟨S1x64, .f32⟩
  | .local _ .vmem, ⟨98, _⟩ => ⟨S10000x64, .f32⟩
  | .local _ .vmem, ⟨99, _⟩ => ⟨S10000x64, .f32⟩
  | .local _ .vmem, ⟨100, _⟩ => ⟨S1x64, .f32⟩
  | .local _ .vmem, ⟨101, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v35_0 : Ref sig .tc := ⟨.hbm, 53, rfl⟩
abbrev main_v35_1 : Ref sig .tc := ⟨.hbm, 54, rfl⟩
abbrev main_c_1 : Ref sig .tc := ⟨.hbm, 55, rfl⟩
abbrev main_v36 : Ref sig .tc := ⟨.hbm, 56, rfl⟩
abbrev main_v37 : Ref sig .tc := ⟨.hbm, 57, rfl⟩
abbrev main_c_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67_0 : Ref sig .tc := ⟨.hbm, 89, rfl⟩
abbrev main_v67_1 : Ref sig .tc := ⟨.hbm, 90, rfl⟩
abbrev main_v67_2 : Ref sig .tc := ⟨.hbm, 91, rfl⟩
abbrev main_v68 : Ref sig .tc := ⟨.hbm, 92, rfl⟩
abbrev main_v69 : Ref sig .tc := ⟨.hbm, 93, rfl⟩
abbrev main_v70_0 : Ref sig .tc := ⟨.hbm, 94, rfl⟩
abbrev main_v70_1 : Ref sig .tc := ⟨.hbm, 95, rfl⟩
abbrev main_v70_2 : Ref sig .tc := ⟨.hbm, 96, rfl⟩
abbrev main_v71_0 : Ref sig .tc := ⟨.hbm, 97, rfl⟩
abbrev main_v71_1 : Ref sig .tc := ⟨.hbm, 98, rfl⟩
abbrev main_c_4 : Ref sig .tc := ⟨.hbm, 99, rfl⟩
abbrev main_v72 : Ref sig .tc := ⟨.hbm, 100, rfl⟩
abbrev main_v73 : Ref sig .tc := ⟨.hbm, 101, rfl⟩
abbrev main_c_5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_6 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103_0 : Ref sig .tc := ⟨.hbm, 133, rfl⟩
abbrev main_v103_1 : Ref sig .tc := ⟨.hbm, 134, rfl⟩
abbrev main_v103_2 : Ref sig .tc := ⟨.hbm, 135, rfl⟩
abbrev main_v104 : Ref sig .tc := ⟨.hbm, 136, rfl⟩
abbrev main_v105 : Ref sig .tc := ⟨.hbm, 137, rfl⟩
abbrev main_v106_0 : Ref sig .tc := ⟨.hbm, 138, rfl⟩
abbrev main_v106_1 : Ref sig .tc := ⟨.hbm, 139, rfl⟩
abbrev main_v106_2 : Ref sig .tc := ⟨.hbm, 140, rfl⟩
abbrev main_v107_0 : Ref sig .tc := ⟨.hbm, 141, rfl⟩
abbrev main_v107_1 : Ref sig .tc := ⟨.hbm, 142, rfl⟩
abbrev main_v108 : Ref sig .tc := ⟨.hbm, 143, rfl⟩
abbrev main_v109 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg5_0 : Ref sig .tc := ⟨.vmem, 41, rfl⟩
abbrev cc3_scratch0 : Ref sig .tc := ⟨.vmem, 42, rfl⟩
abbrev cc3_scratch1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc4_stg8_0 : Ref sig .tc := ⟨.vmem, 54, rfl⟩
abbrev cc4_stg9_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc5_stg6_0 : Ref sig .tc := ⟨.vmem, 66, rfl⟩
abbrev cc5_scratch0 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg5_0 : Ref sig .tc := ⟨.vmem, 75, rfl⟩
abbrev cc6_scratch0 : Ref sig .tc := ⟨.vmem, 76, rfl⟩
abbrev cc6_scratch1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg3_0 : Ref sig .tc := ⟨.vmem, 82, rfl⟩
abbrev cc7_stg4_0 : Ref sig .tc := ⟨.vmem, 83, rfl⟩
abbrev cc7_stg5_0 : Ref sig .tc := ⟨.vmem, 84, rfl⟩
abbrev cc7_stg6_0 : Ref sig .tc := ⟨.vmem, 85, rfl⟩
abbrev cc7_stg7_0 : Ref sig .tc := ⟨.vmem, 86, rfl⟩
abbrev cc7_stg7_1 : Ref sig .tc := ⟨.vmem, 87, rfl⟩
abbrev cc7_stg8_0 : Ref sig .tc := ⟨.vmem, 88, rfl⟩
abbrev cc7_stg9_0 : Ref sig .tc := ⟨.vmem, 89, rfl⟩
abbrev cc7_scratch0 : Ref sig .tc := ⟨.vmem, 90, rfl⟩
abbrev cc7_scratch1 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg2_0 : Ref sig .tc := ⟨.vmem, 95, rfl⟩
abbrev cc8_stg3_0 : Ref sig .tc := ⟨.vmem, 96, rfl⟩
abbrev cc8_stg4_0 : Ref sig .tc := ⟨.vmem, 97, rfl⟩
abbrev cc8_stg5_0 : Ref sig .tc := ⟨.vmem, 98, rfl⟩
abbrev cc8_stg5_1 : Ref sig .tc := ⟨.vmem, 99, rfl⟩
abbrev cc8_stg6_0 : Ref sig .tc := ⟨.vmem, 100, rfl⟩
abbrev cc8_scratch0 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem3_1 : DmaSem sig := 34
abbrev cc3_sem4_0 : DmaSem sig := 35
abbrev cc3_sem5_0 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46
abbrev cc4_sem8_0 : DmaSem sig := 47
abbrev cc4_sem9_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc5_sem6_0 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem3_1 : DmaSem sig := 63
abbrev cc6_sem4_0 : DmaSem sig := 64
abbrev cc6_sem5_0 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem6_0 : DmaSem sig := 73
abbrev cc7_sem7_0 : DmaSem sig := 74
abbrev cc7_sem7_1 : DmaSem sig := 75
abbrev cc7_sem8_0 : DmaSem sig := 76
abbrev cc7_sem9_0 : DmaSem sig := 77
abbrev cc8_sem0_0 : DmaSem sig := 78
abbrev cc8_sem0_1 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem5_1 : DmaSem sig := 85
abbrev cc8_sem6_0 : DmaSem sig := 86

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v53 : BitVec 1 := Scalar.cmpi .eq arg0 c9_i32
  let v54 : BitVec 32 := Scalar.extui v53
  let c0_i32_29 : BitVec 32 := 0#32
  let v55 : BitVec 1 := Scalar.cmpi .ne v54 c0_i32_29
  v55

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_17 : BitVec 32 := 0#32
  let v34 : BitVec 1 := Scalar.cmpi .ne v33 c0_i32_17
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v53 : BitVec 1 := Scalar.cmpi .eq arg0 c9_i32
  let v54 : BitVec 32 := Scalar.extui v53
  let c0_i32_29 : BitVec 32 := 0#32
  let v55 : BitVec 1 := Scalar.cmpi .ne v54 c0_i32_29
  v55

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_17 : BitVec 32 := 0#32
  let v34 : BitVec 1 := Scalar.cmpi .ne v33 c0_i32_17
  v34

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v53 : BitVec 1 := Scalar.cmpi .eq arg0 c9_i32
  let v54 : BitVec 32 := Scalar.extui v53
  let c0_i32_29 : BitVec 32 := 0#32
  let v55 : BitVec 1 := Scalar.cmpi .ne v54 c0_i32_29
  v55

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_17 : BitVec 32 := 0#32
  let v34 : BitVec 1 := Scalar.cmpi .ne v33 c0_i32_17
  v34

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S64_S1x64 : S64.ShapeCasts S1x64
  slices_S3x64x64_S1x64x64_0_0_0 : S3x64x64.Slices ![0, 0, 0] S1x64x64
  shapeCasts_S1x64x64_S64x64 : S1x64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S10000x64 : S1x64.Broadcasts S10000x64
  reduces_S10000x64_S64 : S10000x64.Reduces [0] S64
  slices_S3x64_S1x64_1_0 : S3x64.Slices ![1, 0] S1x64
  slices_S3x64x64_S1x64x64_1_0_0 : S3x64x64.Slices ![1, 0, 0] S1x64x64
  slices_S3x64_S1x64_2_0 : S3x64.Slices ![2, 0] S1x64
  slices_S3x64x64_S1x64x64_2_0_0 : S3x64x64.Slices ![2, 0, 0] S1x64x64
  concatenates_S100000x64_S100000x64_S100000x64_S100000x192_d1 : Shape.Concatenates [S100000x64, S100000x64, S100000x64] S100000x192 1
  concatenates_S1x64_S1x64_S1x64_S1x192_d1 : Shape.Concatenates [S1x64, S1x64, S1x64] S1x192 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S100000x64.size a
  hwx4_7 : ∀ i : grid4.Coords, EltTy.bits .f32 = 32 ∨ (Rect.block (s := S100000x64) S10000x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x64.size a ≤ S100000x64.size a
  hwx7_7 : ∀ i : grid7.Coords, EltTy.bits .f32 = 32 ∨ (Rect.block (s := S100000x64) S10000x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x64.size a ≤ S1x64.size a
  hwx7_9 : ∀ i : grid7.Coords, EltTy.bits .f32 = 32 ∨ (Rect.block (s := S1x64) S1x64.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v31_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31_2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v34_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v34_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34_1) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34_2) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35_1) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67_0) S10000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v67_1) S1x64.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67_2) S1x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v67_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67_1) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67_2) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v58) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70_0) S10000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v70_1) S1x64.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v70_2) S1x64.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v70_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70_1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70_2) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71_0) S10000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v71_1) S1x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v82) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103_0) S10000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v103_1) S1x64.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103_2) S1x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v103_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103_1) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v103_2) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v88) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v91) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v105) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v94) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v106_0) S10000x64.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v106_1) S1x64.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v106_2) S1x64.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev idle7 : Fin 10 → grid7.Coords → Bool := fun | 0 => fun _ => false | 1 => fun _ => false | 2 => fun _ => false | 3 => fun _ => false | 4 => fun _ => false | 5 => fun _ => false | 6 => fun _ => false | 7 => fun _ => false | 8 => fun i => !(k7_cond2 i == 1#1) | 9 => fun i => !(k7_cond2 i == 1#1) | ⟨_ + 10, h⟩ => absurd h (Nat.not_lt.2 (Nat.le_add_left _ _))

abbrev win8_0 : Pipeline.Window sig grid8 :=
  Pipeline.Window.ofSpec (Memref.whole main_v106_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v106_1) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v106_2) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v97) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v100) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v107_0) S10000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v107_1) S1x64.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun _ => false | 6 => fun i => !(k8_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x192 : Shape := ⟨2, ![100000, 192]⟩
abbrev S192 : Shape := ⟨1, ![192]⟩
abbrev S1x192 : Shape := ⟨2, ![1, 192]⟩

abbrev nBuf : Space → Nat
  | .hbm => 411
  | .vmem => 0
  | .smem => 0
  | _ => 0

abbrev hbmTy0_0 (i : Nat) : BufTy := match i % 128 with
  | 0 => ⟨S100000x64, .f32⟩
  | 1 => ⟨S3200000, .i32⟩
  | 2 => ⟨S3200000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x64, .f32⟩
  | 20 => ⟨S_, .f32⟩
  | 21 => ⟨S100000x64, .f32⟩
  | 22 => ⟨S3200000x1, .i32⟩
  | 23 => ⟨S100000x64, .f32⟩
  | 24 => ⟨S100000x64, .f32⟩
  | 25 => ⟨S1x64x64, .f32⟩
  | 26 => ⟨S64x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S64, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64, .f32⟩
  | 96 => ⟨S64, .f32⟩
  | 97 => ⟨S1x64, .f32⟩
  | 98 => ⟨S64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S64, .f32⟩
  | 5 => ⟨S64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S3200000x64, .f32⟩
  | 24 => ⟨S_, .f32⟩
  | 25 => ⟨S100000x64, .f32⟩
  | 26 => ⟨S3200000x1, .i32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S64, .f32⟩
  | 43 => ⟨S_, .f32⟩
  | 44 => ⟨S64, .f32⟩
  | 45 => ⟨S64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S_, .f32⟩
  | 58 => ⟨S_, .f32⟩
  | 59 => ⟨S_, .f32⟩
  | 60 => ⟨S64, .f32⟩
  | 61 => ⟨S64, .f32⟩
  | 62 => ⟨S64, .f32⟩
  | 63 => ⟨S_, .f32⟩
  | 64 => ⟨S_, .i1⟩
  | 65 => ⟨S_, .f32⟩
  | 66 => ⟨S_, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64, .f32⟩
  | 100 => ⟨S64, .f32⟩
  | 101 => ⟨S1x64, .f32⟩
  | 102 => ⟨S64, .f32⟩
  | 103 => ⟨S_, .f32⟩
  | 104 => ⟨S64, .f32⟩
  | 105 => ⟨S_, .f32⟩
  | 106 => ⟨S64, .f32⟩
  | 107 => ⟨S64, .f32⟩
  | 108 => ⟨S_, .i32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S_, .f32⟩
  | 120 => ⟨S_, .f32⟩
  | 121 => ⟨S_, .f32⟩
  | 122 => ⟨S64, .f32⟩
  | 123 => ⟨S64, .f32⟩
  | 124 => ⟨S64, .f32⟩
  | 125 => ⟨S_, .f32⟩
  | 126 => ⟨S_, .i1⟩
  | 127 => ⟨S_, .f32⟩
  | _ => ⟨S100000x64, .f32⟩

abbrev hbmTy0_2 (i : Nat) : BufTy := match i % 128 with
  | 0 => ⟨S_, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S64, .f32⟩
  | 9 => ⟨S64, .f32⟩
  | 10 => ⟨S1x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x64, .f32⟩
  | 28 => ⟨S_, .f32⟩
  | 29 => ⟨S100000x64, .f32⟩
  | 30 => ⟨S3200000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64x64, .f32⟩
  | 93 => ⟨S64x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S1x64, .f32⟩
  | 104 => ⟨S64, .f32⟩
  | 105 => ⟨S1x64, .f32⟩
  | 106 => ⟨S64, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S_, .f32⟩
  | 124 => ⟨S_, .f32⟩
  | 125 => ⟨S_, .f32⟩
  | 126 => ⟨S64, .f32⟩
  | 127 => ⟨S64, .f32⟩
  | _ => ⟨S100000x64, .f32⟩

abbrev hbmTy0_3 (i : Nat) : BufTy := match i % 128 with
  | 0 => ⟨S64, .f32⟩
  | 1 => ⟨S_, .f32⟩
  | 2 => ⟨S_, .i1⟩
  | 3 => ⟨S_, .f32⟩
  | 4 => ⟨S_, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x192, .f32⟩
  | 24 => ⟨S_, .f32⟩
  | 25 => ⟨S192, .f32⟩
  | 26 => ⟨S1x192, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_4 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call1_cst : Ref sig .tc := ⟨.hbm, 81, rfl⟩
abbrev main_call1_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_cst : Ref sig .tc := ⟨.hbm, 92, rfl⟩
abbrev main_call2_v0 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_5 : Ref sig .tc := ⟨.hbm, 99, rfl⟩
abbrev main_v56 : Ref sig .tc := ⟨.hbm, 100, rfl⟩
abbrev main_cst_6 : Ref sig .tc := ⟨.hbm, 101, rfl⟩
abbrev main_v57 : Ref sig .tc := ⟨.hbm, 102, rfl⟩
abbrev main_v58 : Ref sig .tc := ⟨.hbm, 103, rfl⟩
abbrev main_c_7 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_cst_1 : Ref sig .tc := ⟨.hbm, 115, rfl⟩
abbrev main_call3_v8 : Ref sig .tc := ⟨.hbm, 116, rfl⟩
abbrev main_call3_cst_2 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_cst_3 : Ref sig .tc := ⟨.hbm, 121, rfl⟩
abbrev main_call3_v12 : Ref sig .tc := ⟨.hbm, 122, rfl⟩
abbrev main_call3_cst_4 : Ref sig .tc := ⟨.hbm, 123, rfl⟩
abbrev main_call3_call0_v0 : Ref sig .tc := ⟨.hbm, 124, rfl⟩
abbrev main_call3_call0_v1 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_cst_8 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_c_9 : Ref sig .tc := ⟨.hbm, 143, rfl⟩
abbrev main_v75 : Ref sig .tc := ⟨.hbm, 144, rfl⟩
abbrev main_v76 : Ref sig .tc := ⟨.hbm, 145, rfl⟩
abbrev main_c_10 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_cst_11 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_12 : Ref sig .tc := ⟨.hbm, 169, rfl⟩
abbrev main_v98 : Ref sig .tc := ⟨.hbm, 170, rfl⟩
abbrev main_cst_13 : Ref sig .tc := ⟨.hbm, 171, rfl⟩
abbrev main_v99 : Ref sig .tc := ⟨.hbm, 172, rfl⟩
abbrev main_v100 : Ref sig .tc := ⟨.hbm, 173, rfl⟩
abbrev main_c_14 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_cst_3 : Ref sig .tc := ⟨.hbm, 191, rfl⟩
abbrev main_call4_v12 : Ref sig .tc := ⟨.hbm, 192, rfl⟩
abbrev main_call4_cst_4 : Ref sig .tc := ⟨.hbm, 193, rfl⟩
abbrev main_call4_call0_v0 : Ref sig .tc := ⟨.hbm, 194, rfl⟩
abbrev main_call4_call0_v1 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_cst_15 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_call5_cst : Ref sig .tc := ⟨.hbm, 213, rfl⟩
abbrev main_call5_v0 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_call6_cst : Ref sig .tc := ⟨.hbm, 224, rfl⟩
abbrev main_call6_v0 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_cst_16 : Ref sig .tc := ⟨.hbm, 231, rfl⟩
abbrev main_v131 : Ref sig .tc := ⟨.hbm, 232, rfl⟩
abbrev main_cst_17 : Ref sig .tc := ⟨.hbm, 233, rfl⟩
abbrev main_v132 : Ref sig .tc := ⟨.hbm, 234, rfl⟩
abbrev main_v133 : Ref sig .tc := ⟨.hbm, 235, rfl⟩
abbrev main_c_18 : Ref sig .tc := ⟨.hbm, 236, rfl⟩
abbrev main_call7_cst : Ref sig .tc := ⟨.hbm, 237, rfl⟩
abbrev main_call7_v0 : Ref sig .tc := ⟨.hbm, 238, rfl⟩
abbrev main_call7_v1 : Ref sig .tc := ⟨.hbm, 239, rfl⟩
abbrev main_call7_cst_0 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_call7_v5 : Ref sig .tc := ⟨.hbm, 244, rfl⟩
abbrev main_call7_v6 : Ref sig .tc := ⟨.hbm, 245, rfl⟩
abbrev main_call7_v7 : Ref sig .tc := ⟨.hbm, 246, rfl⟩
abbrev main_call7_cst_1 : Ref sig .tc := ⟨.hbm, 247, rfl⟩
abbrev main_call7_v8 : Ref sig .tc := ⟨.hbm, 248, rfl⟩
abbrev main_call7_cst_2 : Ref sig .tc := ⟨.hbm, 249, rfl⟩
abbrev main_call7_v9 : Ref sig .tc := ⟨.hbm, 250, rfl⟩
abbrev main_call7_v10 : Ref sig .tc := ⟨.hbm, 251, rfl⟩
abbrev main_call7_v11 : Ref sig .tc := ⟨.hbm, 252, rfl⟩
abbrev main_call7_cst_3 : Ref sig .tc := ⟨.hbm, 253, rfl⟩
abbrev main_call7_v12 : Ref sig .tc := ⟨.hbm, 254, rfl⟩
abbrev main_call7_cst_4 : Ref sig .tc := ⟨.hbm, 255, rfl⟩
abbrev main_call7_call0_v0 : Ref sig .tc := ⟨.hbm, 256, rfl⟩
abbrev main_call7_call0_v1 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_cst_19 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_c_20 : Ref sig .tc := ⟨.hbm, 275, rfl⟩
abbrev main_v150 : Ref sig .tc := ⟨.hbm, 276, rfl⟩
abbrev main_v151 : Ref sig .tc := ⟨.hbm, 277, rfl⟩
abbrev main_c_21 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_cst_22 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_cst_23 : Ref sig .tc := ⟨.hbm, 301, rfl⟩
abbrev main_v173 : Ref sig .tc := ⟨.hbm, 302, rfl⟩
abbrev main_cst_24 : Ref sig .tc := ⟨.hbm, 303, rfl⟩
abbrev main_v174 : Ref sig .tc := ⟨.hbm, 304, rfl⟩
abbrev main_v175 : Ref sig .tc := ⟨.hbm, 305, rfl⟩
abbrev main_c_25 : Ref sig .tc := ⟨.hbm, 306, rfl⟩
abbrev main_call8_cst : Ref sig .tc := ⟨.hbm, 307, rfl⟩
abbrev main_call8_v0 : Ref sig .tc := ⟨.hbm, 308, rfl⟩
abbrev main_call8_v1 : Ref sig .tc := ⟨.hbm, 309, rfl⟩
abbrev main_call8_cst_0 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_call8_v5 : Ref sig .tc := ⟨.hbm, 314, rfl⟩
abbrev main_call8_v6 : Ref sig .tc := ⟨.hbm, 315, rfl⟩
abbrev main_call8_v7 : Ref sig .tc := ⟨.hbm, 316, rfl⟩
abbrev main_call8_cst_1 : Ref sig .tc := ⟨.hbm, 317, rfl⟩
abbrev main_call8_v8 : Ref sig .tc := ⟨.hbm, 318, rfl⟩
abbrev main_call8_cst_2 : Ref sig .tc := ⟨.hbm, 319, rfl⟩
abbrev main_call8_v9 : Ref sig .tc := ⟨.hbm, 320, rfl⟩
abbrev main_call8_v10 : Ref sig .tc := ⟨.hbm, 321, rfl⟩
abbrev main_call8_v11 : Ref sig .tc := ⟨.hbm, 322, rfl⟩
abbrev main_call8_cst_3 : Ref sig .tc := ⟨.hbm, 323, rfl⟩
abbrev main_call8_v12 : Ref sig .tc := ⟨.hbm, 324, rfl⟩
abbrev main_call8_cst_4 : Ref sig .tc := ⟨.hbm, 325, rfl⟩
abbrev main_call8_call0_v0 : Ref sig .tc := ⟨.hbm, 326, rfl⟩
abbrev main_call8_call0_v1 : Ref sig .tc := ⟨.hbm, 327, rfl⟩
abbrev main_v176 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_cst_26 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_call9_cst : Ref sig .tc := ⟨.hbm, 345, rfl⟩
abbrev main_call9_v0 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_call10_cst : Ref sig .tc := ⟨.hbm, 356, rfl⟩
abbrev main_call10_v0 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_cst_27 : Ref sig .tc := ⟨.hbm, 363, rfl⟩
abbrev main_v206 : Ref sig .tc := ⟨.hbm, 364, rfl⟩
abbrev main_cst_28 : Ref sig .tc := ⟨.hbm, 365, rfl⟩
abbrev main_v207 : Ref sig .tc := ⟨.hbm, 366, rfl⟩
abbrev main_v208 : Ref sig .tc := ⟨.hbm, 367, rfl⟩
abbrev main_c_29 : Ref sig .tc := ⟨.hbm, 368, rfl⟩
abbrev main_call11_cst : Ref sig .tc := ⟨.hbm, 369, rfl⟩
abbrev main_call11_v0 : Ref sig .tc := ⟨.hbm, 370, rfl⟩
abbrev main_call11_v1 : Ref sig .tc := ⟨.hbm, 371, rfl⟩
abbrev main_call11_cst_0 : Ref sig .tc := ⟨.hbm, 372, rfl⟩
abbrev main_call11_v2 : Ref sig .tc := ⟨.hbm, 373, rfl⟩
abbrev main_call11_v3 : Ref sig .tc := ⟨.hbm, 374, rfl⟩
abbrev main_call11_v4 : Ref sig .tc := ⟨.hbm, 375, rfl⟩
abbrev main_call11_v5 : Ref sig .tc := ⟨.hbm, 376, rfl⟩
abbrev main_call11_v6 : Ref sig .tc := ⟨.hbm, 377, rfl⟩
abbrev main_call11_v7 : Ref sig .tc := ⟨.hbm, 378, rfl⟩
abbrev main_call11_cst_1 : Ref sig .tc := ⟨.hbm, 379, rfl⟩
abbrev main_call11_v8 : Ref sig .tc := ⟨.hbm, 380, rfl⟩
abbrev main_call11_cst_2 : Ref sig .tc := ⟨.hbm, 381, rfl⟩
abbrev main_call11_v9 : Ref sig .tc := ⟨.hbm, 382, rfl⟩
abbrev main_call11_v10 : Ref sig .tc := ⟨.hbm, 383, rfl⟩
abbrev main_call11_v11 : Ref sig .tc := ⟨.hbm, 384, rfl⟩
abbrev main_call11_cst_3 : Ref sig .tc := ⟨.hbm, 385, rfl⟩
abbrev main_call11_v12 : Ref sig .tc := ⟨.hbm, 386, rfl⟩
abbrev main_call11_cst_4 : Ref sig .tc := ⟨.hbm, 387, rfl⟩
abbrev main_call11_call0_v0 : Ref sig .tc := ⟨.hbm, 388, rfl⟩
abbrev main_call11_call0_v1 : Ref sig .tc := ⟨.hbm, 389, rfl⟩
abbrev main_v209 : Ref sig .tc := ⟨.hbm, 390, rfl⟩
abbrev main_v210 : Ref sig .tc := ⟨.hbm, 391, rfl⟩
abbrev main_v211 : Ref sig .tc := ⟨.hbm, 392, rfl⟩
abbrev main_v212 : Ref sig .tc := ⟨.hbm, 393, rfl⟩
abbrev main_cst_30 : Ref sig .tc := ⟨.hbm, 394, rfl⟩
abbrev main_v213 : Ref sig .tc := ⟨.hbm, 395, rfl⟩
abbrev main_v214 : Ref sig .tc := ⟨.hbm, 396, rfl⟩
abbrev main_v215 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_cst_31 : Ref sig .tc := ⟨.hbm, 408, rfl⟩
abbrev main_v226 : Ref sig .tc := ⟨.hbm, 409, rfl⟩
abbrev main_v227 : Ref sig .tc := ⟨.hbm, 410, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x192_d1 : Shape.Concatenates [S100000x64, S100000x64, S100000x64] S100000x192 1
  reducesTo_S100000x192_S192_d0 : S100000x192.ReducesTo [0] S192
  bcast_S192_S1x192_1 : S192.BroadcastsInDim S1x192 (![1] : Fin 1 → Fin S1x192.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Family.lean ====
import proofs.«412604_j76897094468164_1_alg».proof.Proof.Gen.Kernel.Regions
import proofs.«412604_j76897094468164_1_alg».proof.Proof.Gen.Kernel.Skeleton
import proofs.«412604_j76897094468164_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev DatOf (p : Fin 9) (c : Dev nD) : Type _ := Dat τ (Elt F) Unit ℕ (UR sig nD τ) ℕ (cfgs p) c

def pdatsOf
    (d0 : (c : Dev nD) → Dat τ (Elt F) Unit ℕ (UR sig nD τ) ℕ cfg0 c)
    (d1 : (c : Dev nD) → Dat τ (Elt F) Unit ℕ (UR sig nD τ) ℕ cfg1 c)
    (d2 : (c : Dev nD) → Dat τ (Elt F) Unit ℕ (UR sig nD τ) ℕ cfg2 c)
    (d3 : (c : Dev nD) → Dat τ (Elt F) Unit ℕ (UR sig nD τ) ℕ cfg3 c)
    (d4 : (c : Dev nD) → Dat τ (Elt F) Unit ℕ (UR sig nD τ) ℕ cfg4 c)
    (d5 : (c : Dev nD) → Dat τ (Elt F) Unit ℕ (UR sig nD τ) ℕ cfg5 c)
    (d6 : (c : Dev nD) → Dat τ (Elt F) Unit ℕ (UR sig nD τ) ℕ cfg6 c)
    (d7 : (c : Dev nD) → Dat τ (Elt F) Unit ℕ (UR sig nD τ) ℕ cfg7 c)
    (d8 : (c : Dev nD) → Dat τ (Elt F) Unit ℕ (UR sig nD τ) ℕ cfg8 c) :
    (p : Fin 9) → (c : Dev nD) → Dat τ (Elt F) Unit ℕ (UR sig nD τ) ℕ (cfgs p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7
  | ⟨8, _⟩ => d8

abbrev 𝒱₀ : Variants := Variants.none

abbrev L : GSem nD τ sig → Finset Unit := fun _ => ∅
abbrev lv : GSem nD τ sig → Unit → ℕ := fun _ _ => 0

abbrev Rst (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.Hand

end
-- ==== Proof.K.R0.Dat.lean ====
import proofs.«412604_j76897094468164_1_alg».proof.Proof.K.Family

set_option maxRecDepth 16384

noncomputable section

namespace Cert.Kernel.Hand.R0

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k0_pay5 x w b,
   k0_pay1 (k0_pay6 x w b s),
   k0_pay2 (k0_pay6 x w b s) (k0_pay7 x w b q),
   k0_pay6 x w b s,
   k0_pay7 x w b q)

def outsAt (c : Dev nD) : (n : ℕ) → n < cfg0.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k0_pay3 (F := F)) (k0_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg0.N) :
    outsAt W c 0 hn = stepOuts (iblk W c 0 ⟨0, hn⟩) (iblk W c 1 ⟨0, hn⟩) (iblk W c 2 ⟨0, hn⟩) (k0_pay3 (F := F)) (k0_pay4 (F := F)) := rfl

theorem outsAt_succ (c : Dev nD) (n : ℕ) (hn : n + 1 < cfg0.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc0_scratch0
abbrev scQ : Memref sig .tc .vmem S1x64 .f32 := Memref.whole cc0_scratch1

def PhiS (c : Dev nD) (n : ℕ) (hn : n ≤ cfg0.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec0 c [cc0_scratch0, cc0_scratch1])
    ∗ (∃ r, prngReg c r))

def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg0.W) : (dat W c).A w = V W c (Pipeline.arrRef spec0 w) := by
  dsimp only [dat]

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = (outsAt W c t.val t.isLt).1 := by dsimp only [dat]
theorem after_4 (c : Dev nD) (t : Fin cfg0.N) : (dat W c).after 4 t = (outsAt W c t.val t.isLt).2.1 := by dsimp only [dat]
theorem after_5 (c : Dev nD) (t : Fin cfg0.N) : (dat W c).after 5 t = (outsAt W c t.val t.isLt).2.2.1 := by dsimp only [dat]

def Wexit (c : Dev nD) : Valuation τ sig (Elt F) :=
  Pipeline.withArrays spec0 c (W c) fun w => (dat W c).arrAt w cfg0.N

theorem Wexit_arr (c : Dev nD) (w : Fin cfg0.W) :
    Wexit W c (Proc.devRef .tc (Pipeline.arrRef spec0 w)) = (dat W c).arrAt w cfg0.N := by
  unfold Wexit; exact Pipeline.withArrays_arr spec0 launch0.win.arr_inj c _ _ w

theorem Wexit_of_ne (c : Dev nD) (b : Ref sig .tc) (hb : ∀ w, Pipeline.arrRef spec0 w ≠ b) :
    Wexit W c (Proc.devRef .tc b) = W c (Proc.devRef .tc b) := by
  unfold Wexit; exact Pipeline.withArrays_of_ne spec0 c _ _ b hb

end Cert.Kernel.Hand.R0

end
-- ==== Proof.K.R1.Dat.lean ====
import proofs.«412604_j76897094468164_1_alg».proof.Proof.K.Family

set_option maxRecDepth 16384

noncomputable section

namespace Cert.Kernel.Hand.R1

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

def relu (c : Dev nD) (t : Fin cfg1.N) : Vec F S10000x64 .f32 :=
  k1_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k1_pay3 (k1_pay1 r s0), k1_pay4 (k1_pay1 r s0) (k1_pay2 r s1), k1_pay1 r s0, k1_pay2 r s1)

def outsAt (c : Dev nD) : (n : ℕ) → n < cfg1.N →
    Vec F S10000x64 .f32 × Vec F S1x64 .f32 × Vec F S1x64 .f32 × Vec F S1x64 .f32 × Vec F S1x64 .f32
  | 0, hn => step (relu W c ⟨0, hn⟩) (k1_pay5 (F := F)) (k1_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg1.N) :
    outsAt W c 0 hn = step (relu W c ⟨0, hn⟩) (k1_pay5 (F := F)) (k1_pay6 (F := F)) := rfl

theorem outsAt_succ (c : Dev nD) (n : ℕ) (hn : n + 1 < cfg1.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg1.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg1.N) (ht : t.val = 0) :
    outsAt W c t.val t.isLt = step (relu W c t) (k1_pay5 (F := F)) (k1_pay6 (F := F)) := by
  obtain ⟨n, hn⟩ := t
  cases n with
  | zero => rfl
  | succ n => exact absurd ht (Nat.succ_ne_zero n)

abbrev scM0 : Memref sig .tc .vmem S1x64 .f32 := Memref.whole cc1_scratch0
abbrev scM1 : Memref sig .tc .vmem S1x64 .f32 := Memref.whole cc1_scratch1

def PhiS (c : Dev nD) : (n : ℕ) → n ≤ cfg1.N → sProp 𝕄
  | 0, _ => Pipeline.ΦA spec1 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec1 c [cc1_scratch0, cc1_scratch1])
      ∗ (∃ r, prngReg c r))

theorem PhiS_zero (c : Dev nD) (n : ℕ) (h : n ≤ cfg1.N) (hz : n = 0) : PhiS W c n h = Pipeline.ΦA spec1 c := by
  subst hz; rfl

theorem PhiS_pos (c : Dev nD) (n : ℕ) (h : n ≤ cfg1.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

theorem PhiA_eq (c : Dev nD) :
    (Pipeline.ΦA spec1 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM0, scM1, owns_whole]; try rfl

def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg1.W) : (dat W c).A w = V W c (Pipeline.arrRef spec1 w) := by
  dsimp only [dat]

theorem after_7 (c : Dev nD) (t : Fin cfg1.N) : (dat W c).after 7 t = (outsAt W c t.val t.isLt).1 := by dsimp only [dat]
theorem after_8 (c : Dev nD) (t : Fin cfg1.N) : (dat W c).after 8 t = (outsAt W c t.val t.isLt).2.1 := by dsimp only [dat]
theorem after_9 (c : Dev nD) (t : Fin cfg1.N) : (dat W c).after 9 t = (outsAt W c t.val t.isLt).2.2.1 := by dsimp only [dat]

def Wexit (c : Dev nD) : Valuation τ sig (Elt F) :=
  Pipeline.withArrays spec1 c (W c) fun w => (dat W c).arrAt w cfg1.N

theorem Wexit_arr (c : Dev nD) (w : Fin cfg1.W) :
    Wexit W c (Proc.devRef .tc (Pipeline.arrRef spec1 w)) = (dat W c).arrAt w cfg1.N := by
  unfold Wexit; exact Pipeline.withArrays_arr spec1 launch1.win.arr_inj c _ _ w

theorem Wexit_of_ne (c : Dev nD) (b : Ref sig .tc) (hb : ∀ w, Pipeline.arrRef spec1 w ≠ b) :
    Wexit W c (Proc.devRef .tc b) = W c (Proc.devRef .tc b) := by
  unfold Wexit; exact Pipeline.withArrays_of_ne spec1 c _ _ b hb

end Cert.Kernel.Hand.R1

end
-- ==== Proof.K.R2.Dat.lean ====
import proofs.«412604_j76897094468164_1_alg».proof.Proof.K.Family

set_option maxRecDepth 16384

noncomputable section

namespace Cert.Kernel.Hand.R2

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg2.W) (t : Fin cfg2.N) : ((cfg2.win w).xblock (cfg2.grid.coords t)).Idx → Elt F (cfg2.win w).elt :=
  ((cfg2.win w).blk t).view.read (Elt F) (V W c (Pipeline.arrRef spec2 w))

abbrev scM : Memref sig .tc .vmem S1x64 .f32 := Memref.whole cc2_scratch0

def hAt (t : Fin cfg2.N) : Vec F S10000x64 .f32 :=
  k2_pay2 (iblk W c 0 t) (iblk W c 1 t) (iblk W c 2 t) (iblk W c 3 t) (iblk W c 4 t)

def sAt (t : Fin cfg2.N) (s : Vec F S1x64 .f32) : Vec F S1x64 .f32 :=
  k2_pay3 (iblk W c 0 t) (iblk W c 1 t) (iblk W c 2 t) (iblk W c 3 t) (iblk W c 4 t) s

def outsAt : (n : ℕ) → n < cfg2.N → Vec F S10000x64 .f32 × Vec F S1x64 .f32 × Vec F S1x64 .f32
  | 0, hn => (hAt W c ⟨0, hn⟩, sAt W c ⟨0, hn⟩ (k2_pay1 (F := F)), sAt W c ⟨0, hn⟩ (k2_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg2.N) :
    outsAt W c 0 hn = (hAt W c ⟨0, hn⟩, sAt W c ⟨0, hn⟩ (k2_pay1 (F := F)), sAt W c ⟨0, hn⟩ (k2_pay1 (F := F))) := rfl

theorem outsAt_succ (n : ℕ) (hn : n + 1 < cfg2.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg2.N) : (outsAt W c n hn).2.1 = (outsAt W c n hn).2.2 := by
  cases n <;> rfl

theorem outsAt_pos (t : Fin cfg2.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg2.N) (ht : t.val = 0) :
    outsAt W c t.val t.isLt = (hAt W c t, sAt W c t (k2_pay1 (F := F)), sAt W c t (k2_pay1 (F := F))) := by
  obtain ⟨_ | n, hn⟩ := t
  exacts [rfl, absurd ht (Nat.succ_ne_zero _)]

def PhiS : (n : ℕ) → n ≤ cfg2.N → sProp 𝕄
  | 0, _ => Pipeline.ΦA spec2 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec2 c [cc2_scratch0]) ∗ (∃ r, prngReg c r))

theorem PhiS_zero (n : ℕ) (h : n ≤ cfg2.N) (hz : n = 0) : PhiS W c n h = Pipeline.ΦA spec2 c := by
  subst hz; rfl

theorem PhiS_succ (n : ℕ) (hn : n < cfg2.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec2 c [cc2_scratch0]) ∗ (∃ r, prngReg c r)) := rfl

theorem PhiS_pos (n : ℕ) (h : n ≤ cfg2.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg2.W) : (dat W c).A w = V W c (Pipeline.arrRef spec2 w) := by
  dsimp only [dat]

theorem after_0 (t : Fin cfg2.N) : (dat W c).after 0 t = iblk W c 0 t := by dsimp only [dat]
theorem after_1 (t : Fin cfg2.N) : (dat W c).after 1 t = iblk W c 1 t := by dsimp only [dat]
theorem after_2 (t : Fin cfg2.N) : (dat W c).after 2 t = iblk W c 2 t := by dsimp only [dat]
theorem after_3 (t : Fin cfg2.N) : (dat W c).after 3 t = iblk W c 3 t := by dsimp only [dat]
theorem after_4 (t : Fin cfg2.N) : (dat W c).after 4 t = iblk W c 4 t := by dsimp only [dat]
theorem after_5 (t : Fin cfg2.N) : (dat W c).after 5 t = (outsAt W c t.val t.isLt).1 := by dsimp only [dat]
theorem after_6 (t : Fin cfg2.N) : (dat W c).after 6 t = (outsAt W c t.val t.isLt).2.1 := by dsimp only [dat]

def Wexit : Valuation τ sig (Elt F) :=
  Pipeline.withArrays spec2 c (W c) fun w => (dat W c).arrAt w cfg2.N

theorem Wexit_arr (w : Fin cfg2.W) :
    Wexit W c (Proc.devRef .tc (Pipeline.arrRef spec2 w)) = (dat W c).arrAt w cfg2.N := by
  unfold Wexit; exact Pipeline.withArrays_arr spec2 launch2.win.arr_inj c _ _ w

theorem Wexit_of_ne (b : Ref sig .tc) (hb : ∀ w, Pipeline.arrRef spec2 w ≠ b) :
    Wexit W c (Proc.devRef .tc b) = W c (Proc.devRef .tc b) := by
  unfold Wexit; exact Pipeline.withArrays_of_ne spec2 c _ _ b hb

end Cert.Kernel.Hand.R2

end
-- ==== Proof.K.R3.Dat.lean ====
import proofs.«412604_j76897094468164_1_alg».proof.Proof.K.Family

set_option maxRecDepth 16384

noncomputable section

namespace Cert.Kernel.Hand.R3

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg3.W) (t : Fin cfg3.N) : ((cfg3.win w).xblock (cfg3.grid.coords t)).Idx → Elt F (cfg3.win w).elt :=
  ((cfg3.win w).blk t).view.read (Elt F) (V W c (Pipeline.arrRef spec3 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k3_pay5 x w b,
   k3_pay1 (k3_pay6 x w b s),
   k3_pay2 (k3_pay6 x w b s) (k3_pay7 x w b q),
   k3_pay6 x w b s,
   k3_pay7 x w b q)

def outsAt (c : Dev nD) : (n : ℕ) → n < cfg3.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k3_pay3 (F := F)) (k3_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg3.N) :
    outsAt W c 0 hn = stepOuts (iblk W c 0 ⟨0, hn⟩) (iblk W c 1 ⟨0, hn⟩) (iblk W c 2 ⟨0, hn⟩) (k3_pay3 (F := F)) (k3_pay4 (F := F)) := rfl

theorem outsAt_succ (c : Dev nD) (n : ℕ) (hn : n + 1 < cfg3.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc3_scratch0
abbrev scQ : Memref sig .tc .vmem S1x64 .f32 := Memref.whole cc3_scratch1

def PhiS (c : Dev nD) (n : ℕ) (hn : n ≤ cfg3.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec3 c [cc3_scratch0, cc3_scratch1])
    ∗ (∃ r, prngReg c r))

def dat (c : Dev nD) : Dat τ (Elt F) Unit ℕ (UR sig nD τ) ℕ cfg3 c where
  A w := V W c (Pipeline.arrRef spec3 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg3.W) : (dat W c).A w = V W c (Pipeline.arrRef spec3 w) := by
  dsimp only [dat]

theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = iblk W c 2 t := by dsimp only [dat]
theorem after_3 (c : Dev nD) (t : Fin cfg3.N) : (dat W c).after 3 t = (outsAt W c t.val t.isLt).1 := by dsimp only [dat]
theorem after_4 (c : Dev nD) (t : Fin cfg3.N) : (dat W c).after 4 t = (outsAt W c t.val t.isLt).2.1 := by dsimp only [dat]
theorem after_5 (c : Dev nD) (t : Fin cfg3.N) : (dat W c).after 5 t = (outsAt W c t.val t.isLt).2.2.1 := by dsimp only [dat]

def Wexit (c : Dev nD) : Valuation τ sig (Elt F) :=
  Pipeline.withArrays spec3 c (W c) fun w => (dat W c).arrAt w cfg3.N

theorem Wexit_arr (c : Dev nD) (w : Fin cfg3.W) :
    Wexit W c (Proc.devRef .tc (Pipeline.arrRef spec3 w)) = (dat W c).arrAt w cfg3.N := by
  unfold Wexit; exact Pipeline.withArrays_arr spec3 launch3.win.arr_inj c _ _ w

theorem Wexit_of_ne (c : Dev nD) (b : Ref sig .tc) (hb : ∀ w, Pipeline.arrRef spec3 w ≠ b) :
    Wexit W c (Proc.devRef .tc b) = W c (Proc.devRef .tc b) := by
  unfold Wexit; exact Pipeline.withArrays_of_ne spec3 c _ _ b hb

end Cert.Kernel.Hand.R3

end
-- ==== Proof.K.R4.Dat.lean ====
import proofs.«412604_j76897094468164_1_alg».proof.Proof.K.Family

set_option maxRecDepth 16384

noncomputable section

namespace Cert.Kernel.Hand.R4

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg4.W) (t : Fin cfg4.N) : ((cfg4.win w).xblock (cfg4.grid.coords t)).Idx → Elt F (cfg4.win w).elt :=
  ((cfg4.win w).blk t).view.read (Elt F) (V W c (Pipeline.arrRef spec4 w))

def relu (c : Dev nD) (t : Fin cfg4.N) : Vec F S10000x64 .f32 :=
  k4_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k4_pay3 (k4_pay1 r s0), k4_pay4 (k4_pay1 r s0) (k4_pay2 r s1), k4_pay1 r s0, k4_pay2 r s1)

def outsAt (c : Dev nD) : (n : ℕ) → n < cfg4.N →
    Vec F S10000x64 .f32 × Vec F S1x64 .f32 × Vec F S1x64 .f32 × Vec F S1x64 .f32 × Vec F S1x64 .f32
  | 0, hn => step (relu W c ⟨0, hn⟩) (k4_pay5 (F := F)) (k4_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg4.N) :
    outsAt W c 0 hn = step (relu W c ⟨0, hn⟩) (k4_pay5 (F := F)) (k4_pay6 (F := F)) := rfl

theorem outsAt_succ (c : Dev nD) (n : ℕ) (hn : n + 1 < cfg4.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg4.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg4.N) (ht : t.val = 0) :
    outsAt W c t.val t.isLt = step (relu W c t) (k4_pay5 (F := F)) (k4_pay6 (F := F)) := by
  obtain ⟨n, hn⟩ := t
  cases n with
  | zero => rfl
  | succ n => exact absurd ht (Nat.succ_ne_zero n)

abbrev scM0 : Memref sig .tc .vmem S1x64 .f32 := Memref.whole cc4_scratch0
abbrev scM1 : Memref sig .tc .vmem S1x64 .f32 := Memref.whole cc4_scratch1

def PhiS (c : Dev nD) : (n : ℕ) → n ≤ cfg4.N → sProp 𝕄
  | 0, _ => Pipeline.ΦA spec4 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec4 c [cc4_scratch0, cc4_scratch1])
      ∗ (∃ r, prngReg c r))

theorem PhiS_zero (c : Dev nD) (n : ℕ) (h : n ≤ cfg4.N) (hz : n = 0) : PhiS W c n h = Pipeline.ΦA spec4 c := by
  subst hz; rfl

theorem PhiS_pos (c : Dev nD) (n : ℕ) (h : n ≤ cfg4.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

theorem PhiA_eq (c : Dev nD) :
    (Pipeline.ΦA spec4 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM0, scM1, owns_whole]; try rfl

def dat (c : Dev nD) : Dat τ (Elt F) Unit ℕ (UR sig nD τ) ℕ cfg4 c where
  A w := V W c (Pipeline.arrRef spec4 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg4.W) : (dat W c).A w = V W c (Pipeline.arrRef spec4 w) := by
  dsimp only [dat]

theorem after_7 (c : Dev nD) (t : Fin cfg4.N) : (dat W c).after 7 t = (outsAt W c t.val t.isLt).1 := by dsimp only [dat]
theorem after_8 (c : Dev nD) (t : Fin cfg4.N) : (dat W c).after 8 t = (outsAt W c t.val t.isLt).2.1 := by dsimp only [dat]
theorem after_9 (c : Dev nD) (t : Fin cfg4.N) : (dat W c).after 9 t = (outsAt W c t.val t.isLt).2.2.1 := by dsimp only [dat]

def Wexit (c : Dev nD) : Valuation τ sig (Elt F) :=
  Pipeline.withArrays spec4 c (W c) fun w => (dat W c).arrAt w cfg4.N

theorem Wexit_arr (c : Dev nD) (w : Fin cfg4.W) :
    Wexit W c (Proc.devRef .tc (Pipeline.arrRef spec4 w)) = (dat W c).arrAt w cfg4.N := by
  unfold Wexit; exact Pipeline.withArrays_arr spec4 launch4.win.arr_inj c _ _ w

theorem Wexit_of_ne (c : Dev nD) (b : Ref sig .tc) (hb : ∀ w, Pipeline.arrRef spec4 w ≠ b) :
    Wexit W c (Proc.devRef .tc b) = W c (Proc.devRef .tc b) := by
  unfold Wexit; exact Pipeline.withArrays_of_ne spec4 c _ _ b hb

end Cert.Kernel.Hand.R4

end
-- ==== Proof.K.R5.Dat.lean ====
import proofs.«412604_j76897094468164_1_alg».proof.Proof.K.Family

set_option maxRecDepth 16384

noncomputable section

namespace Cert.Kernel.Hand.R5

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg5.W) (t : Fin cfg5.N) : ((cfg5.win w).xblock (cfg5.grid.coords t)).Idx → Elt F (cfg5.win w).elt :=
  ((cfg5.win w).blk t).view.read (Elt F) (V W c (Pipeline.arrRef spec5 w))

abbrev scM : Memref sig .tc .vmem S1x64 .f32 := Memref.whole cc5_scratch0

def hAt (t : Fin cfg5.N) : Vec F S10000x64 .f32 :=
  k5_pay2 (iblk W c 0 t) (iblk W c 1 t) (iblk W c 2 t) (iblk W c 3 t) (iblk W c 4 t)

def sAt (t : Fin cfg5.N) (s : Vec F S1x64 .f32) : Vec F S1x64 .f32 :=
  k5_pay3 (iblk W c 0 t) (iblk W c 1 t) (iblk W c 2 t) (iblk W c 3 t) (iblk W c 4 t) s

def outsAt : (n : ℕ) → n < cfg5.N → Vec F S10000x64 .f32 × Vec F S1x64 .f32 × Vec F S1x64 .f32
  | 0, hn => (hAt W c ⟨0, hn⟩, sAt W c ⟨0, hn⟩ (k5_pay1 (F := F)), sAt W c ⟨0, hn⟩ (k5_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg5.N) :
    outsAt W c 0 hn = (hAt W c ⟨0, hn⟩, sAt W c ⟨0, hn⟩ (k5_pay1 (F := F)), sAt W c ⟨0, hn⟩ (k5_pay1 (F := F))) := rfl

theorem outsAt_succ (n : ℕ) (hn : n + 1 < cfg5.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg5.N) : (outsAt W c n hn).2.1 = (outsAt W c n hn).2.2 := by
  cases n <;> rfl

theorem outsAt_pos (t : Fin cfg5.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg5.N) (ht : t.val = 0) :
    outsAt W c t.val t.isLt = (hAt W c t, sAt W c t (k5_pay1 (F := F)), sAt W c t (k5_pay1 (F := F))) := by
  obtain ⟨_ | n, hn⟩ := t
  exacts [rfl, absurd ht (Nat.succ_ne_zero _)]

def PhiS : (n : ℕ) → n ≤ cfg5.N → sProp 𝕄
  | 0, _ => Pipeline.ΦA spec5 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec5 c [cc5_scratch0]) ∗ (∃ r, prngReg c r))

theorem PhiS_zero (n : ℕ) (h : n ≤ cfg5.N) (hz : n = 0) : PhiS W c n h = Pipeline.ΦA spec5 c := by
  subst hz; rfl

theorem PhiS_succ (n : ℕ) (hn : n < cfg5.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec5 c [cc5_scratch0]) ∗ (∃ r, prngReg c r)) := rfl

theorem PhiS_pos (n : ℕ) (h : n ≤ cfg5.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat : Dat τ (Elt F) Unit ℕ (UR sig nD τ) ℕ cfg5 c where
  A w := V W c (Pipeline.arrRef spec5 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg5.W) : (dat W c).A w = V W c (Pipeline.arrRef spec5 w) := by
  dsimp only [dat]

theorem after_0 (t : Fin cfg5.N) : (dat W c).after 0 t = iblk W c 0 t := by dsimp only [dat]
theorem after_1 (t : Fin cfg5.N) : (dat W c).after 1 t = iblk W c 1 t := by dsimp only [dat]
theorem after_2 (t : Fin cfg5.N) : (dat W c).after 2 t = iblk W c 2 t := by dsimp only [dat]
theorem after_3 (t : Fin cfg5.N) : (dat W c).after 3 t = iblk W c 3 t := by dsimp only [dat]
theorem after_4 (t : Fin cfg5.N) : (dat W c).after 4 t = iblk W c 4 t := by dsimp only [dat]
theorem after_5 (t : Fin cfg5.N) : (dat W c).after 5 t = (outsAt W c t.val t.isLt).1 := by dsimp only [dat]
theorem after_6 (t : Fin cfg5.N) : (dat W c).after 6 t = (outsAt W c t.val t.isLt).2.1 := by dsimp only [dat]

def Wexit : Valuation τ sig (Elt F) :=
  Pipeline.withArrays spec5 c (W c) fun w => (dat W c).arrAt w cfg5.N

theorem Wexit_arr (w : Fin cfg5.W) :
    Wexit W c (Proc.devRef .tc (Pipeline.arrRef spec5 w)) = (dat W c).arrAt w cfg5.N := by
  unfold Wexit; exact Pipeline.withArrays_arr spec5 launch5.win.arr_inj c _ _ w

theorem Wexit_of_ne (b : Ref sig .tc) (hb : ∀ w, Pipeline.arrRef spec5 w ≠ b) :
    Wexit W c (Proc.devRef .tc b) = W c (Proc.devRef .tc b) := by
  unfold Wexit; exact Pipeline.withArrays_of_ne spec5 c _ _ b hb

end Cert.Kernel.Hand.R5

end
-- ==== Proof.K.R6.Dat.lean ====
import proofs.«412604_j76897094468164_1_alg».proof.Proof.K.Family

set_option maxRecDepth 16384

noncomputable section

namespace Cert.Kernel.Hand.R6

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg6.W) (t : Fin cfg6.N) : ((cfg6.win w).xblock (cfg6.grid.coords t)).Idx → Elt F (cfg6.win w).elt :=
  ((cfg6.win w).blk t).view.read (Elt F) (V W c (Pipeline.arrRef spec6 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k6_pay5 x w b,
   k6_pay1 (k6_pay6 x w b s),
   k6_pay2 (k6_pay6 x w b s) (k6_pay7 x w b q),
   k6_pay6 x w b s,
   k6_pay7 x w b q)

def outsAt (c : Dev nD) : (n : ℕ) → n < cfg6.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k6_pay3 (F := F)) (k6_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg6.N) :
    outsAt W c 0 hn = stepOuts (iblk W c 0 ⟨0, hn⟩) (iblk W c 1 ⟨0, hn⟩) (iblk W c 2 ⟨0, hn⟩) (k6_pay3 (F := F)) (k6_pay4 (F := F)) := rfl

theorem outsAt_succ (c : Dev nD) (n : ℕ) (hn : n + 1 < cfg6.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc6_scratch0
abbrev scQ : Memref sig .tc .vmem S1x64 .f32 := Memref.whole cc6_scratch1

def PhiS (c : Dev nD) (n : ℕ) (hn : n ≤ cfg6.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec6 c [cc6_scratch0, cc6_scratch1])
    ∗ (∃ r, prngReg c r))

def dat (c : Dev nD) : Dat τ (Elt F) Unit ℕ (UR sig nD τ) ℕ cfg6 c where
  A w := V W c (Pipeline.arrRef spec6 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg6.W) : (dat W c).A w = V W c (Pipeline.arrRef spec6 w) := by
  dsimp only [dat]

theorem after_0 (c : Dev nD) (t : Fin cfg6.N) : (dat W c).after 0 t = iblk W c 0 t := by dsimp only [dat]
theorem after_1 (c : Dev nD) (t : Fin cfg6.N) : (dat W c).after 1 t = iblk W c 1 t := by dsimp only [dat]
theorem after_2 (c : Dev nD) (t : Fin cfg6.N) : (dat W c).after 2 t = iblk W c 2 t := by dsimp only [dat]
theorem after_3 (c : Dev nD) (t : Fin cfg6.N) : (dat W c).after 3 t = (outsAt W c t.val t.isLt).1 := by dsimp only [dat]
theorem after_4 (c : Dev nD) (t : Fin cfg6.N) : (dat W c).after 4 t = (outsAt W c t.val t.isLt).2.1 := by dsimp only [dat]
theorem after_5 (c : Dev nD) (t : Fin cfg6.N) : (dat W c).after 5 t = (outsAt W c t.val t.isLt).2.2.1 := by dsimp only [dat]

def Wexit (c : Dev nD) : Valuation τ sig (Elt F) :=
  Pipeline.withArrays spec6 c (W c) fun w => (dat W c).arrAt w cfg6.N

theorem Wexit_arr (c : Dev nD) (w : Fin cfg6.W) :
    Wexit W c (Proc.devRef .tc (Pipeline.arrRef spec6 w)) = (dat W c).arrAt w cfg6.N := by
  unfold Wexit; exact Pipeline.withArrays_arr spec6 launch6.win.arr_inj c _ _ w

theorem Wexit_of_ne (c : Dev nD) (b : Ref sig .tc) (hb : ∀ w, Pipeline.arrRef spec6 w ≠ b) :
    Wexit W c (Proc.devRef .tc b) = W c (Proc.devRef .tc b) := by
  unfold Wexit; exact Pipeline.withArrays_of_ne spec6 c _ _ b hb

end Cert.Kernel.Hand.R6

end
-- ==== Proof.K.R7.Dat.lean ====
import proofs.«412604_j76897094468164_1_alg».proof.Proof.K.Family

set_option maxRecDepth 16384

noncomputable section

namespace Cert.Kernel.Hand.R7

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg7.W) (t : Fin cfg7.N) : ((cfg7.win w).xblock (cfg7.grid.coords t)).Idx → Elt F (cfg7.win w).elt :=
  ((cfg7.win w).blk t).view.read (Elt F) (V W c (Pipeline.arrRef spec7 w))

def relu (c : Dev nD) (t : Fin cfg7.N) : Vec F S10000x64 .f32 :=
  k7_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k7_pay3 (k7_pay1 r s0), k7_pay4 (k7_pay1 r s0) (k7_pay2 r s1), k7_pay1 r s0, k7_pay2 r s1)

def outsAt (c : Dev nD) : (n : ℕ) → n < cfg7.N →
    Vec F S10000x64 .f32 × Vec F S1x64 .f32 × Vec F S1x64 .f32 × Vec F S1x64 .f32 × Vec F S1x64 .f32
  | 0, hn => step (relu W c ⟨0, hn⟩) (k7_pay5 (F := F)) (k7_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg7.N) :
    outsAt W c 0 hn = step (relu W c ⟨0, hn⟩) (k7_pay5 (F := F)) (k7_pay6 (F := F)) := rfl

theorem outsAt_succ (c : Dev nD) (n : ℕ) (hn : n + 1 < cfg7.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg7.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg7.N) (ht : t.val = 0) :
    outsAt W c t.val t.isLt = step (relu W c t) (k7_pay5 (F := F)) (k7_pay6 (F := F)) := by
  obtain ⟨n, hn⟩ := t
  cases n with
  | zero => rfl
  | succ n => exact absurd ht (Nat.succ_ne_zero n)

abbrev scM0 : Memref sig .tc .vmem S1x64 .f32 := Memref.whole cc7_scratch0
abbrev scM1 : Memref sig .tc .vmem S1x64 .f32 := Memref.whole cc7_scratch1

def PhiS (c : Dev nD) : (n : ℕ) → n ≤ cfg7.N → sProp 𝕄
  | 0, _ => Pipeline.ΦA spec7 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec7 c [cc7_scratch0, cc7_scratch1])
      ∗ (∃ r, prngReg c r))

theorem PhiS_zero (c : Dev nD) (n : ℕ) (h : n ≤ cfg7.N) (hz : n = 0) : PhiS W c n h = Pipeline.ΦA spec7 c := by
  subst hz; rfl

theorem PhiS_pos (c : Dev nD) (n : ℕ) (h : n ≤ cfg7.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

theorem PhiA_eq (c : Dev nD) :
    (Pipeline.ΦA spec7 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM0, scM1, owns_whole]; try rfl

def dat (c : Dev nD) : Dat τ (Elt F) Unit ℕ (UR sig nD τ) ℕ cfg7 c where
  A w := V W c (Pipeline.arrRef spec7 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg7.W) : (dat W c).A w = V W c (Pipeline.arrRef spec7 w) := by
  dsimp only [dat]

theorem after_7 (c : Dev nD) (t : Fin cfg7.N) : (dat W c).after 7 t = (outsAt W c t.val t.isLt).1 := by dsimp only [dat]
theorem after_8 (c : Dev nD) (t : Fin cfg7.N) : (dat W c).after 8 t = (outsAt W c t.val t.isLt).2.1 := by dsimp only [dat]
theorem after_9 (c : Dev nD) (t : Fin cfg7.N) : (dat W c).after 9 t = (outsAt W c t.val t.isLt).2.2.1 := by dsimp only [dat]

def Wexit (c : Dev nD) : Valuation τ sig (Elt F) :=
  Pipeline.withArrays spec7 c (W c) fun w => (dat W c).arrAt w cfg7.N

theorem Wexit_arr (c : Dev nD) (w : Fin cfg7.W) :
    Wexit W c (Proc.devRef .tc (Pipeline.arrRef spec7 w)) = (dat W c).arrAt w cfg7.N := by
  unfold Wexit; exact Pipeline.withArrays_arr spec7 launch7.win.arr_inj c _ _ w

theorem Wexit_of_ne (c : Dev nD) (b : Ref sig .tc) (hb : ∀ w, Pipeline.arrRef spec7 w ≠ b) :
    Wexit W c (Proc.devRef .tc b) = W c (Proc.devRef .tc b) := by
  unfold Wexit; exact Pipeline.withArrays_of_ne spec7 c _ _ b hb

end Cert.Kernel.Hand.R7

end
-- ==== Proof.K.R8.Dat.lean ====
import proofs.«412604_j76897094468164_1_alg».proof.Proof.K.Family

set_option maxRecDepth 16384

noncomputable section

namespace Cert.Kernel.Hand.R8

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg8.W) (t : Fin cfg8.N) : ((cfg8.win w).xblock (cfg8.grid.coords t)).Idx → Elt F (cfg8.win w).elt :=
  ((cfg8.win w).blk t).view.read (Elt F) (V W c (Pipeline.arrRef spec8 w))

abbrev scM : Memref sig .tc .vmem S1x64 .f32 := Memref.whole cc8_scratch0

def hAt (t : Fin cfg8.N) : Vec F S10000x64 .f32 :=
  k8_pay2 (iblk W c 0 t) (iblk W c 1 t) (iblk W c 2 t) (iblk W c 3 t) (iblk W c 4 t)

def sAt (t : Fin cfg8.N) (s : Vec F S1x64 .f32) : Vec F S1x64 .f32 :=
  k8_pay3 (iblk W c 0 t) (iblk W c 1 t) (iblk W c 2 t) (iblk W c 3 t) (iblk W c 4 t) s

def outsAt : (n : ℕ) → n < cfg8.N → Vec F S10000x64 .f32 × Vec F S1x64 .f32 × Vec F S1x64 .f32
  | 0, hn => (hAt W c ⟨0, hn⟩, sAt W c ⟨0, hn⟩ (k8_pay1 (F := F)), sAt W c ⟨0, hn⟩ (k8_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg8.N) :
    outsAt W c 0 hn = (hAt W c ⟨0, hn⟩, sAt W c ⟨0, hn⟩ (k8_pay1 (F := F)), sAt W c ⟨0, hn⟩ (k8_pay1 (F := F))) := rfl

theorem outsAt_succ (n : ℕ) (hn : n + 1 < cfg8.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg8.N) : (outsAt W c n hn).2.1 = (outsAt W c n hn).2.2 := by
  cases n <;> rfl

theorem outsAt_pos (t : Fin cfg8.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg8.N) (ht : t.val = 0) :
    outsAt W c t.val t.isLt = (hAt W c t, sAt W c t (k8_pay1 (F := F)), sAt W c t (k8_pay1 (F := F))) := by
  obtain ⟨_ | n, hn⟩ := t
  exacts [rfl, absurd ht (Nat.succ_ne_zero _)]

def PhiS : (n : ℕ) → n ≤ cfg8.N → sProp 𝕄
  | 0, _ => Pipeline.ΦA spec8 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec8 c [cc8_scratch0]) ∗ (∃ r, prngReg c r))

theorem PhiS_zero (n : ℕ) (h : n ≤ cfg8.N) (hz : n = 0) : PhiS W c n h = Pipeline.ΦA spec8 c := by
  subst hz; rfl

theorem PhiS_succ (n : ℕ) (hn : n < cfg8.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec8 c [cc8_scratch0]) ∗ (∃ r, prngReg c r)) := rfl

theorem PhiS_pos (n : ℕ) (h : n ≤ cfg8.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat : Dat τ (Elt F) Unit ℕ (UR sig nD τ) ℕ cfg8 c where
  A w := V W c (Pipeline.arrRef spec8 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg8.W) : (dat W c).A w = V W c (Pipeline.arrRef spec8 w) := by
  dsimp only [dat]

theorem after_0 (t : Fin cfg8.N) : (dat W c).after 0 t = iblk W c 0 t := by dsimp only [dat]
theorem after_1 (t : Fin cfg8.N) : (dat W c).after 1 t = iblk W c 1 t := by dsimp only [dat]
theorem after_2 (t : Fin cfg8.N) : (dat W c).after 2 t = iblk W c 2 t := by dsimp only [dat]
theorem after_3 (t : Fin cfg8.N) : (dat W c).after 3 t = iblk W c 3 t := by dsimp only [dat]
theorem after_4 (t : Fin cfg8.N) : (dat W c).after 4 t = iblk W c 4 t := by dsimp only [dat]
theorem after_5 (t : Fin cfg8.N) : (dat W c).after 5 t = (outsAt W c t.val t.isLt).1 := by dsimp only [dat]
theorem after_6 (t : Fin cfg8.N) : (dat W c).after 6 t = (outsAt W c t.val t.isLt).2.1 := by dsimp only [dat]

def Wexit : Valuation τ sig (Elt F) :=
  Pipeline.withArrays spec8 c (W c) fun w => (dat W c).arrAt w cfg8.N

theorem Wexit_arr (w : Fin cfg8.W) :
    Wexit W c (Proc.devRef .tc (Pipeline.arrRef spec8 w)) = (dat W c).arrAt w cfg8.N := by
  unfold Wexit; exact Pipeline.withArrays_arr spec8 launch8.win.arr_inj c _ _ w

theorem Wexit_of_ne (b : Ref sig .tc) (hb : ∀ w, Pipeline.arrRef spec8 w ≠ b) :
    Wexit W c (Proc.devRef .tc b) = W c (Proc.devRef .tc b) := by
  unfold Wexit; exact Pipeline.withArrays_of_ne spec8 c _ _ b hb

end Cert.Kernel.Hand.R8

end
-- ==== Proof.K.Vals.lean ====
import proofs.«412604_j76897094468164_1_alg».proof.Proof.K.R0.Dat
import proofs.«412604_j76897094468164_1_alg».proof.Proof.K.R1.Dat
import proofs.«412604_j76897094468164_1_alg».proof.Proof.K.R2.Dat
import proofs.«412604_j76897094468164_1_alg».proof.Proof.K.R3.Dat
import proofs.«412604_j76897094468164_1_alg».proof.Proof.K.R4.Dat
import proofs.«412604_j76897094468164_1_alg».proof.Proof.K.R5.Dat
import proofs.«412604_j76897094468164_1_alg».proof.Proof.K.R6.Dat
import proofs.«412604_j76897094468164_1_alg».proof.Proof.K.R7.Dat
import proofs.«412604_j76897094468164_1_alg».proof.Proof.K.R8.Dat

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) := R0.Wexit (W1 m) c
abbrev W3 (c : Dev nD) : Valuation τ sig (Elt F) := StableHlo.after hostOps1 (W2 m c)

def W4 (c : Dev nD) : Valuation τ sig (Elt F) := R1.Wexit (W3 m) c

def W5 (c : Dev nD) : Valuation τ sig (Elt F) := R2.Wexit (W4 m) c
abbrev W6 (c : Dev nD) : Valuation τ sig (Elt F) := StableHlo.after hostOps3 (W5 m c)

def W7 (c : Dev nD) : Valuation τ sig (Elt F) := R3.Wexit (W6 m) c
abbrev W8 (c : Dev nD) : Valuation τ sig (Elt F) := StableHlo.after hostOps4 (W7 m c)

def W9 (c : Dev nD) : Valuation τ sig (Elt F) := R4.Wexit (W8 m) c

def W10 (c : Dev nD) : Valuation τ sig (Elt F) := R5.Wexit (W9 m) c
abbrev W11 (c : Dev nD) : Valuation τ sig (Elt F) := StableHlo.after hostOps6 (W10 m c)

def W12 (c : Dev nD) : Valuation τ sig (Elt F) := R6.Wexit (W11 m) c
abbrev W13 (c : Dev nD) : Valuation τ sig (Elt F) := StableHlo.after hostOps7 (W12 m c)

def W14 (c : Dev nD) : Valuation τ sig (Elt F) := R7.Wexit (W13 m) c

def W15 (c : Dev nD) : Valuation τ sig (Elt F) := R8.Wexit (W14 m) c

abbrev W16 (c : Dev nD) : Valuation τ sig (Elt F) := StableHlo.after hostOps9 (W15 m c)

abbrev pdats : (p : Fin 9) → (c : Dev nD) → Dat τ (Elt F) Unit ℕ (UR sig nD τ) ℕ (cfgs p) c :=
  pdatsOf (R0.dat (W1 m)) (R1.dat (W3 m)) (R2.dat (W4 m)) (R3.dat (W6 m)) (R4.dat (W8 m)) (R5.dat (W9 m))
    (R6.dat (W11 m)) (R7.dat (W13 m)) (R8.dat (W14 m))

def outs : Outs (F := F) := fun J r c =>
  match J with
  | 2 => W2 m c r
  | 4 => W4 m c r
  | 5 => W5 m c r
  | 7 => W7 m c r
  | 9 => W9 m c r
  | 10 => W10 m c r
  | 12 => W12 m c r
  | 14 => W14 m c r
  | 15 => W15 m c r
  | _ => W0 m c r

end Cert.Kernel.Hand

end
-- ==== Proof.K.Bounds.lean ====
import proofs.«412604_j76897094468164_1_alg».proof.Proof.K.Vals
import Idealize.ShloMosaic.Lib.Pipeline.Cells

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

theorem update2_eq {α : Type} [DecidableEq α] {β : α → Type} {f g : ∀ a, β a} {a1 a2 : α} {x1 : β a1} {x2 : β a2}
    (h1 : g a1 = x1) (h2 : g a2 = x2) (hf : ∀ b, b ≠ a1 → b ≠ a2 → f b = g b) :
    Function.update (Function.update f a1 x1) a2 x2 = g := by
  funext b
  by_cases e2 : b = a2
  · subst e2; rw [Function.update_self]; exact h2.symm
  · rw [Function.update_of_ne e2]
    by_cases e1 : b = a1
    · subst e1; rw [Function.update_self]; exact h1.symm
    · rw [Function.update_of_ne e1]; exact hf b e1 e2

theorem update3_eq {α : Type} [DecidableEq α] {β : α → Type} {f g : ∀ a, β a} {a1 a2 a3 : α} {x1 : β a1} {x2 : β a2} {x3 : β a3}
    (h1 : g a1 = x1) (h2 : g a2 = x2) (h3 : g a3 = x3) (hf : ∀ b, b ≠ a1 → b ≠ a2 → b ≠ a3 → f b = g b) :
    Function.update (Function.update (Function.update f a1 x1) a2 x2) a3 x3 = g := by
  funext b
  by_cases e3 : b = a3
  · subst e3; rw [Function.update_self]; exact h3.symm
  · rw [Function.update_of_ne e3]
    by_cases e2 : b = a2
    · subst e2; rw [Function.update_self]; exact h2.symm
    · rw [Function.update_of_ne e2]
      by_cases e1 : b = a1
      · subst e1; rw [Function.update_self]; exact h1.symm
      · rw [Function.update_of_ne e1]; exact hf b e1 e2 e3

theorem Wexit0_of_not_out (W : Dev nD → Valuation τ sig (Elt F)) (c : Dev nD) (b : DevRef τ sig)
    (h0 : b ≠ Proc.devRef .tc main_v31_0) (h1 : b ≠ Proc.devRef .tc main_v31_1) (h2 : b ≠ Proc.devRef .tc main_v31_2) :
    R0.Wexit W c b = W c b := by
  by_cases h : ∃ w, Proc.devRef (τ := τ) .tc (Pipeline.arrRef spec0 w) = b
  · obtain ⟨w, rfl⟩ := h
    fin_cases w <;> first
      | exact absurd rfl h0
      | exact absurd rfl h1
      | exact absurd rfl h2
      | exact (R0.Wexit_arr W c _).trans (((R0.dat W c).arrAt_in _ rfl _).trans (R0.A_eq W c _))
  · unfold R0.Wexit Pipeline.withArrays; exact dif_neg h

theorem Wexit1_of_not_out (W : Dev nD → Valuation τ sig (Elt F)) (c : Dev nD) (b : DevRef τ sig)
    (h0 : b ≠ Proc.devRef .tc main_v34_0) (h1 : b ≠ Proc.devRef .tc main_v34_1) (h2 : b ≠ Proc.devRef .tc main_v34_2) :
    R1.Wexit W c b = W c b := by
  by_cases h : ∃ w, Proc.devRef (τ := τ) .tc (Pipeline.arrRef spec1 w) = b
  · obtain ⟨w, rfl⟩ := h
    fin_cases w <;> first
      | exact absurd rfl h0
      | exact absurd rfl h1
      | exact absurd rfl h2
      | exact (R1.Wexit_arr W c _).trans (((R1.dat W c).arrAt_in _ rfl _).trans (R1.A_eq W c _))
  · unfold R1.Wexit Pipeline.withArrays; exact dif_neg h

theorem Wexit2_of_not_out (W : Dev nD → Valuation τ sig (Elt F)) (c : Dev nD) (b : DevRef τ sig)
    (h0 : b ≠ Proc.devRef .tc main_v35_0) (h1 : b ≠ Proc.devRef .tc main_v35_1) :
    R2.Wexit W c b = W c b := by
  by_cases h : ∃ w, Proc.devRef (τ := τ) .tc (Pipeline.arrRef spec2 w) = b
  · obtain ⟨w, rfl⟩ := h
    fin_cases w <;> first
      | exact absurd rfl h0
      | exact absurd rfl h1
      | exact (R2.Wexit_arr W c _).trans (((R2.dat W c).arrAt_in _ rfl _).trans (R2.A_eq W c _))
  · unfold R2.Wexit Pipeline.withArrays; exact dif_neg h

theorem Wexit3_of_not_out (W : Dev nD → Valuation τ sig (Elt F)) (c : Dev nD) (b : DevRef τ sig)
    (h0 : b ≠ Proc.devRef .tc main_v67_0) (h1 : b ≠ Proc.devRef .tc main_v67_1) (h2 : b ≠ Proc.devRef .tc main_v67_2) :
    R3.Wexit W c b = W c b := by
  by_cases h : ∃ w, Proc.devRef (τ := τ) .tc (Pipeline.arrRef spec3 w) = b
  · obtain ⟨w, rfl⟩ := h
    fin_cases w <;> first
      | exact absurd rfl h0
      | exact absurd rfl h1
      | exact absurd rfl h2
      | exact (R3.Wexit_arr W c _).trans (((R3.dat W c).arrAt_in _ rfl _).trans (R3.A_eq W c _))
  · unfold R3.Wexit Pipeline.withArrays; exact dif_neg h

theorem Wexit4_of_not_out (W : Dev nD → Valuation τ sig (Elt F)) (c : Dev nD) (b : DevRef τ sig)
    (h0 : b ≠ Proc.devRef .tc main_v70_0) (h1 : b ≠ Proc.devRef .tc main_v70_1) (h2 : b ≠ Proc.devRef .tc main_v70_2) :
    R4.Wexit W c b = W c b := by
  by_cases h : ∃ w, Proc.devRef (τ := τ) .tc (Pipeline.arrRef spec4 w) = b
  · obtain ⟨w, rfl⟩ := h
    fin_cases w <;> first
      | exact absurd rfl h0
      | exact absurd rfl h1
      | exact absurd rfl h2
      | exact (R4.Wexit_arr W c _).trans (((R4.dat W c).arrAt_in _ rfl _).trans (R4.A_eq W c _))
  · unfold R4.Wexit Pipeline.withArrays; exact dif_neg h

theorem Wexit5_of_not_out (W : Dev nD → Valuation τ sig (Elt F)) (c : Dev nD) (b : DevRef τ sig)
    (h0 : b ≠ Proc.devRef .tc main_v71_0) (h1 : b ≠ Proc.devRef .tc main_v71_1) :
    R5.Wexit W c b = W c b := by
  by_cases h : ∃ w, Proc.devRef (τ := τ) .tc (Pipeline.arrRef spec5 w) = b
  · obtain ⟨w, rfl⟩ := h
    fin_cases w <;> first
      | exact absurd rfl h0
      | exact absurd rfl h1
      | exact (R5.Wexit_arr W c _).trans (((R5.dat W c).arrAt_in _ rfl _).trans (R5.A_eq W c _))
  · unfold R5.Wexit Pipeline.withArrays; exact dif_neg h

theorem Wexit6_of_not_out (W : Dev nD → Valuation τ sig (Elt F)) (c : Dev nD) (b : DevRef τ sig)
    (h0 : b ≠ Proc.devRef .tc main_v103_0) (h1 : b ≠ Proc.devRef .tc main_v103_1) (h2 : b ≠ Proc.devRef .tc main_v103_2) :
    R6.Wexit W c b = W c b := by
  by_cases h : ∃ w, Proc.devRef (τ := τ) .tc (Pipeline.arrRef spec6 w) = b
  · obtain ⟨w, rfl⟩ := h
    fin_cases w <;> first
      | exact absurd rfl h0
      | exact absurd rfl h1
      | exact absurd rfl h2
      | exact (R6.Wexit_arr W c _).trans (((R6.dat W c).arrAt_in _ rfl _).trans (R6.A_eq W c _))
  · unfold R6.Wexit Pipeline.withArrays; exact dif_neg h

theorem Wexit7_of_not_out (W : Dev nD → Valuation τ sig (Elt F)) (c : Dev nD) (b : DevRef τ sig)
    (h0 : b ≠ Proc.devRef .tc main_v106_0) (h1 : b ≠ Proc.devRef .tc main_v106_1) (h2 : b ≠ Proc.devRef .tc main_v106_2) :
    R7.Wexit W c b = W c b := by
  by_cases h : ∃ w, Proc.devRef (τ := τ) .tc (Pipeline.arrRef spec7 w) = b
  · obtain ⟨w, rfl⟩ := h
    fin_cases w <;> first
      | exact absurd rfl h0
      | exact absurd rfl h1
      | exact absurd rfl h2
      | exact (R7.Wexit_arr W c _).trans (((R7.dat W c).arrAt_in _ rfl _).trans (R7.A_eq W c _))
  · unfold R7.Wexit Pipeline.withArrays; exact dif_neg h

theorem Wexit8_of_not_out (W : Dev nD → Valuation τ sig (Elt F)) (c : Dev nD) (b : DevRef τ sig)
    (h0 : b ≠ Proc.devRef .tc main_v107_0) (h1 : b ≠ Proc.devRef .tc main_v107_1) :
    R8.Wexit W c b = W c b := by
  by_cases h : ∃ w, Proc.devRef (τ := τ) .tc (Pipeline.arrRef spec8 w) = b
  · obtain ⟨w, rfl⟩ := h
    fin_cases w <;> first
      | exact absurd rfl h0
      | exact absurd rfl h1
      | exact (R8.Wexit_arr W c _).trans (((R8.dat W c).arrAt_in _ rfl _).trans (R8.A_eq W c _))
  · unfold R8.Wexit Pipeline.withArrays; exact dif_neg h

variable (m : (ℓ : Loc nD τ sig) → Buf (Elt F) ℓ)

theorem V2_eq (c : Dev nD) : Gen.V2 m (outs m) c = W2 m c :=
  update3_eq rfl rfl rfl fun b h0 h1 h2 =>
    (Wexit0_of_not_out (W1 m) c b h0 h1 h2).symm

theorem V3_eq (c : Dev nD) : Gen.V3 m (outs m) c = W3 m c :=
  congrArg (StableHlo.after hostOps1) (V2_eq m c)

theorem V4_eq (c : Dev nD) : Gen.V4 m (outs m) c = W4 m c :=
  update3_eq rfl rfl rfl fun b h0 h1 h2 =>
    (congrFun (V3_eq m c) b).trans (Wexit1_of_not_out (W3 m) c b h0 h1 h2).symm

theorem V5_eq (c : Dev nD) : Gen.V5 m (outs m) c = W5 m c :=
  update2_eq rfl rfl fun b h0 h1 =>
    (congrFun (V4_eq m c) b).trans (Wexit2_of_not_out (W4 m) c b h0 h1).symm

theorem V6_eq (c : Dev nD) : Gen.V6 m (outs m) c = W6 m c :=
  congrArg (StableHlo.after hostOps3) (V5_eq m c)

theorem V7_eq (c : Dev nD) : Gen.V7 m (outs m) c = W7 m c :=
  update3_eq rfl rfl rfl fun b h0 h1 h2 =>
    (congrFun (V6_eq m c) b).trans (Wexit3_of_not_out (W6 m) c b h0 h1 h2).symm

theorem V8_eq (c : Dev nD) : Gen.V8 m (outs m) c = W8 m c :=
  congrArg (StableHlo.after hostOps4) (V7_eq m c)

theorem V9_eq (c : Dev nD) : Gen.V9 m (outs m) c = W9 m c :=
  update3_eq rfl rfl rfl fun b h0 h1 h2 =>
    (congrFun (V8_eq m c) b).trans (Wexit4_of_not_out (W8 m) c b h0 h1 h2).symm

theorem V10_eq (c : Dev nD) : Gen.V10 m (outs m) c = W10 m c :=
  update2_eq rfl rfl fun b h0 h1 =>
    (congrFun (V9_eq m c) b).trans (Wexit5_of_not_out (W9 m) c b h0 h1).symm

theorem V11_eq (c : Dev nD) : Gen.V11 m (outs m) c = W11 m c :=
  congrArg (StableHlo.after hostOps6) (V10_eq m c)

theorem V12_eq (c : Dev nD) : Gen.V12 m (outs m) c = W12 m c :=
  update3_eq rfl rfl rfl fun b h0 h1 h2 =>
    (congrFun (V11_eq m c) b).trans (Wexit6_of_not_out (W11 m) c b h0 h1 h2).symm

theorem V13_eq (c : Dev nD) : Gen.V13 m (outs m) c = W13 m c :=
  congrArg (StableHlo.after hostOps7) (V12_eq m c)

theorem V14_eq (c : Dev nD) : Gen.V14 m (outs m) c = W14 m c :=
  update3_eq rfl rfl rfl fun b h0 h1 h2 =>
    (congrFun (V13_eq m c) b).trans (Wexit7_of_not_out (W13 m) c b h0 h1 h2).symm

theorem V15_eq (c : Dev nD) : Gen.V15 m (outs m) c = W15 m c :=
  update2_eq rfl rfl fun b h0 h1 =>
    (congrFun (V14_eq m c) b).trans (Wexit8_of_not_out (W14 m) c b h0 h1).symm

theorem V16_eq (c : Dev nD) : Gen.V16 m (outs m) c = W16 m c :=
  congrArg (StableHlo.after hostOps9) (V15_eq m c)

end Cert.Kernel.Hand

end
-- ==== Proof.K.Seg.lean ====
import proofs.«412604_j76897094468164_1_alg».proof.Proof.K.Family

set_option maxRecDepth 16384

noncomputable section

namespace Cert.Kernel.Hand

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (p : Fin 9) (𝔣 : (p : Fin 9) → (c : Dev nD) → DatOf (F := F) p c)
  (launch : Pipeline.LaunchFacts (nD := nD) (τ := τ) cfgs p)
  (W W' : Dev nD → Valuation τ sig (Elt F))
  (hq : ∀ c w, (𝔣 p c).q w = fullShare)
  (howed : ∀ c t, (𝔣 p c).owed t = 0)
  (hrec : ∀ c t, (𝔣 p c).recorded t = Set.univ)
  (hA : ∀ c w, (𝔣 p c).A w = W c (Proc.devRef .tc (Pipeline.arrRef (cfgs p).spec w)))
  (hbody : ∀ c, BodyObligation (𝔣 p c) (defs₀ (F := F)) Variants.none () Set.univ)
  (hin : ∀ c, Pipeline.ΦA (cfgs p).spec c ⊢ (𝔣 p c).Φ 0)
  (hlast : ∀ c, (𝔣 p c).Φ (Fin.last (cfgs p).N) ⊢ Pipeline.ΦA (cfgs p).spec c)
  (hF : ∀ c w, (𝔣 p c).arrAt w (cfgs p).N = W' c (Proc.devRef .tc (Pipeline.arrRef (cfgs p).spec w)))
  (hrest : ∀ c (b : Ref sig .tc), (∀ w, Pipeline.arrRef (cfgs p).spec w ≠ b) → W' c (Proc.devRef .tc b) = W c (Proc.devRef .tc b))

set_option backward.isDefEq.respectTransparency.types false in

def mkReg : Pipeline.RegionSeg (pcfgs (F := F)) adm 𝔣 () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm 𝔣 launch.win launch.arr_whole c
      ((𝔣 p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%Wr, HO⟩; iexists Wr; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hlast c) ?_
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c 𝔣 ((𝔣 p c).share_full (hq c))
      (fun b => W c b) (fun b => W' c b) ((𝔣 p c).arrAt · (cfgs p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%Wr, -, HO⟩; iexists Wr; iexact HO

end Cert.Kernel.Hand

end
-- ==== Proof.K.Whole.lean ====
import proofs.«412604_j76897094468164_1_alg».proof.Proof.K.Family
import Idealize.ShloMosaic.Lib.Pipeline.Value

set_option maxRecDepth 16384

noncomputable section

namespace Cert.Kernel.Hand

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem readAt_whole_unread {sp : Space} {S : Shape} {e : EltTy} (m : Memref sig .tc sp S e) (h : m.IsWhole)
    {off : Fin S.rank → Nat} (ho : off = fun _ => 0) (inb : ∀ a, off a + S.size a ≤ S.size a) (X : S.Idx → Elt F e) :
    m.view.readAt (Elt F) (Rect.unit off S.size inb).toLoadRect (h.unread X) = X := by
  rw [View.readAt_eq_ld, h.read_unread]; exact View.ld_unit_zero ho inb X

theorem read_store_whole {sp : Space} {S : Shape} {e : EltTy} (v : View sig .tc sp S e) (f : v.ty.Contents (Elt F))
    {off : Fin S.rank → Nat} (ho : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P :=
  (View.read_writes_eq_canon v f _ fun y => ⟨_, List.mem_cons_self, View.mem_set_unit_zero ho inb y⟩).trans
    (View.canon_cons_unit_zero ho inb P L)

theorem owns_eq {c : Dev nD} {sp : Space} {sh : Shape} {e : EltTy} {m : Memref sig .tc sp sh e} (h : m.IsWhole) {q : PosShare TreeShare} {X : sh.Idx → Elt F e} :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f)) ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄) ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩

end Cert.Kernel.Hand

end
-- ==== Proof.K.R0.Run.lean ====
import proofs.«412604_j76897094468164_1_alg».proof.Proof.K.Whole
import Idealize.ShloMosaic.Lib.Pipeline.Value

set_option maxRecDepth 16384

noncomputable section

namespace Cert.Kernel.Hand.R0

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

abbrev condZ (i : grid0.Coords) : Prop := k0_cond2 i = 1#1
theorem hcondZ : ∀ t : Fin cfg0.N, condZ (grid0.coords t) ↔ t.val = 9 :=
  (by decide +kernel : ∀ t : Fin grid0.N, condZ (grid0.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k0_pay5 x w b)
            ∗ owns (c : Thread nD τ) arg5 fullShare (if condZ i then k0_pay1 (k0_pay6 x w b (if condA i then k0_pay3 else s)) else m)
            ∗ owns (c : Thread nD τ) arg6 fullShare (if condZ i then k0_pay2 (k0_pay6 x w b (if condA i then k0_pay3 else s)) (k0_pay7 x w b (if condA i then k0_pay4 else q)) else v)
            ∗ owns (c : Thread nD τ) arg7 fullShare (k0_pay6 x w b (if condA i then k0_pay3 else s)) ∗ owns (c : Thread nD τ) arg8 fullShare (k0_pay7 x w b (if condA i then k0_pay4 else q))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc0__stage1_kernel_eq_skeleton]; unfold cc0__stage1_kernel_skel
    simp only [k0_part1_eq_skeleton]; unfold k0_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.Kernel.Hand.R0

end
-- ==== Proof.K.R0.Obl.lean ====
import proofs.«412604_j76897094468164_1_alg».proof.Proof.K.R0.Dat
import proofs.«412604_j76897094468164_1_alg».proof.Proof.K.R0.Run

set_option maxRecDepth 16384

noncomputable section

namespace Cert.Kernel.Hand.R0

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg0.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg0.N) (w : Fin cfg0.W), 4 ≤ w.val →
    (condZ (grid0.coords t) → cfg0.idle w (grid0.coords t) = false)
      ∧ (¬condZ (grid0.coords t) → cfg0.idle w (grid0.coords t) = true ∧ (cfg0.win w).flush t = false) := by
  decide +kernel

theorem leaves_live (c : Dev nD) (t : Fin cfg0.N) (w : Fin cfg0.W) (h : cfg0.idle w (grid0.coords t) = false) :
    (dat W c).leavesExact w t = owns (c : Thread nD τ) ((cfg0.win w).stage (cfg0.slots t w)) fullShare ((dat W c).after w t) := by
  unfold Dat.leavesExact; rw [h]

theorem leaves_out (c : Dev nD) (t : Fin cfg0.N) (w : Fin cfg0.W) (hw : 4 ≤ w.val) (d X) (hX : (dat W c).after w t = X) :
    owns (c : Thread nD τ) ((cfg0.win w).stage (cfg0.slots t w)) fullShare (if condZ (grid0.coords t) then X else (dat W c).before w t d)
      ⊢ (dat W c).leavesExact w t := by
  subst hX
  by_cases hZ : condZ (grid0.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec0 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scS, scQ, owns_whole]; try rfl

theorem outsAt_step (c : Dev nD) (t : Fin cfg0.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid0.coords t) then k0_pay3 else s) (if condA (grid0.coords t) then k0_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg0.N) :
    iprop((dat W c).Φ t.castSucc ∗ (dat W c).owesAt () t.castSucc
      ∗ (∃ d, owns (c : Thread nD τ) (st0_0 t) fullShare ((dat W c).before 0 t d))
      ∗ (∃ d, owns (c : Thread nD τ) (st0_1 t) fullShare ((dat W c).before 1 t d))
      ∗ (∃ d, owns (c : Thread nD τ) (st0_2 t) fullShare ((dat W c).before 2 t d))
      ∗ (∃ d, owns (c : Thread nD τ) (st0_3 t) fullShare ((dat W c).before 3 t d))
      ∗ (∃ d, owns (c : Thread nD τ) (st0_4 t) fullShare ((dat W c).before 4 t d))
      ∗ (∃ d, owns (c : Thread nD τ) (st0_5 t) fullShare ((dat W c).before 5 t d)))
    ⊢ wp frame (wpE (defs₀ (F := F)) Variants.none c none) Set.univ (bodyAt0 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt0
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k0_pay5 _ _ _ from congrArg (·.1) hO]
  iapply (run c Set.univ (grid0.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k0_pay1 _ from (after_4 W c t).trans (congrArg (·.2.1) hO))); iexact H4
  iapply (leaves_out W c t 5 (by decide) d5 _ (show _ = k0_pay2 _ _ from (after_5 W c t).trans (congrArg (·.2.2.1) hO))); iexact H5

theorem body_obligation (c : Dev nD) : BodyObligation (dat (F := F) W c) (defs₀ (F := F)) Variants.none () Set.univ := fun t => by
  rw [bigSep_W0, bigSep_W0]
  exact sound_body W c t

theorem Phi_in (c : Dev nD) : Pipeline.ΦA spec0 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg0.N) ⊢ Pipeline.ΦA spec0 c := by
  rw [show (dat W c).Φ (Fin.last cfg0.N) = PhiS W c cfg0.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.Kernel.Hand.R0

end
-- ==== Proof.K.R1.Run.lean ====
import proofs.«412604_j76897094468164_1_alg».proof.Proof.K.Whole

set_option maxRecDepth 16384

noncomputable section

namespace Cert.Kernel.Hand.R1

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid1.Coords) : Prop :=
  (Scalar.cmpi .ne (Scalar.extui (Scalar.cmpi .eq (BitVec.ofNat 32 (i 0).val) 0#32)) 0#32) = 1#1
theorem hcondFirst : ∀ t : Fin cfg1.N, condFirst (grid1.coords t) ↔ t.val % 10 = 0 :=
  (by decide +kernel : ∀ t : Fin grid1.N, condFirst (grid1.coords t) ↔ t.val % 10 = 0)

abbrev condLast (i : grid1.Coords) : Prop := k1_cond2 i = 1#1
theorem hcondLast : ∀ t : Fin cfg1.N, condLast (grid1.coords t) ↔ t.val % 10 = 9 :=
  (by decide +kernel : ∀ t : Fin grid1.N, condLast (grid1.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid1.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) (k1_pay5 (F := F))) (k1_pay2 (k1_pay7 x0 x1 x2 x3 x4 x5 x6) (k1_pay6 (F := F))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) s0) (k1_pay2 (k1_pay7 x0 x1 x2 x3 x4 x5 x6) s1) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) s0) (k1_pay2 (k1_pay7 x0 x1 x2 x3 x4 x5 x6) s1)
            ∗ owns (c : Thread nD τ) arg9 fullShare (k1_pay3 (k1_pay1 (k1_pay7 x0 x1 x2 x3 x4 x5 x6) s0))
            ∗ owns (c : Thread nD τ) arg10 fullShare (k1_pay4 (k1_pay1 (k1_pay7 x0 x1 x2 x3 x4 x5 x6) s0) (k1_pay2 (k1_pay7 x0 x1 x2 x3 x4 x5 x6) s1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.Kernel.Hand.R1

end
-- ==== Proof.K.R1.Body.lean ====
import proofs.«412604_j76897094468164_1_alg».proof.Proof.K.R1.Dat
import proofs.«412604_j76897094468164_1_alg».proof.Proof.K.R1.Run

set_option maxRecDepth 16384

noncomputable section

namespace Cert.Kernel.Hand.R1

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg1.N, ¬condLast (grid1.coords t) → (cfg1.idle 8 (grid1.coords t) = true ∧ (cfg1.win 8).flush t = false) ∧ cfg1.idle 9 (grid1.coords t) = true ∧ (cfg1.win 9).flush t = false := by decide +kernel
theorem on89 : ∀ t : Fin cfg1.N, condLast (grid1.coords t) → cfg1.idle 8 (grid1.coords t) = false ∧ cfg1.idle 9 (grid1.coords t) = false := by decide +kernel

theorem before_0 (c : Dev nD) (t : Fin cfg1.N) (d) : (dat W c).before 0 t d = iblk W c 0 t :=
  ((dat W c).before_in_eq_fetched 0 rfl (fun _ => rfl) (fun _ _ _ => rfl) (fun _ => rfl) t d).trans rfl
theorem before_1 (c : Dev nD) (t : Fin cfg1.N) (d) : (dat W c).before 1 t d = iblk W c 1 t :=
  ((dat W c).before_in_eq_fetched 1 rfl (fun _ => rfl) (fun _ _ _ => rfl) (fun _ => rfl) t d).trans rfl
theorem before_2 (c : Dev nD) (t : Fin cfg1.N) (d) : (dat W c).before 2 t d = iblk W c 2 t :=
  ((dat W c).before_in_eq_fetched 2 rfl (fun _ => rfl) (fun _ _ _ => rfl) (fun _ => rfl) t d).trans rfl
theorem before_3 (c : Dev nD) (t : Fin cfg1.N) (d) : (dat W c).before 3 t d = iblk W c 3 t :=
  ((dat W c).before_in_eq_fetched 3 rfl (fun _ => rfl) (fun _ _ _ => rfl) (fun _ => rfl) t d).trans rfl
theorem before_4 (c : Dev nD) (t : Fin cfg1.N) (d) : (dat W c).before 4 t d = iblk W c 4 t :=
  ((dat W c).before_in_eq_fetched 4 rfl (fun _ => rfl) (fun _ _ _ => rfl) (fun _ => rfl) t d).trans rfl
theorem before_5 (c : Dev nD) (t : Fin cfg1.N) (d) : (dat W c).before 5 t d = iblk W c 5 t :=
  ((dat W c).before_in_eq_fetched 5 rfl (fun _ => rfl) (fun _ _ _ => rfl) (fun _ => rfl) t d).trans rfl
theorem before_6 (c : Dev nD) (t : Fin cfg1.N) (d) : (dat W c).before 6 t d = iblk W c 6 t :=
  ((dat W c).before_in_eq_fetched 6 rfl (fun _ => rfl) (fun _ _ _ => rfl) (fun _ => rfl) t d).trans rfl

abbrev ms_0 (t : Fin cfg1.N) := win1_0.stage (cfg1.slots t 0)
abbrev ms_1 (t : Fin cfg1.N) := win1_1.stage (cfg1.slots t 1)
abbrev ms_2 (t : Fin cfg1.N) := win1_2.stage (cfg1.slots t 2)
abbrev ms_3 (t : Fin cfg1.N) := win1_3.stage (cfg1.slots t 3)
abbrev ms_4 (t : Fin cfg1.N) := win1_4.stage (cfg1.slots t 4)
abbrev ms_5 (t : Fin cfg1.N) := win1_5.stage (cfg1.slots t 5)
abbrev ms_6 (t : Fin cfg1.N) := win1_6.stage (cfg1.slots t 6)
abbrev ms_7 (t : Fin cfg1.N) := win1_7.stage (cfg1.slots t 7)
abbrev ms_8 (t : Fin cfg1.N) := win1_8.stage (cfg1.slots t 8)
abbrev ms_9 (t : Fin cfg1.N) := win1_9.stage (cfg1.slots t 9)

def bodyPre (c : Dev nD) (t : Fin cfg1.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg1.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [PhiS]
  have hN : t.val < 10 := lt_of_lt_of_eq t.isLt (show cfg1.N = 10 from N_1)
  by_cases h0 : t.val % 10 = 0
  · have ht0 : t.val = 0 := by omega
    have hcl : ¬condLast (grid1.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid1.coords t) := fun h => h0 ((hcondFirst t).mp h)
    rw [PhiS_pos W c _ _ ht0]
    by_cases h1 : t.val % 10 = 9
    · have hcl : condLast (grid1.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid1.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W1, bigSep_W1]
  exact sound_body W c t

end Cert.Kernel.Hand.R1

end
-- ==== Proof.K.R1.Seg.lean ====
import proofs.«412604_j76897094468164_1_alg».proof.Proof.K.R1.Body

set_option maxRecDepth 16384

noncomputable section

namespace Cert.Kernel.Hand.R1

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec1 c ⊢ (dat W c).Φ 0 := .rfl

theorem Phi_out (c : Dev nD) (t : Fin (cfg1.N + 1)) (ht : t.val ≠ 0) : (dat W c).Φ t ⊢ Pipeline.ΦA spec1 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg1.N) ⊢ Pipeline.ΦA spec1 c :=
  Phi_out W c _ (by rw [Fin.val_last]; have : cfg1.N = 10 := N_1; omega)

end Cert.Kernel.Hand.R1

end
-- ==== Proof.K.R2.Run.lean ====
import proofs.«412604_j76897094468164_1_alg».proof.Proof.K.Family
import proofs.«412604_j76897094468164_1_alg».proof.Proof.K.Whole
import Idealize.ShloMosaic.Lib.Pipeline.Value

set_option maxRecDepth 16384

noncomputable section

namespace Cert.Kernel.Hand.R2

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid2.Coords) : Prop :=
  (Scalar.cmpi .ne (Scalar.extui (Scalar.cmpi .eq (BitVec.ofNat 32 (i 0).val) 0#32)) 0#32) = 1#1
abbrev cond1 (i : grid2.Coords) : Prop := k2_cond2 i = 1#1

variable (c : Dev nD) (E : Set ℕ) (i : grid2.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k2_pay1 ∨ ¬cond0 i ∧ s₀ = s)
    (h1 : cond1 i ∧ y6' = k2_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k2_pay2 x0 x1 x2 x3 x4) y6' (k2_pay3 x0 x1 x2 x3 x4 s₀) -∗ K ⟨⟩))
      ⊢ wp frame (wpE (defs₀ (F := F)) Variants.none c none) E
          (cc2__stage3_kernel i arg1 harg1 arg2 harg2 arg3 harg3 arg4 harg4 arg5 harg5 arg6 harg6 arg7 harg7 arg8 harg8) K := by
  simp only [cc2__stage3_kernel_eq_skeleton]; unfold cc2__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.Kernel.Hand.R2

end
-- ==== Proof.K.R2.Body.lean ====
import proofs.«412604_j76897094468164_1_alg».proof.Proof.K.R2.Dat
import proofs.«412604_j76897094468164_1_alg».proof.Proof.K.R2.Run

set_option maxRecDepth 16384

noncomputable section

namespace Cert.Kernel.Hand.R2

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg2.N)

theorem hcond0 : ∀ t : Fin cfg2.N, cond0 (grid2.coords t) ↔ t.val = 0 :=
  (by decide +kernel : ∀ t : Fin grid2.N, cond0 (grid2.coords t) ↔ t.val = 0)
theorem hcond1 : ∀ t : Fin cfg2.N, cond1 (grid2.coords t) ↔ t.val = 9 :=
  (by decide +kernel : ∀ t : Fin grid2.N, cond1 (grid2.coords t) ↔ t.val = 9)

theorem hexcl : ∀ t : Fin cfg2.N, cond0 (grid2.coords t) → ¬cond1 (grid2.coords t) := by decide +kernel

theorem idleAt_6 : ∀ t : Fin cfg2.N, ¬cond1 (grid2.coords t) → cfg2.idle 6 (grid2.coords t) = true := by decide +kernel
theorem noFlush_6 : ∀ t : Fin cfg2.N, ¬cond1 (grid2.coords t) → (cfg2.win 6).flush t = false := by decide +kernel
theorem liveAt_6 : ∀ t : Fin cfg2.N, cond1 (grid2.coords t) → cfg2.idle 6 (grid2.coords t) = false := by decide +kernel

theorem PhiA_eq :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d)))

def bodyPost : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ (dat W c).leavesExact 6 t)

theorem sound_body :
    bodyPre W c t ⊢ wp frame (wpE (defs₀ (F := F)) Variants.none c none) Set.univ (bodyAt2 t) (fun _ => bodyPost W c t) := by
  unfold bodyPre bodyPost bodyAt2
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid2.coords t) := (hcond0 t).mpr h0
    have hc1 : ¬cond1 (grid2.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid2.coords t) (st2_0 t) _ (st2_1 t) _ (st2_2 t) _ (st2_3 t) _ (st2_4 t) _ (st2_5 t) _ (st2_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid2.coords t) := fun h => h0 ((hcond0 t).mp h)
    rw [outsAt_pos W c t h0]; dsimp only; unfold hAt sAt
    rw [PhiS_pos W c _ _ h0]
    by_cases h9 : t.val = 9
    · have hc1 : cond1 (grid2.coords t) := (hcond1 t).mpr h9
      rw [show (dat W c).leavesExact 6 t = owns (c : Thread nD τ) (st2_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid2.coords t) (st2_0 t) _ (st2_1 t) _ (st2_2 t) _ (st2_3 t) _ (st2_4 t) _ (st2_5 t) _ (st2_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid2.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid2.coords t) (st2_0 t) _ (st2_1 t) _ (st2_2 t) _ (st2_3 t) _ (st2_4 t) _ (st2_5 t) _ (st2_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W2, bigSep_W2]
  exact sound_body W c t

end Cert.Kernel.Hand.R2

end
-- ==== Proof.K.R2.Seg.lean ====
import proofs.«412604_j76897094468164_1_alg».proof.Proof.K.R2.Body

set_option maxRecDepth 16384

noncomputable section

namespace Cert.Kernel.Hand.R2

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec2 c ⊢ (dat W c).Φ 0 := .rfl

theorem Phi_last (c : Dev nD) : (dat W c).Φ (Fin.last cfg2.N) ⊢ Pipeline.ΦA spec2 c := by
  rw [show (dat W c).Φ (Fin.last cfg2.N) = PhiS W c cfg2.N (Nat.le_refl _) from rfl,
    PhiS_pos W c _ _ (by rw [show cfg2.N = 10 from N_2]; decide)]
  unfold Pipeline.ΦA
  rw [scopedRest2_split, show (scM : Memref sig .tc .vmem S1x64 .f32) = Memref.whole cc2_scratch0 from rfl, owns_whole]
  iintro ⟨⟨HS, Hrest⟩, Hg⟩
  isplitl [HS Hrest]
  · isplitl [HS]; · iexists _; iexact HS
    iexact Hrest
  iexact Hg

end Cert.Kernel.Hand.R2

end
-- ==== Proof.K.R3.Run.lean ====
import proofs.«412604_j76897094468164_1_alg».proof.Proof.K.Whole
import Idealize.ShloMosaic.Lib.Pipeline.Value

set_option maxRecDepth 16384

noncomputable section

namespace Cert.Kernel.Hand.R3

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid3.Coords) : Prop :=
  (Scalar.cmpi .ne (Scalar.extui (Scalar.cmpi .eq (BitVec.ofNat 32 (i 0).val) 0#32)) 0#32) = 1#1
theorem hcondA : ∀ t : Fin cfg3.N, condA (grid3.coords t) ↔ t.val = 0 :=
  (by decide +kernel : ∀ t : Fin grid3.N, condA (grid3.coords t) ↔ t.val = 0)

abbrev condZ (i : grid3.Coords) : Prop := k3_cond2 i = 1#1
theorem hcondZ : ∀ t : Fin cfg3.N, condZ (grid3.coords t) ↔ t.val = 9 :=
  (by decide +kernel : ∀ t : Fin grid3.N, condZ (grid3.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k3_pay5 x w b)
            ∗ owns (c : Thread nD τ) arg5 fullShare (if condZ i then k3_pay1 (k3_pay6 x w b (if condA i then k3_pay3 else s)) else m)
            ∗ owns (c : Thread nD τ) arg6 fullShare (if condZ i then k3_pay2 (k3_pay6 x w b (if condA i then k3_pay3 else s)) (k3_pay7 x w b (if condA i then k3_pay4 else q)) else v)
            ∗ owns (c : Thread nD τ) arg7 fullShare (k3_pay6 x w b (if condA i then k3_pay3 else s)) ∗ owns (c : Thread nD τ) arg8 fullShare (k3_pay7 x w b (if condA i then k3_pay4 else q))) -∗ K ⟨⟩))
      ⊢ wp frame (wpE (defs₀ (F := F)) Variants.none c none) E (cc3__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc3__stage1_kernel_eq_skeleton]; unfold cc3__stage1_kernel_skel
    simp only [k3_part1_eq_skeleton]; unfold k3_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.Kernel.Hand.R3

end
-- ==== Proof.K.R3.Obl.lean ====
import proofs.«412604_j76897094468164_1_alg».proof.Proof.K.R3.Dat
import proofs.«412604_j76897094468164_1_alg».proof.Proof.K.R3.Run

set_option maxRecDepth 16384

noncomputable section

namespace Cert.Kernel.Hand.R3

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg3.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg3.N) (w : Fin cfg3.W), 4 ≤ w.val →
    (condZ (grid3.coords t) → cfg3.idle w (grid3.coords t) = false)
      ∧ (¬condZ (grid3.coords t) → cfg3.idle w (grid3.coords t) = true ∧ (cfg3.win w).flush t = false) := by
  decide +kernel

theorem leaves_live (c : Dev nD) (t : Fin cfg3.N) (w : Fin cfg3.W) (h : cfg3.idle w (grid3.coords t) = false) :
    (dat W c).leavesExact w t = owns (c : Thread nD τ) ((cfg3.win w).stage (cfg3.slots t w)) fullShare ((dat W c).after w t) := by
  unfold Dat.leavesExact; rw [h]

theorem leaves_out (c : Dev nD) (t : Fin cfg3.N) (w : Fin cfg3.W) (hw : 4 ≤ w.val) (d X) (hX : (dat W c).after w t = X) :
    owns (c : Thread nD τ) ((cfg3.win w).stage (cfg3.slots t w)) fullShare (if condZ (grid3.coords t) then X else (dat W c).before w t d)
      ⊢ (dat W c).leavesExact w t := by
  subst hX
  by_cases hZ : condZ (grid3.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec3 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scS, scQ, owns_whole]; try rfl

theorem outsAt_step (c : Dev nD) (t : Fin cfg3.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid3.coords t) then k3_pay3 else s) (if condA (grid3.coords t) then k3_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg3.N) :
    iprop((dat W c).Φ t.castSucc ∗ (dat W c).owesAt () t.castSucc
      ∗ (∃ d, owns (c : Thread nD τ) (st3_0 t) fullShare ((dat W c).before 0 t d))
      ∗ (∃ d, owns (c : Thread nD τ) (st3_1 t) fullShare ((dat W c).before 1 t d))
      ∗ (∃ d, owns (c : Thread nD τ) (st3_2 t) fullShare ((dat W c).before 2 t d))
      ∗ (∃ d, owns (c : Thread nD τ) (st3_3 t) fullShare ((dat W c).before 3 t d))
      ∗ (∃ d, owns (c : Thread nD τ) (st3_4 t) fullShare ((dat W c).before 4 t d))
      ∗ (∃ d, owns (c : Thread nD τ) (st3_5 t) fullShare ((dat W c).before 5 t d)))
    ⊢ wp frame (wpE (defs₀ (F := F)) Variants.none c none) Set.univ (bodyAt3 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt3
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k3_pay5 _ _ _ from congrArg (·.1) hO]
  iapply (run c Set.univ (grid3.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k3_pay1 _ from (after_4 W c t).trans (congrArg (·.2.1) hO))); iexact H4
  iapply (leaves_out W c t 5 (by decide) d5 _ (show _ = k3_pay2 _ _ from (after_5 W c t).trans (congrArg (·.2.2.1) hO))); iexact H5

theorem body_obligation (c : Dev nD) : BodyObligation (dat (F := F) W c) (defs₀ (F := F)) Variants.none () Set.univ := fun t => by
  rw [bigSep_W3, bigSep_W3]
  exact sound_body W c t

theorem Phi_in (c : Dev nD) : Pipeline.ΦA spec3 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg3.N) ⊢ Pipeline.ΦA spec3 c := by
  rw [show (dat W c).Φ (Fin.last cfg3.N) = PhiS W c cfg3.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.Kernel.Hand.R3

end
-- ==== Proof.K.R4.Run.lean ====
import proofs.«412604_j76897094468164_1_alg».proof.Proof.K.Whole

set_option maxRecDepth 16384

noncomputable section

namespace Cert.Kernel.Hand.R4

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid4.Coords) : Prop :=
  (Scalar.cmpi .ne (Scalar.extui (Scalar.cmpi .eq (BitVec.ofNat 32 (i 0).val) 0#32)) 0#32) = 1#1
theorem hcondFirst : ∀ t : Fin cfg4.N, condFirst (grid4.coords t) ↔ t.val % 10 = 0 :=
  (by decide +kernel : ∀ t : Fin grid4.N, condFirst (grid4.coords t) ↔ t.val % 10 = 0)

abbrev condLast (i : grid4.Coords) : Prop := k4_cond2 i = 1#1
theorem hcondLast : ∀ t : Fin cfg4.N, condLast (grid4.coords t) ↔ t.val % 10 = 9 :=
  (by decide +kernel : ∀ t : Fin grid4.N, condLast (grid4.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid4.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) (k4_pay5 (F := F))) (k4_pay2 (k4_pay7 x0 x1 x2 x3 x4 x5 x6) (k4_pay6 (F := F))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) s0) (k4_pay2 (k4_pay7 x0 x1 x2 x3 x4 x5 x6) s1) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) s0) (k4_pay2 (k4_pay7 x0 x1 x2 x3 x4 x5 x6) s1)
            ∗ owns (c : Thread nD τ) arg9 fullShare (k4_pay3 (k4_pay1 (k4_pay7 x0 x1 x2 x3 x4 x5 x6) s0))
            ∗ owns (c : Thread nD τ) arg10 fullShare (k4_pay4 (k4_pay1 (k4_pay7 x0 x1 x2 x3 x4 x5 x6) s0) (k4_pay2 (k4_pay7 x0 x1 x2 x3 x4 x5 x6) s1))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.Kernel.Hand.R4

end
-- ==== Proof.K.R4.Body.lean ====
import proofs.«412604_j76897094468164_1_alg».proof.Proof.K.R4.Dat
import proofs.«412604_j76897094468164_1_alg».proof.Proof.K.R4.Run

set_option maxRecDepth 16384

noncomputable section

namespace Cert.Kernel.Hand.R4

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg4.N, ¬condLast (grid4.coords t) → (cfg4.idle 8 (grid4.coords t) = true ∧ (cfg4.win 8).flush t = false) ∧ cfg4.idle 9 (grid4.coords t) = true ∧ (cfg4.win 9).flush t = false := by decide +kernel
theorem on89 : ∀ t : Fin cfg4.N, condLast (grid4.coords t) → cfg4.idle 8 (grid4.coords t) = false ∧ cfg4.idle 9 (grid4.coords t) = false := by decide +kernel

theorem before_0 (c : Dev nD) (t : Fin cfg4.N) (d) : (dat W c).before 0 t d = iblk W c 0 t :=
  ((dat W c).before_in_eq_fetched 0 rfl (fun _ => rfl) (fun _ _ _ => rfl) (fun _ => rfl) t d).trans rfl
theorem before_1 (c : Dev nD) (t : Fin cfg4.N) (d) : (dat W c).before 1 t d = iblk W c 1 t :=
  ((dat W c).before_in_eq_fetched 1 rfl (fun _ => rfl) (fun _ _ _ => rfl) (fun _ => rfl) t d).trans rfl
theorem before_2 (c : Dev nD) (t : Fin cfg4.N) (d) : (dat W c).before 2 t d = iblk W c 2 t :=
  ((dat W c).before_in_eq_fetched 2 rfl (fun _ => rfl) (fun _ _ _ => rfl) (fun _ => rfl) t d).trans rfl
theorem before_3 (c : Dev nD) (t : Fin cfg4.N) (d) : (dat W c).before 3 t d = iblk W c 3 t :=
  ((dat W c).before_in_eq_fetched 3 rfl (fun _ => rfl) (fun _ _ _ => rfl) (fun _ => rfl) t d).trans rfl
theorem before_4 (c : Dev nD) (t : Fin cfg4.N) (d) : (dat W c).before 4 t d = iblk W c 4 t :=
  ((dat W c).before_in_eq_fetched 4 rfl (fun _ => rfl) (fun _ _ _ => rfl) (fun _ => rfl) t d).trans rfl
theorem before_5 (c : Dev nD) (t : Fin cfg4.N) (d) : (dat W c).before 5 t d = iblk W c 5 t :=
  ((dat W c).before_in_eq_fetched 5 rfl (fun _ => rfl) (fun _ _ _ => rfl) (fun _ => rfl) t d).trans rfl
theorem before_6 (c : Dev nD) (t : Fin cfg4.N) (d) : (dat W c).before 6 t d = iblk W c 6 t :=
  ((dat W c).before_in_eq_fetched 6 rfl (fun _ => rfl) (fun _ _ _ => rfl) (fun _ => rfl) t d).trans rfl

abbrev ms_0 (t : Fin cfg4.N) := win4_0.stage (cfg4.slots t 0)
abbrev ms_1 (t : Fin cfg4.N) := win4_1.stage (cfg4.slots t 1)
abbrev ms_2 (t : Fin cfg4.N) := win4_2.stage (cfg4.slots t 2)
abbrev ms_3 (t : Fin cfg4.N) := win4_3.stage (cfg4.slots t 3)
abbrev ms_4 (t : Fin cfg4.N) := win4_4.stage (cfg4.slots t 4)
abbrev ms_5 (t : Fin cfg4.N) := win4_5.stage (cfg4.slots t 5)
abbrev ms_6 (t : Fin cfg4.N) := win4_6.stage (cfg4.slots t 6)
abbrev ms_7 (t : Fin cfg4.N) := win4_7.stage (cfg4.slots t 7)
abbrev ms_8 (t : Fin cfg4.N) := win4_8.stage (cfg4.slots t 8)
abbrev ms_9 (t : Fin cfg4.N) := win4_9.stage (cfg4.slots t 9)

def bodyPre (c : Dev nD) (t : Fin cfg4.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg4.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before_0, before_1, before_2, before_3, before_4, before_5, before_6]
  rw [PhiS]
  have hN : t.val < 10 := lt_of_lt_of_eq t.isLt (show cfg4.N = 10 from N_4)
  by_cases h0 : t.val % 10 = 0
  · have ht0 : t.val = 0 := by omega
    have hcl : ¬condLast (grid4.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid4.coords t) := fun h => h0 ((hcondFirst t).mp h)
    rw [PhiS_pos W c _ _ ht0]
    by_cases h1 : t.val % 10 = 9
    · have hcl : condLast (grid4.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid4.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W4, bigSep_W4]
  exact sound_body W c t

end Cert.Kernel.Hand.R4

end
-- ==== Proof.K.R4.Seg.lean ====
import proofs.«412604_j76897094468164_1_alg».proof.Proof.K.R4.Body

set_option maxRecDepth 16384

noncomputable section

namespace Cert.Kernel.Hand.R4

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec4 c ⊢ (dat W c).Φ 0 := .rfl

theorem Phi_out (c : Dev nD) (t : Fin (cfg4.N + 1)) (ht : t.val ≠ 0) : (dat W c).Φ t ⊢ Pipeline.ΦA spec4 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg4.N) ⊢ Pipeline.ΦA spec4 c :=
  Phi_out W c _ (by rw [Fin.val_last]; have : cfg4.N = 10 := N_4; omega)

end Cert.Kernel.Hand.R4

end
-- ==== Proof.K.R5.Run.lean ====
import proofs.«412604_j76897094468164_1_alg».proof.Proof.K.Family
import proofs.«412604_j76897094468164_1_alg».proof.Proof.K.Whole
import Idealize.ShloMosaic.Lib.Pipeline.Value

set_option maxRecDepth 16384

noncomputable section

namespace Cert.Kernel.Hand.R5

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid5.Coords) : Prop :=
  (Scalar.cmpi .ne (Scalar.extui (Scalar.cmpi .eq (BitVec.ofNat 32 (i 0).val) 0#32)) 0#32) = 1#1
abbrev cond1 (i : grid5.Coords) : Prop := k5_cond2 i = 1#1

variable (c : Dev nD) (E : Set ℕ) (i : grid5.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k5_pay1 ∨ ¬cond0 i ∧ s₀ = s)
    (h1 : cond1 i ∧ y6' = k5_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k5_pay2 x0 x1 x2 x3 x4) y6' (k5_pay3 x0 x1 x2 x3 x4 s₀) -∗ K ⟨⟩))
      ⊢ wp frame (wpE (defs₀ (F := F)) Variants.none c none) E
          (cc5__stage3_kernel i arg1 harg1 arg2 harg2 arg3 harg3 arg4 harg4 arg5 harg5 arg6 harg6 arg7 harg7 arg8 harg8) K := by
  simp only [cc5__stage3_kernel_eq_skeleton]; unfold cc5__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.Kernel.Hand.R5

end
-- ==== Proof.K.R5.Body.lean ====
import proofs.«412604_j76897094468164_1_alg».proof.Proof.K.R5.Dat
import proofs.«412604_j76897094468164_1_alg».proof.Proof.K.R5.Run

set_option maxRecDepth 16384

noncomputable section

namespace Cert.Kernel.Hand.R5

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg5.N)

theorem hcond0 : ∀ t : Fin cfg5.N, cond0 (grid5.coords t) ↔ t.val = 0 :=
  (by decide +kernel : ∀ t : Fin grid5.N, cond0 (grid5.coords t) ↔ t.val = 0)
theorem hcond1 : ∀ t : Fin cfg5.N, cond1 (grid5.coords t) ↔ t.val = 9 :=
  (by decide +kernel : ∀ t : Fin grid5.N, cond1 (grid5.coords t) ↔ t.val = 9)

theorem hexcl : ∀ t : Fin cfg5.N, cond0 (grid5.coords t) → ¬cond1 (grid5.coords t) := by decide +kernel

theorem idleAt_6 : ∀ t : Fin cfg5.N, ¬cond1 (grid5.coords t) → cfg5.idle 6 (grid5.coords t) = true := by decide +kernel
theorem noFlush_6 : ∀ t : Fin cfg5.N, ¬cond1 (grid5.coords t) → (cfg5.win 6).flush t = false := by decide +kernel
theorem liveAt_6 : ∀ t : Fin cfg5.N, cond1 (grid5.coords t) → cfg5.idle 6 (grid5.coords t) = false := by decide +kernel

theorem PhiA_eq :
    (Pipeline.ΦA spec5 c : sProp 𝕄)
      = iprop(iprop((∃ d, owns (c : Thread nD τ) scM fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st5_0 t) fullShare ((dat W c).before 0 t d))
    ∗ (∃ d, owns (c : Thread nD τ) (st5_1 t) fullShare ((dat W c).before 1 t d))
    ∗ (∃ d, owns (c : Thread nD τ) (st5_2 t) fullShare ((dat W c).before 2 t d))
    ∗ (∃ d, owns (c : Thread nD τ) (st5_3 t) fullShare ((dat W c).before 3 t d))
    ∗ (∃ d, owns (c : Thread nD τ) (st5_4 t) fullShare ((dat W c).before 4 t d))
    ∗ (∃ d, owns (c : Thread nD τ) (st5_5 t) fullShare ((dat W c).before 5 t d))
    ∗ (∃ d, owns (c : Thread nD τ) (st5_6 t) fullShare ((dat W c).before 6 t d)))

def bodyPost : sProp 𝕄 :=
  iprop((dat W c).Φ t.succ ∗ (dat W c).owesAt () t.succ
    ∗ owns (c : Thread nD τ) (st5_0 t) fullShare ((dat W c).after 0 t)
    ∗ owns (c : Thread nD τ) (st5_1 t) fullShare ((dat W c).after 1 t)
    ∗ owns (c : Thread nD τ) (st5_2 t) fullShare ((dat W c).after 2 t)
    ∗ owns (c : Thread nD τ) (st5_3 t) fullShare ((dat W c).after 3 t)
    ∗ owns (c : Thread nD τ) (st5_4 t) fullShare ((dat W c).after 4 t)
    ∗ owns (c : Thread nD τ) (st5_5 t) fullShare ((dat W c).after 5 t)
    ∗ (dat W c).leavesExact 6 t)

theorem sound_body :
    bodyPre W c t ⊢ wp frame (wpE (defs₀ (F := F)) Variants.none c none) Set.univ (bodyAt5 t) (fun _ => bodyPost W c t) := by
  unfold bodyPre bodyPost bodyAt5
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid5.coords t) := (hcond0 t).mpr h0
    have hc1 : ¬cond1 (grid5.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid5.coords t) (st5_0 t) _ (st5_1 t) _ (st5_2 t) _ (st5_3 t) _ (st5_4 t) _ (st5_5 t) _ (st5_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid5.coords t) := fun h => h0 ((hcond0 t).mp h)
    rw [outsAt_pos W c t h0]; dsimp only; unfold hAt sAt
    rw [PhiS_pos W c _ _ h0]
    by_cases h9 : t.val = 9
    · have hc1 : cond1 (grid5.coords t) := (hcond1 t).mpr h9
      rw [show (dat W c).leavesExact 6 t = owns (c : Thread nD τ) (st5_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid5.coords t) (st5_0 t) _ (st5_1 t) _ (st5_2 t) _ (st5_3 t) _ (st5_4 t) _ (st5_5 t) _ (st5_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid5.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid5.coords t) (st5_0 t) _ (st5_1 t) _ (st5_2 t) _ (st5_3 t) _ (st5_4 t) _ (st5_5 t) _ (st5_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W5, bigSep_W5]
  exact sound_body W c t

end Cert.Kernel.Hand.R5

end
-- ==== Proof.K.R5.Seg.lean ====
import proofs.«412604_j76897094468164_1_alg».proof.Proof.K.R5.Body

set_option maxRecDepth 16384

noncomputable section

namespace Cert.Kernel.Hand.R5

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec5 c ⊢ (dat W c).Φ 0 := .rfl

theorem Phi_last (c : Dev nD) : (dat W c).Φ (Fin.last cfg5.N) ⊢ Pipeline.ΦA spec5 c := by
  rw [show (dat W c).Φ (Fin.last cfg5.N) = PhiS W c cfg5.N (Nat.le_refl _) from rfl,
    PhiS_pos W c _ _ (by rw [show cfg5.N = 10 from N_5]; decide)]
  unfold Pipeline.ΦA
  rw [scopedRest5_split, show (scM : Memref sig .tc .vmem S1x64 .f32) = Memref.whole cc5_scratch0 from rfl, owns_whole]
  iintro ⟨⟨HS, Hrest⟩, Hg⟩
  isplitl [HS Hrest]
  · isplitl [HS]; · iexists _; iexact HS
    iexact Hrest
  iexact Hg

end Cert.Kernel.Hand.R5

end
-- ==== Proof.K.R6.Run.lean ====
import proofs.«412604_j76897094468164_1_alg».proof.Proof.K.Whole
import Idealize.ShloMosaic.Lib.Pipeline.Value

set_option maxRecDepth 16384

noncomputable section

namespace Cert.Kernel.Hand.R6

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid6.Coords) : Prop :=
  (Scalar.cmpi .ne (Scalar.extui (Scalar.cmpi .eq (BitVec.ofNat 32 (i 0).val) 0#32)) 0#32) = 1#1
theorem hcondA : ∀ t : Fin cfg6.N, condA (grid6.coords t) ↔ t.val = 0 :=
  (by decide +kernel : ∀ t : Fin grid6.N, condA (grid6.coords t) ↔ t.val = 0)

abbrev condZ (i : grid6.Coords) : Prop := k6_cond2 i = 1#1
theorem hcondZ : ∀ t : Fin cfg6.N, condZ (grid6.coords t) ↔ t.val = 9 :=
  (by decide +kernel : ∀ t : Fin grid6.N, condZ (grid6.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k6_pay5 x w b)
            ∗ owns (c : Thread nD τ) arg5 fullShare (if condZ i then k6_pay1 (k6_pay6 x w b (if condA i then k6_pay3 else s)) else m)
            ∗ owns (c : Thread nD τ) arg6 fullShare (if condZ i then k6_pay2 (k6_pay6 x w b (if condA i then k6_pay3 else s)) (k6_pay7 x w b (if condA i then k6_pay4 else q)) else v)
            ∗ owns (c : Thread nD τ) arg7 fullShare (k6_pay6 x w b (if condA i then k6_pay3 else s)) ∗ owns (c : Thread nD τ) arg8 fullShare (k6_pay7 x w b (if condA i then k6_pay4 else q))) -∗ K ⟨⟩))
      ⊢ wp frame (wpE (defs₀ (F := F)) Variants.none c none) E (cc6__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc6__stage1_kernel_eq_skeleton]; unfold cc6__stage1_kernel_skel
    simp only [k6_part1_eq_skeleton]; unfold k6_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.Kernel.Hand.R6

end
-- ==== Proof.K.R6.Obl.lean ====
import proofs.«412604_j76897094468164_1_alg».proof.Proof.K.R6.Dat
import proofs.«412604_j76897094468164_1_alg».proof.Proof.K.R6.Run

set_option maxRecDepth 16384

noncomputable section

namespace Cert.Kernel.Hand.R6

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg6.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg6.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg6.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg6.N) (w : Fin cfg6.W), 4 ≤ w.val →
    (condZ (grid6.coords t) → cfg6.idle w (grid6.coords t) = false)
      ∧ (¬condZ (grid6.coords t) → cfg6.idle w (grid6.coords t) = true ∧ (cfg6.win w).flush t = false) := by
  decide +kernel

theorem leaves_live (c : Dev nD) (t : Fin cfg6.N) (w : Fin cfg6.W) (h : cfg6.idle w (grid6.coords t) = false) :
    (dat W c).leavesExact w t = owns (c : Thread nD τ) ((cfg6.win w).stage (cfg6.slots t w)) fullShare ((dat W c).after w t) := by
  unfold Dat.leavesExact; rw [h]

theorem leaves_out (c : Dev nD) (t : Fin cfg6.N) (w : Fin cfg6.W) (hw : 4 ≤ w.val) (d X) (hX : (dat W c).after w t = X) :
    owns (c : Thread nD τ) ((cfg6.win w).stage (cfg6.slots t w)) fullShare (if condZ (grid6.coords t) then X else (dat W c).before w t d)
      ⊢ (dat W c).leavesExact w t := by
  subst hX
  by_cases hZ : condZ (grid6.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec6 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scS, scQ, owns_whole]; try rfl

theorem outsAt_step (c : Dev nD) (t : Fin cfg6.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid6.coords t) then k6_pay3 else s) (if condA (grid6.coords t) then k6_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg6.N) :
    iprop((dat W c).Φ t.castSucc ∗ (dat W c).owesAt () t.castSucc
      ∗ (∃ d, owns (c : Thread nD τ) (st6_0 t) fullShare ((dat W c).before 0 t d))
      ∗ (∃ d, owns (c : Thread nD τ) (st6_1 t) fullShare ((dat W c).before 1 t d))
      ∗ (∃ d, owns (c : Thread nD τ) (st6_2 t) fullShare ((dat W c).before 2 t d))
      ∗ (∃ d, owns (c : Thread nD τ) (st6_3 t) fullShare ((dat W c).before 3 t d))
      ∗ (∃ d, owns (c : Thread nD τ) (st6_4 t) fullShare ((dat W c).before 4 t d))
      ∗ (∃ d, owns (c : Thread nD τ) (st6_5 t) fullShare ((dat W c).before 5 t d)))
    ⊢ wp frame (wpE (defs₀ (F := F)) Variants.none c none) Set.univ (bodyAt6 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt6
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k6_pay5 _ _ _ from congrArg (·.1) hO]
  iapply (run c Set.univ (grid6.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k6_pay1 _ from (after_4 W c t).trans (congrArg (·.2.1) hO))); iexact H4
  iapply (leaves_out W c t 5 (by decide) d5 _ (show _ = k6_pay2 _ _ from (after_5 W c t).trans (congrArg (·.2.2.1) hO))); iexact H5

theorem body_obligation (c : Dev nD) : BodyObligation (dat (F := F) W c) (defs₀ (F := F)) Variants.none () Set.univ := fun t => by
  rw [bigSep_W6, bigSep_W6]
  exact sound_body W c t

theorem Phi_in (c : Dev nD) : Pipeline.ΦA spec6 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg6.N) ⊢ Pipeline.ΦA spec6 c := by
  rw [show (dat W c).Φ (Fin.last cfg6.N) = PhiS W c cfg6.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.Kernel.Hand.R6

end
-- ==== Proof.K.R7.Run.lean ====
import proofs.«412604_j76897094468164_1_alg».proof.Proof.K.Whole

set_option maxRecDepth 16384

noncomputable section

namespace Cert.Kernel.Hand.R7

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid7.Coords) : Prop :=
  (Scalar.cmpi .ne (Scalar.extui (Scalar.cmpi .eq (BitVec.ofNat 32 (i 0).val) 0#32)) 0#32) = 1#1
theorem hcondFirst : ∀ t : Fin cfg7.N, condFirst (grid7.coords t) ↔ t.val % 10 = 0 :=
  (by decide +kernel : ∀ t : Fin grid7.N, condFirst (grid7.coords t) ↔ t.val % 10 = 0)

abbrev condLast (i : grid7.Coords) : Prop := k7_cond2 i = 1#1
theorem hcondLast : ∀ t : Fin cfg7.N, condLast (grid7.coords t) ↔ t.val % 10 = 9 :=
  (by decide +kernel : ∀ t : Fin grid7.N, condLast (grid7.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid7.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) (k7_pay5 (F := F))) (k7_pay2 (k7_pay7 x0 x1 x2 x3 x4 x5 x6) (k7_pay6 (F := F))) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) s0) (k7_pay2 (k7_pay7 x0 x1 x2 x3 x4 x5 x6) s1) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) s0) (k7_pay2 (k7_pay7 x0 x1 x2 x3 x4 x5 x6) s1)
            ∗ owns (c : Thread nD τ) arg9 fullShare (k7_pay3 (k7_pay1 (k7_pay7 x0 x1 x2 x3 x4 x5 x6) s0))
            ∗ owns (c : Thread nD τ) arg10 fullShare (k7_pay4 (k7_pay1 (k7_pay7 x0 x1 x2 x3 x4 x5 x6) s0) (k7_pay2 (k7_pay7 x0 x1 x2 x3 x4 x5 x6) s1))) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.Kernel.Hand.R7

end
-- ==== Proof.K.R7.Body.lean ====
import proofs.«412604_j76897094468164_1_alg».proof.Proof.K.R7.Dat
import proofs.«412604_j76897094468164_1_alg».proof.Proof.K.R7.Run

set_option maxRecDepth 16384

noncomputable section

namespace Cert.Kernel.Hand.R7

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg7.N, ¬condLast (grid7.coords t) → (cfg7.idle 8 (grid7.coords t) = true ∧ (cfg7.win 8).flush t = false) ∧ cfg7.idle 9 (grid7.coords t) = true ∧ (cfg7.win 9).flush t = false := by decide +kernel
theorem on89 : ∀ t : Fin cfg7.N, condLast (grid7.coords t) → cfg7.idle 8 (grid7.coords t) = false ∧ cfg7.idle 9 (grid7.coords t) = false := by decide +kernel

theorem before_0 (c : Dev nD) (t : Fin cfg7.N) (d) : (dat W c).before 0 t d = iblk W c 0 t :=
  ((dat W c).before_in_eq_fetched 0 rfl (fun _ => rfl) (fun _ _ _ => rfl) (fun _ => rfl) t d).trans rfl
theorem before_1 (c : Dev nD) (t : Fin cfg7.N) (d) : (dat W c).before 1 t d = iblk W c 1 t :=
  ((dat W c).before_in_eq_fetched 1 rfl (fun _ => rfl) (fun _ _ _ => rfl) (fun _ => rfl) t d).trans rfl
theorem before_2 (c : Dev nD) (t : Fin cfg7.N) (d) : (dat W c).before 2 t d = iblk W c 2 t :=
  ((dat W c).before_in_eq_fetched 2 rfl (fun _ => rfl) (fun _ _ _ => rfl) (fun _ => rfl) t d).trans rfl
theorem before_3 (c : Dev nD) (t : Fin cfg7.N) (d) : (dat W c).before 3 t d = iblk W c 3 t :=
  ((dat W c).before_in_eq_fetched 3 rfl (fun _ => rfl) (fun _ _ _ => rfl) (fun _ => rfl) t d).trans rfl
theorem before_4 (c : Dev nD) (t : Fin cfg7.N) (d) : (dat W c).before 4 t d = iblk W c 4 t :=
  ((dat W c).before_in_eq_fetched 4 rfl (fun _ => rfl) (fun _ _ _ => rfl) (fun _ => rfl) t d).trans rfl
theorem before_5 (c : Dev nD) (t : Fin cfg7.N) (d) : (dat W c).before 5 t d = iblk W c 5 t :=
  ((dat W c).before_in_eq_fetched 5 rfl (fun _ => rfl) (fun _ _ _ => rfl) (fun _ => rfl) t d).trans rfl
theorem before_6 (c : Dev nD) (t : Fin cfg7.N) (d) : (dat W c).before 6 t d = iblk W c 6 t :=
  ((dat W c).before_in_eq_fetched 6 rfl (fun _ => rfl) (fun _ _ _ => rfl) (fun _ => rfl) t d).trans rfl

abbrev ms_0 (t : Fin cfg7.N) := win7_0.stage (cfg7.slots t 0)
abbrev ms_1 (t : Fin cfg7.N) := win7_1.stage (cfg7.slots t 1)
abbrev ms_2 (t : Fin cfg7.N) := win7_2.stage (cfg7.slots t 2)
abbrev ms_3 (t : Fin cfg7.N) := win7_3.stage (cfg7.slots t 3)
abbrev ms_4 (t : Fin cfg7.N) := win7_4.stage (cfg7.slots t 4)
abbrev ms_5 (t : Fin cfg7.N) := win7_5.stage (cfg7.slots t 5)
abbrev ms_6 (t : Fin cfg7.N) := win7_6.stage (cfg7.slots t 6)
abbrev ms_7 (t : Fin cfg7.N) := win7_7.stage (cfg7.slots t 7)
abbrev ms_8 (t : Fin cfg7.N) := win7_8.stage (cfg7.slots t 8)
abbrev ms_9 (t : Fin cfg7.N) := win7_9.stage (cfg7.slots t 9)

def bodyPre (c : Dev nD) (t : Fin cfg7.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg7.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg7.N) :
    bodyPre W c t ⊢ wp frame (wpE (defs₀ (F := F)) Variants.none c none) Set.univ (bodyAt7 t) (fun _ => bodyPost W c t) := by
  unfold bodyPre bodyPost bodyAt7
  simp only [before_0, before_1, before_2, before_3, before_4, before_5, before_6]
  rw [PhiS]
  have hN : t.val < 10 := lt_of_lt_of_eq t.isLt (show cfg7.N = 10 from N_7)
  by_cases h0 : t.val % 10 = 0
  · have ht0 : t.val = 0 := by omega
    have hcl : ¬condLast (grid7.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid7.coords t) := fun h => h0 ((hcondFirst t).mp h)
    rw [PhiS_pos W c _ _ ht0]
    by_cases h1 : t.val % 10 = 9
    · have hcl : condLast (grid7.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid7.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W7, bigSep_W7]
  exact sound_body W c t

end Cert.Kernel.Hand.R7

end
-- ==== Proof.K.R7.Seg.lean ====
import proofs.«412604_j76897094468164_1_alg».proof.Proof.K.R7.Body

set_option maxRecDepth 16384

noncomputable section

namespace Cert.Kernel.Hand.R7

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec7 c ⊢ (dat W c).Φ 0 := .rfl

theorem Phi_out (c : Dev nD) (t : Fin (cfg7.N + 1)) (ht : t.val ≠ 0) : (dat W c).Φ t ⊢ Pipeline.ΦA spec7 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg7.N) ⊢ Pipeline.ΦA spec7 c :=
  Phi_out W c _ (by rw [Fin.val_last]; have : cfg7.N = 10 := N_7; omega)

end Cert.Kernel.Hand.R7

end
-- ==== Proof.K.R8.Run.lean ====
import proofs.«412604_j76897094468164_1_alg».proof.Proof.K.Family
import proofs.«412604_j76897094468164_1_alg».proof.Proof.K.Whole
import Idealize.ShloMosaic.Lib.Pipeline.Value

set_option maxRecDepth 16384

noncomputable section

namespace Cert.Kernel.Hand.R8

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid8.Coords) : Prop :=
  (Scalar.cmpi .ne (Scalar.extui (Scalar.cmpi .eq (BitVec.ofNat 32 (i 0).val) 0#32)) 0#32) = 1#1
abbrev cond1 (i : grid8.Coords) : Prop := k8_cond2 i = 1#1

variable (c : Dev nD) (E : Set ℕ) (i : grid8.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k8_pay1 ∨ ¬cond0 i ∧ s₀ = s)
    (h1 : cond1 i ∧ y6' = k8_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k8_pay2 x0 x1 x2 x3 x4) y6' (k8_pay3 x0 x1 x2 x3 x4 s₀) -∗ K ⟨⟩))
      ⊢ wp frame (wpE (defs₀ (F := F)) Variants.none c none) E
          (cc8__stage3_kernel i arg1 harg1 arg2 harg2 arg3 harg3 arg4 harg4 arg5 harg5 arg6 harg6 arg7 harg7 arg8 harg8) K := by
  simp only [cc8__stage3_kernel_eq_skeleton]; unfold cc8__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.Kernel.Hand.R8

end
-- ==== Proof.K.R8.Body.lean ====
import proofs.«412604_j76897094468164_1_alg».proof.Proof.K.R8.Dat
import proofs.«412604_j76897094468164_1_alg».proof.Proof.K.R8.Run

set_option maxRecDepth 16384

noncomputable section

namespace Cert.Kernel.Hand.R8

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg8.N)

theorem hcond0 : ∀ t : Fin cfg8.N, cond0 (grid8.coords t) ↔ t.val = 0 :=
  (by decide +kernel : ∀ t : Fin grid8.N, cond0 (grid8.coords t) ↔ t.val = 0)
theorem hcond1 : ∀ t : Fin cfg8.N, cond1 (grid8.coords t) ↔ t.val = 9 :=
  (by decide +kernel : ∀ t : Fin grid8.N, cond1 (grid8.coords t) ↔ t.val = 9)

theorem hexcl : ∀ t : Fin cfg8.N, cond0 (grid8.coords t) → ¬cond1 (grid8.coords t) := by decide +kernel

theorem idleAt_6 : ∀ t : Fin cfg8.N, ¬cond1 (grid8.coords t) → cfg8.idle 6 (grid8.coords t) = true := by decide +kernel
theorem noFlush_6 : ∀ t : Fin cfg8.N, ¬cond1 (grid8.coords t) → (cfg8.win 6).flush t = false := by decide +kernel
theorem liveAt_6 : ∀ t : Fin cfg8.N, cond1 (grid8.coords t) → cfg8.idle 6 (grid8.coords t) = false := by decide +kernel

theorem PhiA_eq :
    (Pipeline.ΦA spec8 c : sProp 𝕄)
      = iprop(iprop((∃ d, owns (c : Thread nD τ) scM fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st8_0 t) fullShare ((dat W c).before 0 t d))
    ∗ (∃ d, owns (c : Thread nD τ) (st8_1 t) fullShare ((dat W c).before 1 t d))
    ∗ (∃ d, owns (c : Thread nD τ) (st8_2 t) fullShare ((dat W c).before 2 t d))
    ∗ (∃ d, owns (c : Thread nD τ) (st8_3 t) fullShare ((dat W c).before 3 t d))
    ∗ (∃ d, owns (c : Thread nD τ) (st8_4 t) fullShare ((dat W c).before 4 t d))
    ∗ (∃ d, owns (c : Thread nD τ) (st8_5 t) fullShare ((dat W c).before 5 t d))
    ∗ (∃ d, owns (c : Thread nD τ) (st8_6 t) fullShare ((dat W c).before 6 t d)))

def bodyPost : sProp 𝕄 :=
  iprop((dat W c).Φ t.succ ∗ (dat W c).owesAt () t.succ
    ∗ owns (c : Thread nD τ) (st8_0 t) fullShare ((dat W c).after 0 t)
    ∗ owns (c : Thread nD τ) (st8_1 t) fullShare ((dat W c).after 1 t)
    ∗ owns (c : Thread nD τ) (st8_2 t) fullShare ((dat W c).after 2 t)
    ∗ owns (c : Thread nD τ) (st8_3 t) fullShare ((dat W c).after 3 t)
    ∗ owns (c : Thread nD τ) (st8_4 t) fullShare ((dat W c).after 4 t)
    ∗ owns (c : Thread nD τ) (st8_5 t) fullShare ((dat W c).after 5 t)
    ∗ (dat W c).leavesExact 6 t)

theorem sound_body :
    bodyPre W c t ⊢ wp frame (wpE (defs₀ (F := F)) Variants.none c none) Set.univ (bodyAt8 t) (fun _ => bodyPost W c t) := by
  unfold bodyPre bodyPost bodyAt8
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid8.coords t) := (hcond0 t).mpr h0
    have hc1 : ¬cond1 (grid8.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid8.coords t) (st8_0 t) _ (st8_1 t) _ (st8_2 t) _ (st8_3 t) _ (st8_4 t) _ (st8_5 t) _ (st8_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid8.coords t) := fun h => h0 ((hcond0 t).mp h)
    rw [outsAt_pos W c t h0]; dsimp only; unfold hAt sAt
    rw [PhiS_pos W c _ _ h0]
    by_cases h9 : t.val = 9
    · have hc1 : cond1 (grid8.coords t) := (hcond1 t).mpr h9
      rw [show (dat W c).leavesExact 6 t = owns (c : Thread nD τ) (st8_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid8.coords t) (st8_0 t) _ (st8_1 t) _ (st8_2 t) _ (st8_3 t) _ (st8_4 t) _ (st8_5 t) _ (st8_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid8.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid8.coords t) (st8_0 t) _ (st8_1 t) _ (st8_2 t) _ (st8_3 t) _ (st8_4 t) _ (st8_5 t) _ (st8_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W8, bigSep_W8]
  exact sound_body W c t

end Cert.Kernel.Hand.R8

end
-- ==== Proof.K.R8.Seg.lean ====
import proofs.«412604_j76897094468164_1_alg».proof.Proof.K.R8.Body

set_option maxRecDepth 16384

noncomputable section

namespace Cert.Kernel.Hand.R8

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec8 c ⊢ (dat W c).Φ 0 := .rfl

theorem Phi_last (c : Dev nD) : (dat W c).Φ (Fin.last cfg8.N) ⊢ Pipeline.ΦA spec8 c := by
  rw [show (dat W c).Φ (Fin.last cfg8.N) = PhiS W c cfg8.N (Nat.le_refl _) from rfl,
    PhiS_pos W c _ _ (by rw [show cfg8.N = 10 from N_8]; decide)]
  unfold Pipeline.ΦA
  rw [scopedRest8_split, show (scM : Memref sig .tc .vmem S1x64 .f32) = Memref.whole cc8_scratch0 from rfl, owns_whole]
  iintro ⟨⟨HS, Hrest⟩, Hg⟩
  isplitl [HS Hrest]
  · isplitl [HS]; · iexists _; iexact HS
    iexact Hrest
  iexact Hg

end Cert.Kernel.Hand.R8

end
-- ==== Proof.K.Frame.lean ====
import proofs.«412604_j76897094468164_1_alg».proof.Proof.K.Bounds
import proofs.«412604_j76897094468164_1_alg».proof.Proof.K.Seg
import proofs.«412604_j76897094468164_1_alg».proof.Proof.K.R0.Obl
import proofs.«412604_j76897094468164_1_alg».proof.Proof.K.R1.Seg
import proofs.«412604_j76897094468164_1_alg».proof.Proof.K.R2.Seg
import proofs.«412604_j76897094468164_1_alg».proof.Proof.K.R3.Obl
import proofs.«412604_j76897094468164_1_alg».proof.Proof.K.R4.Seg
import proofs.«412604_j76897094468164_1_alg».proof.Proof.K.R5.Seg
import proofs.«412604_j76897094468164_1_alg».proof.Proof.K.R6.Obl
import proofs.«412604_j76897094468164_1_alg».proof.Proof.K.R7.Seg
import proofs.«412604_j76897094468164_1_alg».proof.Proof.K.R8.Seg
import Idealize.ShloMosaic.Lib.Pipeline.Kit
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => Rst c) : sProp 𝕄) := by
  refine Pipeline.initEach L lv fun c => ?_
  iintro ⟨⟨-, HO, -, Hp, -⟩, -⟩
  imodintro
  isplitl [Hp]; · iexists _; iexact Hp
  iexists ∅; iexact HO

theorem hE9 (c : Dev nD) : (Rst c : sProp 𝕄) ⊢ iprop(∃ W, owes (c : Thread nD τ) (0 : CellTallies nD τ sig Unit) W) := by
  iintro ⟨-, HO⟩; iexact HO

variable (m : (ℓ : Loc nD τ sig) → Buf (Elt F) ℓ)

abbrev reg0 : Pipeline.RegionSeg (pcfgs (F := F)) adm (pdats m) () defs₀ 𝒱₀ L lv (0 : Fin 9) :=
  mkReg 0 (pdats m) launch0 (W1 m) (R0.Wexit (W1 m)) (fun _ _ => rfl) (fun _ _ => rfl) (fun _ _ => rfl) (fun _ _ => rfl)
    (R0.body_obligation (W1 m)) (R0.Phi_in (W1 m)) (R0.Phi_last (W1 m)) (fun c w => (R0.Wexit_arr (W1 m) c w).symm) (R0.Wexit_of_ne (W1 m))

abbrev reg1 : Pipeline.RegionSeg (pcfgs (F := F)) adm (pdats m) () defs₀ 𝒱₀ L lv (1 : Fin 9) :=
  mkReg 1 (pdats m) launch1 (W3 m) (R1.Wexit (W3 m)) (fun _ _ => rfl) (fun _ _ => rfl) (fun _ _ => rfl) (fun _ _ => rfl)
    (R1.body_obligation (W3 m)) (R1.Phi_in (W3 m)) (R1.Phi_last (W3 m)) (fun c w => (R1.Wexit_arr (W3 m) c w).symm) (R1.Wexit_of_ne (W3 m))

abbrev reg2 : Pipeline.RegionSeg (pcfgs (F := F)) adm (pdats m) () defs₀ 𝒱₀ L lv (2 : Fin 9) :=
  mkReg 2 (pdats m) launch2 (W4 m) (R2.Wexit (W4 m)) (fun _ _ => rfl) (fun _ _ => rfl) (fun _ _ => rfl) (fun _ _ => rfl)
    (R2.body_obligation (W4 m)) (R2.Phi_in (W4 m)) (R2.Phi_last (W4 m)) (fun c w => (R2.Wexit_arr (W4 m) c w).symm) (R2.Wexit_of_ne (W4 m))

abbrev reg3 : Pipeline.RegionSeg (pcfgs (F := F)) adm (pdats m) () defs₀ 𝒱₀ L lv (3 : Fin 9) :=
  mkReg 3 (pdats m) launch3 (W6 m) (R3.Wexit (W6 m)) (fun _ _ => rfl) (fun _ _ => rfl) (fun _ _ => rfl) (fun _ _ => rfl)
    (R3.body_obligation (W6 m)) (R3.Phi_in (W6 m)) (R3.Phi_last (W6 m)) (fun c w => (R3.Wexit_arr (W6 m) c w).symm) (R3.Wexit_of_ne (W6 m))

abbrev reg4 : Pipeline.RegionSeg (pcfgs (F := F)) adm (pdats m) () defs₀ 𝒱₀ L lv (4 : Fin 9) :=
  mkReg 4 (pdats m) launch4 (W8 m) (R4.Wexit (W8 m)) (fun _ _ => rfl) (fun _ _ => rfl) (fun _ _ => rfl) (fun _ _ => rfl)
    (R4.body_obligation (W8 m)) (R4.Phi_in (W8 m)) (R4.Phi_last (W8 m)) (fun c w => (R4.Wexit_arr (W8 m) c w).symm) (R4.Wexit_of_ne (W8 m))

abbrev reg5 : Pipeline.RegionSeg (pcfgs (F := F)) adm (pdats m) () defs₀ 𝒱₀ L lv (5 : Fin 9) :=
  mkReg 5 (pdats m) launch5 (W9 m) (R5.Wexit (W9 m)) (fun _ _ => rfl) (fun _ _ => rfl) (fun _ _ => rfl) (fun _ _ => rfl)
    (R5.body_obligation (W9 m)) (R5.Phi_in (W9 m)) (R5.Phi_last (W9 m)) (fun c w => (R5.Wexit_arr (W9 m) c w).symm) (R5.Wexit_of_ne (W9 m))

abbrev reg6 : Pipeline.RegionSeg (pcfgs (F := F)) adm (pdats m) () defs₀ 𝒱₀ L lv (6 : Fin 9) :=
  mkReg 6 (pdats m) launch6 (W11 m) (R6.Wexit (W11 m)) (fun _ _ => rfl) (fun _ _ => rfl) (fun _ _ => rfl) (fun _ _ => rfl)
    (R6.body_obligation (W11 m)) (R6.Phi_in (W11 m)) (R6.Phi_last (W11 m)) (fun c w => (R6.Wexit_arr (W11 m) c w).symm) (R6.Wexit_of_ne (W11 m))

abbrev reg7 : Pipeline.RegionSeg (pcfgs (F := F)) adm (pdats m) () defs₀ 𝒱₀ L lv (7 : Fin 9) :=
  mkReg 7 (pdats m) launch7 (W13 m) (R7.Wexit (W13 m)) (fun _ _ => rfl) (fun _ _ => rfl) (fun _ _ => rfl) (fun _ _ => rfl)
    (R7.body_obligation (W13 m)) (R7.Phi_in (W13 m)) (R7.Phi_last (W13 m)) (fun c w => (R7.Wexit_arr (W13 m) c w).symm) (R7.Wexit_of_ne (W13 m))

abbrev reg8 : Pipeline.RegionSeg (pcfgs (F := F)) adm (pdats m) () defs₀ 𝒱₀ L lv (8 : Fin 9) :=
  mkReg 8 (pdats m) launch8 (W14 m) (R8.Wexit (W14 m)) (fun _ _ => rfl) (fun _ _ => rfl) (fun _ _ => rfl) (fun _ _ => rfl)
    (R8.body_obligation (W14 m)) (R8.Phi_in (W14 m)) (R8.Phi_last (W14 m)) (fun c w => (R8.Wexit_arr (W14 m) c w).symm) (R8.Wexit_of_ne (W14 m))

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (emb₁) () 𝒱₀ L lv (fun _ _ => rfl) ρ (outs m) (pdats m) (fun _ => 0) (fun _ => iprop(emp)) u₀ hu₀
    (fun _ c => Rst c) (hE0 ρ) hE9
    (reg0 m) (fun c => by exact .rfl) (fun c => by rw [V2_eq m c]; exact .rfl)
    (reg1 m) (fun c => by rw [V3_eq m c]; exact .rfl) (fun c => by rw [V4_eq m c]; exact .rfl)
    (reg2 m) (fun c => by rw [V4_eq m c]; exact .rfl) (fun c => by rw [V5_eq m c]; exact .rfl)
    (reg3 m) (fun c => by rw [V6_eq m c]; exact .rfl) (fun c => by rw [V7_eq m c]; exact .rfl)
    (reg4 m) (fun c => by rw [V8_eq m c]; exact .rfl) (fun c => by rw [V9_eq m c]; exact .rfl)
    (reg5 m) (fun c => by rw [V9_eq m c]; exact .rfl) (fun c => by rw [V10_eq m c]; exact .rfl)
    (reg6 m) (fun c => by rw [V11_eq m c]; exact .rfl) (fun c => by rw [V12_eq m c]; exact .rfl)
    (reg7 m) (fun c => by rw [V13_eq m c]; exact .rfl) (fun c => by rw [V14_eq m c]; exact .rfl)
    (reg8 m) (fun c => by rw [V14_eq m c]; exact .rfl) (fun c => by rw [V15_eq m c]; exact .rfl)

end Cert.Kernel.Hand

end
-- ==== Proof.KI.Family.lean ====
import proofs.«412604_j76897094468164_1_alg».proof.Proof.Gen.KernelIdeal.Regions
import proofs.«412604_j76897094468164_1_alg».proof.Proof.Gen.KernelIdeal.Skeleton
import proofs.«412604_j76897094468164_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev DatOf (p : Fin 9) (c : Dev nD) : Type _ := Dat τ (Elt F) Unit ℕ (UR sig nD τ) ℕ (cfgs p) c

def pdatsOf
    (d0 : (c : Dev nD) → Dat τ (Elt F) Unit ℕ (UR sig nD τ) ℕ cfg0 c)
    (d1 : (c : Dev nD) → Dat τ (Elt F) Unit ℕ (UR sig nD τ) ℕ cfg1 c)
    (d2 : (c : Dev nD) → Dat τ (Elt F) Unit ℕ (UR sig nD τ) ℕ cfg2 c)
    (d3 : (c : Dev nD) → Dat τ (Elt F) Unit ℕ (UR sig nD τ) ℕ cfg3 c)
    (d4 : (c : Dev nD) → Dat τ (Elt F) Unit ℕ (UR sig nD τ) ℕ cfg4 c)
    (d5 : (c : Dev nD) → Dat τ (Elt F) Unit ℕ (UR sig nD τ) ℕ cfg5 c)
    (d6 : (c : Dev nD) → Dat τ (Elt F) Unit ℕ (UR sig nD τ) ℕ cfg6 c)
    (d7 : (c : Dev nD) → Dat τ (Elt F) Unit ℕ (UR sig nD τ) ℕ cfg7 c)
    (d8 : (c : Dev nD) → Dat τ (Elt F) Unit ℕ (UR sig nD τ) ℕ cfg8 c) :
    (p : Fin 9) → (c : Dev nD) → Dat τ (Elt F) Unit ℕ (UR sig nD τ) ℕ (cfgs p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7
  | ⟨8, _⟩ => d8

abbrev 𝒱₀ : Variants := Variants.none

abbrev L : GSem nD τ sig → Finset Unit := fun _ => ∅
abbrev lv : GSem nD τ sig → Unit → ℕ := fun _ _ => 0

abbrev Rst (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Hand

end
-- ==== Proof.KI.R0.Dat.lean ====
import proofs.«412604_j76897094468164_1_alg».proof.Proof.KI.Family

set_option maxRecDepth 16384

noncomputable section

namespace Cert.KernelIdeal.Hand.R0

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k0_pay5 x w b,
   k0_pay1 (k0_pay6 x w b s),
   k0_pay2 (k0_pay6 x w b s) (k0_pay7 x w b q),
   k0_pay6 x w b s,
   k0_pay7 x w b q)

def outsAt (c : Dev nD) : (n : ℕ) → n < cfg0.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k0_pay3 (F := F)) (k0_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg0.N) :
    outsAt W c 0 hn = stepOuts (iblk W c 0 ⟨0, hn⟩) (iblk W c 1 ⟨0, hn⟩) (iblk W c 2 ⟨0, hn⟩) (k0_pay3 (F := F)) (k0_pay4 (F := F)) := rfl

theorem outsAt_succ (c : Dev nD) (n : ℕ) (hn : n + 1 < cfg0.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc0_scratch0
abbrev scQ : Memref sig .tc .vmem S1x64 .f32 := Memref.whole cc0_scratch1

def PhiS (c : Dev nD) (n : ℕ) (hn : n ≤ cfg0.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec0 c [cc0_scratch0, cc0_scratch1])
    ∗ (∃ r, prngReg c r))

def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg0.W) : (dat W c).A w = V W c (Pipeline.arrRef spec0 w) := by
  dsimp only [dat]

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = (outsAt W c t.val t.isLt).1 := by dsimp only [dat]
theorem after_4 (c : Dev nD) (t : Fin cfg0.N) : (dat W c).after 4 t = (outsAt W c t.val t.isLt).2.1 := by dsimp only [dat]
theorem after_5 (c : Dev nD) (t : Fin cfg0.N) : (dat W c).after 5 t = (outsAt W c t.val t.isLt).2.2.1 := by dsimp only [dat]

def Wexit (c : Dev nD) : Valuation τ sig (Elt F) :=
  Pipeline.withArrays spec0 c (W c) fun w => (dat W c).arrAt w cfg0.N

theorem Wexit_arr (c : Dev nD) (w : Fin cfg0.W) :
    Wexit W c (Proc.devRef .tc (Pipeline.arrRef spec0 w)) = (dat W c).arrAt w cfg0.N := by
  unfold Wexit; exact Pipeline.withArrays_arr spec0 launch0.win.arr_inj c _ _ w

theorem Wexit_of_ne (c : Dev nD) (b : Ref sig .tc) (hb : ∀ w, Pipeline.arrRef spec0 w ≠ b) :
    Wexit W c (Proc.devRef .tc b) = W c (Proc.devRef .tc b) := by
  unfold Wexit; exact Pipeline.withArrays_of_ne spec0 c _ _ b hb

end Cert.KernelIdeal.Hand.R0

end
-- ==== Proof.KI.R1.Dat.lean ====
import proofs.«412604_j76897094468164_1_alg».proof.Proof.KI.Family

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

def relu (c : Dev nD) (t : Fin cfg1.N) : Vec F S10000x64 .f32 :=
  k1_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k1_pay3 (k1_pay1 r s0), k1_pay4 (k1_pay1 r s0) (k1_pay2 r s1), k1_pay1 r s0, k1_pay2 r s1)

def outsAt (c : Dev nD) : (n : ℕ) → n < cfg1.N →
    Vec F S10000x64 .f32 × Vec F S1x64 .f32 × Vec F S1x64 .f32 × Vec F S1x64 .f32 × Vec F S1x64 .f32
  | 0, hn => step (relu W c ⟨0, hn⟩) (k1_pay5 (F := F)) (k1_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg1.N) :
    outsAt W c 0 hn = step (relu W c ⟨0, hn⟩) (k1_pay5 (F := F)) (k1_pay6 (F := F)) := rfl

theorem outsAt_succ (c : Dev nD) (n : ℕ) (hn : n + 1 < cfg1.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg1.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg1.N) (ht : t.val = 0) :
    outsAt W c t.val t.isLt = step (relu W c t) (k1_pay5 (F := F)) (k1_pay6 (F := F)) := by
  obtain ⟨n, hn⟩ := t
  cases n with
  | zero => rfl
  | succ n => exact absurd ht (Nat.succ_ne_zero n)

abbrev scM0 : Memref sig .tc .vmem S1x64 .f32 := Memref.whole cc1_scratch0
abbrev scM1 : Memref sig .tc .vmem S1x64 .f32 := Memref.whole cc1_scratch1

def PhiS (c : Dev nD) : (n : ℕ) → n ≤ cfg1.N → sProp 𝕄
  | 0, _ => Pipeline.ΦA spec1 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec1 c [cc1_scratch0, cc1_scratch1])
      ∗ (∃ r, prngReg c r))

theorem PhiS_zero (c : Dev nD) (n : ℕ) (h : n ≤ cfg1.N) (hz : n = 0) : PhiS W c n h = Pipeline.ΦA spec1 c := by
  subst hz; rfl

theorem PhiS_pos (c : Dev nD) (n : ℕ) (h : n ≤ cfg1.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

theorem PhiA_eq (c : Dev nD) :
    (Pipeline.ΦA spec1 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM0, scM1, owns_whole]; try rfl

def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg1.W) : (dat W c).A w = V W c (Pipeline.arrRef spec1 w) := by
  dsimp only [dat]

theorem after_7 (c : Dev nD) (t : Fin cfg1.N) : (dat W c).after 7 t = (outsAt W c t.val t.isLt).1 := by dsimp only [dat]
theorem after_8 (c : Dev nD) (t : Fin cfg1.N) : (dat W c).after 8 t = (outsAt W c t.val t.isLt).2.1 := by dsimp only [dat]
theorem after_9 (c : Dev nD) (t : Fin cfg1.N) : (dat W c).after 9 t = (outsAt W c t.val t.isLt).2.2.1 := by dsimp only [dat]

def Wexit (c : Dev nD) : Valuation τ sig (Elt F) :=
  Pipeline.withArrays spec1 c (W c) fun w => (dat W c).arrAt w cfg1.N

theorem Wexit_arr (c : Dev nD) (w : Fin cfg1.W) :
    Wexit W c (Proc.devRef .tc (Pipeline.arrRef spec1 w)) = (dat W c).arrAt w cfg1.N := by
  unfold Wexit; exact Pipeline.withArrays_arr spec1 launch1.win.arr_inj c _ _ w

theorem Wexit_of_ne (c : Dev nD) (b : Ref sig .tc) (hb : ∀ w, Pipeline.arrRef spec1 w ≠ b) :
    Wexit W c (Proc.devRef .tc b) = W c (Proc.devRef .tc b) := by
  unfold Wexit; exact Pipeline.withArrays_of_ne spec1 c _ _ b hb

end Cert.KernelIdeal.Hand.R1

end
-- ==== Proof.KI.R2.Dat.lean ====
import proofs.«412604_j76897094468164_1_alg».proof.Proof.KI.Family

set_option maxRecDepth 16384

noncomputable section

namespace Cert.KernelIdeal.Hand.R2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg2.W) (t : Fin cfg2.N) : ((cfg2.win w).xblock (cfg2.grid.coords t)).Idx → Elt F (cfg2.win w).elt :=
  ((cfg2.win w).blk t).view.read (Elt F) (V W c (Pipeline.arrRef spec2 w))

abbrev scM : Memref sig .tc .vmem S1x64 .f32 := Memref.whole cc2_scratch0

def hAt (t : Fin cfg2.N) : Vec F S10000x64 .f32 :=
  k2_pay2 (iblk W c 0 t) (iblk W c 1 t) (iblk W c 2 t) (iblk W c 3 t) (iblk W c 4 t)

def sAt (t : Fin cfg2.N) (s : Vec F S1x64 .f32) : Vec F S1x64 .f32 :=
  k2_pay3 (iblk W c 0 t) (iblk W c 1 t) (iblk W c 2 t) (iblk W c 3 t) (iblk W c 4 t) s

def outsAt : (n : ℕ) → n < cfg2.N → Vec F S10000x64 .f32 × Vec F S1x64 .f32 × Vec F S1x64 .f32
  | 0, hn => (hAt W c ⟨0, hn⟩, sAt W c ⟨0, hn⟩ (k2_pay1 (F := F)), sAt W c ⟨0, hn⟩ (k2_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg2.N) :
    outsAt W c 0 hn = (hAt W c ⟨0, hn⟩, sAt W c ⟨0, hn⟩ (k2_pay1 (F := F)), sAt W c ⟨0, hn⟩ (k2_pay1 (F := F))) := rfl

theorem outsAt_succ (n : ℕ) (hn : n + 1 < cfg2.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg2.N) : (outsAt W c n hn).2.1 = (outsAt W c n hn).2.2 := by
  cases n <;> rfl

theorem outsAt_pos (t : Fin cfg2.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg2.N) (ht : t.val = 0) :
    outsAt W c t.val t.isLt = (hAt W c t, sAt W c t (k2_pay1 (F := F)), sAt W c t (k2_pay1 (F := F))) := by
  obtain ⟨_ | n, hn⟩ := t
  exacts [rfl, absurd ht (Nat.succ_ne_zero _)]

def PhiS : (n : ℕ) → n ≤ cfg2.N → sProp 𝕄
  | 0, _ => Pipeline.ΦA spec2 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec2 c [cc2_scratch0]) ∗ (∃ r, prngReg c r))

theorem PhiS_zero (n : ℕ) (h : n ≤ cfg2.N) (hz : n = 0) : PhiS W c n h = Pipeline.ΦA spec2 c := by
  subst hz; rfl

theorem PhiS_succ (n : ℕ) (hn : n < cfg2.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec2 c [cc2_scratch0]) ∗ (∃ r, prngReg c r)) := rfl

theorem PhiS_pos (n : ℕ) (h : n ≤ cfg2.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg2.W) : (dat W c).A w = V W c (Pipeline.arrRef spec2 w) := by
  dsimp only [dat]

theorem after_0 (t : Fin cfg2.N) : (dat W c).after 0 t = iblk W c 0 t := by dsimp only [dat]
theorem after_1 (t : Fin cfg2.N) : (dat W c).after 1 t = iblk W c 1 t := by dsimp only [dat]
theorem after_2 (t : Fin cfg2.N) : (dat W c).after 2 t = iblk W c 2 t := by dsimp only [dat]
theorem after_3 (t : Fin cfg2.N) : (dat W c).after 3 t = iblk W c 3 t := by dsimp only [dat]
theorem after_4 (t : Fin cfg2.N) : (dat W c).after 4 t = iblk W c 4 t := by dsimp only [dat]
theorem after_5 (t : Fin cfg2.N) : (dat W c).after 5 t = (outsAt W c t.val t.isLt).1 := by dsimp only [dat]
theorem after_6 (t : Fin cfg2.N) : (dat W c).after 6 t = (outsAt W c t.val t.isLt).2.1 := by dsimp only [dat]

def Wexit : Valuation τ sig (Elt F) :=
  Pipeline.withArrays spec2 c (W c) fun w => (dat W c).arrAt w cfg2.N

theorem Wexit_arr (w : Fin cfg2.W) :
    Wexit W c (Proc.devRef .tc (Pipeline.arrRef spec2 w)) = (dat W c).arrAt w cfg2.N := by
  unfold Wexit; exact Pipeline.withArrays_arr spec2 launch2.win.arr_inj c _ _ w

theorem Wexit_of_ne (b : Ref sig .tc) (hb : ∀ w, Pipeline.arrRef spec2 w ≠ b) :
    Wexit W c (Proc.devRef .tc b) = W c (Proc.devRef .tc b) := by
  unfold Wexit; exact Pipeline.withArrays_of_ne spec2 c _ _ b hb

end Cert.KernelIdeal.Hand.R2

end
-- ==== Proof.KI.R3.Dat.lean ====
import proofs.«412604_j76897094468164_1_alg».proof.Proof.KI.Family

set_option maxRecDepth 16384

noncomputable section

namespace Cert.KernelIdeal.Hand.R3

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg3.W) (t : Fin cfg3.N) : ((cfg3.win w).xblock (cfg3.grid.coords t)).Idx → Elt F (cfg3.win w).elt :=
  ((cfg3.win w).blk t).view.read (Elt F) (V W c (Pipeline.arrRef spec3 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k3_pay5 x w b,
   k3_pay1 (k3_pay6 x w b s),
   k3_pay2 (k3_pay6 x w b s) (k3_pay7 x w b q),
   k3_pay6 x w b s,
   k3_pay7 x w b q)

def outsAt (c : Dev nD) : (n : ℕ) → n < cfg3.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k3_pay3 (F := F)) (k3_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg3.N) :
    outsAt W c 0 hn = stepOuts (iblk W c 0 ⟨0, hn⟩) (iblk W c 1 ⟨0, hn⟩) (iblk W c 2 ⟨0, hn⟩) (k3_pay3 (F := F)) (k3_pay4 (F := F)) := rfl

theorem outsAt_succ (c : Dev nD) (n : ℕ) (hn : n + 1 < cfg3.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc3_scratch0
abbrev scQ : Memref sig .tc .vmem S1x64 .f32 := Memref.whole cc3_scratch1

def PhiS (c : Dev nD) (n : ℕ) (hn : n ≤ cfg3.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec3 c [cc3_scratch0, cc3_scratch1])
    ∗ (∃ r, prngReg c r))

def dat (c : Dev nD) : Dat τ (Elt F) Unit ℕ (UR sig nD τ) ℕ cfg3 c where
  A w := V W c (Pipeline.arrRef spec3 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg3.W) : (dat W c).A w = V W c (Pipeline.arrRef spec3 w) := by
  dsimp only [dat]

theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = iblk W c 2 t := by dsimp only [dat]
theorem after_3 (c : Dev nD) (t : Fin cfg3.N) : (dat W c).after 3 t = (outsAt W c t.val t.isLt).1 := by dsimp only [dat]
theorem after_4 (c : Dev nD) (t : Fin cfg3.N) : (dat W c).after 4 t = (outsAt W c t.val t.isLt).2.1 := by dsimp only [dat]
theorem after_5 (c : Dev nD) (t : Fin cfg3.N) : (dat W c).after 5 t = (outsAt W c t.val t.isLt).2.2.1 := by dsimp only [dat]

def Wexit (c : Dev nD) : Valuation τ sig (Elt F) :=
  Pipeline.withArrays spec3 c (W c) fun w => (dat W c).arrAt w cfg3.N

theorem Wexit_arr (c : Dev nD) (w : Fin cfg3.W) :
    Wexit W c (Proc.devRef .tc (Pipeline.arrRef spec3 w)) = (dat W c).arrAt w cfg3.N := by
  unfold Wexit; exact Pipeline.withArrays_arr spec3 launch3.win.arr_inj c _ _ w

theorem Wexit_of_ne (c : Dev nD) (b : Ref sig .tc) (hb : ∀ w, Pipeline.arrRef spec3 w ≠ b) :
    Wexit W c (Proc.devRef .tc b) = W c (Proc.devRef .tc b) := by
  unfold Wexit; exact Pipeline.withArrays_of_ne spec3 c _ _ b hb

end Cert.KernelIdeal.Hand.R3

end
-- ==== Proof.KI.R4.Dat.lean ====
import proofs.«412604_j76897094468164_1_alg».proof.Proof.KI.Family

set_option maxRecDepth 16384

noncomputable section

namespace Cert.KernelIdeal.Hand.R4

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg4.W) (t : Fin cfg4.N) : ((cfg4.win w).xblock (cfg4.grid.coords t)).Idx → Elt F (cfg4.win w).elt :=
  ((cfg4.win w).blk t).view.read (Elt F) (V W c (Pipeline.arrRef spec4 w))

def relu (c : Dev nD) (t : Fin cfg4.N) : Vec F S10000x64 .f32 :=
  k4_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k4_pay3 (k4_pay1 r s0), k4_pay4 (k4_pay1 r s0) (k4_pay2 r s1), k4_pay1 r s0, k4_pay2 r s1)

def outsAt (c : Dev nD) : (n : ℕ) → n < cfg4.N →
    Vec F S10000x64 .f32 × Vec F S1x64 .f32 × Vec F S1x64 .f32 × Vec F S1x64 .f32 × Vec F S1x64 .f32
  | 0, hn => step (relu W c ⟨0, hn⟩) (k4_pay5 (F := F)) (k4_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg4.N) :
    outsAt W c 0 hn = step (relu W c ⟨0, hn⟩) (k4_pay5 (F := F)) (k4_pay6 (F := F)) := rfl

theorem outsAt_succ (c : Dev nD) (n : ℕ) (hn : n + 1 < cfg4.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg4.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg4.N) (ht : t.val = 0) :
    outsAt W c t.val t.isLt = step (relu W c t) (k4_pay5 (F := F)) (k4_pay6 (F := F)) := by
  obtain ⟨n, hn⟩ := t
  cases n with
  | zero => rfl
  | succ n => exact absurd ht (Nat.succ_ne_zero n)

abbrev scM0 : Memref sig .tc .vmem S1x64 .f32 := Memref.whole cc4_scratch0
abbrev scM1 : Memref sig .tc .vmem S1x64 .f32 := Memref.whole cc4_scratch1

def PhiS (c : Dev nD) : (n : ℕ) → n ≤ cfg4.N → sProp 𝕄
  | 0, _ => Pipeline.ΦA spec4 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec4 c [cc4_scratch0, cc4_scratch1])
      ∗ (∃ r, prngReg c r))

theorem PhiS_zero (c : Dev nD) (n : ℕ) (h : n ≤ cfg4.N) (hz : n = 0) : PhiS W c n h = Pipeline.ΦA spec4 c := by
  subst hz; rfl

theorem PhiS_pos (c : Dev nD) (n : ℕ) (h : n ≤ cfg4.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

theorem PhiA_eq (c : Dev nD) :
    (Pipeline.ΦA spec4 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM0, scM1, owns_whole]; try rfl

def dat (c : Dev nD) : Dat τ (Elt F) Unit ℕ (UR sig nD τ) ℕ cfg4 c where
  A w := V W c (Pipeline.arrRef spec4 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg4.W) : (dat W c).A w = V W c (Pipeline.arrRef spec4 w) := by
  dsimp only [dat]

theorem after_7 (c : Dev nD) (t : Fin cfg4.N) : (dat W c).after 7 t = (outsAt W c t.val t.isLt).1 := by dsimp only [dat]
theorem after_8 (c : Dev nD) (t : Fin cfg4.N) : (dat W c).after 8 t = (outsAt W c t.val t.isLt).2.1 := by dsimp only [dat]
theorem after_9 (c : Dev nD) (t : Fin cfg4.N) : (dat W c).after 9 t = (outsAt W c t.val t.isLt).2.2.1 := by dsimp only [dat]

def Wexit (c : Dev nD) : Valuation τ sig (Elt F) :=
  Pipeline.withArrays spec4 c (W c) fun w => (dat W c).arrAt w cfg4.N

theorem Wexit_arr (c : Dev nD) (w : Fin cfg4.W) :
    Wexit W c (Proc.devRef .tc (Pipeline.arrRef spec4 w)) = (dat W c).arrAt w cfg4.N := by
  unfold Wexit; exact Pipeline.withArrays_arr spec4 launch4.win.arr_inj c _ _ w

theorem Wexit_of_ne (c : Dev nD) (b : Ref sig .tc) (hb : ∀ w, Pipeline.arrRef spec4 w ≠ b) :
    Wexit W c (Proc.devRef .tc b) = W c (Proc.devRef .tc b) := by
  unfold Wexit; exact Pipeline.withArrays_of_ne spec4 c _ _ b hb

end Cert.KernelIdeal.Hand.R4

end
-- ==== Proof.KI.R5.Dat.lean ====
import proofs.«412604_j76897094468164_1_alg».proof.Proof.KI.Family

set_option maxRecDepth 16384

noncomputable section

namespace Cert.KernelIdeal.Hand.R5

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg5.W) (t : Fin cfg5.N) : ((cfg5.win w).xblock (cfg5.grid.coords t)).Idx → Elt F (cfg5.win w).elt :=
  ((cfg5.win w).blk t).view.read (Elt F) (V W c (Pipeline.arrRef spec5 w))

abbrev scM : Memref sig .tc .vmem S1x64 .f32 := Memref.whole cc5_scratch0

def hAt (t : Fin cfg5.N) : Vec F S10000x64 .f32 :=
  k5_pay2 (iblk W c 0 t) (iblk W c 1 t) (iblk W c 2 t) (iblk W c 3 t) (iblk W c 4 t)

def sAt (t : Fin cfg5.N) (s : Vec F S1x64 .f32) : Vec F S1x64 .f32 :=
  k5_pay3 (iblk W c 0 t) (iblk W c 1 t) (iblk W c 2 t) (iblk W c 3 t) (iblk W c 4 t) s

def outsAt : (n : ℕ) → n < cfg5.N → Vec F S10000x64 .f32 × Vec F S1x64 .f32 × Vec F S1x64 .f32
  | 0, hn => (hAt W c ⟨0, hn⟩, sAt W c ⟨0, hn⟩ (k5_pay1 (F := F)), sAt W c ⟨0, hn⟩ (k5_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg5.N) :
    outsAt W c 0 hn = (hAt W c ⟨0, hn⟩, sAt W c ⟨0, hn⟩ (k5_pay1 (F := F)), sAt W c ⟨0, hn⟩ (k5_pay1 (F := F))) := rfl

theorem outsAt_succ (n : ℕ) (hn : n + 1 < cfg5.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg5.N) : (outsAt W c n hn).2.1 = (outsAt W c n hn).2.2 := by
  cases n <;> rfl

theorem outsAt_pos (t : Fin cfg5.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg5.N) (ht : t.val = 0) :
    outsAt W c t.val t.isLt = (hAt W c t, sAt W c t (k5_pay1 (F := F)), sAt W c t (k5_pay1 (F := F))) := by
  obtain ⟨_ | n, hn⟩ := t
  exacts [rfl, absurd ht (Nat.succ_ne_zero _)]

def PhiS : (n : ℕ) → n ≤ cfg5.N → sProp 𝕄
  | 0, _ => Pipeline.ΦA spec5 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec5 c [cc5_scratch0]) ∗ (∃ r, prngReg c r))

theorem PhiS_zero (n : ℕ) (h : n ≤ cfg5.N) (hz : n = 0) : PhiS W c n h = Pipeline.ΦA spec5 c := by
  subst hz; rfl

theorem PhiS_succ (n : ℕ) (hn : n < cfg5.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec5 c [cc5_scratch0]) ∗ (∃ r, prngReg c r)) := rfl

theorem PhiS_pos (n : ℕ) (h : n ≤ cfg5.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat : Dat τ (Elt F) Unit ℕ (UR sig nD τ) ℕ cfg5 c where
  A w := V W c (Pipeline.arrRef spec5 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg5.W) : (dat W c).A w = V W c (Pipeline.arrRef spec5 w) := by
  dsimp only [dat]

theorem after_0 (t : Fin cfg5.N) : (dat W c).after 0 t = iblk W c 0 t := by dsimp only [dat]
theorem after_1 (t : Fin cfg5.N) : (dat W c).after 1 t = iblk W c 1 t := by dsimp only [dat]
theorem after_2 (t : Fin cfg5.N) : (dat W c).after 2 t = iblk W c 2 t := by dsimp only [dat]
theorem after_3 (t : Fin cfg5.N) : (dat W c).after 3 t = iblk W c 3 t := by dsimp only [dat]
theorem after_4 (t : Fin cfg5.N) : (dat W c).after 4 t = iblk W c 4 t := by dsimp only [dat]
theorem after_5 (t : Fin cfg5.N) : (dat W c).after 5 t = (outsAt W c t.val t.isLt).1 := by dsimp only [dat]
theorem after_6 (t : Fin cfg5.N) : (dat W c).after 6 t = (outsAt W c t.val t.isLt).2.1 := by dsimp only [dat]

def Wexit : Valuation τ sig (Elt F) :=
  Pipeline.withArrays spec5 c (W c) fun w => (dat W c).arrAt w cfg5.N

theorem Wexit_arr (w : Fin cfg5.W) :
    Wexit W c (Proc.devRef .tc (Pipeline.arrRef spec5 w)) = (dat W c).arrAt w cfg5.N := by
  unfold Wexit; exact Pipeline.withArrays_arr spec5 launch5.win.arr_inj c _ _ w

theorem Wexit_of_ne (b : Ref sig .tc) (hb : ∀ w, Pipeline.arrRef spec5 w ≠ b) :
    Wexit W c (Proc.devRef .tc b) = W c (Proc.devRef .tc b) := by
  unfold Wexit; exact Pipeline.withArrays_of_ne spec5 c _ _ b hb

end Cert.KernelIdeal.Hand.R5

end
-- ==== Proof.KI.R6.Dat.lean ====
import proofs.«412604_j76897094468164_1_alg».proof.Proof.KI.Family

set_option maxRecDepth 16384

noncomputable section

namespace Cert.KernelIdeal.Hand.R6

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg6.W) (t : Fin cfg6.N) : ((cfg6.win w).xblock (cfg6.grid.coords t)).Idx → Elt F (cfg6.win w).elt :=
  ((cfg6.win w).blk t).view.read (Elt F) (V W c (Pipeline.arrRef spec6 w))

def stepOuts (x : Vec F S10000x64 .f32) (w : Vec F S64x64 .f32) (b : Vec F S1x64 .f32) (s q : Vec F S1x64 .f32) :
    Vec F S10000x64 .f32 × Vec F S1x64 .f32 × Vec F S1x64 .f32 × Vec F S1x64 .f32 × Vec F S1x64 .f32 :=
  (k6_pay5 x w b,
   k6_pay1 (k6_pay6 x w b s),
   k6_pay2 (k6_pay6 x w b s) (k6_pay7 x w b q),
   k6_pay6 x w b s,
   k6_pay7 x w b q)

def outsAt (c : Dev nD) : (n : ℕ) → n < cfg6.N →
    Vec F S10000x64 .f32 × Vec F S1x64 .f32 × Vec F S1x64 .f32 × Vec F S1x64 .f32 × Vec F S1x64 .f32
  | 0, hn => stepOuts (iblk W c 0 ⟨0, hn⟩) (iblk W c 1 ⟨0, hn⟩) (iblk W c 2 ⟨0, hn⟩) (k6_pay3 (F := F)) (k6_pay4 (F := F))
  | n + 1, hn => stepOuts (iblk W c 0 ⟨n + 1, hn⟩) (iblk W c 1 ⟨n + 1, hn⟩) (iblk W c 2 ⟨n + 1, hn⟩)
      (outsAt c n (Nat.lt_of_succ_lt hn)).2.2.2.1 (outsAt c n (Nat.lt_of_succ_lt hn)).2.2.2.2

theorem outsAt_zero (c : Dev nD) (hn : 0 < cfg6.N) :
    outsAt W c 0 hn = stepOuts (iblk W c 0 ⟨0, hn⟩) (iblk W c 1 ⟨0, hn⟩) (iblk W c 2 ⟨0, hn⟩) (k6_pay3 (F := F)) (k6_pay4 (F := F)) := rfl

theorem outsAt_succ (c : Dev nD) (n : ℕ) (hn : n + 1 < cfg6.N) :
    outsAt W c (n + 1) hn = stepOuts (iblk W c 0 ⟨n + 1, hn⟩) (iblk W c 1 ⟨n + 1, hn⟩) (iblk W c 2 ⟨n + 1, hn⟩)
      (outsAt W c n (Nat.lt_of_succ_lt hn)).2.2.2.1 (outsAt W c n (Nat.lt_of_succ_lt hn)).2.2.2.2 := rfl

abbrev scS : Memref sig .tc .vmem S1x64 .f32 := Memref.whole cc6_scratch0
abbrev scQ : Memref sig .tc .vmem S1x64 .f32 := Memref.whole cc6_scratch1

def PhiS (c : Dev nD) (n : ℕ) (hn : n ≤ cfg6.N) : sProp 𝕄 :=
  iprop((∃ s q, ⌜∀ m (hm : n = m + 1), s = (outsAt W c m (by omega)).2.2.2.1 ∧ q = (outsAt W c m (by omega)).2.2.2.2⌝
      ∗ owns (c : Thread nD τ) scS fullShare s ∗ owns (c : Thread nD τ) scQ fullShare q
      ∗ Pipeline.scopedRestBut (Ix := Unit) (Name := ℕ) (U := UR sig nD τ) (Lvl := ℕ) (Val := Elt F) spec6 c [cc6_scratch0, cc6_scratch1])
    ∗ (∃ r, prngReg c r))

def dat (c : Dev nD) : Dat τ (Elt F) Unit ℕ (UR sig nD τ) ℕ cfg6 c where
  A w := V W c (Pipeline.arrRef spec6 w)
  after w t := match w with
    | ⟨0, _⟩ => iblk W c 0 t
    | ⟨1, _⟩ => iblk W c 1 t
    | ⟨2, _⟩ => iblk W c 2 t
    | ⟨3, _⟩ => (outsAt W c t.val t.isLt).1
    | ⟨4, _⟩ => (outsAt W c t.val t.isLt).2.1
    | ⟨5, _⟩ => (outsAt W c t.val t.isLt).2.2.1
  Φ t := PhiS W c t.val (Nat.le_of_lt_succ t.isLt)
  q _ := fullShare
  owed _ := 0

theorem A_eq (c : Dev nD) (w : Fin cfg6.W) : (dat W c).A w = V W c (Pipeline.arrRef spec6 w) := by
  dsimp only [dat]

theorem after_0 (c : Dev nD) (t : Fin cfg6.N) : (dat W c).after 0 t = iblk W c 0 t := by dsimp only [dat]
theorem after_1 (c : Dev nD) (t : Fin cfg6.N) : (dat W c).after 1 t = iblk W c 1 t := by dsimp only [dat]
theorem after_2 (c : Dev nD) (t : Fin cfg6.N) : (dat W c).after 2 t = iblk W c 2 t := by dsimp only [dat]
theorem after_3 (c : Dev nD) (t : Fin cfg6.N) : (dat W c).after 3 t = (outsAt W c t.val t.isLt).1 := by dsimp only [dat]
theorem after_4 (c : Dev nD) (t : Fin cfg6.N) : (dat W c).after 4 t = (outsAt W c t.val t.isLt).2.1 := by dsimp only [dat]
theorem after_5 (c : Dev nD) (t : Fin cfg6.N) : (dat W c).after 5 t = (outsAt W c t.val t.isLt).2.2.1 := by dsimp only [dat]

def Wexit (c : Dev nD) : Valuation τ sig (Elt F) :=
  Pipeline.withArrays spec6 c (W c) fun w => (dat W c).arrAt w cfg6.N

theorem Wexit_arr (c : Dev nD) (w : Fin cfg6.W) :
    Wexit W c (Proc.devRef .tc (Pipeline.arrRef spec6 w)) = (dat W c).arrAt w cfg6.N := by
  unfold Wexit; exact Pipeline.withArrays_arr spec6 launch6.win.arr_inj c _ _ w

theorem Wexit_of_ne (c : Dev nD) (b : Ref sig .tc) (hb : ∀ w, Pipeline.arrRef spec6 w ≠ b) :
    Wexit W c (Proc.devRef .tc b) = W c (Proc.devRef .tc b) := by
  unfold Wexit; exact Pipeline.withArrays_of_ne spec6 c _ _ b hb

end Cert.KernelIdeal.Hand.R6

end
-- ==== Proof.KI.R7.Dat.lean ====
import proofs.«412604_j76897094468164_1_alg».proof.Proof.KI.Family

set_option maxRecDepth 16384

noncomputable section

namespace Cert.KernelIdeal.Hand.R7

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

def iblk (c : Dev nD) (w : Fin cfg7.W) (t : Fin cfg7.N) : ((cfg7.win w).xblock (cfg7.grid.coords t)).Idx → Elt F (cfg7.win w).elt :=
  ((cfg7.win w).blk t).view.read (Elt F) (V W c (Pipeline.arrRef spec7 w))

def relu (c : Dev nD) (t : Fin cfg7.N) : Vec F S10000x64 .f32 :=
  k7_pay7 (iblk W c 0 t) (iblk W c 1 t) (iblk W c 2 t) (iblk W c 3 t) (iblk W c 4 t) (iblk W c 5 t) (iblk W c 6 t)

def step (r : Vec F S10000x64 .f32) (s0 s1 : Vec F S1x64 .f32) :
    Vec F S10000x64 .f32 × Vec F S1x64 .f32 × Vec F S1x64 .f32 × Vec F S1x64 .f32 × Vec F S1x64 .f32 :=
  (r, k7_pay3 (k7_pay1 r s0), k7_pay4 (k7_pay1 r s0) (k7_pay2 r s1), k7_pay1 r s0, k7_pay2 r s1)

def outsAt (c : Dev nD) : (n : ℕ) → n < cfg7.N →
    Vec F S10000x64 .f32 × Vec F S1x64 .f32 × Vec F S1x64 .f32 × Vec F S1x64 .f32 × Vec F S1x64 .f32
  | 0, hn => step (relu W c ⟨0, hn⟩) (k7_pay5 (F := F)) (k7_pay6 (F := F))
  | n + 1, hn => step (relu W c ⟨n + 1, hn⟩) (outsAt c n (Nat.lt_of_succ_lt hn)).2.2.2.1 (outsAt c n (Nat.lt_of_succ_lt hn)).2.2.2.2

theorem outsAt_zero (c : Dev nD) (hn : 0 < cfg7.N) :
    outsAt W c 0 hn = step (relu W c ⟨0, hn⟩) (k7_pay5 (F := F)) (k7_pay6 (F := F)) := rfl

theorem outsAt_succ (c : Dev nD) (n : ℕ) (hn : n + 1 < cfg7.N) :
    outsAt W c (n + 1) hn = step (relu W c ⟨n + 1, hn⟩) (outsAt W c n (Nat.lt_of_succ_lt hn)).2.2.2.1 (outsAt W c n (Nat.lt_of_succ_lt hn)).2.2.2.2 := rfl

theorem outsAt_pos (c : Dev nD) (t : Fin cfg7.N) (ht : t.val ≠ 0) :
    outsAt W c t.val t.isLt = step (relu W c t) (outsAt W c (t.val - 1) (Nat.lt_of_le_of_lt (Nat.sub_le _ _) t.isLt)).2.2.2.1
      (outsAt W c (t.val - 1) (Nat.lt_of_le_of_lt (Nat.sub_le _ _) t.isLt)).2.2.2.2 := by
  obtain ⟨n, hn⟩ := t
  cases n with
  | zero => exact absurd rfl ht
  | succ n => rfl

theorem outsAt_first (c : Dev nD) (t : Fin cfg7.N) (ht : t.val = 0) :
    outsAt W c t.val t.isLt = step (relu W c t) (k7_pay5 (F := F)) (k7_pay6 (F := F)) := by
  obtain ⟨n, hn⟩ := t
  cases n with
  | zero => rfl
  | succ n => exact absurd ht (Nat.succ_ne_zero n)

abbrev scM0 : Memref sig .tc .vmem S1x64 .f32 := Memref.whole cc7_scratch0
abbrev scM1 : Memref sig .tc .vmem S1x64 .f32 := Memref.whole cc7_scratch1

def PhiS (c : Dev nD) : (n : ℕ) → n ≤ cfg7.N → sProp 𝕄
  | 0, _ => Pipeline.ΦA spec7 c
  | n + 1, hn => iprop(iprop(iprop(owns (c : Thread nD τ) scM0 fullShare (outsAt W c n hn).2.2.2.1
        ∗ owns (c : Thread nD τ) scM1 fullShare (outsAt W c n hn).2.2.2.2)
      ∗ Pipeline.scopedRestBut (Ix := Unit) (Name := ℕ) (U := UR sig nD τ) (Lvl := ℕ) (Val := Elt F) spec7 c [cc7_scratch0, cc7_scratch1])
      ∗ (∃ r, prngReg c r))

theorem PhiS_zero (c : Dev nD) (n : ℕ) (h : n ≤ cfg7.N) (hz : n = 0) : PhiS W c n h = Pipeline.ΦA spec7 c := by
  subst hz; rfl

theorem PhiS_pos (c : Dev nD) (n : ℕ) (h : n ≤ cfg7.N) (hz : n ≠ 0) :
    PhiS W c n h = iprop(iprop(iprop(owns (c : Thread nD τ) scM0 fullShare (outsAt W c (n - 1) (by omega)).2.2.2.1
        ∗ owns (c : Thread nD τ) scM1 fullShare (outsAt W c (n - 1) (by omega)).2.2.2.2)
      ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

theorem PhiA_eq (c : Dev nD) :
    (Pipeline.ΦA spec7 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM0, scM1, owns_whole]; try rfl

def dat (c : Dev nD) : Dat τ (Elt F) Unit ℕ (UR sig nD τ) ℕ cfg7 c where
  A w := V W c (Pipeline.arrRef spec7 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
    | ⟨8, _⟩ => (outsAt W c t.val t.isLt).2.1
    | ⟨9, _⟩ => (outsAt W c t.val t.isLt).2.2.1
  Φ t := PhiS W c t.val (Nat.le_of_lt_succ t.isLt)
  q _ := fullShare
  owed _ := 0

theorem A_eq (c : Dev nD) (w : Fin cfg7.W) : (dat W c).A w = V W c (Pipeline.arrRef spec7 w) := by
  dsimp only [dat]

theorem after_7 (c : Dev nD) (t : Fin cfg7.N) : (dat W c).after 7 t = (outsAt W c t.val t.isLt).1 := by dsimp only [dat]
theorem after_8 (c : Dev nD) (t : Fin cfg7.N) : (dat W c).after 8 t = (outsAt W c t.val t.isLt).2.1 := by dsimp only [dat]
theorem after_9 (c : Dev nD) (t : Fin cfg7.N) : (dat W c).after 9 t = (outsAt W c t.val t.isLt).2.2.1 := by dsimp only [dat]

def Wexit (c : Dev nD) : Valuation τ sig (Elt F) :=
  Pipeline.withArrays spec7 c (W c) fun w => (dat W c).arrAt w cfg7.N

theorem Wexit_arr (c : Dev nD) (w : Fin cfg7.W) :
    Wexit W c (Proc.devRef .tc (Pipeline.arrRef spec7 w)) = (dat W c).arrAt w cfg7.N := by
  unfold Wexit; exact Pipeline.withArrays_arr spec7 launch7.win.arr_inj c _ _ w

theorem Wexit_of_ne (c : Dev nD) (b : Ref sig .tc) (hb : ∀ w, Pipeline.arrRef spec7 w ≠ b) :
    Wexit W c (Proc.devRef .tc b) = W c (Proc.devRef .tc b) := by
  unfold Wexit; exact Pipeline.withArrays_of_ne spec7 c _ _ b hb

end Cert.KernelIdeal.Hand.R7

end
-- ==== Proof.KI.R8.Dat.lean ====
import proofs.«412604_j76897094468164_1_alg».proof.Proof.KI.Family

set_option maxRecDepth 16384

noncomputable section

namespace Cert.KernelIdeal.Hand.R8

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev V : (c : Dev nD) → (b : Ref sig .tc) → Buf (Elt F) ((c : Thread nD τ).loc b) := fun c b => W c b

variable (c : Dev nD)

def iblk (w : Fin cfg8.W) (t : Fin cfg8.N) : ((cfg8.win w).xblock (cfg8.grid.coords t)).Idx → Elt F (cfg8.win w).elt :=
  ((cfg8.win w).blk t).view.read (Elt F) (V W c (Pipeline.arrRef spec8 w))

abbrev scM : Memref sig .tc .vmem S1x64 .f32 := Memref.whole cc8_scratch0

def hAt (t : Fin cfg8.N) : Vec F S10000x64 .f32 :=
  k8_pay2 (iblk W c 0 t) (iblk W c 1 t) (iblk W c 2 t) (iblk W c 3 t) (iblk W c 4 t)

def sAt (t : Fin cfg8.N) (s : Vec F S1x64 .f32) : Vec F S1x64 .f32 :=
  k8_pay3 (iblk W c 0 t) (iblk W c 1 t) (iblk W c 2 t) (iblk W c 3 t) (iblk W c 4 t) s

def outsAt : (n : ℕ) → n < cfg8.N → Vec F S10000x64 .f32 × Vec F S1x64 .f32 × Vec F S1x64 .f32
  | 0, hn => (hAt W c ⟨0, hn⟩, sAt W c ⟨0, hn⟩ (k8_pay1 (F := F)), sAt W c ⟨0, hn⟩ (k8_pay1 (F := F)))
  | n + 1, hn =>
    (hAt W c ⟨n + 1, hn⟩, sAt W c ⟨n + 1, hn⟩ (outsAt n (Nat.lt_of_succ_lt hn)).2.2,
      sAt W c ⟨n + 1, hn⟩ (outsAt n (Nat.lt_of_succ_lt hn)).2.2)

theorem outsAt_zero (hn : 0 < cfg8.N) :
    outsAt W c 0 hn = (hAt W c ⟨0, hn⟩, sAt W c ⟨0, hn⟩ (k8_pay1 (F := F)), sAt W c ⟨0, hn⟩ (k8_pay1 (F := F))) := rfl

theorem outsAt_succ (n : ℕ) (hn : n + 1 < cfg8.N) :
    outsAt W c (n + 1) hn = (hAt W c ⟨n + 1, hn⟩, sAt W c ⟨n + 1, hn⟩ (outsAt W c n (Nat.lt_of_succ_lt hn)).2.2,
      sAt W c ⟨n + 1, hn⟩ (outsAt W c n (Nat.lt_of_succ_lt hn)).2.2) := rfl

theorem outsAt_gsum (n : ℕ) (hn : n < cfg8.N) : (outsAt W c n hn).2.1 = (outsAt W c n hn).2.2 := by
  cases n <;> rfl

theorem outsAt_pos (t : Fin cfg8.N) (ht : t.val ≠ 0) :
    outsAt W c t.val t.isLt = (hAt W c t, sAt W c t (outsAt W c (t.val - 1) (Nat.lt_of_le_of_lt (Nat.sub_le _ _) t.isLt)).2.2,
      sAt W c t (outsAt W c (t.val - 1) (Nat.lt_of_le_of_lt (Nat.sub_le _ _) t.isLt)).2.2) := by
  obtain ⟨_ | n, hn⟩ := t
  exacts [absurd rfl ht, rfl]

theorem outsAt_first (t : Fin cfg8.N) (ht : t.val = 0) :
    outsAt W c t.val t.isLt = (hAt W c t, sAt W c t (k8_pay1 (F := F)), sAt W c t (k8_pay1 (F := F))) := by
  obtain ⟨_ | n, hn⟩ := t
  exacts [rfl, absurd ht (Nat.succ_ne_zero _)]

def PhiS : (n : ℕ) → n ≤ cfg8.N → sProp 𝕄
  | 0, _ => Pipeline.ΦA spec8 c
  | n + 1, hn => iprop(iprop(owns (c : Thread nD τ) scM fullShare ((outsAt W c n hn).2.2)
      ∗ Pipeline.scopedRestBut (Ix := Unit) (Name := ℕ) (U := UR sig nD τ) (Lvl := ℕ) (Val := Elt F) spec8 c [cc8_scratch0]) ∗ (∃ r, prngReg c r))

theorem PhiS_zero (n : ℕ) (h : n ≤ cfg8.N) (hz : n = 0) : PhiS W c n h = Pipeline.ΦA spec8 c := by
  subst hz; rfl

theorem PhiS_succ (n : ℕ) (hn : n < cfg8.N) :
    PhiS W c (n + 1) hn = iprop(iprop(owns (c : Thread nD τ) scM fullShare ((outsAt W c n hn).2.2)
      ∗ Pipeline.scopedRestBut (Ix := Unit) (Name := ℕ) (U := UR sig nD τ) (Lvl := ℕ) (Val := Elt F) spec8 c [cc8_scratch0]) ∗ (∃ r, prngReg c r)) := rfl

theorem PhiS_pos (n : ℕ) (h : n ≤ cfg8.N) (hz : n ≠ 0) :
    PhiS W c n h = iprop(iprop(owns (c : Thread nD τ) scM fullShare ((outsAt W c (n - 1) (by omega)).2.2)
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat : Dat τ (Elt F) Unit ℕ (UR sig nD τ) ℕ cfg8 c where
  A w := V W c (Pipeline.arrRef spec8 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => (outsAt W c t.val t.isLt).1
    | ⟨6, _⟩ => (outsAt W c t.val t.isLt).2.1
  Φ t := PhiS W c t.val (Nat.le_of_lt_succ t.isLt)
  q _ := fullShare
  owed _ := 0

theorem A_eq (w : Fin cfg8.W) : (dat W c).A w = V W c (Pipeline.arrRef spec8 w) := by
  dsimp only [dat]

theorem after_0 (t : Fin cfg8.N) : (dat W c).after 0 t = iblk W c 0 t := by dsimp only [dat]
theorem after_1 (t : Fin cfg8.N) : (dat W c).after 1 t = iblk W c 1 t := by dsimp only [dat]
theorem after_2 (t : Fin cfg8.N) : (dat W c).after 2 t = iblk W c 2 t := by dsimp only [dat]
theorem after_3 (t : Fin cfg8.N) : (dat W c).after 3 t = iblk W c 3 t := by dsimp only [dat]
theorem after_4 (t : Fin cfg8.N) : (dat W c).after 4 t = iblk W c 4 t := by dsimp only [dat]
theorem after_5 (t : Fin cfg8.N) : (dat W c).after 5 t = (outsAt W c t.val t.isLt).1 := by dsimp only [dat]
theorem after_6 (t : Fin cfg8.N) : (dat W c).after 6 t = (outsAt W c t.val t.isLt).2.1 := by dsimp only [dat]

def Wexit : Valuation τ sig (Elt F) :=
  Pipeline.withArrays spec8 c (W c) fun w => (dat W c).arrAt w cfg8.N

theorem Wexit_arr (w : Fin cfg8.W) :
    Wexit W c (Proc.devRef .tc (Pipeline.arrRef spec8 w)) = (dat W c).arrAt w cfg8.N := by
  unfold Wexit; exact Pipeline.withArrays_arr spec8 launch8.win.arr_inj c _ _ w

theorem Wexit_of_ne (b : Ref sig .tc) (hb : ∀ w, Pipeline.arrRef spec8 w ≠ b) :
    Wexit W c (Proc.devRef .tc b) = W c (Proc.devRef .tc b) := by
  unfold Wexit; exact Pipeline.withArrays_of_ne spec8 c _ _ b hb

end Cert.KernelIdeal.Hand.R8

end
-- ==== Proof.KI.Vals.lean ====
import proofs.«412604_j76897094468164_1_alg».proof.Proof.KI.R0.Dat
import proofs.«412604_j76897094468164_1_alg».proof.Proof.KI.R1.Dat
import proofs.«412604_j76897094468164_1_alg».proof.Proof.KI.R2.Dat
import proofs.«412604_j76897094468164_1_alg».proof.Proof.KI.R3.Dat
import proofs.«412604_j76897094468164_1_alg».proof.Proof.KI.R4.Dat
import proofs.«412604_j76897094468164_1_alg».proof.Proof.KI.R5.Dat
import proofs.«412604_j76897094468164_1_alg».proof.Proof.KI.R6.Dat
import proofs.«412604_j76897094468164_1_alg».proof.Proof.KI.R7.Dat
import proofs.«412604_j76897094468164_1_alg».proof.Proof.KI.R8.Dat

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) := R0.Wexit (W1 m) c
abbrev W3 (c : Dev nD) : Valuation τ sig (Elt F) := StableHlo.after hostOps1 (W2 m c)

def W4 (c : Dev nD) : Valuation τ sig (Elt F) := R1.Wexit (W3 m) c

def W5 (c : Dev nD) : Valuation τ sig (Elt F) := R2.Wexit (W4 m) c
abbrev W6 (c : Dev nD) : Valuation τ sig (Elt F) := StableHlo.after hostOps3 (W5 m c)

def W7 (c : Dev nD) : Valuation τ sig (Elt F) := R3.Wexit (W6 m) c
abbrev W8 (c : Dev nD) : Valuation τ sig (Elt F) := StableHlo.after hostOps4 (W7 m c)

def W9 (c : Dev nD) : Valuation τ sig (Elt F) := R4.Wexit (W8 m) c

def W10 (c : Dev nD) : Valuation τ sig (Elt F) := R5.Wexit (W9 m) c
abbrev W11 (c : Dev nD) : Valuation τ sig (Elt F) := StableHlo.after hostOps6 (W10 m c)

def W12 (c : Dev nD) : Valuation τ sig (Elt F) := R6.Wexit (W11 m) c
abbrev W13 (c : Dev nD) : Valuation τ sig (Elt F) := StableHlo.after hostOps7 (W12 m c)

def W14 (c : Dev nD) : Valuation τ sig (Elt F) := R7.Wexit (W13 m) c

def W15 (c : Dev nD) : Valuation τ sig (Elt F) := R8.Wexit (W14 m) c

abbrev W16 (c : Dev nD) : Valuation τ sig (Elt F) := StableHlo.after hostOps9 (W15 m c)

abbrev pdats : (p : Fin 9) → (c : Dev nD) → Dat τ (Elt F) Unit ℕ (UR sig nD τ) ℕ (cfgs p) c :=
  pdatsOf (R0.dat (W1 m)) (R1.dat (W3 m)) (R2.dat (W4 m)) (R3.dat (W6 m)) (R4.dat (W8 m)) (R5.dat (W9 m))
    (R6.dat (W11 m)) (R7.dat (W13 m)) (R8.dat (W14 m))

def outs : Outs (F := F) := fun J r c =>
  match J with
  | 2 => W2 m c r
  | 4 => W4 m c r
  | 5 => W5 m c r
  | 7 => W7 m c r
  | 9 => W9 m c r
  | 10 => W10 m c r
  | 12 => W12 m c r
  | 14 => W14 m c r
  | 15 => W15 m c r
  | _ => W0 m c r

end Cert.KernelIdeal.Hand

end
-- ==== Proof.KI.Bounds.lean ====
import proofs.«412604_j76897094468164_1_alg».proof.Proof.KI.Vals
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

theorem update2_eq {α : Type} [DecidableEq α] {β : α → Type} {f g : ∀ a, β a} {a1 a2 : α} {x1 : β a1} {x2 : β a2}
    (h1 : g a1 = x1) (h2 : g a2 = x2) (hf : ∀ b, b ≠ a1 → b ≠ a2 → f b = g b) :
    Function.update (Function.update f a1 x1) a2 x2 = g := by
  funext b
  by_cases e2 : b = a2
  · subst e2; rw [Function.update_self]; exact h2.symm
  · rw [Function.update_of_ne e2]
    by_cases e1 : b = a1
    · subst e1; rw [Function.update_self]; exact h1.symm
    · rw [Function.update_of_ne e1]; exact hf b e1 e2

theorem update3_eq {α : Type} [DecidableEq α] {β : α → Type} {f g : ∀ a, β a} {a1 a2 a3 : α} {x1 : β a1} {x2 : β a2} {x3 : β a3}
    (h1 : g a1 = x1) (h2 : g a2 = x2) (h3 : g a3 = x3) (hf : ∀ b, b ≠ a1 → b ≠ a2 → b ≠ a3 → f b = g b) :
    Function.update (Function.update (Function.update f a1 x1) a2 x2) a3 x3 = g := by
  funext b
  by_cases e3 : b = a3
  · subst e3; rw [Function.update_self]; exact h3.symm
  · rw [Function.update_of_ne e3]
    by_cases e2 : b = a2
    · subst e2; rw [Function.update_self]; exact h2.symm
    · rw [Function.update_of_ne e2]
      by_cases e1 : b = a1
      · subst e1; rw [Function.update_self]; exact h1.symm
      · rw [Function.update_of_ne e1]; exact hf b e1 e2 e3

theorem Wexit0_of_not_out (W : Dev nD → Valuation τ sig (Elt F)) (c : Dev nD) (b : DevRef τ sig)
    (h0 : b ≠ Proc.devRef .tc main_v31_0) (h1 : b ≠ Proc.devRef .tc main_v31_1) (h2 : b ≠ Proc.devRef .tc main_v31_2) :
    R0.Wexit W c b = W c b := by
  by_cases h : ∃ w, Proc.devRef (τ := τ) .tc (Pipeline.arrRef spec0 w) = b
  · obtain ⟨w, rfl⟩ := h
    fin_cases w <;> first
      | exact absurd rfl h0
      | exact absurd rfl h1
      | exact absurd rfl h2
      | exact (R0.Wexit_arr W c _).trans (((R0.dat W c).arrAt_in _ rfl _).trans (R0.A_eq W c _))
  · unfold R0.Wexit Pipeline.withArrays; exact dif_neg h

theorem Wexit1_of_not_out (W : Dev nD → Valuation τ sig (Elt F)) (c : Dev nD) (b : DevRef τ sig)
    (h0 : b ≠ Proc.devRef .tc main_v34_0) (h1 : b ≠ Proc.devRef .tc main_v34_1) (h2 : b ≠ Proc.devRef .tc main_v34_2) :
    R1.Wexit W c b = W c b := by
  by_cases h : ∃ w, Proc.devRef (τ := τ) .tc (Pipeline.arrRef spec1 w) = b
  · obtain ⟨w, rfl⟩ := h
    fin_cases w <;> first
      | exact absurd rfl h0
      | exact absurd rfl h1
      | exact absurd rfl h2
      | exact (R1.Wexit_arr W c _).trans (((R1.dat W c).arrAt_in _ rfl _).trans (R1.A_eq W c _))
  · unfold R1.Wexit Pipeline.withArrays; exact dif_neg h

theorem Wexit2_of_not_out (W : Dev nD → Valuation τ sig (Elt F)) (c : Dev nD) (b : DevRef τ sig)
    (h0 : b ≠ Proc.devRef .tc main_v35_0) (h1 : b ≠ Proc.devRef .tc main_v35_1) :
    R2.Wexit W c b = W c b := by
  by_cases h : ∃ w, Proc.devRef (τ := τ) .tc (Pipeline.arrRef spec2 w) = b
  · obtain ⟨w, rfl⟩ := h
    fin_cases w <;> first
      | exact absurd rfl h0
      | exact absurd rfl h1
      | exact (R2.Wexit_arr W c _).trans (((R2.dat W c).arrAt_in _ rfl _).trans (R2.A_eq W c _))
  · unfold R2.Wexit Pipeline.withArrays; exact dif_neg h

theorem Wexit3_of_not_out (W : Dev nD → Valuation τ sig (Elt F)) (c : Dev nD) (b : DevRef τ sig)
    (h0 : b ≠ Proc.devRef .tc main_v67_0) (h1 : b ≠ Proc.devRef .tc main_v67_1) (h2 : b ≠ Proc.devRef .tc main_v67_2) :
    R3.Wexit W c b = W c b := by
  by_cases h : ∃ w, Proc.devRef (τ := τ) .tc (Pipeline.arrRef spec3 w) = b
  · obtain ⟨w, rfl⟩ := h
    fin_cases w <;> first
      | exact absurd rfl h0
      | exact absurd rfl h1
      | exact absurd rfl h2
      | exact (R3.Wexit_arr W c _).trans (((R3.dat W c).arrAt_in _ rfl _).trans (R3.A_eq W c _))
  · unfold R3.Wexit Pipeline.withArrays; exact dif_neg h

theorem Wexit4_of_not_out (W : Dev nD → Valuation τ sig (Elt F)) (c : Dev nD) (b : DevRef τ sig)
    (h0 : b ≠ Proc.devRef .tc main_v70_0) (h1 : b ≠ Proc.devRef .tc main_v70_1) (h2 : b ≠ Proc.devRef .tc main_v70_2) :
    R4.Wexit W c b = W c b := by
  by_cases h : ∃ w, Proc.devRef (τ := τ) .tc (Pipeline.arrRef spec4 w) = b
  · obtain ⟨w, rfl⟩ := h
    fin_cases w <;> first
      | exact absurd rfl h0
      | exact absurd rfl h1
      | exact absurd rfl h2
      | exact (R4.Wexit_arr W c _).trans (((R4.dat W c).arrAt_in _ rfl _).trans (R4.A_eq W c _))
  · unfold R4.Wexit Pipeline.withArrays; exact dif_neg h

theorem Wexit5_of_not_out (W : Dev nD → Valuation τ sig (Elt F)) (c : Dev nD) (b : DevRef τ sig)
    (h0 : b ≠ Proc.devRef .tc main_v71_0) (h1 : b ≠ Proc.devRef .tc main_v71_1) :
    R5.Wexit W c b = W c b := by
  by_cases h : ∃ w, Proc.devRef (τ := τ) .tc (Pipeline.arrRef spec5 w) = b
  · obtain ⟨w, rfl⟩ := h
    fin_cases w <;> first
      | exact absurd rfl h0
      | exact absurd rfl h1
      | exact (R5.Wexit_arr W c _).trans (((R5.dat W c).arrAt_in _ rfl _).trans (R5.A_eq W c _))
  · unfold R5.Wexit Pipeline.withArrays; exact dif_neg h

theorem Wexit6_of_not_out (W : Dev nD → Valuation τ sig (Elt F)) (c : Dev nD) (b : DevRef τ sig)
    (h0 : b ≠ Proc.devRef .tc main_v103_0) (h1 : b ≠ Proc.devRef .tc main_v103_1) (h2 : b ≠ Proc.devRef .tc main_v103_2) :
    R6.Wexit W c b = W c b := by
  by_cases h : ∃ w, Proc.devRef (τ := τ) .tc (Pipeline.arrRef spec6 w) = b
  · obtain ⟨w, rfl⟩ := h
    fin_cases w <;> first
      | exact absurd rfl h0
      | exact absurd rfl h1
      | exact absurd rfl h2
      | exact (R6.Wexit_arr W c _).trans (((R6.dat W c).arrAt_in _ rfl _).trans (R6.A_eq W c _))
  · unfold R6.Wexit Pipeline.withArrays; exact dif_neg h

theorem Wexit7_of_not_out (W : Dev nD → Valuation τ sig (Elt F)) (c : Dev nD) (b : DevRef τ sig)
    (h0 : b ≠ Proc.devRef .tc main_v106_0) (h1 : b ≠ Proc.devRef .tc main_v106_1) (h2 : b ≠ Proc.devRef .tc main_v106_2) :
    R7.Wexit W c b = W c b := by
  by_cases h : ∃ w, Proc.devRef (τ := τ) .tc (Pipeline.arrRef spec7 w) = b
  · obtain ⟨w, rfl⟩ := h
    fin_cases w <;> first
      | exact absurd rfl h0
      | exact absurd rfl h1
      | exact absurd rfl h2
      | exact (R7.Wexit_arr W c _).trans (((R7.dat W c).arrAt_in _ rfl _).trans (R7.A_eq W c _))
  · unfold R7.Wexit Pipeline.withArrays; exact dif_neg h

theorem Wexit8_of_not_out (W : Dev nD → Valuation τ sig (Elt F)) (c : Dev nD) (b : DevRef τ sig)
    (h0 : b ≠ Proc.devRef .tc main_v107_0) (h1 : b ≠ Proc.devRef .tc main_v107_1) :
    R8.Wexit W c b = W c b := by
  by_cases h : ∃ w, Proc.devRef (τ := τ) .tc (Pipeline.arrRef spec8 w) = b
  · obtain ⟨w, rfl⟩ := h
    fin_cases w <;> first
      | exact absurd rfl h0
      | exact absurd rfl h1
      | exact (R8.Wexit_arr W c _).trans (((R8.dat W c).arrAt_in _ rfl _).trans (R8.A_eq W c _))
  · unfold R8.Wexit Pipeline.withArrays; exact dif_neg h

variable (m : (ℓ : Loc nD τ sig) → Buf (Elt F) ℓ)

theorem V2_eq (c : Dev nD) : Gen.V2 m (outs m) c = W2 m c :=
  update3_eq rfl rfl rfl fun b h0 h1 h2 =>
    (Wexit0_of_not_out (W1 m) c b h0 h1 h2).symm

theorem V3_eq (c : Dev nD) : Gen.V3 m (outs m) c = W3 m c :=
  congrArg (StableHlo.after hostOps1) (V2_eq m c)

theorem V4_eq (c : Dev nD) : Gen.V4 m (outs m) c = W4 m c :=
  update3_eq rfl rfl rfl fun b h0 h1 h2 =>
    (congrFun (V3_eq m c) b).trans (Wexit1_of_not_out (W3 m) c b h0 h1 h2).symm

theorem V5_eq (c : Dev nD) : Gen.V5 m (outs m) c = W5 m c :=
  update2_eq rfl rfl fun b h0 h1 =>
    (congrFun (V4_eq m c) b).trans (Wexit2_of_not_out (W4 m) c b h0 h1).symm

theorem V6_eq (c : Dev nD) : Gen.V6 m (outs m) c = W6 m c :=
  congrArg (StableHlo.after hostOps3) (V5_eq m c)

theorem V7_eq (c : Dev nD) : Gen.V7 m (outs m) c = W7 m c :=
  update3_eq rfl rfl rfl fun b h0 h1 h2 =>
    (congrFun (V6_eq m c) b).trans (Wexit3_of_not_out (W6 m) c b h0 h1 h2).symm

theorem V8_eq (c : Dev nD) : Gen.V8 m (outs m) c = W8 m c :=
  congrArg (StableHlo.after hostOps4) (V7_eq m c)

theorem V9_eq (c : Dev nD) : Gen.V9 m (outs m) c = W9 m c :=
  update3_eq rfl rfl rfl fun b h0 h1 h2 =>
    (congrFun (V8_eq m c) b).trans (Wexit4_of_not_out (W8 m) c b h0 h1 h2).symm

theorem V10_eq (c : Dev nD) : Gen.V10 m (outs m) c = W10 m c :=
  update2_eq rfl rfl fun b h0 h1 =>
    (congrFun (V9_eq m c) b).trans (Wexit5_of_not_out (W9 m) c b h0 h1).symm

theorem V11_eq (c : Dev nD) : Gen.V11 m (outs m) c = W11 m c :=
  congrArg (StableHlo.after hostOps6) (V10_eq m c)

theorem V12_eq (c : Dev nD) : Gen.V12 m (outs m) c = W12 m c :=
  update3_eq rfl rfl rfl fun b h0 h1 h2 =>
    (congrFun (V11_eq m c) b).trans (Wexit6_of_not_out (W11 m) c b h0 h1 h2).symm

theorem V13_eq (c : Dev nD) : Gen.V13 m (outs m) c = W13 m c :=
  congrArg (StableHlo.after hostOps7) (V12_eq m c)

theorem V14_eq (c : Dev nD) : Gen.V14 m (outs m) c = W14 m c :=
  update3_eq rfl rfl rfl fun b h0 h1 h2 =>
    (congrFun (V13_eq m c) b).trans (Wexit7_of_not_out (W13 m) c b h0 h1 h2).symm

theorem V15_eq (c : Dev nD) : Gen.V15 m (outs m) c = W15 m c :=
  update2_eq rfl rfl fun b h0 h1 =>
    (congrFun (V14_eq m c) b).trans (Wexit8_of_not_out (W14 m) c b h0 h1).symm

theorem V16_eq (c : Dev nD) : Gen.V16 m (outs m) c = W16 m c :=
  congrArg (StableHlo.after hostOps9) (V15_eq m c)

end Cert.KernelIdeal.Hand

end
-- ==== Proof.KI.Seg.lean ====
import proofs.«412604_j76897094468164_1_alg».proof.Proof.KI.Family

set_option maxRecDepth 16384

noncomputable section

namespace Cert.KernelIdeal.Hand

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (p : Fin 9) (𝔣 : (p : Fin 9) → (c : Dev nD) → DatOf (F := F) p c)
  (launch : Pipeline.LaunchFacts (nD := nD) (τ := τ) cfgs p)
  (W W' : Dev nD → Valuation τ sig (Elt F))
  (hq : ∀ c w, (𝔣 p c).q w = fullShare)
  (howed : ∀ c t, (𝔣 p c).owed t = 0)
  (hrec : ∀ c t, (𝔣 p c).recorded t = Set.univ)
  (hA : ∀ c w, (𝔣 p c).A w = W c (Proc.devRef .tc (Pipeline.arrRef (cfgs p).spec w)))
  (hbody : ∀ c, BodyObligation (𝔣 p c) (defs₀ (F := F)) Variants.none () Set.univ)
  (hin : ∀ c, Pipeline.ΦA (cfgs p).spec c ⊢ (𝔣 p c).Φ 0)
  (hlast : ∀ c, (𝔣 p c).Φ (Fin.last (cfgs p).N) ⊢ Pipeline.ΦA (cfgs p).spec c)
  (hF : ∀ c w, (𝔣 p c).arrAt w (cfgs p).N = W' c (Proc.devRef .tc (Pipeline.arrRef (cfgs p).spec w)))
  (hrest : ∀ c (b : Ref sig .tc), (∀ w, Pipeline.arrRef (cfgs p).spec w ≠ b) → W' c (Proc.devRef .tc b) = W c (Proc.devRef .tc b))

set_option backward.isDefEq.respectTransparency.types false in

def mkReg : Pipeline.RegionSeg (pcfgs (F := F)) adm 𝔣 () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm 𝔣 launch.win launch.arr_whole c
      ((𝔣 p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%Wr, HO⟩; iexists Wr; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hlast c) ?_
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c 𝔣 ((𝔣 p c).share_full (hq c))
      (fun b => W c b) (fun b => W' c b) ((𝔣 p c).arrAt · (cfgs p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%Wr, -, HO⟩; iexists Wr; iexact HO

end Cert.KernelIdeal.Hand

end
-- ==== Proof.KI.Whole.lean ====
import proofs.«412604_j76897094468164_1_alg».proof.Proof.KI.Family
import Idealize.ShloMosaic.Lib.Pipeline.Value

set_option maxRecDepth 16384

noncomputable section

namespace Cert.KernelIdeal.Hand

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem readAt_whole_unread {sp : Space} {S : Shape} {e : EltTy} (m : Memref sig .tc sp S e) (h : m.IsWhole)
    {off : Fin S.rank → Nat} (ho : off = fun _ => 0) (inb : ∀ a, off a + S.size a ≤ S.size a) (X : S.Idx → Elt F e) :
    m.view.readAt (Elt F) (Rect.unit off S.size inb).toLoadRect (h.unread X) = X := by
  rw [View.readAt_eq_ld, h.read_unread]; exact View.ld_unit_zero ho inb X

theorem read_store_whole {sp : Space} {S : Shape} {e : EltTy} (v : View sig .tc sp S e) (f : v.ty.Contents (Elt F))
    {off : Fin S.rank → Nat} (ho : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P :=
  (View.read_writes_eq_canon v f _ fun y => ⟨_, List.mem_cons_self, View.mem_set_unit_zero ho inb y⟩).trans
    (View.canon_cons_unit_zero ho inb P L)

theorem owns_eq {c : Dev nD} {sp : Space} {sh : Shape} {e : EltTy} {m : Memref sig .tc sp sh e} (h : m.IsWhole) {q : PosShare TreeShare} {X : sh.Idx → Elt F e} :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f)) ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄) ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩

end Cert.KernelIdeal.Hand

end
-- ==== Proof.KI.R0.Run.lean ====
import proofs.«412604_j76897094468164_1_alg».proof.Proof.KI.Whole
import Idealize.ShloMosaic.Lib.Pipeline.Value

set_option maxRecDepth 16384

noncomputable section

namespace Cert.KernelIdeal.Hand.R0

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

abbrev condZ (i : grid0.Coords) : Prop := k0_cond2 i = 1#1
theorem hcondZ : ∀ t : Fin cfg0.N, condZ (grid0.coords t) ↔ t.val = 9 :=
  (by decide +kernel : ∀ t : Fin grid0.N, condZ (grid0.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k0_pay5 x w b)
            ∗ owns (c : Thread nD τ) arg5 fullShare (if condZ i then k0_pay1 (k0_pay6 x w b (if condA i then k0_pay3 else s)) else m)
            ∗ owns (c : Thread nD τ) arg6 fullShare (if condZ i then k0_pay2 (k0_pay6 x w b (if condA i then k0_pay3 else s)) (k0_pay7 x w b (if condA i then k0_pay4 else q)) else v)
            ∗ owns (c : Thread nD τ) arg7 fullShare (k0_pay6 x w b (if condA i then k0_pay3 else s)) ∗ owns (c : Thread nD τ) arg8 fullShare (k0_pay7 x w b (if condA i then k0_pay4 else q))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc0__stage1_kernel_eq_skeleton]; unfold cc0__stage1_kernel_skel
    simp only [k0_part1_eq_skeleton]; unfold k0_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.KernelIdeal.Hand.R0

end
-- ==== Proof.KI.R0.Obl.lean ====
import proofs.«412604_j76897094468164_1_alg».proof.Proof.KI.R0.Dat
import proofs.«412604_j76897094468164_1_alg».proof.Proof.KI.R0.Run

set_option maxRecDepth 16384

noncomputable section

namespace Cert.KernelIdeal.Hand.R0

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg0.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg0.N) (w : Fin cfg0.W), 4 ≤ w.val →
    (condZ (grid0.coords t) → cfg0.idle w (grid0.coords t) = false)
      ∧ (¬condZ (grid0.coords t) → cfg0.idle w (grid0.coords t) = true ∧ (cfg0.win w).flush t = false) := by
  decide +kernel

theorem leaves_live (c : Dev nD) (t : Fin cfg0.N) (w : Fin cfg0.W) (h : cfg0.idle w (grid0.coords t) = false) :
    (dat W c).leavesExact w t = owns (c : Thread nD τ) ((cfg0.win w).stage (cfg0.slots t w)) fullShare ((dat W c).after w t) := by
  unfold Dat.leavesExact; rw [h]

theorem leaves_out (c : Dev nD) (t : Fin cfg0.N) (w : Fin cfg0.W) (hw : 4 ≤ w.val) (d X) (hX : (dat W c).after w t = X) :
    owns (c : Thread nD τ) ((cfg0.win w).stage (cfg0.slots t w)) fullShare (if condZ (grid0.coords t) then X else (dat W c).before w t d)
      ⊢ (dat W c).leavesExact w t := by
  subst hX
  by_cases hZ : condZ (grid0.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec0 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scS, scQ, owns_whole]; try rfl

theorem outsAt_step (c : Dev nD) (t : Fin cfg0.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid0.coords t) then k0_pay3 else s) (if condA (grid0.coords t) then k0_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg0.N) :
    iprop((dat W c).Φ t.castSucc ∗ (dat W c).owesAt () t.castSucc
      ∗ (∃ d, owns (c : Thread nD τ) (st0_0 t) fullShare ((dat W c).before 0 t d))
      ∗ (∃ d, owns (c : Thread nD τ) (st0_1 t) fullShare ((dat W c).before 1 t d))
      ∗ (∃ d, owns (c : Thread nD τ) (st0_2 t) fullShare ((dat W c).before 2 t d))
      ∗ (∃ d, owns (c : Thread nD τ) (st0_3 t) fullShare ((dat W c).before 3 t d))
      ∗ (∃ d, owns (c : Thread nD τ) (st0_4 t) fullShare ((dat W c).before 4 t d))
      ∗ (∃ d, owns (c : Thread nD τ) (st0_5 t) fullShare ((dat W c).before 5 t d)))
    ⊢ wp frame (wpE (defs₀ (F := F)) Variants.none c none) Set.univ (bodyAt0 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt0
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k0_pay5 _ _ _ from congrArg (·.1) hO]
  iapply (run c Set.univ (grid0.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k0_pay1 _ from (after_4 W c t).trans (congrArg (·.2.1) hO))); iexact H4
  iapply (leaves_out W c t 5 (by decide) d5 _ (show _ = k0_pay2 _ _ from (after_5 W c t).trans (congrArg (·.2.2.1) hO))); iexact H5

theorem body_obligation (c : Dev nD) : BodyObligation (dat (F := F) W c) (defs₀ (F := F)) Variants.none () Set.univ := fun t => by
  rw [bigSep_W0, bigSep_W0]
  exact sound_body W c t

theorem Phi_in (c : Dev nD) : Pipeline.ΦA spec0 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg0.N) ⊢ Pipeline.ΦA spec0 c := by
  rw [show (dat W c).Φ (Fin.last cfg0.N) = PhiS W c cfg0.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.KernelIdeal.Hand.R0

end
-- ==== Proof.KI.R1.Run.lean ====
import proofs.«412604_j76897094468164_1_alg».proof.Proof.KI.Whole

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid1.Coords) : Prop :=
  (Scalar.cmpi .ne (Scalar.extui (Scalar.cmpi .eq (BitVec.ofNat 32 (i 0).val) 0#32)) 0#32) = 1#1
theorem hcondFirst : ∀ t : Fin cfg1.N, condFirst (grid1.coords t) ↔ t.val % 10 = 0 :=
  (by decide +kernel : ∀ t : Fin grid1.N, condFirst (grid1.coords t) ↔ t.val % 10 = 0)

abbrev condLast (i : grid1.Coords) : Prop := k1_cond2 i = 1#1
theorem hcondLast : ∀ t : Fin cfg1.N, condLast (grid1.coords t) ↔ t.val % 10 = 9 :=
  (by decide +kernel : ∀ t : Fin grid1.N, condLast (grid1.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid1.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) (k1_pay5 (F := F))) (k1_pay2 (k1_pay7 x0 x1 x2 x3 x4 x5 x6) (k1_pay6 (F := F))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) s0) (k1_pay2 (k1_pay7 x0 x1 x2 x3 x4 x5 x6) s1) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k1_pay7 x0 x1 x2 x3 x4 x5 x6) (k1_pay1 (k1_pay7 x0 x1 x2 x3 x4 x5 x6) s0) (k1_pay2 (k1_pay7 x0 x1 x2 x3 x4 x5 x6) s1)
            ∗ owns (c : Thread nD τ) arg9 fullShare (k1_pay3 (k1_pay1 (k1_pay7 x0 x1 x2 x3 x4 x5 x6) s0))
            ∗ owns (c : Thread nD τ) arg10 fullShare (k1_pay4 (k1_pay1 (k1_pay7 x0 x1 x2 x3 x4 x5 x6) s0) (k1_pay2 (k1_pay7 x0 x1 x2 x3 x4 x5 x6) s1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12) K := by
  simp only [cc1__stage2_kernel_eq_skeleton]; unfold cc1__stage2_kernel_skel
  simp only [k1_part1_eq_skeleton]; unfold k1_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.KernelIdeal.Hand.R1

end
-- ==== Proof.KI.R1.Body.lean ====
import proofs.«412604_j76897094468164_1_alg».proof.Proof.KI.R1.Dat
import proofs.«412604_j76897094468164_1_alg».proof.Proof.KI.R1.Run

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg1.N, ¬condLast (grid1.coords t) → (cfg1.idle 8 (grid1.coords t) = true ∧ (cfg1.win 8).flush t = false) ∧ cfg1.idle 9 (grid1.coords t) = true ∧ (cfg1.win 9).flush t = false := by decide +kernel
theorem on89 : ∀ t : Fin cfg1.N, condLast (grid1.coords t) → cfg1.idle 8 (grid1.coords t) = false ∧ cfg1.idle 9 (grid1.coords t) = false := by decide +kernel

theorem before_0 (c : Dev nD) (t : Fin cfg1.N) (d) : (dat W c).before 0 t d = iblk W c 0 t :=
  ((dat W c).before_in_eq_fetched 0 rfl (fun _ => rfl) (fun _ _ _ => rfl) (fun _ => rfl) t d).trans rfl
theorem before_1 (c : Dev nD) (t : Fin cfg1.N) (d) : (dat W c).before 1 t d = iblk W c 1 t :=
  ((dat W c).before_in_eq_fetched 1 rfl (fun _ => rfl) (fun _ _ _ => rfl) (fun _ => rfl) t d).trans rfl
theorem before_2 (c : Dev nD) (t : Fin cfg1.N) (d) : (dat W c).before 2 t d = iblk W c 2 t :=
  ((dat W c).before_in_eq_fetched 2 rfl (fun _ => rfl) (fun _ _ _ => rfl) (fun _ => rfl) t d).trans rfl
theorem before_3 (c : Dev nD) (t : Fin cfg1.N) (d) : (dat W c).before 3 t d = iblk W c 3 t :=
  ((dat W c).before_in_eq_fetched 3 rfl (fun _ => rfl) (fun _ _ _ => rfl) (fun _ => rfl) t d).trans rfl
theorem before_4 (c : Dev nD) (t : Fin cfg1.N) (d) : (dat W c).before 4 t d = iblk W c 4 t :=
  ((dat W c).before_in_eq_fetched 4 rfl (fun _ => rfl) (fun _ _ _ => rfl) (fun _ => rfl) t d).trans rfl
theorem before_5 (c : Dev nD) (t : Fin cfg1.N) (d) : (dat W c).before 5 t d = iblk W c 5 t :=
  ((dat W c).before_in_eq_fetched 5 rfl (fun _ => rfl) (fun _ _ _ => rfl) (fun _ => rfl) t d).trans rfl
theorem before_6 (c : Dev nD) (t : Fin cfg1.N) (d) : (dat W c).before 6 t d = iblk W c 6 t :=
  ((dat W c).before_in_eq_fetched 6 rfl (fun _ => rfl) (fun _ _ _ => rfl) (fun _ => rfl) t d).trans rfl

abbrev ms_0 (t : Fin cfg1.N) := win1_0.stage (cfg1.slots t 0)
abbrev ms_1 (t : Fin cfg1.N) := win1_1.stage (cfg1.slots t 1)
abbrev ms_2 (t : Fin cfg1.N) := win1_2.stage (cfg1.slots t 2)
abbrev ms_3 (t : Fin cfg1.N) := win1_3.stage (cfg1.slots t 3)
abbrev ms_4 (t : Fin cfg1.N) := win1_4.stage (cfg1.slots t 4)
abbrev ms_5 (t : Fin cfg1.N) := win1_5.stage (cfg1.slots t 5)
abbrev ms_6 (t : Fin cfg1.N) := win1_6.stage (cfg1.slots t 6)
abbrev ms_7 (t : Fin cfg1.N) := win1_7.stage (cfg1.slots t 7)
abbrev ms_8 (t : Fin cfg1.N) := win1_8.stage (cfg1.slots t 8)
abbrev ms_9 (t : Fin cfg1.N) := win1_9.stage (cfg1.slots t 9)

def bodyPre (c : Dev nD) (t : Fin cfg1.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg1.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [PhiS]
  have hN : t.val < 10 := lt_of_lt_of_eq t.isLt (show cfg1.N = 10 from N_1)
  by_cases h0 : t.val % 10 = 0
  · have ht0 : t.val = 0 := by omega
    have hcl : ¬condLast (grid1.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid1.coords t) := fun h => h0 ((hcondFirst t).mp h)
    rw [PhiS_pos W c _ _ ht0]
    by_cases h1 : t.val % 10 = 9
    · have hcl : condLast (grid1.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid1.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W1, bigSep_W1]
  exact sound_body W c t

end Cert.KernelIdeal.Hand.R1

end
-- ==== Proof.KI.R1.Seg.lean ====
import proofs.«412604_j76897094468164_1_alg».proof.Proof.KI.R1.Body

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec1 c ⊢ (dat W c).Φ 0 := .rfl

theorem Phi_out (c : Dev nD) (t : Fin (cfg1.N + 1)) (ht : t.val ≠ 0) : (dat W c).Φ t ⊢ Pipeline.ΦA spec1 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg1.N) ⊢ Pipeline.ΦA spec1 c :=
  Phi_out W c _ (by rw [Fin.val_last]; have : cfg1.N = 10 := N_1; omega)

end Cert.KernelIdeal.Hand.R1

end
-- ==== Proof.KI.R2.Run.lean ====
import proofs.«412604_j76897094468164_1_alg».proof.Proof.KI.Family
import proofs.«412604_j76897094468164_1_alg».proof.Proof.KI.Whole
import Idealize.ShloMosaic.Lib.Pipeline.Value

set_option maxRecDepth 16384

noncomputable section

namespace Cert.KernelIdeal.Hand.R2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid2.Coords) : Prop :=
  (Scalar.cmpi .ne (Scalar.extui (Scalar.cmpi .eq (BitVec.ofNat 32 (i 0).val) 0#32)) 0#32) = 1#1
abbrev cond1 (i : grid2.Coords) : Prop := k2_cond2 i = 1#1

variable (c : Dev nD) (E : Set ℕ) (i : grid2.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k2_pay1 ∨ ¬cond0 i ∧ s₀ = s)
    (h1 : cond1 i ∧ y6' = k2_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k2_pay2 x0 x1 x2 x3 x4) y6' (k2_pay3 x0 x1 x2 x3 x4 s₀) -∗ K ⟨⟩))
      ⊢ wp frame (wpE (defs₀ (F := F)) Variants.none c none) E
          (cc2__stage3_kernel i arg1 harg1 arg2 harg2 arg3 harg3 arg4 harg4 arg5 harg5 arg6 harg6 arg7 harg7 arg8 harg8) K := by
  simp only [cc2__stage3_kernel_eq_skeleton]; unfold cc2__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.KernelIdeal.Hand.R2

end
-- ==== Proof.KI.R2.Body.lean ====
import proofs.«412604_j76897094468164_1_alg».proof.Proof.KI.R2.Dat
import proofs.«412604_j76897094468164_1_alg».proof.Proof.KI.R2.Run

set_option maxRecDepth 16384

noncomputable section

namespace Cert.KernelIdeal.Hand.R2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg2.N)

theorem hcond0 : ∀ t : Fin cfg2.N, cond0 (grid2.coords t) ↔ t.val = 0 :=
  (by decide +kernel : ∀ t : Fin grid2.N, cond0 (grid2.coords t) ↔ t.val = 0)
theorem hcond1 : ∀ t : Fin cfg2.N, cond1 (grid2.coords t) ↔ t.val = 9 :=
  (by decide +kernel : ∀ t : Fin grid2.N, cond1 (grid2.coords t) ↔ t.val = 9)

theorem hexcl : ∀ t : Fin cfg2.N, cond0 (grid2.coords t) → ¬cond1 (grid2.coords t) := by decide +kernel

theorem idleAt_6 : ∀ t : Fin cfg2.N, ¬cond1 (grid2.coords t) → cfg2.idle 6 (grid2.coords t) = true := by decide +kernel
theorem noFlush_6 : ∀ t : Fin cfg2.N, ¬cond1 (grid2.coords t) → (cfg2.win 6).flush t = false := by decide +kernel
theorem liveAt_6 : ∀ t : Fin cfg2.N, cond1 (grid2.coords t) → cfg2.idle 6 (grid2.coords t) = false := by decide +kernel

theorem PhiA_eq :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d)))

def bodyPost : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ (dat W c).leavesExact 6 t)

theorem sound_body :
    bodyPre W c t ⊢ wp frame (wpE (defs₀ (F := F)) Variants.none c none) Set.univ (bodyAt2 t) (fun _ => bodyPost W c t) := by
  unfold bodyPre bodyPost bodyAt2
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid2.coords t) := (hcond0 t).mpr h0
    have hc1 : ¬cond1 (grid2.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid2.coords t) (st2_0 t) _ (st2_1 t) _ (st2_2 t) _ (st2_3 t) _ (st2_4 t) _ (st2_5 t) _ (st2_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid2.coords t) := fun h => h0 ((hcond0 t).mp h)
    rw [outsAt_pos W c t h0]; dsimp only; unfold hAt sAt
    rw [PhiS_pos W c _ _ h0]
    by_cases h9 : t.val = 9
    · have hc1 : cond1 (grid2.coords t) := (hcond1 t).mpr h9
      rw [show (dat W c).leavesExact 6 t = owns (c : Thread nD τ) (st2_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid2.coords t) (st2_0 t) _ (st2_1 t) _ (st2_2 t) _ (st2_3 t) _ (st2_4 t) _ (st2_5 t) _ (st2_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid2.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid2.coords t) (st2_0 t) _ (st2_1 t) _ (st2_2 t) _ (st2_3 t) _ (st2_4 t) _ (st2_5 t) _ (st2_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W2, bigSep_W2]
  exact sound_body W c t

end Cert.KernelIdeal.Hand.R2

end
-- ==== Proof.KI.R2.Seg.lean ====
import proofs.«412604_j76897094468164_1_alg».proof.Proof.KI.R2.Body

set_option maxRecDepth 16384

noncomputable section

namespace Cert.KernelIdeal.Hand.R2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec2 c ⊢ (dat W c).Φ 0 := .rfl

theorem Phi_last (c : Dev nD) : (dat W c).Φ (Fin.last cfg2.N) ⊢ Pipeline.ΦA spec2 c := by
  rw [show (dat W c).Φ (Fin.last cfg2.N) = PhiS W c cfg2.N (Nat.le_refl _) from rfl,
    PhiS_pos W c _ _ (by rw [show cfg2.N = 10 from N_2]; decide)]
  unfold Pipeline.ΦA
  rw [scopedRest2_split, show (scM : Memref sig .tc .vmem S1x64 .f32) = Memref.whole cc2_scratch0 from rfl, owns_whole]
  iintro ⟨⟨HS, Hrest⟩, Hg⟩
  isplitl [HS Hrest]
  · isplitl [HS]; · iexists _; iexact HS
    iexact Hrest
  iexact Hg

end Cert.KernelIdeal.Hand.R2

end
-- ==== Proof.KI.R3.Run.lean ====
import proofs.«412604_j76897094468164_1_alg».proof.Proof.KI.Whole
import Idealize.ShloMosaic.Lib.Pipeline.Value

set_option maxRecDepth 16384

noncomputable section

namespace Cert.KernelIdeal.Hand.R3

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid3.Coords) : Prop :=
  (Scalar.cmpi .ne (Scalar.extui (Scalar.cmpi .eq (BitVec.ofNat 32 (i 0).val) 0#32)) 0#32) = 1#1
theorem hcondA : ∀ t : Fin cfg3.N, condA (grid3.coords t) ↔ t.val = 0 :=
  (by decide +kernel : ∀ t : Fin grid3.N, condA (grid3.coords t) ↔ t.val = 0)

abbrev condZ (i : grid3.Coords) : Prop := k3_cond2 i = 1#1
theorem hcondZ : ∀ t : Fin cfg3.N, condZ (grid3.coords t) ↔ t.val = 9 :=
  (by decide +kernel : ∀ t : Fin grid3.N, condZ (grid3.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k3_pay5 x w b)
            ∗ owns (c : Thread nD τ) arg5 fullShare (if condZ i then k3_pay1 (k3_pay6 x w b (if condA i then k3_pay3 else s)) else m)
            ∗ owns (c : Thread nD τ) arg6 fullShare (if condZ i then k3_pay2 (k3_pay6 x w b (if condA i then k3_pay3 else s)) (k3_pay7 x w b (if condA i then k3_pay4 else q)) else v)
            ∗ owns (c : Thread nD τ) arg7 fullShare (k3_pay6 x w b (if condA i then k3_pay3 else s)) ∗ owns (c : Thread nD τ) arg8 fullShare (k3_pay7 x w b (if condA i then k3_pay4 else q))) -∗ K ⟨⟩))
      ⊢ wp frame (wpE (defs₀ (F := F)) Variants.none c none) E (cc3__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc3__stage1_kernel_eq_skeleton]; unfold cc3__stage1_kernel_skel
    simp only [k3_part1_eq_skeleton]; unfold k3_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.KernelIdeal.Hand.R3

end
-- ==== Proof.KI.R3.Obl.lean ====
import proofs.«412604_j76897094468164_1_alg».proof.Proof.KI.R3.Dat
import proofs.«412604_j76897094468164_1_alg».proof.Proof.KI.R3.Run

set_option maxRecDepth 16384

noncomputable section

namespace Cert.KernelIdeal.Hand.R3

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg3.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg3.N) (w : Fin cfg3.W), 4 ≤ w.val →
    (condZ (grid3.coords t) → cfg3.idle w (grid3.coords t) = false)
      ∧ (¬condZ (grid3.coords t) → cfg3.idle w (grid3.coords t) = true ∧ (cfg3.win w).flush t = false) := by
  decide +kernel

theorem leaves_live (c : Dev nD) (t : Fin cfg3.N) (w : Fin cfg3.W) (h : cfg3.idle w (grid3.coords t) = false) :
    (dat W c).leavesExact w t = owns (c : Thread nD τ) ((cfg3.win w).stage (cfg3.slots t w)) fullShare ((dat W c).after w t) := by
  unfold Dat.leavesExact; rw [h]

theorem leaves_out (c : Dev nD) (t : Fin cfg3.N) (w : Fin cfg3.W) (hw : 4 ≤ w.val) (d X) (hX : (dat W c).after w t = X) :
    owns (c : Thread nD τ) ((cfg3.win w).stage (cfg3.slots t w)) fullShare (if condZ (grid3.coords t) then X else (dat W c).before w t d)
      ⊢ (dat W c).leavesExact w t := by
  subst hX
  by_cases hZ : condZ (grid3.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec3 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scS, scQ, owns_whole]; try rfl

theorem outsAt_step (c : Dev nD) (t : Fin cfg3.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid3.coords t) then k3_pay3 else s) (if condA (grid3.coords t) then k3_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg3.N) :
    iprop((dat W c).Φ t.castSucc ∗ (dat W c).owesAt () t.castSucc
      ∗ (∃ d, owns (c : Thread nD τ) (st3_0 t) fullShare ((dat W c).before 0 t d))
      ∗ (∃ d, owns (c : Thread nD τ) (st3_1 t) fullShare ((dat W c).before 1 t d))
      ∗ (∃ d, owns (c : Thread nD τ) (st3_2 t) fullShare ((dat W c).before 2 t d))
      ∗ (∃ d, owns (c : Thread nD τ) (st3_3 t) fullShare ((dat W c).before 3 t d))
      ∗ (∃ d, owns (c : Thread nD τ) (st3_4 t) fullShare ((dat W c).before 4 t d))
      ∗ (∃ d, owns (c : Thread nD τ) (st3_5 t) fullShare ((dat W c).before 5 t d)))
    ⊢ wp frame (wpE (defs₀ (F := F)) Variants.none c none) Set.univ (bodyAt3 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt3
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k3_pay5 _ _ _ from congrArg (·.1) hO]
  iapply (run c Set.univ (grid3.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k3_pay1 _ from (after_4 W c t).trans (congrArg (·.2.1) hO))); iexact H4
  iapply (leaves_out W c t 5 (by decide) d5 _ (show _ = k3_pay2 _ _ from (after_5 W c t).trans (congrArg (·.2.2.1) hO))); iexact H5

theorem body_obligation (c : Dev nD) : BodyObligation (dat (F := F) W c) (defs₀ (F := F)) Variants.none () Set.univ := fun t => by
  rw [bigSep_W3, bigSep_W3]
  exact sound_body W c t

theorem Phi_in (c : Dev nD) : Pipeline.ΦA spec3 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg3.N) ⊢ Pipeline.ΦA spec3 c := by
  rw [show (dat W c).Φ (Fin.last cfg3.N) = PhiS W c cfg3.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.KernelIdeal.Hand.R3

end
-- ==== Proof.KI.R4.Run.lean ====
import proofs.«412604_j76897094468164_1_alg».proof.Proof.KI.Whole

set_option maxRecDepth 16384

noncomputable section

namespace Cert.KernelIdeal.Hand.R4

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid4.Coords) : Prop :=
  (Scalar.cmpi .ne (Scalar.extui (Scalar.cmpi .eq (BitVec.ofNat 32 (i 0).val) 0#32)) 0#32) = 1#1
theorem hcondFirst : ∀ t : Fin cfg4.N, condFirst (grid4.coords t) ↔ t.val % 10 = 0 :=
  (by decide +kernel : ∀ t : Fin grid4.N, condFirst (grid4.coords t) ↔ t.val % 10 = 0)

abbrev condLast (i : grid4.Coords) : Prop := k4_cond2 i = 1#1
theorem hcondLast : ∀ t : Fin cfg4.N, condLast (grid4.coords t) ↔ t.val % 10 = 9 :=
  (by decide +kernel : ∀ t : Fin grid4.N, condLast (grid4.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid4.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) (k4_pay5 (F := F))) (k4_pay2 (k4_pay7 x0 x1 x2 x3 x4 x5 x6) (k4_pay6 (F := F))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) s0) (k4_pay2 (k4_pay7 x0 x1 x2 x3 x4 x5 x6) s1) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k4_pay7 x0 x1 x2 x3 x4 x5 x6) (k4_pay1 (k4_pay7 x0 x1 x2 x3 x4 x5 x6) s0) (k4_pay2 (k4_pay7 x0 x1 x2 x3 x4 x5 x6) s1)
            ∗ owns (c : Thread nD τ) arg9 fullShare (k4_pay3 (k4_pay1 (k4_pay7 x0 x1 x2 x3 x4 x5 x6) s0))
            ∗ owns (c : Thread nD τ) arg10 fullShare (k4_pay4 (k4_pay1 (k4_pay7 x0 x1 x2 x3 x4 x5 x6) s0) (k4_pay2 (k4_pay7 x0 x1 x2 x3 x4 x5 x6) s1))) -∗ K ⟨⟩))
      ⊢ wp frame (wpE (defs₀ (F := F)) Variants.none c none) E (cc4__stage2_kernel i arg1 harg1 arg2 harg2 arg3 harg3 arg4 harg4 arg5 harg5 arg6 harg6 arg7 harg7 arg8 harg8 arg9 harg9 arg10 harg10 arg11 harg11 arg12 harg12) K := by
  simp only [cc4__stage2_kernel_eq_skeleton]; unfold cc4__stage2_kernel_skel
  simp only [k4_part1_eq_skeleton]; unfold k4_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.KernelIdeal.Hand.R4

end
-- ==== Proof.KI.R4.Body.lean ====
import proofs.«412604_j76897094468164_1_alg».proof.Proof.KI.R4.Dat
import proofs.«412604_j76897094468164_1_alg».proof.Proof.KI.R4.Run

set_option maxRecDepth 16384

noncomputable section

namespace Cert.KernelIdeal.Hand.R4

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg4.N, ¬condLast (grid4.coords t) → (cfg4.idle 8 (grid4.coords t) = true ∧ (cfg4.win 8).flush t = false) ∧ cfg4.idle 9 (grid4.coords t) = true ∧ (cfg4.win 9).flush t = false := by decide +kernel
theorem on89 : ∀ t : Fin cfg4.N, condLast (grid4.coords t) → cfg4.idle 8 (grid4.coords t) = false ∧ cfg4.idle 9 (grid4.coords t) = false := by decide +kernel

theorem before_0 (c : Dev nD) (t : Fin cfg4.N) (d) : (dat W c).before 0 t d = iblk W c 0 t :=
  ((dat W c).before_in_eq_fetched 0 rfl (fun _ => rfl) (fun _ _ _ => rfl) (fun _ => rfl) t d).trans rfl
theorem before_1 (c : Dev nD) (t : Fin cfg4.N) (d) : (dat W c).before 1 t d = iblk W c 1 t :=
  ((dat W c).before_in_eq_fetched 1 rfl (fun _ => rfl) (fun _ _ _ => rfl) (fun _ => rfl) t d).trans rfl
theorem before_2 (c : Dev nD) (t : Fin cfg4.N) (d) : (dat W c).before 2 t d = iblk W c 2 t :=
  ((dat W c).before_in_eq_fetched 2 rfl (fun _ => rfl) (fun _ _ _ => rfl) (fun _ => rfl) t d).trans rfl
theorem before_3 (c : Dev nD) (t : Fin cfg4.N) (d) : (dat W c).before 3 t d = iblk W c 3 t :=
  ((dat W c).before_in_eq_fetched 3 rfl (fun _ => rfl) (fun _ _ _ => rfl) (fun _ => rfl) t d).trans rfl
theorem before_4 (c : Dev nD) (t : Fin cfg4.N) (d) : (dat W c).before 4 t d = iblk W c 4 t :=
  ((dat W c).before_in_eq_fetched 4 rfl (fun _ => rfl) (fun _ _ _ => rfl) (fun _ => rfl) t d).trans rfl
theorem before_5 (c : Dev nD) (t : Fin cfg4.N) (d) : (dat W c).before 5 t d = iblk W c 5 t :=
  ((dat W c).before_in_eq_fetched 5 rfl (fun _ => rfl) (fun _ _ _ => rfl) (fun _ => rfl) t d).trans rfl
theorem before_6 (c : Dev nD) (t : Fin cfg4.N) (d) : (dat W c).before 6 t d = iblk W c 6 t :=
  ((dat W c).before_in_eq_fetched 6 rfl (fun _ => rfl) (fun _ _ _ => rfl) (fun _ => rfl) t d).trans rfl

abbrev ms_0 (t : Fin cfg4.N) := win4_0.stage (cfg4.slots t 0)
abbrev ms_1 (t : Fin cfg4.N) := win4_1.stage (cfg4.slots t 1)
abbrev ms_2 (t : Fin cfg4.N) := win4_2.stage (cfg4.slots t 2)
abbrev ms_3 (t : Fin cfg4.N) := win4_3.stage (cfg4.slots t 3)
abbrev ms_4 (t : Fin cfg4.N) := win4_4.stage (cfg4.slots t 4)
abbrev ms_5 (t : Fin cfg4.N) := win4_5.stage (cfg4.slots t 5)
abbrev ms_6 (t : Fin cfg4.N) := win4_6.stage (cfg4.slots t 6)
abbrev ms_7 (t : Fin cfg4.N) := win4_7.stage (cfg4.slots t 7)
abbrev ms_8 (t : Fin cfg4.N) := win4_8.stage (cfg4.slots t 8)
abbrev ms_9 (t : Fin cfg4.N) := win4_9.stage (cfg4.slots t 9)

def bodyPre (c : Dev nD) (t : Fin cfg4.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg4.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before_0, before_1, before_2, before_3, before_4, before_5, before_6]
  rw [PhiS]
  have hN : t.val < 10 := lt_of_lt_of_eq t.isLt (show cfg4.N = 10 from N_4)
  by_cases h0 : t.val % 10 = 0
  · have ht0 : t.val = 0 := by omega
    have hcl : ¬condLast (grid4.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid4.coords t) := fun h => h0 ((hcondFirst t).mp h)
    rw [PhiS_pos W c _ _ ht0]
    by_cases h1 : t.val % 10 = 9
    · have hcl : condLast (grid4.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid4.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W4, bigSep_W4]
  exact sound_body W c t

end Cert.KernelIdeal.Hand.R4

end
-- ==== Proof.KI.R4.Seg.lean ====
import proofs.«412604_j76897094468164_1_alg».proof.Proof.KI.R4.Body

set_option maxRecDepth 16384

noncomputable section

namespace Cert.KernelIdeal.Hand.R4

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec4 c ⊢ (dat W c).Φ 0 := .rfl

theorem Phi_out (c : Dev nD) (t : Fin (cfg4.N + 1)) (ht : t.val ≠ 0) : (dat W c).Φ t ⊢ Pipeline.ΦA spec4 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg4.N) ⊢ Pipeline.ΦA spec4 c :=
  Phi_out W c _ (by rw [Fin.val_last]; have : cfg4.N = 10 := N_4; omega)

end Cert.KernelIdeal.Hand.R4

end
-- ==== Proof.KI.R5.Run.lean ====
import proofs.«412604_j76897094468164_1_alg».proof.Proof.KI.Family
import proofs.«412604_j76897094468164_1_alg».proof.Proof.KI.Whole
import Idealize.ShloMosaic.Lib.Pipeline.Value

set_option maxRecDepth 16384

noncomputable section

namespace Cert.KernelIdeal.Hand.R5

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid5.Coords) : Prop :=
  (Scalar.cmpi .ne (Scalar.extui (Scalar.cmpi .eq (BitVec.ofNat 32 (i 0).val) 0#32)) 0#32) = 1#1
abbrev cond1 (i : grid5.Coords) : Prop := k5_cond2 i = 1#1

variable (c : Dev nD) (E : Set ℕ) (i : grid5.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k5_pay1 ∨ ¬cond0 i ∧ s₀ = s)
    (h1 : cond1 i ∧ y6' = k5_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k5_pay2 x0 x1 x2 x3 x4) y6' (k5_pay3 x0 x1 x2 x3 x4 s₀) -∗ K ⟨⟩))
      ⊢ wp frame (wpE (defs₀ (F := F)) Variants.none c none) E
          (cc5__stage3_kernel i arg1 harg1 arg2 harg2 arg3 harg3 arg4 harg4 arg5 harg5 arg6 harg6 arg7 harg7 arg8 harg8) K := by
  simp only [cc5__stage3_kernel_eq_skeleton]; unfold cc5__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.KernelIdeal.Hand.R5

end
-- ==== Proof.KI.R5.Body.lean ====
import proofs.«412604_j76897094468164_1_alg».proof.Proof.KI.R5.Dat
import proofs.«412604_j76897094468164_1_alg».proof.Proof.KI.R5.Run

set_option maxRecDepth 16384

noncomputable section

namespace Cert.KernelIdeal.Hand.R5

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg5.N)

theorem hcond0 : ∀ t : Fin cfg5.N, cond0 (grid5.coords t) ↔ t.val = 0 :=
  (by decide +kernel : ∀ t : Fin grid5.N, cond0 (grid5.coords t) ↔ t.val = 0)
theorem hcond1 : ∀ t : Fin cfg5.N, cond1 (grid5.coords t) ↔ t.val = 9 :=
  (by decide +kernel : ∀ t : Fin grid5.N, cond1 (grid5.coords t) ↔ t.val = 9)

theorem hexcl : ∀ t : Fin cfg5.N, cond0 (grid5.coords t) → ¬cond1 (grid5.coords t) := by decide +kernel

theorem idleAt_6 : ∀ t : Fin cfg5.N, ¬cond1 (grid5.coords t) → cfg5.idle 6 (grid5.coords t) = true := by decide +kernel
theorem noFlush_6 : ∀ t : Fin cfg5.N, ¬cond1 (grid5.coords t) → (cfg5.win 6).flush t = false := by decide +kernel
theorem liveAt_6 : ∀ t : Fin cfg5.N, cond1 (grid5.coords t) → cfg5.idle 6 (grid5.coords t) = false := by decide +kernel

theorem PhiA_eq :
    (Pipeline.ΦA spec5 c : sProp 𝕄)
      = iprop(iprop((∃ d, owns (c : Thread nD τ) scM fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st5_0 t) fullShare ((dat W c).before 0 t d))
    ∗ (∃ d, owns (c : Thread nD τ) (st5_1 t) fullShare ((dat W c).before 1 t d))
    ∗ (∃ d, owns (c : Thread nD τ) (st5_2 t) fullShare ((dat W c).before 2 t d))
    ∗ (∃ d, owns (c : Thread nD τ) (st5_3 t) fullShare ((dat W c).before 3 t d))
    ∗ (∃ d, owns (c : Thread nD τ) (st5_4 t) fullShare ((dat W c).before 4 t d))
    ∗ (∃ d, owns (c : Thread nD τ) (st5_5 t) fullShare ((dat W c).before 5 t d))
    ∗ (∃ d, owns (c : Thread nD τ) (st5_6 t) fullShare ((dat W c).before 6 t d)))

def bodyPost : sProp 𝕄 :=
  iprop((dat W c).Φ t.succ ∗ (dat W c).owesAt () t.succ
    ∗ owns (c : Thread nD τ) (st5_0 t) fullShare ((dat W c).after 0 t)
    ∗ owns (c : Thread nD τ) (st5_1 t) fullShare ((dat W c).after 1 t)
    ∗ owns (c : Thread nD τ) (st5_2 t) fullShare ((dat W c).after 2 t)
    ∗ owns (c : Thread nD τ) (st5_3 t) fullShare ((dat W c).after 3 t)
    ∗ owns (c : Thread nD τ) (st5_4 t) fullShare ((dat W c).after 4 t)
    ∗ owns (c : Thread nD τ) (st5_5 t) fullShare ((dat W c).after 5 t)
    ∗ (dat W c).leavesExact 6 t)

theorem sound_body :
    bodyPre W c t ⊢ wp frame (wpE (defs₀ (F := F)) Variants.none c none) Set.univ (bodyAt5 t) (fun _ => bodyPost W c t) := by
  unfold bodyPre bodyPost bodyAt5
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid5.coords t) := (hcond0 t).mpr h0
    have hc1 : ¬cond1 (grid5.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid5.coords t) (st5_0 t) _ (st5_1 t) _ (st5_2 t) _ (st5_3 t) _ (st5_4 t) _ (st5_5 t) _ (st5_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid5.coords t) := fun h => h0 ((hcond0 t).mp h)
    rw [outsAt_pos W c t h0]; dsimp only; unfold hAt sAt
    rw [PhiS_pos W c _ _ h0]
    by_cases h9 : t.val = 9
    · have hc1 : cond1 (grid5.coords t) := (hcond1 t).mpr h9
      rw [show (dat W c).leavesExact 6 t = owns (c : Thread nD τ) (st5_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid5.coords t) (st5_0 t) _ (st5_1 t) _ (st5_2 t) _ (st5_3 t) _ (st5_4 t) _ (st5_5 t) _ (st5_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid5.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid5.coords t) (st5_0 t) _ (st5_1 t) _ (st5_2 t) _ (st5_3 t) _ (st5_4 t) _ (st5_5 t) _ (st5_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W5, bigSep_W5]
  exact sound_body W c t

end Cert.KernelIdeal.Hand.R5

end
-- ==== Proof.KI.R5.Seg.lean ====
import proofs.«412604_j76897094468164_1_alg».proof.Proof.KI.R5.Body

set_option maxRecDepth 16384

noncomputable section

namespace Cert.KernelIdeal.Hand.R5

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec5 c ⊢ (dat W c).Φ 0 := .rfl

theorem Phi_last (c : Dev nD) : (dat W c).Φ (Fin.last cfg5.N) ⊢ Pipeline.ΦA spec5 c := by
  rw [show (dat W c).Φ (Fin.last cfg5.N) = PhiS W c cfg5.N (Nat.le_refl _) from rfl,
    PhiS_pos W c _ _ (by rw [show cfg5.N = 10 from N_5]; decide)]
  unfold Pipeline.ΦA
  rw [scopedRest5_split, show (scM : Memref sig .tc .vmem S1x64 .f32) = Memref.whole cc5_scratch0 from rfl, owns_whole]
  iintro ⟨⟨HS, Hrest⟩, Hg⟩
  isplitl [HS Hrest]
  · isplitl [HS]; · iexists _; iexact HS
    iexact Hrest
  iexact Hg

end Cert.KernelIdeal.Hand.R5

end
-- ==== Proof.KI.R6.Run.lean ====
import proofs.«412604_j76897094468164_1_alg».proof.Proof.KI.Whole
import Idealize.ShloMosaic.Lib.Pipeline.Value

set_option maxRecDepth 16384

noncomputable section

namespace Cert.KernelIdeal.Hand.R6

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA (i : grid6.Coords) : Prop :=
  (Scalar.cmpi .ne (Scalar.extui (Scalar.cmpi .eq (BitVec.ofNat 32 (i 0).val) 0#32)) 0#32) = 1#1
theorem hcondA : ∀ t : Fin cfg6.N, condA (grid6.coords t) ↔ t.val = 0 :=
  (by decide +kernel : ∀ t : Fin grid6.N, condA (grid6.coords t) ↔ t.val = 0)

abbrev condZ (i : grid6.Coords) : Prop := k6_cond2 i = 1#1
theorem hcondZ : ∀ t : Fin cfg6.N, condZ (grid6.coords t) ↔ t.val = 9 :=
  (by decide +kernel : ∀ t : Fin grid6.N, condZ (grid6.coords t) ↔ t.val = 9)

local macro "store_payload" : tactic => `(tactic| (
  sl_unfold_run_names
  first
    | rw [read_store_whole (S := S10000x64) _ _ hz]
    | rw [read_store_whole (S := S1x64) _ _ hz]
  simp only [readAt_whole_unread (S := S10000x64) _ _ hz, readAt_whole_unread (S := S64x64) _ _ hz,
    readAt_whole_unread (S := S1x64) _ _ hz, View.readCov_cons_toLoadRect]))

set_option maxHeartbeats 4000000 in

theorem run (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hAZ : condA i → ¬condZ i)
    (x : Vec F S10000x64 .f32) (w : Vec F S64x64 .f32) (b : Vec F S1x64 .f32) (d : Vec F S10000x64 .f32) (m v s q : Vec F S1x64 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ owns (c : Thread nD τ) arg5 fullShare m ∗ owns (c : Thread nD τ) arg6 fullShare v
        ∗ owns (c : Thread nD τ) arg7 fullShare s ∗ owns (c : Thread nD τ) arg8 fullShare q
        ∗ (iprop(owns (c : Thread nD τ) arg1 fullShare x ∗ owns (c : Thread nD τ) arg2 fullShare w ∗ owns (c : Thread nD τ) arg3 fullShare b
            ∗ owns (c : Thread nD τ) arg4 fullShare (k6_pay5 x w b)
            ∗ owns (c : Thread nD τ) arg5 fullShare (if condZ i then k6_pay1 (k6_pay6 x w b (if condA i then k6_pay3 else s)) else m)
            ∗ owns (c : Thread nD τ) arg6 fullShare (if condZ i then k6_pay2 (k6_pay6 x w b (if condA i then k6_pay3 else s)) (k6_pay7 x w b (if condA i then k6_pay4 else q)) else v)
            ∗ owns (c : Thread nD τ) arg7 fullShare (k6_pay6 x w b (if condA i then k6_pay3 else s)) ∗ owns (c : Thread nD τ) arg8 fullShare (k6_pay7 x w b (if condA i then k6_pay4 else q))) -∗ K ⟨⟩))
      ⊢ wp frame (wpE (defs₀ (F := F)) Variants.none c none) E (cc6__stage1_kernel i arg1 harg1 arg2 harg2 arg3 harg3 arg4 harg4 arg5 harg5 arg6 harg6 arg7 harg7 arg8 harg8) K := by
  by_cases hcA : condA i <;> by_cases hcZ : condZ i <;>
  first
  | exact absurd hcZ (hAZ hcA)
  | (
    first | rw [if_pos hcA, if_pos hcA] | rw [if_neg hcA, if_neg hcA]
    first | rw [if_pos hcZ, if_pos hcZ] | rw [if_neg hcZ, if_neg hcZ]
    simp only [cc6__stage1_kernel_eq_skeleton]; unfold cc6__stage1_kernel_skel
    simp only [k6_part1_eq_skeleton]; unfold k6_part1_skel
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hcA | exact hcZ)
    sl_step
    iapply Hk
    isplitl [H1]
    · iexists _; isplitr; swap; iexact H1; ipureintro; exact hf1
    isplitl [H2]
    · iexists _; isplitr; swap; iexact H2; ipureintro; exact hf2
    isplitl [H3]
    · iexists _; isplitr; swap; iexact H3; ipureintro; exact hf3
    isplitl [H4]
    · iexists _; isplitr; swap; iexact H4; ipureintro; store_payload
    isplitl [H5]
    · iexists _; isplitr; swap; iexact H5; ipureintro; first | exact hf5 | store_payload
    isplitl [H6]
    · iexists _; isplitr; swap; iexact H6; ipureintro; first | exact hf6 | store_payload
    isplitl [H7]
    · iexists _; isplitr; swap; iexact H7; ipureintro; store_payload
    iexists _; isplitr; swap; iexact H8; ipureintro; store_payload)

end Cert.KernelIdeal.Hand.R6

end
-- ==== Proof.KI.R6.Obl.lean ====
import proofs.«412604_j76897094468164_1_alg».proof.Proof.KI.R6.Dat
import proofs.«412604_j76897094468164_1_alg».proof.Proof.KI.R6.Run

set_option maxRecDepth 16384

noncomputable section

namespace Cert.KernelIdeal.Hand.R6

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

theorem before_0 (c : Dev nD) (t : Fin cfg6.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg6.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg6.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem io_45 : ∀ (t : Fin cfg6.N) (w : Fin cfg6.W), 4 ≤ w.val →
    (condZ (grid6.coords t) → cfg6.idle w (grid6.coords t) = false)
      ∧ (¬condZ (grid6.coords t) → cfg6.idle w (grid6.coords t) = true ∧ (cfg6.win w).flush t = false) := by
  decide +kernel

theorem leaves_live (c : Dev nD) (t : Fin cfg6.N) (w : Fin cfg6.W) (h : cfg6.idle w (grid6.coords t) = false) :
    (dat W c).leavesExact w t = owns (c : Thread nD τ) ((cfg6.win w).stage (cfg6.slots t w)) fullShare ((dat W c).after w t) := by
  unfold Dat.leavesExact; rw [h]

theorem leaves_out (c : Dev nD) (t : Fin cfg6.N) (w : Fin cfg6.W) (hw : 4 ≤ w.val) (d X) (hX : (dat W c).after w t = X) :
    owns (c : Thread nD τ) ((cfg6.win w).stage (cfg6.slots t w)) fullShare (if condZ (grid6.coords t) then X else (dat W c).before w t d)
      ⊢ (dat W c).leavesExact w t := by
  subst hX
  by_cases hZ : condZ (grid6.coords t)
  · rw [if_pos hZ, leaves_live W c t w ((io_45 t w hw).1 hZ)]
  · rw [if_neg hZ, Dat.leavesExact_idle _ w t ((io_45 t w hw).2 hZ).1 ((io_45 t w hw).2 hZ).2]
    iintro H; iexists d; iexact H

theorem PhiA_eq (c : Dev nD) :
    (Pipeline.ΦA spec6 c : sProp 𝕄)
      = iprop((iprop((∃ d, owns (c : Thread nD τ) scS fullShare d) ∗ (∃ d, owns (c : Thread nD τ) scQ fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scS, scQ, owns_whole]; try rfl

theorem outsAt_step (c : Dev nD) (t : Fin cfg6.N) (s q : Vec F S1x64 .f32)
    (h : ∀ m (hm : t.val = m + 1), s = (outsAt W c m (by omega)).2.2.2.1 ∧ q = (outsAt W c m (by omega)).2.2.2.2) :
    outsAt W c t.val t.isLt = stepOuts (iblk W c 0 t) (iblk W c 1 t) (iblk W c 2 t)
      (if condA (grid6.coords t) then k6_pay3 else s) (if condA (grid6.coords t) then k6_pay4 else q) := by
  obtain ⟨n, hn⟩ := t
  cases n with
  | zero => rw [if_pos ((hcondA ⟨0, hn⟩).mpr rfl), if_pos ((hcondA ⟨0, hn⟩).mpr rfl)]; rfl
  | succ n =>
    obtain ⟨rfl, rfl⟩ := h n rfl
    rw [if_neg (mt (hcondA ⟨n + 1, hn⟩).mp (Nat.succ_ne_zero n)), if_neg (mt (hcondA ⟨n + 1, hn⟩).mp (Nat.succ_ne_zero n))]; rfl

set_option maxHeartbeats 4000000 in
theorem sound_body (c : Dev nD) (t : Fin cfg6.N) :
    iprop((dat W c).Φ t.castSucc ∗ (dat W c).owesAt () t.castSucc
      ∗ (∃ d, owns (c : Thread nD τ) (st6_0 t) fullShare ((dat W c).before 0 t d))
      ∗ (∃ d, owns (c : Thread nD τ) (st6_1 t) fullShare ((dat W c).before 1 t d))
      ∗ (∃ d, owns (c : Thread nD τ) (st6_2 t) fullShare ((dat W c).before 2 t d))
      ∗ (∃ d, owns (c : Thread nD τ) (st6_3 t) fullShare ((dat W c).before 3 t d))
      ∗ (∃ d, owns (c : Thread nD τ) (st6_4 t) fullShare ((dat W c).before 4 t d))
      ∗ (∃ d, owns (c : Thread nD τ) (st6_5 t) fullShare ((dat W c).before 5 t d)))
    ⊢ wp frame (wpE (defs₀ (F := F)) Variants.none c none) Set.univ (bodyAt6 t) (fun _ =>
      iprop((dat W c).Φ t.succ ∗ (dat W c).owesAt () t.succ
        ∗ (dat W c).leavesExact 0 t ∗ (dat W c).leavesExact 1 t ∗ (dat W c).leavesExact 2 t
        ∗ (dat W c).leavesExact 3 t ∗ (dat W c).leavesExact 4 t ∗ (dat W c).leavesExact 5 t)) := by
  unfold bodyAt6
  simp only [before_0, before_1, before_2]
  rw [show (dat W c).owesAt () t.succ = (dat W c).owesAt () t.castSucc from rfl,
    show (dat W c).Φ t.castSucc = PhiS W c t.val (Nat.le_of_lt t.isLt) from rfl,
    show (dat W c).Φ t.succ = PhiS W c (t.val + 1) t.isLt from rfl,
    leaves_live W c t 0 rfl, leaves_live W c t 1 rfl, leaves_live W c t 2 rfl, leaves_live W c t 3 rfl,
    after_0, after_1, after_2, after_3]
  unfold PhiS
  iintro ⟨⟨⟨%s, %q, %hsq, HS, HQ, Hr⟩, Hg⟩, Ho, ⟨%d0, H0⟩, ⟨%d1, H1⟩, ⟨%d2, H2⟩, ⟨%d3, H3⟩, ⟨%d4, H4⟩, ⟨%d5, H5⟩⟩
  have hO := outsAt_step W c t s q hsq
  rw [show (outsAt W c t.val t.isLt).1 = k6_pay5 _ _ _ from congrArg (·.1) hO]
  iapply (run c Set.univ (grid6.coords t) _ _ _ _ _ _ _ _ _ _ _ _ _ _ _ _
    (fun hA hZ => by have := (hcondA t).mp hA; have := (hcondZ t).mp hZ; omega)
    (iblk W c 0 t) (iblk W c 1 t) (iblk W c 2 t) ((dat W c).before 3 t d3) ((dat W c).before 4 t d4) ((dat W c).before 5 t d5) s q _)
  iframe H0 H1 H2 H3 H4 H5 HS HQ
  iintro ⟨H0, H1, H2, H3, H4, H5, HS, HQ⟩
  iframe Hg Ho H0 H1 H2 H3
  isplitl [HS HQ Hr]
  · iexists _, _; iframe HS HQ Hr
    ipureintro; intro m hm; obtain rfl := Nat.succ.inj hm; rw [hO]; exact ⟨rfl, rfl⟩
  isplitl [H4]
  · iapply (leaves_out W c t 4 (by decide) d4 _ (show _ = k6_pay1 _ from (after_4 W c t).trans (congrArg (·.2.1) hO))); iexact H4
  iapply (leaves_out W c t 5 (by decide) d5 _ (show _ = k6_pay2 _ _ from (after_5 W c t).trans (congrArg (·.2.2.1) hO))); iexact H5

theorem body_obligation (c : Dev nD) : BodyObligation (dat (F := F) W c) (defs₀ (F := F)) Variants.none () Set.univ := fun t => by
  rw [bigSep_W6, bigSep_W6]
  exact sound_body W c t

theorem Phi_in (c : Dev nD) : Pipeline.ΦA spec6 c ⊢ (dat W c).Φ 0 := by
  rw [show (dat W c).Φ 0 = PhiS W c 0 (Nat.zero_le _) from rfl, PhiA_eq]; unfold PhiS
  iintro ⟨⟨⟨⟨%s, HS⟩, ⟨%q, HQ⟩⟩, Hr⟩, Hg⟩
  iframe Hg
  iexists s, q; iframe
  ipureintro; exact fun m hm => (Nat.succ_ne_zero m hm.symm).elim

theorem Phi_last (c : Dev nD) : (dat W c).Φ (Fin.last cfg6.N) ⊢ Pipeline.ΦA spec6 c := by
  rw [show (dat W c).Φ (Fin.last cfg6.N) = PhiS W c cfg6.N (Nat.le_refl _) from rfl, PhiA_eq]; unfold PhiS
  iintro ⟨⟨%s, %q, -, HS, HQ, Hr⟩, Hg⟩
  iframe Hg Hr
  isplitl [HS]; · iexists _; iexact HS
  iexists _; iexact HQ

end Cert.KernelIdeal.Hand.R6

end
-- ==== Proof.KI.R7.Run.lean ====
import proofs.«412604_j76897094468164_1_alg».proof.Proof.KI.Whole

set_option maxRecDepth 16384

noncomputable section

namespace Cert.KernelIdeal.Hand.R7

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid7.Coords) : Prop :=
  (Scalar.cmpi .ne (Scalar.extui (Scalar.cmpi .eq (BitVec.ofNat 32 (i 0).val) 0#32)) 0#32) = 1#1
theorem hcondFirst : ∀ t : Fin cfg7.N, condFirst (grid7.coords t) ↔ t.val % 10 = 0 :=
  (by decide +kernel : ∀ t : Fin grid7.N, condFirst (grid7.coords t) ↔ t.val % 10 = 0)

abbrev condLast (i : grid7.Coords) : Prop := k7_cond2 i = 1#1
theorem hcondLast : ∀ t : Fin cfg7.N, condLast (grid7.coords t) ↔ t.val % 10 = 9 :=
  (by decide +kernel : ∀ t : Fin grid7.N, condLast (grid7.coords t) ↔ t.val % 10 = 9)

theorem owns_store_whole {c : Dev nD} {sp : Space} {S : Shape} {e : EltTy} {m : Memref sig .tc sp S e} {q : PosShare TreeShare} (f : m.view.ty.Contents (Elt F))
    {off : Fin S.rank → Nat} (ho : off = fun _ => 0) (inb : ∀ a, off a + S.size a ≤ S.size a) (P : S.Idx → Elt F e) (L : List (View.Piece (Elt F) S e)) :
    (m.view.loc (c : Thread nD τ) ↦[m.view.set]{q} m.view.writes (Elt F) f ((⟨Rect.unit off S.size inb, P⟩ : View.Piece (Elt F) S e) :: L) : sProp 𝕄) ⊢ owns (c : Thread nD τ) m q P := by
  have h := owns_intro (Ix := Unit) (Name := ℕ) (U := UR sig nD τ) (Lvl := ℕ) (c : Thread nD τ) m q (m.view.writes (Elt F) f ((⟨Rect.unit off S.size inb, P⟩ : View.Piece (Elt F) S e) :: L))
  rwa [read_store_whole _ _ ho] at h

variable (c : Dev nD) {E : Set ℕ} {i : grid7.Coords} (arg1 : Memref sig .tc .vmem S10000x64 .f32) (arg2 arg3 arg4 arg5 : Memref sig .tc .vmem S1x64 .f32) (arg6 : Memref sig .tc .vmem S64x64 .f32) (arg7 : Memref sig .tc .vmem S1x64 .f32) (arg8 : Memref sig .tc .vmem S10000x64 .f32) (arg9 arg10 arg11 arg12 : Memref sig .tc .vmem S1x64 .f32)
  (x0 : Vec F S10000x64 .f32) (x1 x2 x3 x4 : Vec F S1x64 .f32) (x5 : Vec F S64x64 .f32) (x6 : Vec F S1x64 .f32)

def held (y8 : Vec F S10000x64 .f32) (y11 y12 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare y8 ∗ owns (c : Thread nD τ) arg11 fullShare y11 ∗ owns (c : Thread nD τ) arg12 fullShare y12)

variable {arg1 arg2 arg3 arg4 arg5 arg6 arg7 arg8 arg9 arg10 arg11 arg12 x0 x1 x2 x3 x4 x5 x6}
variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}

set_option maxHeartbeats 1000000 in

theorem run_first (hc0 : condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) (k7_pay5 (F := F))) (k7_pay2 (k7_pay7 x0 x1 x2 x3 x4 x5 x6) (k7_pay6 (F := F))) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_mid (hc0 : ¬condFirst i) (hc1 : ¬condLast i) {d8 : Vec F S10000x64 .f32} {s0 s1 : Vec F S1x64 .f32} {K : PUnit → sProp 𝕄} :
    iprop(held c arg1 arg2 arg3 arg4 arg5 arg6 arg7 arg8 arg11 arg12 x0 x1 x2 x3 x4 x5 x6 d8 s0 s1
        ∗ (held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) s0) (k7_pay2 (k7_pay7 x0 x1 x2 x3 x4 x5 x6) s1) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12]
  iintro ⟨⟨H1, H2, H3, H4, H5, H6, H7, H8, H11, H12⟩, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  iapply Hk
  iframe

set_option maxHeartbeats 1000000 in

theorem run_last (hc0 : ¬condFirst i) (hc1 : condLast i) {d8 : Vec F S10000x64 .f32} {o8 o9 s0 s1 : Vec F S1x64 .f32} {K : PUnit → sProp 𝕄} :
    iprop(held c arg1 arg2 arg3 arg4 arg5 arg6 arg7 arg8 arg11 arg12 x0 x1 x2 x3 x4 x5 x6 d8 s0 s1 ∗ owns (c : Thread nD τ) arg9 fullShare o8 ∗ owns (c : Thread nD τ) arg10 fullShare o9
        ∗ (iprop(held c arg1 arg2 arg3 arg4 arg5 arg6 arg7 arg8 arg11 arg12 x0 x1 x2 x3 x4 x5 x6 (k7_pay7 x0 x1 x2 x3 x4 x5 x6) (k7_pay1 (k7_pay7 x0 x1 x2 x3 x4 x5 x6) s0) (k7_pay2 (k7_pay7 x0 x1 x2 x3 x4 x5 x6) s1)
            ∗ owns (c : Thread nD τ) arg9 fullShare (k7_pay3 (k7_pay1 (k7_pay7 x0 x1 x2 x3 x4 x5 x6) s0))
            ∗ owns (c : Thread nD τ) arg10 fullShare (k7_pay4 (k7_pay1 (k7_pay7 x0 x1 x2 x3 x4 x5 x6) s0) (k7_pay2 (k7_pay7 x0 x1 x2 x3 x4 x5 x6) s1))) -∗ K ⟨⟩))
      ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K := by
  simp only [cc7__stage2_kernel_eq_skeleton]; unfold cc7__stage2_kernel_skel
  simp only [k7_part1_eq_skeleton]; unfold k7_part1_skel
  unfold held
  rw [owns_eq harg1, owns_eq harg2, owns_eq harg3, owns_eq harg4, owns_eq harg5, owns_eq harg6, owns_eq harg7, owns_eq harg8, owns_eq harg11, owns_eq harg12, owns_eq harg9, owns_eq harg10]
  iintro ⟨⟨H1, H2, H3, H4, H5, H6, H7, H8, H11, H12⟩, H9, H10, Hk⟩
  sl_exec (disch := first | exact hc0 | exact hc1)
  sl_step
  (try sl_unfold_words)
  simp only [readAt_whole_unread (S := S10000x64) _ _ hz, readAt_whole_unread (S := S64x64) _ _ hz, readAt_whole_unread (S := S1x64) _ _ hz, View.readCov_cons_toLoadRect]
  ihave H8 := (owns_store_whole _ hz _ _ _) $$ H8
  ihave H11 := (owns_store_whole _ hz _ _ _) $$ H11
  ihave H12 := (owns_store_whole _ hz _ _ _) $$ H12
  ihave H9 := (owns_store_whole _ hz _ _ _) $$ H9
  ihave H10 := (owns_store_whole _ hz _ _ _) $$ H10
  iapply Hk
  iframe

end Cert.KernelIdeal.Hand.R7

end
-- ==== Proof.KI.R7.Body.lean ====
import proofs.«412604_j76897094468164_1_alg».proof.Proof.KI.R7.Dat
import proofs.«412604_j76897094468164_1_alg».proof.Proof.KI.R7.Run

set_option maxRecDepth 16384

noncomputable section

namespace Cert.KernelIdeal.Hand.R7

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem off89 : ∀ t : Fin cfg7.N, ¬condLast (grid7.coords t) → (cfg7.idle 8 (grid7.coords t) = true ∧ (cfg7.win 8).flush t = false) ∧ cfg7.idle 9 (grid7.coords t) = true ∧ (cfg7.win 9).flush t = false := by decide +kernel
theorem on89 : ∀ t : Fin cfg7.N, condLast (grid7.coords t) → cfg7.idle 8 (grid7.coords t) = false ∧ cfg7.idle 9 (grid7.coords t) = false := by decide +kernel

theorem before_0 (c : Dev nD) (t : Fin cfg7.N) (d) : (dat W c).before 0 t d = iblk W c 0 t :=
  ((dat W c).before_in_eq_fetched 0 rfl (fun _ => rfl) (fun _ _ _ => rfl) (fun _ => rfl) t d).trans rfl
theorem before_1 (c : Dev nD) (t : Fin cfg7.N) (d) : (dat W c).before 1 t d = iblk W c 1 t :=
  ((dat W c).before_in_eq_fetched 1 rfl (fun _ => rfl) (fun _ _ _ => rfl) (fun _ => rfl) t d).trans rfl
theorem before_2 (c : Dev nD) (t : Fin cfg7.N) (d) : (dat W c).before 2 t d = iblk W c 2 t :=
  ((dat W c).before_in_eq_fetched 2 rfl (fun _ => rfl) (fun _ _ _ => rfl) (fun _ => rfl) t d).trans rfl
theorem before_3 (c : Dev nD) (t : Fin cfg7.N) (d) : (dat W c).before 3 t d = iblk W c 3 t :=
  ((dat W c).before_in_eq_fetched 3 rfl (fun _ => rfl) (fun _ _ _ => rfl) (fun _ => rfl) t d).trans rfl
theorem before_4 (c : Dev nD) (t : Fin cfg7.N) (d) : (dat W c).before 4 t d = iblk W c 4 t :=
  ((dat W c).before_in_eq_fetched 4 rfl (fun _ => rfl) (fun _ _ _ => rfl) (fun _ => rfl) t d).trans rfl
theorem before_5 (c : Dev nD) (t : Fin cfg7.N) (d) : (dat W c).before 5 t d = iblk W c 5 t :=
  ((dat W c).before_in_eq_fetched 5 rfl (fun _ => rfl) (fun _ _ _ => rfl) (fun _ => rfl) t d).trans rfl
theorem before_6 (c : Dev nD) (t : Fin cfg7.N) (d) : (dat W c).before 6 t d = iblk W c 6 t :=
  ((dat W c).before_in_eq_fetched 6 rfl (fun _ => rfl) (fun _ _ _ => rfl) (fun _ => rfl) t d).trans rfl

abbrev ms_0 (t : Fin cfg7.N) := win7_0.stage (cfg7.slots t 0)
abbrev ms_1 (t : Fin cfg7.N) := win7_1.stage (cfg7.slots t 1)
abbrev ms_2 (t : Fin cfg7.N) := win7_2.stage (cfg7.slots t 2)
abbrev ms_3 (t : Fin cfg7.N) := win7_3.stage (cfg7.slots t 3)
abbrev ms_4 (t : Fin cfg7.N) := win7_4.stage (cfg7.slots t 4)
abbrev ms_5 (t : Fin cfg7.N) := win7_5.stage (cfg7.slots t 5)
abbrev ms_6 (t : Fin cfg7.N) := win7_6.stage (cfg7.slots t 6)
abbrev ms_7 (t : Fin cfg7.N) := win7_7.stage (cfg7.slots t 7)
abbrev ms_8 (t : Fin cfg7.N) := win7_8.stage (cfg7.slots t 8)
abbrev ms_9 (t : Fin cfg7.N) := win7_9.stage (cfg7.slots t 9)

def bodyPre (c : Dev nD) (t : Fin cfg7.N) : sProp 𝕄 :=
  iprop(PhiS W c t.val (Nat.le_of_lt t.isLt) ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d))
    ∗ (∃ d, owns (c : Thread nD τ) (ms_7 t) fullShare ((dat W c).before 7 t d))
    ∗ (∃ d, owns (c : Thread nD τ) (ms_8 t) fullShare ((dat W c).before 8 t d))
    ∗ (∃ d, owns (c : Thread nD τ) (ms_9 t) fullShare ((dat W c).before 9 t d)))

def bodyPost (c : Dev nD) (t : Fin cfg7.N) : sProp 𝕄 :=
  iprop(PhiS W c (t.val + 1) t.isLt ∗ (dat W c).owesAt () t.castSucc
    ∗ owns (c : Thread nD τ) (ms_0 t) fullShare (iblk W c 0 t)
    ∗ owns (c : Thread nD τ) (ms_1 t) fullShare (iblk W c 1 t)
    ∗ owns (c : Thread nD τ) (ms_2 t) fullShare (iblk W c 2 t)
    ∗ owns (c : Thread nD τ) (ms_3 t) fullShare (iblk W c 3 t)
    ∗ owns (c : Thread nD τ) (ms_4 t) fullShare (iblk W c 4 t)
    ∗ owns (c : Thread nD τ) (ms_5 t) fullShare (iblk W c 5 t)
    ∗ owns (c : Thread nD τ) (ms_6 t) fullShare (iblk W c 6 t)
    ∗ owns (c : Thread nD τ) (ms_7 t) fullShare (outsAt W c t.val t.isLt).1
    ∗ (dat W c).leavesExact 8 t ∗ (dat W c).leavesExact 9 t)

set_option maxHeartbeats 4000000 in
theorem sound_body (c : Dev nD) (t : Fin cfg7.N) :
    bodyPre W c t ⊢ wp frame (wpE (defs₀ (F := F)) Variants.none c none) Set.univ (bodyAt7 t) (fun _ => bodyPost W c t) := by
  unfold bodyPre bodyPost bodyAt7
  simp only [before_0, before_1, before_2, before_3, before_4, before_5, before_6]
  rw [PhiS]
  have hN : t.val < 10 := lt_of_lt_of_eq t.isLt (show cfg7.N = 10 from N_7)
  by_cases h0 : t.val % 10 = 0
  · have ht0 : t.val = 0 := by omega
    have hcl : ¬condLast (grid7.coords t) := fun h => by have := (hcondLast t).mp h; omega
    rw [Dat.leavesExact_idle (dat W c) 8 t (off89 t hcl).1.1 (off89 t hcl).1.2, Dat.leavesExact_idle (dat W c) 9 t (off89 t hcl).2.1 (off89 t hcl).2.2]
    rw [outsAt_first W c t ht0]
    simp only [step, relu]
    rw [PhiS_zero W c _ _ ht0, PhiA_eq]
    iintro ⟨⟨⟨⟨⟨%s0, HS0⟩, ⟨%s1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c ((hcondFirst t).mpr h0) hcl)
    unfold held
    iframe H0 H1 H2 H3 H4 H5 H6 H7 HS0 HS1
    iintro ⟨H0, H1, H2, H3, H4, H5, H6, H7, HS0, HS1⟩
    iframe
  · have ht0 : t.val ≠ 0 := by omega
    have hcf : ¬condFirst (grid7.coords t) := fun h => h0 ((hcondFirst t).mp h)
    rw [PhiS_pos W c _ _ ht0]
    by_cases h1 : t.val % 10 = 9
    · have hcl : condLast (grid7.coords t) := (hcondLast t).mpr h1
      rw [show (dat W c).leavesExact 8 t = owns (c : Thread nD τ) (ms_8 t) fullShare ((dat W c).after 8 t) from by
        unfold Dat.leavesExact; rw [(on89 t hcl).1], after_8]
      rw [show (dat W c).leavesExact 9 t = owns (c : Thread nD τ) (ms_9 t) fullShare ((dat W c).after 9 t) from by
        unfold Dat.leavesExact; rw [(on89 t hcl).2], after_9]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c hcf hcl)
      unfold held
      iframe H0 H1 H2 H3 H4 H5 H6 H7 HS0 HS1 H8 H9
      iintro ⟨⟨H0, H1, H2, H3, H4, H5, H6, H7, HS0, HS1⟩, H8, H9⟩
      iframe
    · have hcl : ¬condLast (grid7.coords t) := fun h => h1 ((hcondLast t).mp h)
      rw [Dat.leavesExact_idle (dat W c) 8 t (off89 t hcl).1.1 (off89 t hcl).1.2, Dat.leavesExact_idle (dat W c) 9 t (off89 t hcl).2.1 (off89 t hcl).2.2]
      rw [outsAt_pos W c t ht0]
      simp only [step, relu]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_mid c hcf hcl)
      unfold held
      iframe H0 H1 H2 H3 H4 H5 H6 H7 HS0 HS1
      iintro ⟨H0, H1, H2, H3, H4, H5, H6, H7, HS0, HS1⟩
      iframe

theorem body_obligation (c : Dev nD) : BodyObligation (dat (F := F) W c) (defs₀ (F := F)) Variants.none () Set.univ := fun t => by
  rw [bigSep_W7, bigSep_W7]
  exact sound_body W c t

end Cert.KernelIdeal.Hand.R7

end
-- ==== Proof.KI.R7.Seg.lean ====
import proofs.«412604_j76897094468164_1_alg».proof.Proof.KI.R7.Body

set_option maxRecDepth 16384

noncomputable section

namespace Cert.KernelIdeal.Hand.R7

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec7 c ⊢ (dat W c).Φ 0 := .rfl

theorem Phi_out (c : Dev nD) (t : Fin (cfg7.N + 1)) (ht : t.val ≠ 0) : (dat W c).Φ t ⊢ Pipeline.ΦA spec7 c := by
  rw [show (dat W c).Φ t = PhiS W c t.val (Nat.le_of_lt_succ t.isLt) from rfl, PhiS_pos W c _ _ ht, PhiA_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi_last (c : Dev nD) : (dat W c).Φ (Fin.last cfg7.N) ⊢ Pipeline.ΦA spec7 c :=
  Phi_out W c _ (by rw [Fin.val_last]; have : cfg7.N = 10 := N_7; omega)

end Cert.KernelIdeal.Hand.R7

end
-- ==== Proof.KI.R8.Run.lean ====
import proofs.«412604_j76897094468164_1_alg».proof.Proof.KI.Family
import proofs.«412604_j76897094468164_1_alg».proof.Proof.KI.Whole
import Idealize.ShloMosaic.Lib.Pipeline.Value

set_option maxRecDepth 16384

noncomputable section

namespace Cert.KernelIdeal.Hand.R8

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid8.Coords) : Prop :=
  (Scalar.cmpi .ne (Scalar.extui (Scalar.cmpi .eq (BitVec.ofNat 32 (i 0).val) 0#32)) 0#32) = 1#1
abbrev cond1 (i : grid8.Coords) : Prop := k8_cond2 i = 1#1

variable (c : Dev nD) (E : Set ℕ) (i : grid8.Coords)
  (arg1 : Memref sig .tc .vmem S10000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S10000x64 .f32) (harg6 : arg6.IsWhole)
  (arg7 : Memref sig .tc .vmem S1x64 .f32) (harg7 : arg7.IsWhole) (arg8 : Memref sig .tc .vmem S1x64 .f32) (harg8 : arg8.IsWhole)
  (x0 : Vec F S10000x64 .f32) (x1 x2 x3 x4 : Vec F S1x64 .f32)

def held (y5 : Vec F S10000x64 .f32) (y6 s : Vec F S1x64 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare y5
    ∗ owns (c : Thread nD τ) arg7 fullShare y6 ∗ owns (c : Thread nD τ) arg8 fullShare s)

variable (y5 : Vec F S10000x64 .f32) (y6 s s₀ y6' : Vec F S1x64 .f32)

theorem run (hx : cond0 i → ¬cond1 i) (h0 : cond0 i ∧ s₀ = k8_pay1 ∨ ¬cond0 i ∧ s₀ = s)
    (h1 : cond1 i ∧ y6' = k8_pay3 x0 x1 x2 x3 x4 s₀ ∨ ¬cond1 i ∧ y6' = y6) (K : PUnit → sProp 𝕄) :
    iprop(held c arg1 arg2 arg3 arg4 arg5 arg6 arg7 arg8 x0 x1 x2 x3 x4 y5 y6 s
        ∗ (held c arg1 arg2 arg3 arg4 arg5 arg6 arg7 arg8 x0 x1 x2 x3 x4 (k8_pay2 x0 x1 x2 x3 x4) y6' (k8_pay3 x0 x1 x2 x3 x4 s₀) -∗ K ⟨⟩))
      ⊢ wp frame (wpE (defs₀ (F := F)) Variants.none c none) E
          (cc8__stage3_kernel i arg1 harg1 arg2 harg2 arg3 harg3 arg4 harg4 arg5 harg5 arg6 harg6 arg7 harg7 arg8 harg8) K := by
  simp only [cc8__stage3_kernel_eq_skeleton]; unfold cc8__stage3_kernel_skel held
  rw [owns_eq harg1, owns_eq harg2, owns_eq harg3, owns_eq harg4, owns_eq harg5, owns_eq harg6 (X := y5), owns_eq harg7 (X := y6),
    owns_eq harg8 (X := s)]
  iintro ⟨⟨H1, H2, H3, H4, H5, H6, H7, H8⟩, Hk⟩
  obtain ⟨hc0, rfl⟩ | ⟨hc0, rfl⟩ := h0 <;> obtain ⟨hc1, rfl⟩ | ⟨hc1, rfl⟩ := h1 <;> first | exact absurd hc1 (hx hc0) | (
    sl_exec (disch := first | exact hc0 | exact hc1)
    sl_step
    sl_unfold_run_names
    simp only [readAt_whole_unread (S := S10000x64) _ _ hz, readAt_whole_unread (S := S1x64) _ _ hz, View.readCov_cons_toLoadRect]
    iapply Hk
    isplitl [H1]; · iexact H1
    isplitl [H2]; · iexact H2
    isplitl [H3]; · iexact H3
    isplitl [H4]; · iexact H4
    isplitl [H5]; · iexact H5
    unfold owns
    isplitl [H6]
    · iexists _; isplitr
      swap; · iexact H6
      ipureintro; exact read_store_whole _ _ hz _ _ _
    isplitl [H7]
    · iexists _; isplitr
      swap; · iexact H7
      ipureintro; first | exact harg7.read_unread _ | exact read_store_whole _ _ hz _ _ _
    iexists _; isplitr
    swap; · iexact H8
    ipureintro; exact read_store_whole _ _ hz _ _ _)

end Cert.KernelIdeal.Hand.R8

end
-- ==== Proof.KI.R8.Body.lean ====
import proofs.«412604_j76897094468164_1_alg».proof.Proof.KI.R8.Dat
import proofs.«412604_j76897094468164_1_alg».proof.Proof.KI.R8.Run

set_option maxRecDepth 16384

noncomputable section

namespace Cert.KernelIdeal.Hand.R8

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (c : Dev nD) (t : Fin cfg8.N)

theorem hcond0 : ∀ t : Fin cfg8.N, cond0 (grid8.coords t) ↔ t.val = 0 :=
  (by decide +kernel : ∀ t : Fin grid8.N, cond0 (grid8.coords t) ↔ t.val = 0)
theorem hcond1 : ∀ t : Fin cfg8.N, cond1 (grid8.coords t) ↔ t.val = 9 :=
  (by decide +kernel : ∀ t : Fin grid8.N, cond1 (grid8.coords t) ↔ t.val = 9)

theorem hexcl : ∀ t : Fin cfg8.N, cond0 (grid8.coords t) → ¬cond1 (grid8.coords t) := by decide +kernel

theorem idleAt_6 : ∀ t : Fin cfg8.N, ¬cond1 (grid8.coords t) → cfg8.idle 6 (grid8.coords t) = true := by decide +kernel
theorem noFlush_6 : ∀ t : Fin cfg8.N, ¬cond1 (grid8.coords t) → (cfg8.win 6).flush t = false := by decide +kernel
theorem liveAt_6 : ∀ t : Fin cfg8.N, cond1 (grid8.coords t) → cfg8.idle 6 (grid8.coords t) = false := by decide +kernel

theorem PhiA_eq :
    (Pipeline.ΦA spec8 c : sProp 𝕄)
      = iprop(iprop((∃ d, owns (c : Thread nD τ) scM fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM, owns_whole]; try rfl

theorem before_in : (∀ d, (dat W c).before 0 t d = iblk W c 0 t) ∧ (∀ d, (dat W c).before 1 t d = iblk W c 1 t)
    ∧ (∀ d, (dat W c).before 2 t d = iblk W c 2 t) ∧ (∀ d, (dat W c).before 3 t d = iblk W c 3 t)
    ∧ (∀ d, (dat W c).before 4 t d = iblk W c 4 t) := by
  refine ⟨?_, ?_, ?_, ?_, ?_⟩ <;> intro d <;>
    exact ((dat W c).before_in_eq_fetched _ rfl (fun _ => rfl) (fun _ _ _ => rfl)
      (fun t => by simp only [after_0, after_1, after_2, after_3, after_4]; unfold Dat.blockOf iblk; rw [A_eq]; try rfl) t d).trans
      (by unfold Dat.fetched Dat.blockOf iblk; rw [A_eq]; try rfl)

def bodyPre : sProp 𝕄 :=
  iprop((dat W c).Φ t.castSucc ∗ (dat W c).owesAt () t.castSucc
    ∗ (∃ d, owns (c : Thread nD τ) (st8_0 t) fullShare ((dat W c).before 0 t d))
    ∗ (∃ d, owns (c : Thread nD τ) (st8_1 t) fullShare ((dat W c).before 1 t d))
    ∗ (∃ d, owns (c : Thread nD τ) (st8_2 t) fullShare ((dat W c).before 2 t d))
    ∗ (∃ d, owns (c : Thread nD τ) (st8_3 t) fullShare ((dat W c).before 3 t d))
    ∗ (∃ d, owns (c : Thread nD τ) (st8_4 t) fullShare ((dat W c).before 4 t d))
    ∗ (∃ d, owns (c : Thread nD τ) (st8_5 t) fullShare ((dat W c).before 5 t d))
    ∗ (∃ d, owns (c : Thread nD τ) (st8_6 t) fullShare ((dat W c).before 6 t d)))

def bodyPost : sProp 𝕄 :=
  iprop((dat W c).Φ t.succ ∗ (dat W c).owesAt () t.succ
    ∗ owns (c : Thread nD τ) (st8_0 t) fullShare ((dat W c).after 0 t)
    ∗ owns (c : Thread nD τ) (st8_1 t) fullShare ((dat W c).after 1 t)
    ∗ owns (c : Thread nD τ) (st8_2 t) fullShare ((dat W c).after 2 t)
    ∗ owns (c : Thread nD τ) (st8_3 t) fullShare ((dat W c).after 3 t)
    ∗ owns (c : Thread nD τ) (st8_4 t) fullShare ((dat W c).after 4 t)
    ∗ owns (c : Thread nD τ) (st8_5 t) fullShare ((dat W c).after 5 t)
    ∗ (dat W c).leavesExact 6 t)

theorem sound_body :
    bodyPre W c t ⊢ wp frame (wpE (defs₀ (F := F)) Variants.none c none) Set.univ (bodyAt8 t) (fun _ => bodyPost W c t) := by
  unfold bodyPre bodyPost bodyAt8
  obtain ⟨b0, b1, b2, b3, b4⟩ := before_in W c t
  simp only [b0, b1, b2, b3, b4]
  rw [show (dat W c).owesAt () t.succ = (dat W c).owesAt () t.castSucc from rfl]
  rw [show (dat W c).Φ t.succ = PhiS W c (t.val + 1) t.isLt from rfl, PhiS_succ]
  rw [show (dat W c).Φ t.castSucc = PhiS W c t.val (Nat.le_of_lt t.isLt) from rfl]
  rw [after_0, after_1, after_2, after_3, after_4, after_5]
  by_cases h0 : t.val = 0
  · have hc0 : cond0 (grid8.coords t) := (hcond0 t).mpr h0
    have hc1 : ¬cond1 (grid8.coords t) := fun h => by have := (hcond1 t).mp h; omega
    rw [Dat.leavesExact_idle (dat W c) 6 t (idleAt_6 t hc1) (noFlush_6 t hc1)]
    rw [outsAt_first W c t h0]; dsimp only; unfold hAt sAt
    rw [PhiS_zero W c _ _ h0, PhiA_eq]
    iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run c Set.univ (grid8.coords t) (st8_0 t) _ (st8_1 t) _ (st8_2 t) _ (st8_3 t) _ (st8_4 t) _ (st8_5 t) _ (st8_6 t) _ scM _
      (iblk W c 0 t) (iblk W c 1 t) (iblk W c 2 t) (iblk W c 3 t) (iblk W c 4 t) _ _ _ _ _ (hexcl t) (.inl ⟨hc0, rfl⟩) (.inr ⟨hc1, rfl⟩) _)
    unfold held
    iframe H0 H1 H2 H3 H4 H5 H6 HS
    iintro ⟨H0, H1, H2, H3, H4, H5, H6, HS⟩
    iframe
    iexists _; iexact H6
  · have hc0 : ¬cond0 (grid8.coords t) := fun h => h0 ((hcond0 t).mp h)
    rw [outsAt_pos W c t h0]; dsimp only; unfold hAt sAt
    rw [PhiS_pos W c _ _ h0]
    by_cases h9 : t.val = 9
    · have hc1 : cond1 (grid8.coords t) := (hcond1 t).mpr h9
      rw [show (dat W c).leavesExact 6 t = owns (c : Thread nD τ) (st8_6 t) fullShare ((dat W c).after 6 t) from by
        unfold Dat.leavesExact; rw [liveAt_6 t hc1], after_6, outsAt_pos W c t h0]
      dsimp only; unfold sAt
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid8.coords t) (st8_0 t) _ (st8_1 t) _ (st8_2 t) _ (st8_3 t) _ (st8_4 t) _ (st8_5 t) _ (st8_6 t) _ scM _
        (iblk W c 0 t) (iblk W c 1 t) (iblk W c 2 t) (iblk W c 3 t) (iblk W c 4 t) _ _ _ _ _ (hexcl t) (.inr ⟨hc0, rfl⟩) (.inl ⟨hc1, rfl⟩) _)
      unfold held
      iframe H0 H1 H2 H3 H4 H5 H6 HS
      iintro ⟨H0, H1, H2, H3, H4, H5, H6, HS⟩
      iframe
    · have hc1 : ¬cond1 (grid8.coords t) := fun h => h9 ((hcond1 t).mp h)
      rw [Dat.leavesExact_idle (dat W c) 6 t (idleAt_6 t hc1) (noFlush_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run c Set.univ (grid8.coords t) (st8_0 t) _ (st8_1 t) _ (st8_2 t) _ (st8_3 t) _ (st8_4 t) _ (st8_5 t) _ (st8_6 t) _ scM _
        (iblk W c 0 t) (iblk W c 1 t) (iblk W c 2 t) (iblk W c 3 t) (iblk W c 4 t) _ _ _ _ _ (hexcl t) (.inr ⟨hc0, rfl⟩) (.inr ⟨hc1, rfl⟩) _)
      unfold held
      iframe H0 H1 H2 H3 H4 H5 H6 HS
      iintro ⟨H0, H1, H2, H3, H4, H5, H6, HS⟩
      iframe
      iexists _; iexact H6

theorem body_obligation : BodyObligation (dat (F := F) W c) (defs₀ (F := F)) Variants.none () Set.univ := fun t => by
  rw [bigSep_W8, bigSep_W8]
  exact sound_body W c t

end Cert.KernelIdeal.Hand.R8

end
-- ==== Proof.KI.R8.Seg.lean ====
import proofs.«412604_j76897094468164_1_alg».proof.Proof.KI.R8.Body

set_option maxRecDepth 16384

noncomputable section

namespace Cert.KernelIdeal.Hand.R8

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

theorem Phi_in (c : Dev nD) : Pipeline.ΦA spec8 c ⊢ (dat W c).Φ 0 := .rfl

theorem Phi_last (c : Dev nD) : (dat W c).Φ (Fin.last cfg8.N) ⊢ Pipeline.ΦA spec8 c := by
  rw [show (dat W c).Φ (Fin.last cfg8.N) = PhiS W c cfg8.N (Nat.le_refl _) from rfl,
    PhiS_pos W c _ _ (by rw [show cfg8.N = 10 from N_8]; decide)]
  unfold Pipeline.ΦA
  rw [scopedRest8_split, show (scM : Memref sig .tc .vmem S1x64 .f32) = Memref.whole cc8_scratch0 from rfl, owns_whole]
  iintro ⟨⟨HS, Hrest⟩, Hg⟩
  isplitl [HS Hrest]
  · isplitl [HS]; · iexists _; iexact HS
    iexact Hrest
  iexact Hg

end Cert.KernelIdeal.Hand.R8

end
-- ==== Proof.KI.Frame.lean ====
import proofs.«412604_j76897094468164_1_alg».proof.Proof.KI.Bounds
import proofs.«412604_j76897094468164_1_alg».proof.Proof.KI.Seg
import proofs.«412604_j76897094468164_1_alg».proof.Proof.KI.R0.Obl
import proofs.«412604_j76897094468164_1_alg».proof.Proof.KI.R1.Seg
import proofs.«412604_j76897094468164_1_alg».proof.Proof.KI.R2.Seg
import proofs.«412604_j76897094468164_1_alg».proof.Proof.KI.R3.Obl
import proofs.«412604_j76897094468164_1_alg».proof.Proof.KI.R4.Seg
import proofs.«412604_j76897094468164_1_alg».proof.Proof.KI.R5.Seg
import proofs.«412604_j76897094468164_1_alg».proof.Proof.KI.R6.Obl
import proofs.«412604_j76897094468164_1_alg».proof.Proof.KI.R7.Seg
import proofs.«412604_j76897094468164_1_alg».proof.Proof.KI.R8.Seg
import Idealize.ShloMosaic.Lib.Pipeline.Kit
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => Rst c) : sProp 𝕄) := by
  refine Pipeline.initEach L lv fun c => ?_
  iintro ⟨⟨-, HO, -, Hp, -⟩, -⟩
  imodintro
  isplitl [Hp]; · iexists _; iexact Hp
  iexists ∅; iexact HO

theorem hE9 (c : Dev nD) : (Rst c : sProp 𝕄) ⊢ iprop(∃ W, owes (c : Thread nD τ) (0 : CellTallies nD τ sig Unit) W) := by
  iintro ⟨-, HO⟩; iexact HO

variable (m : (ℓ : Loc nD τ sig) → Buf (Elt F) ℓ)

abbrev reg0 : Pipeline.RegionSeg (pcfgs (F := F)) adm (pdats m) () defs₀ 𝒱₀ L lv (0 : Fin 9) :=
  mkReg 0 (pdats m) launch0 (W1 m) (R0.Wexit (W1 m)) (fun _ _ => rfl) (fun _ _ => rfl) (fun _ _ => rfl) (fun _ _ => rfl)
    (R0.body_obligation (W1 m)) (R0.Phi_in (W1 m)) (R0.Phi_last (W1 m)) (fun c w => (R0.Wexit_arr (W1 m) c w).symm) (R0.Wexit_of_ne (W1 m))

abbrev reg1 : Pipeline.RegionSeg (pcfgs (F := F)) adm (pdats m) () defs₀ 𝒱₀ L lv (1 : Fin 9) :=
  mkReg 1 (pdats m) launch1 (W3 m) (R1.Wexit (W3 m)) (fun _ _ => rfl) (fun _ _ => rfl) (fun _ _ => rfl) (fun _ _ => rfl)
    (R1.body_obligation (W3 m)) (R1.Phi_in (W3 m)) (R1.Phi_last (W3 m)) (fun c w => (R1.Wexit_arr (W3 m) c w).symm) (R1.Wexit_of_ne (W3 m))

abbrev reg2 : Pipeline.RegionSeg (pcfgs (F := F)) adm (pdats m) () defs₀ 𝒱₀ L lv (2 : Fin 9) :=
  mkReg 2 (pdats m) launch2 (W4 m) (R2.Wexit (W4 m)) (fun _ _ => rfl) (fun _ _ => rfl) (fun _ _ => rfl) (fun _ _ => rfl)
    (R2.body_obligation (W4 m)) (R2.Phi_in (W4 m)) (R2.Phi_last (W4 m)) (fun c w => (R2.Wexit_arr (W4 m) c w).symm) (R2.Wexit_of_ne (W4 m))

abbrev reg3 : Pipeline.RegionSeg (pcfgs (F := F)) adm (pdats m) () defs₀ 𝒱₀ L lv (3 : Fin 9) :=
  mkReg 3 (pdats m) launch3 (W6 m) (R3.Wexit (W6 m)) (fun _ _ => rfl) (fun _ _ => rfl) (fun _ _ => rfl) (fun _ _ => rfl)
    (R3.body_obligation (W6 m)) (R3.Phi_in (W6 m)) (R3.Phi_last (W6 m)) (fun c w => (R3.Wexit_arr (W6 m) c w).symm) (R3.Wexit_of_ne (W6 m))

abbrev reg4 : Pipeline.RegionSeg (pcfgs (F := F)) adm (pdats m) () defs₀ 𝒱₀ L lv (4 : Fin 9) :=
  mkReg 4 (pdats m) launch4 (W8 m) (R4.Wexit (W8 m)) (fun _ _ => rfl) (fun _ _ => rfl) (fun _ _ => rfl) (fun _ _ => rfl)
    (R4.body_obligation (W8 m)) (R4.Phi_in (W8 m)) (R4.Phi_last (W8 m)) (fun c w => (R4.Wexit_arr (W8 m) c w).symm) (R4.Wexit_of_ne (W8 m))

abbrev reg5 : Pipeline.RegionSeg (pcfgs (F := F)) adm (pdats m) () defs₀ 𝒱₀ L lv (5 : Fin 9) :=
  mkReg 5 (pdats m) launch5 (W9 m) (R5.Wexit (W9 m)) (fun _ _ => rfl) (fun _ _ => rfl) (fun _ _ => rfl) (fun _ _ => rfl)
    (R5.body_obligation (W9 m)) (R5.Phi_in (W9 m)) (R5.Phi_last (W9 m)) (fun c w => (R5.Wexit_arr (W9 m) c w).symm) (R5.Wexit_of_ne (W9 m))

abbrev reg6 : Pipeline.RegionSeg (pcfgs (F := F)) adm (pdats m) () defs₀ 𝒱₀ L lv (6 : Fin 9) :=
  mkReg 6 (pdats m) launch6 (W11 m) (R6.Wexit (W11 m)) (fun _ _ => rfl) (fun _ _ => rfl) (fun _ _ => rfl) (fun _ _ => rfl)
    (R6.body_obligation (W11 m)) (R6.Phi_in (W11 m)) (R6.Phi_last (W11 m)) (fun c w => (R6.Wexit_arr (W11 m) c w).symm) (R6.Wexit_of_ne (W11 m))

abbrev reg7 : Pipeline.RegionSeg (pcfgs (F := F)) adm (pdats m) () defs₀ 𝒱₀ L lv (7 : Fin 9) :=
  mkReg 7 (pdats m) launch7 (W13 m) (R7.Wexit (W13 m)) (fun _ _ => rfl) (fun _ _ => rfl) (fun _ _ => rfl) (fun _ _ => rfl)
    (R7.body_obligation (W13 m)) (R7.Phi_in (W13 m)) (R7.Phi_last (W13 m)) (fun c w => (R7.Wexit_arr (W13 m) c w).symm) (R7.Wexit_of_ne (W13 m))

abbrev reg8 : Pipeline.RegionSeg (pcfgs (F := F)) adm (pdats m) () defs₀ 𝒱₀ L lv (8 : Fin 9) :=
  mkReg 8 (pdats m) launch8 (W14 m) (R8.Wexit (W14 m)) (fun _ _ => rfl) (fun _ _ => rfl) (fun _ _ => rfl) (fun _ _ => rfl)
    (R8.body_obligation (W14 m)) (R8.Phi_in (W14 m)) (R8.Phi_last (W14 m)) (fun c w => (R8.Wexit_arr (W14 m) c w).symm) (R8.Wexit_of_ne (W14 m))

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (emb₁) () 𝒱₀ L lv (fun _ _ => rfl) ρ (outs m) (pdats m) (fun _ => 0) (fun _ => iprop(emp)) u₀ hu₀
    (fun _ c => Rst c) (hE0 ρ) hE9
    (reg0 m) (fun c => by exact .rfl) (fun c => by rw [V2_eq m c]; exact .rfl)
    (reg1 m) (fun c => by rw [V3_eq m c]; exact .rfl) (fun c => by rw [V4_eq m c]; exact .rfl)
    (reg2 m) (fun c => by rw [V4_eq m c]; exact .rfl) (fun c => by rw [V5_eq m c]; exact .rfl)
    (reg3 m) (fun c => by rw [V6_eq m c]; exact .rfl) (fun c => by rw [V7_eq m c]; exact .rfl)
    (reg4 m) (fun c => by rw [V8_eq m c]; exact .rfl) (fun c => by rw [V9_eq m c]; exact .rfl)
    (reg5 m) (fun c => by rw [V9_eq m c]; exact .rfl) (fun c => by rw [V10_eq m c]; exact .rfl)
    (reg6 m) (fun c => by rw [V11_eq m c]; exact .rfl) (fun c => by rw [V12_eq m c]; exact .rfl)
    (reg7 m) (fun c => by rw [V13_eq m c]; exact .rfl) (fun c => by rw [V14_eq m c]; exact .rfl)
    (reg8 m) (fun c => by rw [V14_eq m c]; exact .rfl) (fun c => by rw [V15_eq m c]; exact .rfl)

end Cert.KernelIdeal.Hand

end
-- ==== Proof.KI.Results.lean ====
import proofs.«412604_j76897094468164_1_alg».proof.Proof.KI.Frame
import proofs.«412604_j76897094468164_1_alg».proof.Proof.KI.RegionsVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem run_results (ρ : Dev nD → PrngReg) :
    θ_run defs (onTc (τ := τ) (main (F := F))) ⟨m, fun _ => 0, ρ⟩ (fun r => ∀ c : Dev nD,
      r.2.mem ((c.tc : Thread nD τ).loc main_v109) = W16 m c main_v109
      ∧ r.2.mem ((c.tc : Thread nD τ).loc main_v108) = W16 m c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  MeshRun.mono (fun s' h c =>
      ⟨(h c).1.trans (congrFun (V16_eq m c) _), (h c).2.1.trans (congrFun (V16_eq m c) _), (h c).2.2⟩)
    (Gen.value_cond m emb₁ () 𝒱₀ L lv (fun _ _ => rfl) ρ (outs m) (pdats m) (fun _ => 0) (fun _ => iprop(emp)) u₀ hu₀
      (fun _ c => Rst c) (hE0 ρ) hE9
      (reg0 m) (fun c => by exact .rfl) (fun c => by rw [V2_eq m c]; exact .rfl)
      (reg1 m) (fun c => by rw [V3_eq m c]; exact .rfl) (fun c => by rw [V4_eq m c]; exact .rfl)
      (reg2 m) (fun c => by rw [V4_eq m c]; exact .rfl) (fun c => by rw [V5_eq m c]; exact .rfl)
      (reg3 m) (fun c => by rw [V6_eq m c]; exact .rfl) (fun c => by rw [V7_eq m c]; exact .rfl)
      (reg4 m) (fun c => by rw [V8_eq m c]; exact .rfl) (fun c => by rw [V9_eq m c]; exact .rfl)
      (reg5 m) (fun c => by rw [V9_eq m c]; exact .rfl) (fun c => by rw [V10_eq m c]; exact .rfl)
      (reg6 m) (fun c => by rw [V11_eq m c]; exact .rfl) (fun c => by rw [V12_eq m c]; exact .rfl)
      (reg7 m) (fun c => by rw [V13_eq m c]; exact .rfl) (fun c => by rw [V14_eq m c]; exact .rfl)
      (reg8 m) (fun c => by rw [V14_eq m c]; exact .rfl) (fun c => by rw [V15_eq m c]; exact .rfl))

end Cert.KernelIdeal.Hand

end
-- ==== Proof.Math.Spec.lean ====
import Idealize.ShloMosaic.PureOps.Ideal

noncomputable section

namespace Cert.Spec

open Idealize.ShloMosaic

abbrev NN : ℕ := 100000

abbrev DD : ℕ := 64

abbrev Mat (n k : ℕ) : Type := Fin n → Fin k → EReal

abbrev Row (k : ℕ) : Type := Fin k → EReal

def cN : EReal := Ideal.ofBits .f32 0x47C35000#32

def cEps : EReal := Ideal.ofBits .f32 0x3727C5AC#32

variable {n k j : ℕ}

def lin (x : Mat n k) (w : Mat k j) (b : Row j) : Mat n j := fun r q => (∑ i : Fin k, x r i * w i q) + b q

def colsum (x : Mat n k) : Row k := fun q => ∑ r : Fin n, x r q

def mean (x : Mat n k) : Row k := fun q => Ideal.div (colsum x q) cN

def varK (x : Mat n k) : Row k :=
  fun q => Ideal.div (colsum (fun r q => x r q * x r q) q) cN - mean x q * mean x q

def varR (x : Mat n k) : Row k :=
  fun q => Ideal.div (colsum (fun r q => (x r q - mean x q) * (x r q - mean x q)) q) cN

def bn (x : Mat n k) (mu va g be : Row k) : Mat n k :=
  fun r q => (x r q - mu q) * Ideal.rsqrt (va q + cEps) * g q + be q

def relu (x : Mat n k) : Mat n k := fun r q => max (x r q) 0

structure LayerP where
  W1 : Mat DD DD
  b1 : Row DD
  g1 : Row DD
  be1 : Row DD
  W2 : Mat DD DD
  b2 : Row DD
  g2 : Row DD
  be2 : Row DD

def layerWith (va : Mat NN DD → Row DD) (a : Mat NN DD) (P : LayerP) : Mat NN DD :=
  let t1 := lin a P.W1 P.b1
  let r2 := relu (lin (relu (bn t1 (mean t1) (va t1) P.g1 P.be1)) P.W2 P.b2)
  bn r2 (mean r2) (va r2) P.g2 P.be2

def layerK (a : Mat NN DD) (P : LayerP) : Mat NN DD := layerWith varK a P

def layerR (a : Mat NN DD) (P : LayerP) : Mat NN DD := layerWith varR a P

def RealMat (x : Mat n k) : Prop := ∀ r q, ∃ v : ℝ, x r q = (v : EReal)

def RealRow (x : Row k) : Prop := ∀ q, ∃ v : ℝ, x q = (v : EReal)

def RealP (P : LayerP) : Prop :=
  RealMat P.W1 ∧ RealRow P.b1 ∧ RealRow P.g1 ∧ RealRow P.be1 ∧ RealMat P.W2 ∧ RealRow P.b2 ∧ RealRow P.g2 ∧ RealRow P.be2

end Cert.Spec

end
-- ==== Proof.Math.Conv.lean ====
import proofs.«412604_j76897094468164_1_alg».proof.Proof.Math.Spec
import Idealize.ShloMosaic.Lib.ValueIdx

noncomputable section

namespace Cert.Spec

open Idealize.ShloMosaic

def toMat {n k : ℕ} (v : (⟨2, ![n, k]⟩ : Shape).Idx → EReal) : Mat n k := fun r q => v (ValueIdx.ix2 r q)

def ofMat {n k : ℕ} (M : Mat n k) : (⟨2, ![n, k]⟩ : Shape).Idx → EReal := fun i => M (i 0) (i 1)

def toRow {k : ℕ} (v : (⟨2, ![1, k]⟩ : Shape).Idx → EReal) : Row k := fun q => v (ValueIdx.ix2 (0 : Fin 1) q)

def ofRow {k : ℕ} (R : Row k) : (⟨2, ![1, k]⟩ : Shape).Idx → EReal := fun i => R (i 1)

theorem ofMat_toMat {n k : ℕ} (v : (⟨2, ![n, k]⟩ : Shape).Idx → EReal) : ofMat (toMat v) = v := by
  funext i
  exact congrArg v (ValueIdx.eq_ix2 i).symm

theorem toMat_ofMat {n k : ℕ} (M : Mat n k) : toMat (ofMat M) = M := rfl

theorem eq_of_toMat_eq {n k : ℕ} {v w : (⟨2, ![n, k]⟩ : Shape).Idx → EReal} (h : toMat v = toMat w) : v = w := by
  rw [← ofMat_toMat v, ← ofMat_toMat w, h]

theorem ofRow_toRow {k : ℕ} (v : (⟨2, ![1, k]⟩ : Shape).Idx → EReal) : ofRow (toRow v) = v := by
  funext i
  have h0 : (0 : Fin 1) = (i 0 : Fin 1) := Fin.ext (by have := ValueIdx.idx2_lt0 i; omega)
  have hi : ValueIdx.ix2 (0 : Fin 1) (i 1) = i := by
    rw [h0]; exact (ValueIdx.eq_ix2 i).symm
  exact congrArg v hi

theorem eq_of_toRow_eq {k : ℕ} {v w : (⟨2, ![1, k]⟩ : Shape).Idx → EReal} (h : toRow v = toRow w) : v = w := by
  rw [← ofRow_toRow v, ← ofRow_toRow w, h]

end Cert.Spec

end
-- ==== Proof.KI.ValueLib.lean ====
import proofs.«412604_j76897094468164_1_alg».proof.Proof.KI.Family
import proofs.«412604_j76897094468164_1_alg».proof.Proof.Math.Conv
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open scoped BigOperators

theorem row_rd {n : Fin 2 → ℕ} {α : Type} (A : ((a : Fin 2) → Fin (n a)) → α) {i j : (a : Fin 2) → Fin (n a)}
    (h : ∀ a : Fin 2, (i a : ℕ) = j a) : A i = A j :=
  congrArg A (Shape.idx_ext₂ (h 0) (h 1))

def colSeq (M : Spec.Mat 100000 64) (q : Fin 64) (i : ℕ) : EReal := if h : i < 100000 then M ⟨i, h⟩ q else 0

theorem colsum_eq_range (M : Spec.Mat 100000 64) (q : Fin 64) :
    Spec.colsum M q = ∑ i ∈ Finset.range 100000, colSeq M q i := by
  rw [← Fin.sum_univ_eq_sum_range (colSeq M q) 100000]
  refine Finset.sum_congr rfl fun r _ => ?_
  unfold colSeq
  rw [dif_pos r.isLt]

-- a block of 10000 rows of a column sums as that stretch of the column's sequence
theorem blk_range (M : Spec.Mat 100000 64) (q : Fin 64) (n : ℕ) (hn : n < 10) (f : Fin 10000 → EReal)
    (hf : ∀ p : Fin 10000, f p = M ⟨n * 10000 + p.val, by have := p.isLt; omega⟩ q) :
    ∑ p, f p = ∑ j ∈ Finset.range 10000, colSeq M q (n * 10000 + j) := by
  rw [← Fin.sum_univ_eq_sum_range (fun j => colSeq M q (n * 10000 + j)) 10000]
  refine Finset.sum_congr rfl fun p _ => ?_
  show f p = colSeq M q (n * 10000 + p.val)
  unfold colSeq
  rw [hf p, dif_pos (by have := p.isLt; omega)]

-- a row plus the column sums of a block, at a column
theorem acc_at (r : FVec Ideal S10000x64 .f32) (s : Vec Ideal S1x64 .f32) (h : S10000x64.Reduces [0] S64) (hφ : FKind.Formats .f32)
    (hacc : (0x00000000#32 : BitVec 32) = 0x00000000#32) (hc : S64.ShapeCasts S1x64) (hs : S1x64.ShapeCasts S1x64) (q : Fin 64) :
    shapeCast S1x64 (addf s (shapeCast S1x64 (multiReduction .add [0] S64 r 0x00000000#32 h hφ hacc) hc)) hs (ix2 (0 : Fin 1) q)
      = s (ix2 (0 : Fin 1) q) + ∑ p : Fin 10000, r (ix2 p q) := by
  rw [shapeCast_self, addf_apply]
  refine congrArg _ ((shapeCast_a_1a_apply _ _ (0 : Fin 1) q).trans
    ((Ideal.multiReduction_add_single r _ h hφ hacc (ix1 q)).trans ?_))
  exact Finset.sum_congr rfl fun k _ => congrArg r (Shape.idx_ext₂ rfl rfl)

end Cert.KernelIdeal.Hand

end
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KI.R0.Value1.lean ====
import proofs.«412604_j76897094468164_1_alg».proof.Proof.KI.R0.Dat
import proofs.«412604_j76897094468164_1_alg».proof.Proof.KI.ValueLib
import proofs.«412604_j76897094468164_1_alg».proof.Proof.LibDot

noncomputable section

namespace Cert.KernelIdeal.Hand.R0

open Cert.KernelIdeal Cert.KernelIdeal.Gen Cert.KernelIdeal.Hand
open Idealize.ShloMosaic Idealize.ShloMosaic.TcCoe Idealize.ShloMosaic.ValueIdx
open scoped BigOperators

theorem pay5_at (x : Vec Ideal S10000x64 .f32) (w : Vec Ideal S64x64 .f32) (b : Vec Ideal S1x64 .f32) (r : Fin 10000) (q : Fin 64) :
    k0_pay5 x w b (ix2 r q) = (∑ k : Fin 64, x (ix2 r k) * w (ix2 k q)) + b (ix2 (0 : Fin 1) q) := by
  unfold k0_pay5
  simp only [shapeCast_self]
  rw [addf_apply]
  exact congrArg₂ (· + ·)
    (Cert.LibDot.matmul_zero_at dot_S10000x64_S64x64_S10000x64_1_0_0_1_n_n rfl rfl rfl rfl rfl rfl none _ _ r q)
    (broadcastTo_1b_ab_apply b broadcasts_S1x64_S10000x64 r q)

theorem pay6_at (x : Vec Ideal S10000x64 .f32) (w : Vec Ideal S64x64 .f32) (b s : Vec Ideal S1x64 .f32) (q : Fin 64) :
    k0_pay6 x w b s (ix2 (0 : Fin 1) q) = s (ix2 (0 : Fin 1) q) + ∑ r : Fin 10000, k0_pay5 x w b (ix2 r q) :=
  acc_at (k0_pay5 x w b) s _ _ _ _ _ q

theorem pay7_at (x : Vec Ideal S10000x64 .f32) (w : Vec Ideal S64x64 .f32) (b s : Vec Ideal S1x64 .f32) (q : Fin 64) :
    k0_pay7 x w b s (ix2 (0 : Fin 1) q)
      = s (ix2 (0 : Fin 1) q) + ∑ r : Fin 10000, k0_pay5 x w b (ix2 r q) * k0_pay5 x w b (ix2 r q) :=
  acc_at (mulf (k0_pay5 x w b) (k0_pay5 x w b)) s _ _ _ _ _ q

theorem pay3_at (q : Fin 64) : (k0_pay3 (F := Ideal)) (ix2 (0 : Fin 1) q) = 0 := by
  unfold k0_pay3
  rw [shapeCast_self]
  exact Ideal.ofBits_zero_f32

theorem pay4_at (q : Fin 64) : (k0_pay4 (F := Ideal)) (ix2 (0 : Fin 1) q) = 0 := pay3_at q

end Cert.KernelIdeal.Hand.R0

end
-- ==== Proof.KI.R0.Value2.lean ====
import proofs.«412604_j76897094468164_1_alg».proof.Proof.KI.R0.Value1

noncomputable section

namespace Cert.KernelIdeal.Hand.R0

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec0 0)
abbrev arr1 : FVec Ideal S64x64 .f32 := V W c (Pipeline.arrRef spec0 1)
abbrev arr2 : FVec Ideal S1x64 .f32 := V W c (Pipeline.arrRef spec0 2)

abbrev Tm : Spec.Mat 100000 64 := Spec.lin (Spec.toMat (arr0 W c)) (Spec.toMat (arr1 W c)) (Spec.toRow (arr2 W c))

abbrev Tsq : Spec.Mat 100000 64 := fun r q => Tm W c r q * Tm W c r q

theorem idx_blk : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

theorem idx_row : ∀ (t : Fin cfg0.N) (a : Fin 2),
    win0_1.index t a = 0 ∧ win0_2.index t a = 0 ∧ win0_4.index t a = 0 ∧ win0_5.index t a = 0 :=
  (by decide +kernel : ∀ (t : Fin grid0.N) (a : Fin 2), _)

-- the weights and the bias enter a block whole
theorem rows_at (t : Fin cfg0.N) : (∀ j, iblk W c 1 t j = arr1 W c j) ∧ (∀ j, iblk W c 2 t j = arr2 W c j) :=
  ⟨fun j => row_rd (arr1 W c) fun a => win0_1.rect_emb_val_of_index_zero t a (idx_row t a).1 j,
   fun j => row_rd (arr2 W c) fun a => win0_2.rect_emb_val_of_index_zero t a (idx_row t a).2.1 j⟩

-- the features' block at point t is rows 10000 t … 10000 t + 9999
theorem blk0_at (t : Fin cfg0.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win0_0.rect_emb_val t (ix2 p q) (0 : Fin 2)).trans ((congrArg (· * 10000 + p.val) (idx_blk t).1).trans hr.symm))
    (win0_0.rect_emb_val_of_index_zero t (1 : Fin 2) (idx_blk t).2.1 (ix2 p q)))

-- what one point computes from the carried rows s0 and s1
abbrev outs (t : Fin cfg0.N) (s0 s1 : Vec Ideal S1x64 .f32) :=
  stepOuts (iblk W c 0 t) (iblk W c 1 t) (iblk W c 2 t) s0 s1

-- the block stored at point t is the same rows of T
theorem tblk_at (t : Fin cfg0.N) (p : Fin 10000) (q : Fin 64) (r : Fin 100000) (hr : r.val = t.val * 10000 + p.val) :
    k0_pay5 (iblk W c 0 t) (iblk W c 1 t) (iblk W c 2 t) (ix2 p q) = Tm W c r q := by
  rw [pay5_at]
  simp only [(rows_at W c t).1, (rows_at W c t).2, fun k => blk0_at W c t p k r hr]
  rfl

-- one point adds its block's column sums, of the entries and of their squares, to the two carried rows
theorem step_at (n : ℕ) (hn : n < cfg0.N) (s0 s1 : Vec Ideal S1x64 .f32) (q : Fin 64) :
    (outs W c ⟨n, hn⟩ s0 s1).2.2.2.1 (ix2 (0 : Fin 1) q)
      = s0 (ix2 (0 : Fin 1) q) + ∑ j ∈ Finset.range 10000, colSeq (Tm W c) q (n * 10000 + j)
    ∧ (outs W c ⟨n, hn⟩ s0 s1).2.2.2.2 (ix2 (0 : Fin 1) q)
      = s1 (ix2 (0 : Fin 1) q) + ∑ j ∈ Finset.range 10000, colSeq (Tsq W c) q (n * 10000 + j) :=
  have h10 : n < 10 := by have : cfg0.N = 10 := N_0; omega
  ⟨(pay6_at _ _ _ _ q).trans (congrArg _ (blk_range _ q n h10 _ fun p =>
      tblk_at W c ⟨n, hn⟩ p q ⟨n * 10000 + p.val, by have := p.isLt; omega⟩ rfl)),
   (pay7_at _ _ _ _ q).trans (congrArg _ (blk_range (Tsq W c) q n h10 _ fun p => by
      rw [tblk_at W c ⟨n, hn⟩ p q ⟨n * 10000 + p.val, by have := p.isLt; omega⟩ rfl]))⟩

-- after point n the carried rows hold the column sums over the rows below 10000 (n + 1)
theorem sums_at : ∀ (n : ℕ) (hn : n < cfg0.N) (q : Fin 64),
    (outsAt W c n hn).2.2.2.1 (ix2 (0 : Fin 1) q) = ∑ i ∈ Finset.range (n * 10000 + 10000), colSeq (Tm W c) q i
    ∧ (outsAt W c n hn).2.2.2.2 (ix2 (0 : Fin 1) q) = ∑ i ∈ Finset.range (n * 10000 + 10000), colSeq (Tsq W c) q i
  | 0, hn, q => by
    rw [outsAt_zero, (step_at W c 0 hn _ _ q).1, (step_at W c 0 hn _ _ q).2, pay3_at, pay4_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg0.N) : ∃ s0 s1, outsAt W c n hn = outs W c ⟨n, hn⟩ s0 s1 := by
  cases n <;> exact ⟨_, _, rfl⟩

-- at the last point the stored mean and variance are those of T's columns
theorem stats_last (hn : 9 < cfg0.N) (q : Fin 64) :
    (outsAt W c 9 hn).2.1 (ix2 (0 : Fin 1) q) = Spec.mean (Tm W c) q
    ∧ (outsAt W c 9 hn).2.2.1 (ix2 (0 : Fin 1) q) = Spec.varK (Tm W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

end Cert.KernelIdeal.Hand.R0

end
-- ==== Proof.KI.R0.Value.lean ====
import proofs.«412604_j76897094468164_1_alg».proof.Proof.KI.R0.Value2

noncomputable section

namespace Cert.KernelIdeal.Hand.R0

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

theorem flushed3_eq (t : Fin cfg0.N) :
    (dat W c).flushed 3 t = ((cfg0.win 3).blk t).view.read (Elt Ideal) (Spec.ofMat (Tm W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = Tm W c (((cfg0.win 3).blk t).view.emb (ix2 p q) 0) (((cfg0.win 3).blk t).view.emb (ix2 p q) 1)
  rw [h, show ((cfg0.win 3).blk t).view.emb (ix2 p q) 1 = q from
    Fin.ext (win0_3.rect_emb_val_of_index_zero t (1 : Fin 2) (idx_blk t).2.2.2 _)]
  exact tblk_at W c t p q _
    ((win0_3.rect_emb_val t (ix2 p q) (0 : Fin 2)).trans (congrArg (· * 10000 + p.val) (idx_blk t).2.2.1))

theorem cover3 (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 10 := N_0
  have ht : (i 0).val / 10000 < cfg0.N := by omega
  obtain ⟨-, -, e0, e1⟩ := idx_blk ⟨(i 0).val / 10000, ht⟩
  refine ⟨⟨(i 0).val / 10000, ht⟩, flush0_3 _, ?_⟩
  show i ∈ ((View.whole main_v31_0).slice (win0_3.rect ⟨(i 0).val / 10000, ht⟩)).set
  rw [View.set_slice_whole, Rect.mem_set_unit]
  intro a
  match a with
  | ⟨0, _⟩ =>
    show win0_3.index _ (0 : Fin 2) * 10000 ≤ (i 0).val ∧ (i 0).val < win0_3.index _ (0 : Fin 2) * 10000 + 10000
    rw [e0]; dsimp only; omega
  | ⟨1, _⟩ =>
    show win0_3.index _ (1 : Fin 2) * 64 ≤ (i 1).val ∧ (i 1).val < win0_3.index _ (1 : Fin 2) * 64 + 64
    rw [e1]; omega

theorem out_t1 :
    Cert.Spec.toMat (n := 100000) (k := 64) ((dat W c).arrAt 3 cfg0.N)
      = Cert.Spec.lin (Cert.Spec.toMat (n := 100000) (k := 64) (V W c (Pipeline.arrRef spec0 0)))
          (Cert.Spec.toMat (n := 64) (k := 64) (V W c (Pipeline.arrRef spec0 1)))
          (Cert.Spec.toRow (k := 64) (V W c (Pipeline.arrRef spec0 2))) := by
  rw [(dat W c).arrAt_eq_of_cover 3 (Spec.ofMat (Tm W c)) (fun t _ => flushed3_eq W c t) cover3]
  rfl

theorem last_of (t : Fin cfg0.N) (h : t.val % 10 = 9) : t.val = 9 := by
  have := t.isLt; have : cfg0.N = 10 := N_0; omega

theorem flushed4_eq (t : Fin cfg0.N) (hf : (cfg0.win 4).flush t = true) :
    (dat W c).flushed 4 t = ((cfg0.win 4).blk t).view.read (Elt Ideal) (Spec.ofRow (Spec.mean (Tm W c))) :=
  Spec.eq_of_toRow_eq (funext fun q => by
    show (outsAt W c t.val t.isLt).2.1 (ix2 (0 : Fin 1) q)
      = Spec.mean (Tm W c) (((cfg0.win 4).blk t).view.emb (ix2 (0 : Fin 1) q) 1)
    rw [show ((cfg0.win 4).blk t).view.emb (ix2 (0 : Fin 1) q) 1 = q from
      Fin.ext (win0_4.rect_emb_val_of_index_zero t (1 : Fin 2) (idx_row t 1).2.2.1 _)]
    obtain ⟨n, hn⟩ := t
    obtain rfl : n = 9 := last_of ⟨n, hn⟩ ((flush0_4 _).mp hf)
    exact (stats_last W c hn q).1)

theorem flushed5_eq (t : Fin cfg0.N) (hf : (cfg0.win 5).flush t = true) :
    (dat W c).flushed 5 t = ((cfg0.win 5).blk t).view.read (Elt Ideal) (Spec.ofRow (Spec.varK (Tm W c))) :=
  Spec.eq_of_toRow_eq (funext fun q => by
    show (outsAt W c t.val t.isLt).2.2.1 (ix2 (0 : Fin 1) q)
      = Spec.varK (Tm W c) (((cfg0.win 5).blk t).view.emb (ix2 (0 : Fin 1) q) 1)
    rw [show ((cfg0.win 5).blk t).view.emb (ix2 (0 : Fin 1) q) 1 = q from
      Fin.ext (win0_5.rect_emb_val_of_index_zero t (1 : Fin 2) (idx_row t 1).2.2.2 _)]
    obtain ⟨n, hn⟩ := t
    obtain rfl : n = 9 := last_of ⟨n, hn⟩ ((flush0_5 _).mp hf)
    exact (stats_last W c hn q).2)

-- the last point's block of a row is the whole row
theorem cover4 (i : S1x64.Idx) : ∃ t : Fin cfg0.N, (cfg0.win 4).flush t = true ∧ i ∈ ((cfg0.win 4).blk t).view.set := by
  refine ⟨t0_9, (flush0_4 t0_9).mpr rfl, ?_⟩
  show i ∈ ((View.whole main_v31_1).slice (win0_4.rect t0_9)).set
  rw [View.set_slice_whole, Rect.mem_set_unit]
  intro a
  rw [(idx_row t0_9 a).2.2.1, Nat.zero_mul, Nat.zero_add]
  exact ⟨Nat.zero_le _, (i a).isLt⟩

theorem cover5 (i : S1x64.Idx) : ∃ t : Fin cfg0.N, (cfg0.win 5).flush t = true ∧ i ∈ ((cfg0.win 5).blk t).view.set := by
  refine ⟨t0_9, (flush0_5 t0_9).mpr rfl, ?_⟩
  show i ∈ ((View.whole main_v31_2).slice (win0_5.rect t0_9)).set
  rw [View.set_slice_whole, Rect.mem_set_unit]
  intro a
  rw [(idx_row t0_9 a).2.2.2, Nat.zero_mul, Nat.zero_add]
  exact ⟨Nat.zero_le _, (i a).isLt⟩

theorem out_mean :
    Cert.Spec.toRow (k := 64) ((dat W c).arrAt 4 cfg0.N)
      = Cert.Spec.mean (Cert.Spec.lin (Cert.Spec.toMat (n := 100000) (k := 64) (V W c (Pipeline.arrRef spec0 0)))
          (Cert.Spec.toMat (n := 64) (k := 64) (V W c (Pipeline.arrRef spec0 1)))
          (Cert.Spec.toRow (k := 64) (V W c (Pipeline.arrRef spec0 2)))) := by
  rw [(dat W c).arrAt_eq_of_cover 4 (Spec.ofRow (Spec.mean (Tm W c))) (flushed4_eq W c) cover4]
  rfl

theorem out_var :
    Cert.Spec.toRow (k := 64) ((dat W c).arrAt 5 cfg0.N)
      = Cert.Spec.varK (Cert.Spec.lin (Cert.Spec.toMat (n := 100000) (k := 64) (V W c (Pipeline.arrRef spec0 0)))
          (Cert.Spec.toMat (n := 64) (k := 64) (V W c (Pipeline.arrRef spec0 1)))
          (Cert.Spec.toRow (k := 64) (V W c (Pipeline.arrRef spec0 2)))) := by
  rw [(dat W c).arrAt_eq_of_cover 5 (Spec.ofRow (Spec.varK (Tm W c))) (flushed5_eq W c) cover5]
  rfl

end Cert.KernelIdeal.Hand.R0

end
-- ==== Proof.KI.R1.Value1.lean ====
import proofs.«412604_j76897094468164_1_alg».proof.Proof.KI.ValueLib
import proofs.«412604_j76897094468164_1_alg».proof.Proof.LibDot

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open scoped BigOperators

theorem pay1_at (r : FVec Ideal S10000x64 .f32) (s : Vec Ideal S1x64 .f32) (q : Fin 64) :
    k1_pay1 r s (ix2 (0 : Fin 1) q) = s (ix2 (0 : Fin 1) q) + ∑ p : Fin 10000, r (ix2 p q) :=
  acc_at r s _ _ _ _ _ q

theorem pay2_at (r : FVec Ideal S10000x64 .f32) (s : Vec Ideal S1x64 .f32) (q : Fin 64) :
    k1_pay2 r s (ix2 (0 : Fin 1) q) = s (ix2 (0 : Fin 1) q) + ∑ p : Fin 10000, r (ix2 p q) * r (ix2 p q) :=
  acc_at (mulf r r) s _ _ _ _ _ q

theorem pay5_at (j : S1x64.Idx) : (k1_pay5 (F := Ideal)) j = 0 := by
  unfold k1_pay5
  rw [shapeCast_self]
  exact Ideal.ofBits_zero_f32

theorem pay6_at (j : S1x64.Idx) : (k1_pay6 (F := Ideal)) j = 0 := pay5_at j

theorem rsqrt_at (v : FVec Ideal S1x64 .f32) (j : S1x64.Idx) : rsqrt v j = Ideal.rsqrt (v j) := rfl

theorem mm_at (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) :=
  Cert.LibDot.matmul_zero_at dot_S10000x64_S64x64_S10000x64_1_0_0_1_n_n rfl rfl rfl rfl rfl rfl none a w p q

theorem pay7_at (x : Vec Ideal S10000x64 .f32) (mu va g be : Vec Ideal S1x64 .f32) (w : Vec Ideal S64x64 .f32)
    (b : Vec Ideal S1x64 .f32) (p : Fin 10000) (q : Fin 64) :
    k1_pay7 x mu va g be w b (ix2 p q)
      = max ((∑ k : Fin 64, max ((x (ix2 p k) - mu (ix2 (0 : Fin 1) k)) * Ideal.rsqrt (va (ix2 (0 : Fin 1) k) + Spec.cEps) * g (ix2 (0 : Fin 1) k)
            + be (ix2 (0 : Fin 1) k)) 0 * w (ix2 k q)) + b (ix2 (0 : Fin 1) q)) 0 := by
  unfold k1_pay7
  simp only [maximumf_apply, addf_apply, broadcast_apply, broadcastTo_1b_ab_apply, mm_at, truncf_apply, shapeCast_self, mulf_apply,
    subf_apply, rsqrt_at]
  rw [show (FloatOps.ofBits (F := Ideal) .f32 0x00000000#32 : EReal) = 0 from Ideal.ofBits_zero_f32]
  rfl

end Cert.KernelIdeal.Hand.R1

end
-- ==== Proof.KI.R1.Value.lean ====
import proofs.«412604_j76897094468164_1_alg».proof.Proof.KI.R1.Dat
import proofs.«412604_j76897094468164_1_alg».proof.Proof.KI.R1.Value1

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec1 0)
abbrev arr1 : FVec Ideal S1x64 .f32 := V W c (Pipeline.arrRef spec1 1)
abbrev arr2 : FVec Ideal S1x64 .f32 := V W c (Pipeline.arrRef spec1 2)
abbrev arr3 : FVec Ideal S1x64 .f32 := V W c (Pipeline.arrRef spec1 3)
abbrev arr4 : FVec Ideal S1x64 .f32 := V W c (Pipeline.arrRef spec1 4)
abbrev arr5 : FVec Ideal S64x64 .f32 := V W c (Pipeline.arrRef spec1 5)
abbrev arr6 : FVec Ideal S1x64 .f32 := V W c (Pipeline.arrRef spec1 6)

abbrev R2 : Spec.Mat 100000 64 :=
  Spec.relu (Spec.lin (Spec.relu (Spec.bn (Spec.toMat (arr0 W c)) (Spec.toRow (arr1 W c)) (Spec.toRow (arr2 W c))
    (Spec.toRow (arr3 W c)) (Spec.toRow (arr4 W c)))) (Spec.toMat (arr5 W c)) (Spec.toRow (arr6 W c)))

abbrev Rsq : Spec.Mat 100000 64 := fun r q => R2 W c r q * R2 W c r q

theorem idx_blk : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

theorem idx_row : ∀ (t : Fin cfg1.N) (a : Fin 2), win1_1.index t a = 0 ∧ win1_2.index t a = 0 ∧ win1_3.index t a = 0
    ∧ win1_4.index t a = 0 ∧ win1_5.index t a = 0 ∧ win1_6.index t a = 0 ∧ win1_8.index t a = 0 ∧ win1_9.index t a = 0 :=
  (by decide +kernel : ∀ (t : Fin grid1.N) (a : Fin 2), _)

-- every parameter array enters a block whole
theorem rows_at (t : Fin cfg1.N) :
    (∀ j, iblk W c 1 t j = arr1 W c j) ∧ (∀ j, iblk W c 2 t j = arr2 W c j) ∧ (∀ j, iblk W c 3 t j = arr3 W c j)
    ∧ (∀ j, iblk W c 4 t j = arr4 W c j) ∧ (∀ j, iblk W c 5 t j = arr5 W c j) ∧ (∀ j, iblk W c 6 t j = arr6 W c j) :=
  ⟨fun j => row_rd (arr1 W c) fun a => win1_1.rect_emb_val_of_index_zero t a (idx_row t a).1 j,
   fun j => row_rd (arr2 W c) fun a => win1_2.rect_emb_val_of_index_zero t a (idx_row t a).2.1 j,
   fun j => row_rd (arr3 W c) fun a => win1_3.rect_emb_val_of_index_zero t a (idx_row t a).2.2.1 j,
   fun j => row_rd (arr4 W c) fun a => win1_4.rect_emb_val_of_index_zero t a (idx_row t a).2.2.2.1 j,
   fun j => row_rd (arr5 W c) fun a => win1_5.rect_emb_val_of_index_zero t a (idx_row t a).2.2.2.2.1 j,
   fun j => row_rd (arr6 W c) fun a => win1_6.rect_emb_val_of_index_zero t a (idx_row t a).2.2.2.2.2.1 j⟩

-- the first array's block at point t is its rows 10000 t … 10000 t + 9999
theorem blk0_at (t : Fin cfg1.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win1_0.rect_emb_val t (ix2 p q) (0 : Fin 2)).trans ((congrArg (· * 10000 + p.val) (idx_blk t).1).trans hr.symm))
    (win1_0.rect_emb_val_of_index_zero t (1 : Fin 2) (idx_blk t).2.1 (ix2 p q)))

-- so the block stored at point t is the same rows of the result
theorem relu_at (t : Fin cfg1.N) (p : Fin 10000) (q : Fin 64) (r : Fin 100000) (hr : r.val = t.val * 10000 + p.val) :
    relu W c t (ix2 p q) = R2 W c r q := by
  obtain ⟨h1, h2, h3, h4, h5, h6⟩ := rows_at W c t
  unfold relu
  rw [pay7_at]
  simp only [h1, h2, h3, h4, h5, h6, fun k => blk0_at W c t p k r hr]
  rfl

-- one point adds its block's column sums, of the entries and of their squares, to the two carried rows
theorem step_at (n : ℕ) (hn : n < cfg1.N) (s0 s1 : Vec Ideal S1x64 .f32) (q : Fin 64) :
    (step (relu W c ⟨n, hn⟩) s0 s1).2.2.2.1 (ix2 (0 : Fin 1) q)
      = s0 (ix2 (0 : Fin 1) q) + ∑ j ∈ Finset.range 10000, colSeq (R2 W c) q (n * 10000 + j)
    ∧ (step (relu W c ⟨n, hn⟩) s0 s1).2.2.2.2 (ix2 (0 : Fin 1) q)
      = s1 (ix2 (0 : Fin 1) q) + ∑ j ∈ Finset.range 10000, colSeq (Rsq W c) q (n * 10000 + j) :=
  have h10 : n < 10 := by have : cfg1.N = 10 := N_1; omega
  ⟨(pay1_at _ _ q).trans (congrArg _ (blk_range _ q n h10 _ fun p =>
      relu_at W c ⟨n, hn⟩ p q ⟨n * 10000 + p.val, by have := p.isLt; omega⟩ rfl)),
   (pay2_at _ _ q).trans (congrArg _ (blk_range (Rsq W c) q n h10 _ fun p => by
      rw [relu_at W c ⟨n, hn⟩ p q ⟨n * 10000 + p.val, by have := p.isLt; omega⟩ rfl]))⟩

-- after point n the carried rows hold the column sums over the rows below 10000 (n + 1)
theorem sums_at : ∀ (n : ℕ) (hn : n < cfg1.N) (q : Fin 64),
    (outsAt W c n hn).2.2.2.1 (ix2 (0 : Fin 1) q) = ∑ i ∈ Finset.range (n * 10000 + 10000), colSeq (R2 W c) q i
    ∧ (outsAt W c n hn).2.2.2.2 (ix2 (0 : Fin 1) q) = ∑ i ∈ Finset.range (n * 10000 + 10000), colSeq (Rsq W c) q i
  | 0, hn, q => by
    rw [outsAt_zero, (step_at W c 0 hn _ _ q).1, (step_at W c 0 hn _ _ q).2, pay5_at, pay6_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg1.N) : ∃ s0 s1, outsAt W c n hn = step (relu W c ⟨n, hn⟩) s0 s1 := by
  cases n <;> exact ⟨_, _, rfl⟩

-- at the last point the stored mean and variance are those of the result's columns
theorem stats_last (hn : 9 < cfg1.N) (q : Fin 64) :
    (outsAt W c 9 hn).2.1 (ix2 (0 : Fin 1) q) = Spec.mean (R2 W c) q
    ∧ (outsAt W c 9 hn).2.2.1 (ix2 (0 : Fin 1) q) = Spec.varK (R2 W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

theorem flushed7_eq (t : Fin cfg1.N) :
    (dat W c).flushed 7 t = ((cfg1.win 7).blk t).view.read (Elt Ideal) (Spec.ofMat (R2 W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = R2 W c (((cfg1.win 7).blk t).view.emb (ix2 p q) 0) (((cfg1.win 7).blk t).view.emb (ix2 p q) 1)
  rw [h, show ((cfg1.win 7).blk t).view.emb (ix2 p q) 1 = q from
    Fin.ext (win1_7.rect_emb_val_of_index_zero t (1 : Fin 2) (idx_blk t).2.2.2 _)]
  exact relu_at W c t p q _
    ((win1_7.rect_emb_val t (ix2 p q) (0 : Fin 2)).trans (congrArg (· * 10000 + p.val) (idx_blk t).2.2.1))

theorem cover7 (i : S100000x64.Idx) : ∃ t : Fin cfg1.N, (cfg1.win 7).flush t = true ∧ i ∈ ((cfg1.win 7).blk t).view.set := by
  have h0 : (i 0).val < 100000 := (i 0).isLt
  have h1 : (i 1).val < 64 := (i 1).isLt
  have hN : cfg1.N = 10 := N_1
  have ht : (i 0).val / 10000 < cfg1.N := by omega
  obtain ⟨-, -, e0, e1⟩ := idx_blk ⟨(i 0).val / 10000, ht⟩
  refine ⟨⟨(i 0).val / 10000, ht⟩, flush1_7 _, ?_⟩
  show i ∈ ((View.whole main_v34_0).slice (win1_7.rect ⟨(i 0).val / 10000, ht⟩)).set
  rw [View.set_slice_whole, Rect.mem_set_unit]
  intro a
  match a with
  | ⟨0, _⟩ =>
    show win1_7.index _ (0 : Fin 2) * 10000 ≤ (i 0).val ∧ (i 0).val < win1_7.index _ (0 : Fin 2) * 10000 + 10000
    rw [e0]; dsimp only; omega
  | ⟨1, _⟩ =>
    show win1_7.index _ (1 : Fin 2) * 64 ≤ (i 1).val ∧ (i 1).val < win1_7.index _ (1 : Fin 2) * 64 + 64
    rw [e1]; omega

abbrev out7 : FVec Ideal S100000x64 .f32 := (dat W c).arrAt 7 cfg1.N
abbrev out8 : FVec Ideal S1x64 .f32 := (dat W c).arrAt 8 cfg1.N
abbrev out9 : FVec Ideal S1x64 .f32 := (dat W c).arrAt 9 cfg1.N

theorem out_relu2 : Spec.toMat (out7 W c) = R2 W c := by
  rw [show out7 W c = Spec.ofMat (R2 W c) from
    (dat W c).arrAt_eq_of_cover 7 _ (fun t _ => flushed7_eq W c t) cover7]
  rfl

theorem last_of (t : Fin cfg1.N) (h : t.val % 10 = 9) : t.val = 9 := by
  have := t.isLt; have : cfg1.N = 10 := N_1; omega

theorem flushed8_eq (t : Fin cfg1.N) (hf : (cfg1.win 8).flush t = true) :
    (dat W c).flushed 8 t = ((cfg1.win 8).blk t).view.read (Elt Ideal) (Spec.ofRow (Spec.mean (R2 W c))) :=
  Spec.eq_of_toRow_eq (funext fun q => by
    show (outsAt W c t.val t.isLt).2.1 (ix2 (0 : Fin 1) q)
      = Spec.mean (R2 W c) (((cfg1.win 8).blk t).view.emb (ix2 (0 : Fin 1) q) 1)
    rw [show ((cfg1.win 8).blk t).view.emb (ix2 (0 : Fin 1) q) 1 = q from
      Fin.ext (win1_8.rect_emb_val_of_index_zero t (1 : Fin 2) (idx_row t 1).2.2.2.2.2.2.1 _)]
    obtain ⟨n, hn⟩ := t
    obtain rfl : n = 9 := last_of ⟨n, hn⟩ ((flush1_8 _).mp hf)
    exact (stats_last W c hn q).1)

theorem flushed9_eq (t : Fin cfg1.N) (hf : (cfg1.win 9).flush t = true) :
    (dat W c).flushed 9 t = ((cfg1.win 9).blk t).view.read (Elt Ideal) (Spec.ofRow (Spec.varK (R2 W c))) :=
  Spec.eq_of_toRow_eq (funext fun q => by
    show (outsAt W c t.val t.isLt).2.2.1 (ix2 (0 : Fin 1) q)
      = Spec.varK (R2 W c) (((cfg1.win 9).blk t).view.emb (ix2 (0 : Fin 1) q) 1)
    rw [show ((cfg1.win 9).blk t).view.emb (ix2 (0 : Fin 1) q) 1 = q from
      Fin.ext (win1_9.rect_emb_val_of_index_zero t (1 : Fin 2) (idx_row t 1).2.2.2.2.2.2.2 _)]
    obtain ⟨n, hn⟩ := t
    obtain rfl : n = 9 := last_of ⟨n, hn⟩ ((flush1_9 _).mp hf)
    exact (stats_last W c hn q).2)

-- the last point's block of a row is the whole row
theorem cover8 (i : S1x64.Idx) : ∃ t : Fin cfg1.N, (cfg1.win 8).flush t = true ∧ i ∈ ((cfg1.win 8).blk t).view.set := by
  refine ⟨t1_9, (flush1_8 t1_9).mpr rfl, ?_⟩
  show i ∈ ((View.whole main_v34_1).slice (win1_8.rect t1_9)).set
  rw [View.set_slice_whole, Rect.mem_set_unit]
  intro a
  rw [(idx_row t1_9 a).2.2.2.2.2.2.1, Nat.zero_mul, Nat.zero_add]
  exact ⟨Nat.zero_le _, (i a).isLt⟩

theorem cover9 (i : S1x64.Idx) : ∃ t : Fin cfg1.N, (cfg1.win 9).flush t = true ∧ i ∈ ((cfg1.win 9).blk t).view.set := by
  refine ⟨t1_9, (flush1_9 t1_9).mpr rfl, ?_⟩
  show i ∈ ((View.whole main_v34_2).slice (win1_9.rect t1_9)).set
  rw [View.set_slice_whole, Rect.mem_set_unit]
  intro a
  rw [(idx_row t1_9 a).2.2.2.2.2.2.2, Nat.zero_mul, Nat.zero_add]
  exact ⟨Nat.zero_le _, (i a).isLt⟩

theorem out_mean2 : Spec.toRow (out8 W c) = Spec.mean (R2 W c) := by
  rw [show out8 W c = Spec.ofRow (Spec.mean (R2 W c)) from (dat W c).arrAt_eq_of_cover 8 _ (flushed8_eq W c) cover8]
  rfl

theorem out_var2 : Spec.toRow (out9 W c) = Spec.varK (R2 W c) := by
  rw [show out9 W c = Spec.ofRow (Spec.varK (R2 W c)) from (dat W c).arrAt_eq_of_cover 9 _ (flushed9_eq W c) cover9]
  rfl

end Cert.KernelIdeal.Hand.R1

end
-- ==== Proof.KI.R2.Value1.lean ====
import proofs.«412604_j76897094468164_1_alg».proof.Proof.KI.R2.Dat
import proofs.«412604_j76897094468164_1_alg».proof.Proof.KI.ValueLib

noncomputable section

namespace Cert.KernelIdeal.Hand.R2

open Cert.KernelIdeal Cert.KernelIdeal.Gen Cert.KernelIdeal.Hand
open Idealize.ShloMosaic Idealize.ShloMosaic.TcCoe Idealize.ShloMosaic.ValueIdx
open scoped BigOperators

theorem pay2_at (x : Vec Ideal S10000x64 .f32) (mu va g be : Vec Ideal S1x64 .f32) (r : Fin 10000) (q : Fin 64) :
    k2_pay2 x mu va g be (ix2 r q)
      = (x (ix2 r q) - mu (ix2 (0 : Fin 1) q)) * Ideal.rsqrt (va (ix2 (0 : Fin 1) q) + Cert.Spec.cEps) * g (ix2 (0 : Fin 1) q) + be (ix2 (0 : Fin 1) q) := by
  unfold k2_pay2
  simp only [shapeCast_self, addf_apply, mulf_apply, subf_apply, broadcastTo_1b_ab_apply]
  rfl

theorem pay1_at (q : Fin 64) : k2_pay1 (F := Ideal) (ix2 (0 : Fin 1) q) = 0 := by
  unfold k2_pay1
  rw [shapeCast_self]
  exact Ideal.ofBits_zero_f32

theorem pay3_at (x : Vec Ideal S10000x64 .f32) (mu va g be s : Vec Ideal S1x64 .f32) (q : Fin 64) :
    k2_pay3 x mu va g be s (ix2 (0 : Fin 1) q) = s (ix2 (0 : Fin 1) q) + ∑ r : Fin 10000, k2_pay2 x mu va g be (ix2 r q) :=
  acc_at (k2_pay2 x mu va g be) s _ _ _ _ _ q

end Cert.KernelIdeal.Hand.R2

end
-- ==== Proof.KI.R2.Value.lean ====
import proofs.«412604_j76897094468164_1_alg».proof.Proof.KI.R2.Dat
import proofs.«412604_j76897094468164_1_alg».proof.Proof.KI.R2.Value1

noncomputable section

namespace Cert.KernelIdeal.Hand.R2

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec2 0)
abbrev arr1 : FVec Ideal S1x64 .f32 := V W c (Pipeline.arrRef spec2 1)
abbrev arr2 : FVec Ideal S1x64 .f32 := V W c (Pipeline.arrRef spec2 2)
abbrev arr3 : FVec Ideal S1x64 .f32 := V W c (Pipeline.arrRef spec2 3)
abbrev arr4 : FVec Ideal S1x64 .f32 := V W c (Pipeline.arrRef spec2 4)

abbrev H : Spec.Mat 100000 64 :=
  Spec.bn (Spec.toMat (arr0 W c)) (Spec.toRow (arr1 W c)) (Spec.toRow (arr2 W c)) (Spec.toRow (arr3 W c)) (Spec.toRow (arr4 W c))

theorem idx_blk : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

theorem idx_row : ∀ (t : Fin cfg2.N) (a : Fin 2), win2_1.index t a = 0 ∧ win2_2.index t a = 0 ∧ win2_3.index t a = 0
    ∧ win2_4.index t a = 0 ∧ win2_6.index t a = 0 :=
  (by decide +kernel : ∀ (t : Fin grid2.N) (a : Fin 2), _)

-- every parameter row enters a block whole
theorem rows_at (t : Fin cfg2.N) : (∀ j, iblk W c 1 t j = arr1 W c j) ∧ (∀ j, iblk W c 2 t j = arr2 W c j)
    ∧ (∀ j, iblk W c 3 t j = arr3 W c j) ∧ (∀ j, iblk W c 4 t j = arr4 W c j) :=
  ⟨fun j => row_rd (arr1 W c) fun a => win2_1.rect_emb_val_of_index_zero t a (idx_row t a).1 j,
   fun j => row_rd (arr2 W c) fun a => win2_2.rect_emb_val_of_index_zero t a (idx_row t a).2.1 j,
   fun j => row_rd (arr3 W c) fun a => win2_3.rect_emb_val_of_index_zero t a (idx_row t a).2.2.1 j,
   fun j => row_rd (arr4 W c) fun a => win2_4.rect_emb_val_of_index_zero t a (idx_row t a).2.2.2.1 j⟩

-- the input's block at point t is its rows 10000 t … 10000 t + 9999
theorem blk0_at (t : Fin cfg2.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win2_0.rect_emb_val t (ix2 p q) (0 : Fin 2)).trans ((congrArg (· * 10000 + p.val) (idx_blk t).1).trans hr.symm))
    (win2_0.rect_emb_val_of_index_zero t (1 : Fin 2) (idx_blk t).2.1 (ix2 p q)))

-- so the block stored at point t is the same rows of the normalised matrix
theorem hAt_at (t : Fin cfg2.N) (p : Fin 10000) (q : Fin 64) (r : Fin 100000) (hr : r.val = t.val * 10000 + p.val) :
    hAt W c t (ix2 p q) = H W c r q := by
  obtain ⟨h1, h2, h3, h4⟩ := rows_at W c t
  unfold hAt
  rw [pay2_at, blk0_at W c t p q r hr, h1, h2, h3, h4]
  rfl

-- one point adds its block's column sums to the carried row
theorem sAt_at (n : ℕ) (hn : n < cfg2.N) (s : Vec Ideal S1x64 .f32) (q : Fin 64) :
    sAt W c ⟨n, hn⟩ s (ix2 (0 : Fin 1) q)
      = s (ix2 (0 : Fin 1) q) + ∑ j ∈ Finset.range 10000, colSeq (H W c) q (n * 10000 + j) :=
  have h10 : n < 10 := by have : cfg2.N = 10 := N_2; omega
  (pay3_at _ _ _ _ _ s q).trans (congrArg _ (blk_range _ q n h10 _ fun p =>
    hAt_at W c ⟨n, hn⟩ p q ⟨n * 10000 + p.val, by have := p.isLt; omega⟩ rfl))

-- after point n the carried row holds the column sums over the rows below 10000 (n + 1)
theorem scratch_at : ∀ (n : ℕ) (hn : n < cfg2.N) (q : Fin 64),
    (outsAt W c n hn).2.2 (ix2 (0 : Fin 1) q) = ∑ i ∈ Finset.range (n * 10000 + 10000), colSeq (H W c) q i
  | 0, hn, q => by
    rw [outsAt_zero]
    show sAt W c ⟨0, hn⟩ (k2_pay1 (F := Ideal)) (ix2 (0 : Fin 1) q) = _
    rw [sAt_at, pay1_at, Finset.sum_range_add, Nat.zero_mul, Finset.sum_range_zero]
  | n + 1, hn, q => by
    rw [outsAt_succ]
    show sAt W c ⟨n + 1, hn⟩ (outsAt W c n (Nat.lt_of_succ_lt hn)).2.2 (ix2 (0 : Fin 1) q) = _
    rw [sAt_at, Finset.sum_range_add, Nat.succ_mul, scratch_at n _ q]

theorem flushed5_eq (t : Fin cfg2.N) :
    (dat W c).flushed 5 t = ((cfg2.win 5).blk t).view.read (Elt Ideal) (Spec.ofMat (H W c)) := by
  funext j
  obtain ⟨p, q, rfl⟩ : ∃ (p : Fin 10000) (q : Fin 64), j = ix2 p q := ⟨j 0, j 1, eq_ix2 j⟩
  show (outsAt W c t.val t.isLt).1 (ix2 p q)
    = H W c (((cfg2.win 5).blk t).view.emb (ix2 p q) 0) (((cfg2.win 5).blk t).view.emb (ix2 p q) 1)
  rw [show (outsAt W c t.val t.isLt).1 = hAt W c t from by obtain ⟨n, hn⟩ := t; cases n <;> rfl,
    show ((cfg2.win 5).blk t).view.emb (ix2 p q) 1 = q from
      Fin.ext (win2_5.rect_emb_val_of_index_zero t (1 : Fin 2) (idx_blk t).2.2.2 _)]
  exact hAt_at W c t p q _
    ((win2_5.rect_emb_val t (ix2 p q) (0 : Fin 2)).trans (congrArg (· * 10000 + p.val) (idx_blk t).2.2.1))

theorem cover5 (i : S100000x64.Idx) : ∃ t : Fin cfg2.N, (cfg2.win 5).flush t = true ∧ i ∈ ((cfg2.win 5).blk t).view.set := by
  have h0 : (i 0).val < 100000 := (i 0).isLt
  have h1 : (i 1).val < 64 := (i 1).isLt
  have hN : cfg2.N = 10 := N_2
  have ht : (i 0).val / 10000 < cfg2.N := by omega
  obtain ⟨-, -, e0, e1⟩ := idx_blk ⟨(i 0).val / 10000, ht⟩
  refine ⟨⟨(i 0).val / 10000, ht⟩, flush2_5 _, ?_⟩
  show i ∈ ((View.whole main_v35_0).slice (win2_5.rect ⟨(i 0).val / 10000, ht⟩)).set
  rw [View.set_slice_whole, Rect.mem_set_unit]
  intro a
  match a with
  | ⟨0, _⟩ =>
    show win2_5.index _ (0 : Fin 2) * 10000 ≤ (i 0).val ∧ (i 0).val < win2_5.index _ (0 : Fin 2) * 10000 + 10000
    rw [e0]; dsimp only; omega
  | ⟨1, _⟩ =>
    show win2_5.index _ (1 : Fin 2) * 64 ≤ (i 1).val ∧ (i 1).val < win2_5.index _ (1 : Fin 2) * 64 + 64
    rw [e1]; omega

theorem out_h :
    Cert.Spec.toMat (n := 100000) (k := 64) ((dat W c).arrAt 5 cfg2.N)
      = Cert.Spec.bn (Cert.Spec.toMat (arr0 W c)) (Cert.Spec.toRow (arr1 W c)) (Cert.Spec.toRow (arr2 W c))
          (Cert.Spec.toRow (arr3 W c)) (Cert.Spec.toRow (arr4 W c)) := by
  rw [(dat W c).arrAt_eq_of_cover 5 (Spec.ofMat (H W c)) (fun t _ => flushed5_eq W c t) cover5]
  rfl

theorem read6 (G : Spec.Row 64) (t : Fin cfg2.N) (q : Fin 64) :
    ((cfg2.win 6).blk t).view.read (Elt Ideal) (Spec.ofRow G) (ix2 (0 : Fin 1) q) = G q :=
  row_rd (i := ((cfg2.win 6).blk t).view.emb (ix2 (0 : Fin 1) q)) (j := ix2 (0 : Fin 1) q) (Spec.ofRow G) fun a =>
    win2_6.rect_emb_val_of_index_zero t a (idx_row t a).2.2.2.2 _

theorem flushed6_eq (t : Fin cfg2.N) (hf : (cfg2.win 6).flush t = true) :
    (dat W c).flushed 6 t = ((cfg2.win 6).blk t).view.read (Elt Ideal) (Spec.ofRow (Spec.colsum (H W c))) :=
  Spec.eq_of_toRow_eq (funext fun q => by
    show (outsAt W c t.val t.isLt).2.1 (ix2 (0 : Fin 1) q)
      = ((cfg2.win 6).blk t).view.read (Elt Ideal) (Spec.ofRow (Spec.colsum (H W c))) (ix2 (0 : Fin 1) q)
    rw [read6, outsAt_gsum, colsum_eq_range]
    have h9 : t.val = 9 := by have := (flush2_6 t).mp hf; have := t.isLt; have : cfg2.N = 10 := N_2; omega
    obtain ⟨n, hn⟩ := t
    obtain rfl : n = 9 := h9
    exact scratch_at W c 9 hn q)

-- the last point's block of the row is the whole row
theorem cover6 (i : S1x64.Idx) : ∃ t : Fin cfg2.N, (cfg2.win 6).flush t = true ∧ i ∈ ((cfg2.win 6).blk t).view.set := by
  refine ⟨t2_9, (flush2_6 t2_9).mpr rfl, ?_⟩
  show i ∈ ((View.whole main_v35_1).slice (win2_6.rect t2_9)).set
  rw [View.set_slice_whole, Rect.mem_set_unit]
  intro a
  rw [(idx_row t2_9 a).2.2.2.2, Nat.zero_mul, Nat.zero_add]
  exact ⟨Nat.zero_le _, (i a).isLt⟩

theorem out_gsum :
    Cert.Spec.toRow (k := 64) ((dat W c).arrAt 6 cfg2.N)
      = Cert.Spec.colsum (Cert.Spec.bn (Cert.Spec.toMat (arr0 W c)) (Cert.Spec.toRow (arr1 W c)) (Cert.Spec.toRow (arr2 W c))
          (Cert.Spec.toRow (arr3 W c)) (Cert.Spec.toRow (arr4 W c))) := by
  rw [(dat W c).arrAt_eq_of_cover 6 (Spec.ofRow (Spec.colsum (H W c))) (flushed6_eq W c) cover6]
  rfl

end Cert.KernelIdeal.Hand.R2

end
-- ==== Proof.Math.Net.lean ====
import proofs.«412604_j76897094468164_1_alg».proof.Proof.Math.Conv

noncomputable section

namespace Cert.Spec

open Idealize.ShloMosaic

def paramsOf (l : Fin 3)
    (w1 : (⟨3, ![3, 64, 64]⟩ : Shape).Idx → EReal) (b1 g1 be1 : (⟨2, ![3, 64]⟩ : Shape).Idx → EReal)
    (w2 : (⟨3, ![3, 64, 64]⟩ : Shape).Idx → EReal) (b2 g2 be2 : (⟨2, ![3, 64]⟩ : Shape).Idx → EReal) : LayerP where
  W1 := fun i q => w1 (ValueIdx.ix3 l i q)
  b1 := fun q => b1 (ValueIdx.ix2 l q)
  g1 := fun q => g1 (ValueIdx.ix2 l q)
  be1 := fun q => be1 (ValueIdx.ix2 l q)
  W2 := fun i q => w2 (ValueIdx.ix3 l i q)
  b2 := fun q => b2 (ValueIdx.ix2 l q)
  g2 := fun q => g2 (ValueIdx.ix2 l q)
  be2 := fun q => be2 (ValueIdx.ix2 l q)

structure NetOut where
  h1 : Mat NN DD
  h2 : Mat NN DD
  h3 : Mat NN DD

def net (layer : Mat NN DD → LayerP → Mat NN DD) (agg : Mat NN DD → Mat NN DD) (x : Mat NN DD) (P0 P1 P2 : LayerP) : NetOut :=
  let h1 := layer (agg x) P0
  let h2 := layer (agg h1) P1
  let h3 := layer (agg h2) P2
  ⟨h1, h2, h3⟩

def nodeM (o : NetOut) : Mat NN 192 := fun r q =>
  if h : q.val < 64 then o.h1 r ⟨q.val, h⟩
  else if h' : q.val < 128 then o.h2 r ⟨q.val - 64, by have := q.isLt; show q.val - 64 < 64; omega⟩
  else o.h3 r ⟨q.val - 128, by have := q.isLt; show q.val - 128 < 64; omega⟩

def graphM (o : NetOut) : Row 192 := colsum (nodeM o)

theorem graphM_apply (o : NetOut) (q : Fin 192) :
    graphM o q = if h : q.val < 64 then colsum o.h1 ⟨q.val, h⟩
      else if h' : q.val < 128 then colsum o.h2 ⟨q.val - 64, by have := q.isLt; show q.val - 64 < 64; omega⟩
      else colsum o.h3 ⟨q.val - 128, by have := q.isLt; show q.val - 128 < 64; omega⟩ := by
  unfold graphM colsum nodeM
  split_ifs <;> rfl

end Cert.Spec

end
-- ==== Proof.KI.Chain0.lean ====
import proofs.«412604_j76897094468164_1_alg».proof.Proof.KI.Vals
import proofs.«412604_j76897094468164_1_alg».proof.Proof.KI.R0.Value
import proofs.«412604_j76897094468164_1_alg».proof.Proof.KI.R1.Value
import proofs.«412604_j76897094468164_1_alg».proof.Proof.KI.R2.Value
import proofs.«412604_j76897094468164_1_alg».proof.Proof.Math.Net

noncomputable section

namespace Cert.KernelIdeal.Hand

open Cert.KernelIdeal Cert.KernelIdeal.Gen
open Idealize.ShloMosaic Idealize.ShloMosaic.TcCoe
open Idealize.SL Idealize.SL.Sem
open Cert.Spec

variable (m : (ℓ : Loc nD τ sig) → Buf (Elt Ideal) ℓ)

theorem keep1 (c : Dev nD) (b : Ref sig .tc) (h : b ∉ hostOps0_W) : W1 m c b = W0 m c b :=
  StableHlo.after_of_writes_sub hostOps0 _ hostOps0_writes h

theorem keep2 (c : Dev nD) (b : Ref sig .tc) (h : ∀ w, Pipeline.arrRef spec0 w ≠ b) : W2 m c b = W1 m c b :=
  R0.Wexit_of_ne (W1 m) c b h

theorem keep3 (c : Dev nD) (b : Ref sig .tc) (h : b ∉ hostOps1_W) : W3 m c b = W2 m c b :=
  StableHlo.after_of_writes_sub hostOps1 _ hostOps1_writes h

theorem keep4 (c : Dev nD) (b : Ref sig .tc) (h : ∀ w, Pipeline.arrRef spec1 w ≠ b) : W4 m c b = W3 m c b :=
  R1.Wexit_of_ne (W3 m) c b h

theorem keep5 (c : Dev nD) (b : Ref sig .tc) (h : ∀ w, Pipeline.arrRef spec2 w ≠ b) : W5 m c b = W4 m c b :=
  R2.Wexit_of_ne (W4 m) c b h

theorem layer0_of (c : Dev nD) (a : Mat NN DD) (P : LayerP)
    (hagg : toMat (n := 100000) (k := 64) (W1 m c main_v10) = a)
    (hW1 : toMat (n := 64) (k := 64) (W1 m c main_v30) = P.W1)
    (hb1 : toRow (k := 64) (W1 m c main_v13) = P.b1)
    (hg1 : toRow (k := 64) (W1 m c main_v16) = P.g1)
    (hbe1 : toRow (k := 64) (W1 m c main_v19) = P.be1)
    (hW2 : toMat (n := 64) (k := 64) (W3 m c main_v33) = P.W2)
    (hb2 : toRow (k := 64) (W1 m c main_v22) = P.b2)
    (hg2 : toRow (k := 64) (W1 m c main_v25) = P.g2)
    (hbe2 : toRow (k := 64) (W1 m c main_v28) = P.be2) :
    toMat (n := 100000) (k := 64) (W5 m c main_v35_0) = layerK a P
      ∧ toRow (k := 64) (W5 m c main_v35_1) = colsum (layerK a P) := by

  have t1 : toMat (n := 100000) (k := 64) (W2 m c main_v31_0) = lin a P.W1 P.b1 := by
    rw [← hagg, ← hW1, ← hb1]
    exact (congrArg (toMat (n := 100000) (k := 64)) (R0.Wexit_arr (W1 m) c 3)).trans (R0.out_t1 (W1 m) c)
  have mu1 : toRow (k := 64) (W2 m c main_v31_1) = mean (lin a P.W1 P.b1) := by
    rw [← hagg, ← hW1, ← hb1]
    exact (congrArg (toRow (k := 64)) (R0.Wexit_arr (W1 m) c 4)).trans (R0.out_mean (W1 m) c)
  have va1 : toRow (k := 64) (W2 m c main_v31_2) = varK (lin a P.W1 P.b1) := by
    rw [← hagg, ← hW1, ← hb1]
    exact (congrArg (toRow (k := 64)) (R0.Wexit_arr (W1 m) c 5)).trans (R0.out_var (W1 m) c)

  have e0 : W3 m c main_v31_0 = W2 m c main_v31_0 := keep3 m c _ (by decide)
  have e1 : W3 m c main_v31_1 = W2 m c main_v31_1 := keep3 m c _ (by decide)
  have e2 : W3 m c main_v31_2 = W2 m c main_v31_2 := keep3 m c _ (by decide)
  have e3 : W3 m c main_v16 = W1 m c main_v16 := (keep3 m c _ (by decide)).trans (keep2 m c _ (by decide))
  have e4 : W3 m c main_v19 = W1 m c main_v19 := (keep3 m c _ (by decide)).trans (keep2 m c _ (by decide))
  have e6 : W3 m c main_v22 = W1 m c main_v22 := (keep3 m c _ (by decide)).trans (keep2 m c _ (by decide))

  let r2 : Mat NN DD := relu (lin (relu (bn (lin a P.W1 P.b1) (mean (lin a P.W1 P.b1)) (varK (lin a P.W1 P.b1)) P.g1 P.be1)) P.W2 P.b2)
  have in1 : relu (lin (relu (bn (toMat (n := 100000) (k := 64) (W3 m c main_v31_0)) (toRow (k := 64) (W3 m c main_v31_1)) (toRow (k := 64) (W3 m c main_v31_2))
      (toRow (k := 64) (W3 m c main_v16)) (toRow (k := 64) (W3 m c main_v19)))) (toMat (n := 64) (k := 64) (W3 m c main_v33)) (toRow (k := 64) (W3 m c main_v22))) = r2 := by
    rw [e0, e1, e2, e3, e4, e6, t1, mu1, va1, hg1, hbe1, hW2, hb2]
  have t2 : toMat (n := 100000) (k := 64) (W4 m c main_v34_0) = r2 := by
    rw [← in1]
    exact (congrArg (toMat (n := 100000) (k := 64)) (R1.Wexit_arr (W3 m) c 7)).trans (R1.out_relu2 (W3 m) c)
  have mu2 : toRow (k := 64) (W4 m c main_v34_1) = mean r2 := by
    rw [← in1]
    exact (congrArg (toRow (k := 64)) (R1.Wexit_arr (W3 m) c 8)).trans (R1.out_mean2 (W3 m) c)
  have va2 : toRow (k := 64) (W4 m c main_v34_2) = varK r2 := by
    rw [← in1]
    exact (congrArg (toRow (k := 64)) (R1.Wexit_arr (W3 m) c 9)).trans (R1.out_var2 (W3 m) c)

  have f3 : W4 m c main_v25 = W1 m c main_v25 :=
    (keep4 m c _ (by decide)).trans ((keep3 m c _ (by decide)).trans (keep2 m c _ (by decide)))
  have f4 : W4 m c main_v28 = W1 m c main_v28 :=
    (keep4 m c _ (by decide)).trans ((keep3 m c _ (by decide)).trans (keep2 m c _ (by decide)))
  have in2 : bn (toMat (n := 100000) (k := 64) (W4 m c main_v34_0)) (toRow (k := 64) (W4 m c main_v34_1)) (toRow (k := 64) (W4 m c main_v34_2))
      (toRow (k := 64) (W4 m c main_v25)) (toRow (k := 64) (W4 m c main_v28)) = layerK a P := by
    rw [t2, mu2, va2, f3, f4, hg2, hbe2]
    rfl
  constructor
  · rw [← in2]
    exact (congrArg (toMat (n := 100000) (k := 64)) (R2.Wexit_arr (W4 m) c 5)).trans (R2.out_h (W4 m) c)
  · rw [← in2]
    exact (congrArg (toRow (k := 64)) (R2.Wexit_arr (W4 m) c 6)).trans (R2.out_gsum (W4 m) c)

end Cert.KernelIdeal.Hand

end
-- ==== Proof.KI.R3.Value1.lean ====
import proofs.«412604_j76897094468164_1_alg».proof.Proof.KI.R3.Dat
import proofs.«412604_j76897094468164_1_alg».proof.Proof.KI.ValueLib
import proofs.«412604_j76897094468164_1_alg».proof.Proof.LibDot

noncomputable section

namespace Cert.KernelIdeal.Hand.R3

open Cert.KernelIdeal Cert.KernelIdeal.Gen Cert.KernelIdeal.Hand
open Idealize.ShloMosaic Idealize.ShloMosaic.TcCoe Idealize.ShloMosaic.ValueIdx
open scoped BigOperators

theorem pay5_at (x : Vec Ideal S10000x64 .f32) (w : Vec Ideal S64x64 .f32) (b : Vec Ideal S1x64 .f32) (r : Fin 10000) (q : Fin 64) :
    k3_pay5 x w b (ix2 r q) = (∑ k : Fin 64, x (ix2 r k) * w (ix2 k q)) + b (ix2 (0 : Fin 1) q) := by
  unfold k3_pay5
  simp only [shapeCast_self]
  rw [addf_apply]
  exact congrArg₂ (· + ·)
    (Cert.LibDot.matmul_zero_at dot_S10000x64_S64x64_S10000x64_1_0_0_1_n_n rfl rfl rfl rfl rfl rfl none _ _ r q)
    (broadcastTo_1b_ab_apply b broadcasts_S1x64_S10000x64 r q)

theorem pay6_at (x : Vec Ideal S10000x64 .f32) (w : Vec Ideal S64x64 .f32) (b s : Vec Ideal S1x64 .f32) (q : Fin 64) :
    k3_pay6 x w b s (ix2 (0 : Fin 1) q) = s (ix2 (0 : Fin 1) q) + ∑ r : Fin 10000, k3_pay5 x w b (ix2 r q) :=
  acc_at (k3_pay5 x w b) s _ _ _ _ _ q

theorem pay7_at (x : Vec Ideal S10000x64 .f32) (w : Vec Ideal S64x64 .f32) (b s : Vec Ideal S1x64 .f32) (q : Fin 64) :
    k3_pay7 x w b s (ix2 (0 : Fin 1) q)
      = s (ix2 (0 : Fin 1) q) + ∑ r : Fin 10000, k3_pay5 x w b (ix2 r q) * k3_pay5 x w b (ix2 r q) :=
  acc_at (mulf (k3_pay5 x w b) (k3_pay5 x w b)) s _ _ _ _ _ q

theorem pay3_at (q : Fin 64) : (k3_pay3 (F := Ideal)) (ix2 (0 : Fin 1) q) = 0 := by
  unfold k3_pay3
  rw [shapeCast_self]
  exact Ideal.ofBits_zero_f32

theorem pay4_at (q : Fin 64) : (k3_pay4 (F := Ideal)) (ix2 (0 : Fin 1) q) = 0 := pay3_at q

end Cert.KernelIdeal.Hand.R3

end
-- ==== Proof.KI.R3.Value2.lean ====
import proofs.«412604_j76897094468164_1_alg».proof.Proof.KI.R3.Value1

noncomputable section

namespace Cert.KernelIdeal.Hand.R3

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec3 0)
abbrev arr1 : FVec Ideal S64x64 .f32 := V W c (Pipeline.arrRef spec3 1)
abbrev arr2 : FVec Ideal S1x64 .f32 := V W c (Pipeline.arrRef spec3 2)

abbrev Tm : Spec.Mat 100000 64 := Spec.lin (Spec.toMat (arr0 W c)) (Spec.toMat (arr1 W c)) (Spec.toRow (arr2 W c))

abbrev Tsq : Spec.Mat 100000 64 := fun r q => Tm W c r q * Tm W c r q

theorem idx_blk : ∀ t : Fin cfg3.N, win3_0.index t (0 : Fin 2) = t.val ∧ win3_0.index t (1 : Fin 2) = 0
    ∧ win3_3.index t (0 : Fin 2) = t.val ∧ win3_3.index t (1 : Fin 2) = 0 :=
  (by decide +kernel : ∀ t : Fin grid3.N, _)

theorem idx_row : ∀ (t : Fin cfg3.N) (a : Fin 2),
    win3_1.index t a = 0 ∧ win3_2.index t a = 0 ∧ win3_4.index t a = 0 ∧ win3_5.index t a = 0 :=
  (by decide +kernel : ∀ (t : Fin grid3.N) (a : Fin 2), _)

-- the weights and the bias enter a block whole
theorem rows_at (t : Fin cfg3.N) : (∀ j, iblk W c 1 t j = arr1 W c j) ∧ (∀ j, iblk W c 2 t j = arr2 W c j) :=
  ⟨fun j => row_rd (arr1 W c) fun a => win3_1.rect_emb_val_of_index_zero t a (idx_row t a).1 j,
   fun j => row_rd (arr2 W c) fun a => win3_2.rect_emb_val_of_index_zero t a (idx_row t a).2.1 j⟩

-- the features' block at point t is rows 10000 t … 10000 t + 9999
theorem blk0_at (t : Fin cfg3.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win3_0.rect_emb_val t (ix2 p q) (0 : Fin 2)).trans ((congrArg (· * 10000 + p.val) (idx_blk t).1).trans hr.symm))
    (win3_0.rect_emb_val_of_index_zero t (1 : Fin 2) (idx_blk t).2.1 (ix2 p q)))

-- what one point computes from the carried rows s0 and s1
abbrev outs (t : Fin cfg3.N) (s0 s1 : Vec Ideal S1x64 .f32) :=
  stepOuts (iblk W c 0 t) (iblk W c 1 t) (iblk W c 2 t) s0 s1

-- the block stored at point t is the same rows of T
theorem tblk_at (t : Fin cfg3.N) (p : Fin 10000) (q : Fin 64) (r : Fin 100000) (hr : r.val = t.val * 10000 + p.val) :
    k3_pay5 (iblk W c 0 t) (iblk W c 1 t) (iblk W c 2 t) (ix2 p q) = Tm W c r q := by
  rw [pay5_at]
  simp only [(rows_at W c t).1, (rows_at W c t).2, fun k => blk0_at W c t p k r hr]
  rfl

-- one point adds its block's column sums, of the entries and of their squares, to the two carried rows
theorem step_at (n : ℕ) (hn : n < cfg3.N) (s0 s1 : Vec Ideal S1x64 .f32) (q : Fin 64) :
    (outs W c ⟨n, hn⟩ s0 s1).2.2.2.1 (ix2 (0 : Fin 1) q)
      = s0 (ix2 (0 : Fin 1) q) + ∑ j ∈ Finset.range 10000, colSeq (Tm W c) q (n * 10000 + j)
    ∧ (outs W c ⟨n, hn⟩ s0 s1).2.2.2.2 (ix2 (0 : Fin 1) q)
      = s1 (ix2 (0 : Fin 1) q) + ∑ j ∈ Finset.range 10000, colSeq (Tsq W c) q (n * 10000 + j) :=
  have h10 : n < 10 := by have : cfg3.N = 10 := N_3; omega
  ⟨(pay6_at _ _ _ _ q).trans (congrArg _ (blk_range _ q n h10 _ fun p =>
      tblk_at W c ⟨n, hn⟩ p q ⟨n * 10000 + p.val, by have := p.isLt; omega⟩ rfl)),
   (pay7_at _ _ _ _ q).trans (congrArg _ (blk_range (Tsq W c) q n h10 _ fun p => by
      rw [tblk_at W c ⟨n, hn⟩ p q ⟨n * 10000 + p.val, by have := p.isLt; omega⟩ rfl]))⟩

-- after point n the carried rows hold the column sums over the rows below 10000 (n + 1)
theorem sums_at : ∀ (n : ℕ) (hn : n < cfg3.N) (q : Fin 64),
    (outsAt W c n hn).2.2.2.1 (ix2 (0 : Fin 1) q) = ∑ i ∈ Finset.range (n * 10000 + 10000), colSeq (Tm W c) q i
    ∧ (outsAt W c n hn).2.2.2.2 (ix2 (0 : Fin 1) q) = ∑ i ∈ Finset.range (n * 10000 + 10000), colSeq (Tsq W c) q i
  | 0, hn, q => by
    rw [outsAt_zero, (step_at W c 0 hn _ _ q).1, (step_at W c 0 hn _ _ q).2, pay3_at, pay4_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg3.N) : ∃ s0 s1, outsAt W c n hn = outs W c ⟨n, hn⟩ s0 s1 := by
  cases n <;> exact ⟨_, _, rfl⟩

-- at the last point the stored mean and variance are those of T's columns
theorem stats_last (hn : 9 < cfg3.N) (q : Fin 64) :
    (outsAt W c 9 hn).2.1 (ix2 (0 : Fin 1) q) = Spec.mean (Tm W c) q
    ∧ (outsAt W c 9 hn).2.2.1 (ix2 (0 : Fin 1) q) = Spec.varK (Tm W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

end Cert.KernelIdeal.Hand.R3

end
-- ==== Proof.KI.R3.Value.lean ====
import proofs.«412604_j76897094468164_1_alg».proof.Proof.KI.R3.Value2

noncomputable section

namespace Cert.KernelIdeal.Hand.R3

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

theorem flushed3_eq (t : Fin cfg3.N) :
    (dat W c).flushed 3 t = ((cfg3.win 3).blk t).view.read (Elt Ideal) (Spec.ofMat (Tm W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = Tm W c (((cfg3.win 3).blk t).view.emb (ix2 p q) 0) (((cfg3.win 3).blk t).view.emb (ix2 p q) 1)
  rw [h, show ((cfg3.win 3).blk t).view.emb (ix2 p q) 1 = q from
    Fin.ext (win3_3.rect_emb_val_of_index_zero t (1 : Fin 2) (idx_blk t).2.2.2 _)]
  exact tblk_at W c t p q _
    ((win3_3.rect_emb_val t (ix2 p q) (0 : Fin 2)).trans (congrArg (· * 10000 + p.val) (idx_blk t).2.2.1))

theorem cover3 (i : S100000x64.Idx) : ∃ t : Fin cfg3.N, (cfg3.win 3).flush t = true ∧ i ∈ ((cfg3.win 3).blk t).view.set := by
  have h0 : (i 0).val < 100000 := (i 0).isLt
  have h1 : (i 1).val < 64 := (i 1).isLt
  have hN : cfg3.N = 10 := N_3
  have ht : (i 0).val / 10000 < cfg3.N := by omega
  obtain ⟨-, -, e0, e1⟩ := idx_blk ⟨(i 0).val / 10000, ht⟩
  refine ⟨⟨(i 0).val / 10000, ht⟩, flush3_3 _, ?_⟩
  show i ∈ ((View.whole main_v31_0).slice (win3_3.rect ⟨(i 0).val / 10000, ht⟩)).set
  rw [View.set_slice_whole, Rect.mem_set_unit]
  intro a
  match a with
  | ⟨0, _⟩ =>
    show win3_3.index _ (0 : Fin 2) * 10000 ≤ (i 0).val ∧ (i 0).val < win3_3.index _ (0 : Fin 2) * 10000 + 10000
    rw [e0]; dsimp only; omega
  | ⟨1, _⟩ =>
    show win3_3.index _ (1 : Fin 2) * 64 ≤ (i 1).val ∧ (i 1).val < win3_3.index _ (1 : Fin 2) * 64 + 64
    rw [e1]; omega

theorem out_t1 :
    Cert.Spec.toMat (n := 100000) (k := 64) ((dat W c).arrAt 3 cfg3.N)
      = Cert.Spec.lin (Cert.Spec.toMat (n := 100000) (k := 64) (V W c (Pipeline.arrRef spec3 0)))
          (Cert.Spec.toMat (n := 64) (k := 64) (V W c (Pipeline.arrRef spec3 1)))
          (Cert.Spec.toRow (k := 64) (V W c (Pipeline.arrRef spec3 2))) := by
  rw [(dat W c).arrAt_eq_of_cover 3 (Spec.ofMat (Tm W c)) (fun t _ => flushed3_eq W c t) cover3]
  rfl

theorem last_of (t : Fin cfg3.N) (h : t.val % 10 = 9) : t.val = 9 := by
  have := t.isLt; have : cfg3.N = 10 := N_3; omega

theorem flushed4_eq (t : Fin cfg3.N) (hf : (cfg3.win 4).flush t = true) :
    (dat W c).flushed 4 t = ((cfg3.win 4).blk t).view.read (Elt Ideal) (Spec.ofRow (Spec.mean (Tm W c))) :=
  Spec.eq_of_toRow_eq (funext fun q => by
    show (outsAt W c t.val t.isLt).2.1 (ix2 (0 : Fin 1) q)
      = Spec.mean (Tm W c) (((cfg3.win 4).blk t).view.emb (ix2 (0 : Fin 1) q) 1)
    rw [show ((cfg3.win 4).blk t).view.emb (ix2 (0 : Fin 1) q) 1 = q from
      Fin.ext (win3_4.rect_emb_val_of_index_zero t (1 : Fin 2) (idx_row t 1).2.2.1 _)]
    obtain ⟨n, hn⟩ := t
    obtain rfl : n = 9 := last_of ⟨n, hn⟩ ((flush3_4 _).mp hf)
    exact (stats_last W c hn q).1)

theorem flushed5_eq (t : Fin cfg3.N) (hf : (cfg3.win 5).flush t = true) :
    (dat W c).flushed 5 t = ((cfg3.win 5).blk t).view.read (Elt Ideal) (Spec.ofRow (Spec.varK (Tm W c))) :=
  Spec.eq_of_toRow_eq (funext fun q => by
    show (outsAt W c t.val t.isLt).2.2.1 (ix2 (0 : Fin 1) q)
      = Spec.varK (Tm W c) (((cfg3.win 5).blk t).view.emb (ix2 (0 : Fin 1) q) 1)
    rw [show ((cfg3.win 5).blk t).view.emb (ix2 (0 : Fin 1) q) 1 = q from
      Fin.ext (win3_5.rect_emb_val_of_index_zero t (1 : Fin 2) (idx_row t 1).2.2.2 _)]
    obtain ⟨n, hn⟩ := t
    obtain rfl : n = 9 := last_of ⟨n, hn⟩ ((flush3_5 _).mp hf)
    exact (stats_last W c hn q).2)

-- the last point's block of a row is the whole row
theorem cover4 (i : S1x64.Idx) : ∃ t : Fin cfg3.N, (cfg3.win 4).flush t = true ∧ i ∈ ((cfg3.win 4).blk t).view.set := by
  refine ⟨t3_9, (flush3_4 t3_9).mpr rfl, ?_⟩
  show i ∈ ((View.whole main_v31_1).slice (win3_4.rect t3_9)).set
  rw [View.set_slice_whole, Rect.mem_set_unit]
  intro a
  rw [(idx_row t3_9 a).2.2.1, Nat.zero_mul, Nat.zero_add]
  exact ⟨Nat.zero_le _, (i a).isLt⟩

theorem cover5 (i : S1x64.Idx) : ∃ t : Fin cfg3.N, (cfg3.win 5).flush t = true ∧ i ∈ ((cfg3.win 5).blk t).view.set := by
  refine ⟨t3_9, (flush3_5 t3_9).mpr rfl, ?_⟩
  show i ∈ ((View.whole main_v31_2).slice (win3_5.rect t3_9)).set
  rw [View.set_slice_whole, Rect.mem_set_unit]
  intro a
  rw [(idx_row t3_9 a).2.2.2, Nat.zero_mul, Nat.zero_add]
  exact ⟨Nat.zero_le _, (i a).isLt⟩

theorem out_mean :
    Cert.Spec.toRow (k := 64) ((dat W c).arrAt 4 cfg3.N)
      = Cert.Spec.mean (Cert.Spec.lin (Cert.Spec.toMat (n := 100000) (k := 64) (V W c (Pipeline.arrRef spec3 0)))
          (Cert.Spec.toMat (n := 64) (k := 64) (V W c (Pipeline.arrRef spec3 1)))
          (Cert.Spec.toRow (k := 64) (V W c (Pipeline.arrRef spec3 2)))) := by
  rw [(dat W c).arrAt_eq_of_cover 4 (Spec.ofRow (Spec.mean (Tm W c))) (flushed4_eq W c) cover4]
  rfl

theorem out_var :
    Cert.Spec.toRow (k := 64) ((dat W c).arrAt 5 cfg3.N)
      = Cert.Spec.varK (Cert.Spec.lin (Cert.Spec.toMat (n := 100000) (k := 64) (V W c (Pipeline.arrRef spec3 0)))
          (Cert.Spec.toMat (n := 64) (k := 64) (V W c (Pipeline.arrRef spec3 1)))
          (Cert.Spec.toRow (k := 64) (V W c (Pipeline.arrRef spec3 2)))) := by
  rw [(dat W c).arrAt_eq_of_cover 5 (Spec.ofRow (Spec.varK (Tm W c))) (flushed5_eq W c) cover5]
  rfl

end Cert.KernelIdeal.Hand.R3

end
-- ==== Proof.KI.R4.Value1.lean ====
import proofs.«412604_j76897094468164_1_alg».proof.Proof.KI.ValueLib
import proofs.«412604_j76897094468164_1_alg».proof.Proof.LibDot

noncomputable section

namespace Cert.KernelIdeal.Hand.R4

open Cert.KernelIdeal Cert.KernelIdeal.Gen Cert.KernelIdeal.Hand
open Idealize.ShloMosaic Idealize.ShloMosaic.TcCoe Idealize.ShloMosaic.ValueIdx
open scoped BigOperators

theorem pay1_at (r : FVec Ideal S10000x64 .f32) (s : Vec Ideal S1x64 .f32) (q : Fin 64) :
    k4_pay1 r s (ix2 (0 : Fin 1) q) = s (ix2 (0 : Fin 1) q) + ∑ p : Fin 10000, r (ix2 p q) :=
  acc_at r s _ _ _ _ _ q

theorem pay2_at (r : FVec Ideal S10000x64 .f32) (s : Vec Ideal S1x64 .f32) (q : Fin 64) :
    k4_pay2 r s (ix2 (0 : Fin 1) q) = s (ix2 (0 : Fin 1) q) + ∑ p : Fin 10000, r (ix2 p q) * r (ix2 p q) :=
  acc_at (mulf r r) s _ _ _ _ _ q

theorem pay5_at (j : S1x64.Idx) : (k4_pay5 (F := Ideal)) j = 0 := by
  unfold k4_pay5
  rw [shapeCast_self]
  exact Ideal.ofBits_zero_f32

theorem pay6_at (j : S1x64.Idx) : (k4_pay6 (F := Ideal)) j = 0 := pay5_at j

theorem rsqrt_at (v : FVec Ideal S1x64 .f32) (j : S1x64.Idx) : rsqrt v j = Ideal.rsqrt (v j) := rfl

theorem mm_at (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) :=
  Cert.LibDot.matmul_zero_at dot_S10000x64_S64x64_S10000x64_1_0_0_1_n_n rfl rfl rfl rfl rfl rfl none a w p q

theorem pay7_at (x : Vec Ideal S10000x64 .f32) (mu va g be : Vec Ideal S1x64 .f32) (w : Vec Ideal S64x64 .f32)
    (b : Vec Ideal S1x64 .f32) (p : Fin 10000) (q : Fin 64) :
    k4_pay7 x mu va g be w b (ix2 p q)
      = max ((∑ k : Fin 64, max ((x (ix2 p k) - mu (ix2 (0 : Fin 1) k)) * Ideal.rsqrt (va (ix2 (0 : Fin 1) k) + Spec.cEps) * g (ix2 (0 : Fin 1) k)
            + be (ix2 (0 : Fin 1) k)) 0 * w (ix2 k q)) + b (ix2 (0 : Fin 1) q)) 0 := by
  unfold k4_pay7
  simp only [maximumf_apply, addf_apply, broadcast_apply, broadcastTo_1b_ab_apply, mm_at, truncf_apply, shapeCast_self, mulf_apply,
    subf_apply, rsqrt_at]
  rw [show (FloatOps.ofBits (F := Ideal) .f32 0x00000000#32 : EReal) = 0 from Ideal.ofBits_zero_f32]
  rfl

end Cert.KernelIdeal.Hand.R4

end
-- ==== Proof.KI.R4.Value.lean ====
import proofs.«412604_j76897094468164_1_alg».proof.Proof.KI.R4.Dat
import proofs.«412604_j76897094468164_1_alg».proof.Proof.KI.R4.Value1

noncomputable section

namespace Cert.KernelIdeal.Hand.R4

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec4 0)
abbrev arr1 : FVec Ideal S1x64 .f32 := V W c (Pipeline.arrRef spec4 1)
abbrev arr2 : FVec Ideal S1x64 .f32 := V W c (Pipeline.arrRef spec4 2)
abbrev arr3 : FVec Ideal S1x64 .f32 := V W c (Pipeline.arrRef spec4 3)
abbrev arr4 : FVec Ideal S1x64 .f32 := V W c (Pipeline.arrRef spec4 4)
abbrev arr5 : FVec Ideal S64x64 .f32 := V W c (Pipeline.arrRef spec4 5)
abbrev arr6 : FVec Ideal S1x64 .f32 := V W c (Pipeline.arrRef spec4 6)

abbrev R2 : Spec.Mat 100000 64 :=
  Spec.relu (Spec.lin (Spec.relu (Spec.bn (Spec.toMat (arr0 W c)) (Spec.toRow (arr1 W c)) (Spec.toRow (arr2 W c))
    (Spec.toRow (arr3 W c)) (Spec.toRow (arr4 W c)))) (Spec.toMat (arr5 W c)) (Spec.toRow (arr6 W c)))

abbrev Rsq : Spec.Mat 100000 64 := fun r q => R2 W c r q * R2 W c r q

theorem idx_blk : ∀ t : Fin cfg4.N, win4_0.index t (0 : Fin 2) = t.val ∧ win4_0.index t (1 : Fin 2) = 0
    ∧ win4_7.index t (0 : Fin 2) = t.val ∧ win4_7.index t (1 : Fin 2) = 0 :=
  (by decide +kernel : ∀ t : Fin grid4.N, _)

theorem idx_row : ∀ (t : Fin cfg4.N) (a : Fin 2), win4_1.index t a = 0 ∧ win4_2.index t a = 0 ∧ win4_3.index t a = 0
    ∧ win4_4.index t a = 0 ∧ win4_5.index t a = 0 ∧ win4_6.index t a = 0 ∧ win4_8.index t a = 0 ∧ win4_9.index t a = 0 :=
  (by decide +kernel : ∀ (t : Fin grid4.N) (a : Fin 2), _)

-- every parameter array enters a block whole
theorem rows_at (t : Fin cfg4.N) :
    (∀ j, iblk W c 1 t j = arr1 W c j) ∧ (∀ j, iblk W c 2 t j = arr2 W c j) ∧ (∀ j, iblk W c 3 t j = arr3 W c j)
    ∧ (∀ j, iblk W c 4 t j = arr4 W c j) ∧ (∀ j, iblk W c 5 t j = arr5 W c j) ∧ (∀ j, iblk W c 6 t j = arr6 W c j) :=
  ⟨fun j => row_rd (arr1 W c) fun a => win4_1.rect_emb_val_of_index_zero t a (idx_row t a).1 j,
   fun j => row_rd (arr2 W c) fun a => win4_2.rect_emb_val_of_index_zero t a (idx_row t a).2.1 j,
   fun j => row_rd (arr3 W c) fun a => win4_3.rect_emb_val_of_index_zero t a (idx_row t a).2.2.1 j,
   fun j => row_rd (arr4 W c) fun a => win4_4.rect_emb_val_of_index_zero t a (idx_row t a).2.2.2.1 j,
   fun j => row_rd (arr5 W c) fun a => win4_5.rect_emb_val_of_index_zero t a (idx_row t a).2.2.2.2.1 j,
   fun j => row_rd (arr6 W c) fun a => win4_6.rect_emb_val_of_index_zero t a (idx_row t a).2.2.2.2.2.1 j⟩

-- the first array's block at point t is its rows 10000 t … 10000 t + 9999
theorem blk0_at (t : Fin cfg4.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win4_0.rect_emb_val t (ix2 p q) (0 : Fin 2)).trans ((congrArg (· * 10000 + p.val) (idx_blk t).1).trans hr.symm))
    (win4_0.rect_emb_val_of_index_zero t (1 : Fin 2) (idx_blk t).2.1 (ix2 p q)))

-- so the block stored at point t is the same rows of the result
theorem relu_at (t : Fin cfg4.N) (p : Fin 10000) (q : Fin 64) (r : Fin 100000) (hr : r.val = t.val * 10000 + p.val) :
    relu W c t (ix2 p q) = R2 W c r q := by
  obtain ⟨h1, h2, h3, h4, h5, h6⟩ := rows_at W c t
  unfold relu
  rw [pay7_at]
  simp only [h1, h2, h3, h4, h5, h6, fun k => blk0_at W c t p k r hr]
  rfl

-- one point adds its block's column sums, of the entries and of their squares, to the two carried rows
theorem step_at (n : ℕ) (hn : n < cfg4.N) (s0 s1 : Vec Ideal S1x64 .f32) (q : Fin 64) :
    (step (relu W c ⟨n, hn⟩) s0 s1).2.2.2.1 (ix2 (0 : Fin 1) q)
      = s0 (ix2 (0 : Fin 1) q) + ∑ j ∈ Finset.range 10000, colSeq (R2 W c) q (n * 10000 + j)
    ∧ (step (relu W c ⟨n, hn⟩) s0 s1).2.2.2.2 (ix2 (0 : Fin 1) q)
      = s1 (ix2 (0 : Fin 1) q) + ∑ j ∈ Finset.range 10000, colSeq (Rsq W c) q (n * 10000 + j) :=
  have h10 : n < 10 := by have : cfg4.N = 10 := N_4; omega
  ⟨(pay1_at _ _ q).trans (congrArg _ (blk_range _ q n h10 _ fun p =>
      relu_at W c ⟨n, hn⟩ p q ⟨n * 10000 + p.val, by have := p.isLt; omega⟩ rfl)),
   (pay2_at _ _ q).trans (congrArg _ (blk_range (Rsq W c) q n h10 _ fun p => by
      rw [relu_at W c ⟨n, hn⟩ p q ⟨n * 10000 + p.val, by have := p.isLt; omega⟩ rfl]))⟩

-- after point n the carried rows hold the column sums over the rows below 10000 (n + 1)
theorem sums_at : ∀ (n : ℕ) (hn : n < cfg4.N) (q : Fin 64),
    (outsAt W c n hn).2.2.2.1 (ix2 (0 : Fin 1) q) = ∑ i ∈ Finset.range (n * 10000 + 10000), colSeq (R2 W c) q i
    ∧ (outsAt W c n hn).2.2.2.2 (ix2 (0 : Fin 1) q) = ∑ i ∈ Finset.range (n * 10000 + 10000), colSeq (Rsq W c) q i
  | 0, hn, q => by
    rw [outsAt_zero, (step_at W c 0 hn _ _ q).1, (step_at W c 0 hn _ _ q).2, pay5_at, pay6_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg4.N) : ∃ s0 s1, outsAt W c n hn = step (relu W c ⟨n, hn⟩) s0 s1 := by
  cases n <;> exact ⟨_, _, rfl⟩

-- at the last point the stored mean and variance are those of the result's columns
theorem stats_last (hn : 9 < cfg4.N) (q : Fin 64) :
    (outsAt W c 9 hn).2.1 (ix2 (0 : Fin 1) q) = Spec.mean (R2 W c) q
    ∧ (outsAt W c 9 hn).2.2.1 (ix2 (0 : Fin 1) q) = Spec.varK (R2 W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

theorem flushed7_eq (t : Fin cfg4.N) :
    (dat W c).flushed 7 t = ((cfg4.win 7).blk t).view.read (Elt Ideal) (Spec.ofMat (R2 W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = R2 W c (((cfg4.win 7).blk t).view.emb (ix2 p q) 0) (((cfg4.win 7).blk t).view.emb (ix2 p q) 1)
  rw [h, show ((cfg4.win 7).blk t).view.emb (ix2 p q) 1 = q from
    Fin.ext (win4_7.rect_emb_val_of_index_zero t (1 : Fin 2) (idx_blk t).2.2.2 _)]
  exact relu_at W c t p q _
    ((win4_7.rect_emb_val t (ix2 p q) (0 : Fin 2)).trans (congrArg (· * 10000 + p.val) (idx_blk t).2.2.1))

theorem cover7 (i : S100000x64.Idx) : ∃ t : Fin cfg4.N, (cfg4.win 7).flush t = true ∧ i ∈ ((cfg4.win 7).blk t).view.set := by
  have h0 : (i 0).val < 100000 := (i 0).isLt
  have h1 : (i 1).val < 64 := (i 1).isLt
  have hN : cfg4.N = 10 := N_4
  have ht : (i 0).val / 10000 < cfg4.N := by omega
  obtain ⟨-, -, e0, e1⟩ := idx_blk ⟨(i 0).val / 10000, ht⟩
  refine ⟨⟨(i 0).val / 10000, ht⟩, flush4_7 _, ?_⟩
  show i ∈ ((View.whole main_v34_0).slice (win4_7.rect ⟨(i 0).val / 10000, ht⟩)).set
  rw [View.set_slice_whole, Rect.mem_set_unit]
  intro a
  match a with
  | ⟨0, _⟩ =>
    show win4_7.index _ (0 : Fin 2) * 10000 ≤ (i 0).val ∧ (i 0).val < win4_7.index _ (0 : Fin 2) * 10000 + 10000
    rw [e0]; dsimp only; omega
  | ⟨1, _⟩ =>
    show win4_7.index _ (1 : Fin 2) * 64 ≤ (i 1).val ∧ (i 1).val < win4_7.index _ (1 : Fin 2) * 64 + 64
    rw [e1]; omega

abbrev out7 : FVec Ideal S100000x64 .f32 := (dat W c).arrAt 7 cfg4.N
abbrev out8 : FVec Ideal S1x64 .f32 := (dat W c).arrAt 8 cfg4.N
abbrev out9 : FVec Ideal S1x64 .f32 := (dat W c).arrAt 9 cfg4.N

theorem out_relu2 : Spec.toMat (out7 W c) = R2 W c := by
  rw [show out7 W c = Spec.ofMat (R2 W c) from
    (dat W c).arrAt_eq_of_cover 7 _ (fun t _ => flushed7_eq W c t) cover7]
  rfl

theorem last_of (t : Fin cfg4.N) (h : t.val % 10 = 9) : t.val = 9 := by
  have := t.isLt; have : cfg4.N = 10 := N_4; omega

theorem flushed8_eq (t : Fin cfg4.N) (hf : (cfg4.win 8).flush t = true) :
    (dat W c).flushed 8 t = ((cfg4.win 8).blk t).view.read (Elt Ideal) (Spec.ofRow (Spec.mean (R2 W c))) :=
  Spec.eq_of_toRow_eq (funext fun q => by
    show (outsAt W c t.val t.isLt).2.1 (ix2 (0 : Fin 1) q)
      = Spec.mean (R2 W c) (((cfg4.win 8).blk t).view.emb (ix2 (0 : Fin 1) q) 1)
    rw [show ((cfg4.win 8).blk t).view.emb (ix2 (0 : Fin 1) q) 1 = q from
      Fin.ext (win4_8.rect_emb_val_of_index_zero t (1 : Fin 2) (idx_row t 1).2.2.2.2.2.2.1 _)]
    obtain ⟨n, hn⟩ := t
    obtain rfl : n = 9 := last_of ⟨n, hn⟩ ((flush4_8 _).mp hf)
    exact (stats_last W c hn q).1)

theorem flushed9_eq (t : Fin cfg4.N) (hf : (cfg4.win 9).flush t = true) :
    (dat W c).flushed 9 t = ((cfg4.win 9).blk t).view.read (Elt Ideal) (Spec.ofRow (Spec.varK (R2 W c))) :=
  Spec.eq_of_toRow_eq (funext fun q => by
    show (outsAt W c t.val t.isLt).2.2.1 (ix2 (0 : Fin 1) q)
      = Spec.varK (R2 W c) (((cfg4.win 9).blk t).view.emb (ix2 (0 : Fin 1) q) 1)
    rw [show ((cfg4.win 9).blk t).view.emb (ix2 (0 : Fin 1) q) 1 = q from
      Fin.ext (win4_9.rect_emb_val_of_index_zero t (1 : Fin 2) (idx_row t 1).2.2.2.2.2.2.2 _)]
    obtain ⟨n, hn⟩ := t
    obtain rfl : n = 9 := last_of ⟨n, hn⟩ ((flush4_9 _).mp hf)
    exact (stats_last W c hn q).2)

-- the last point's block of a row is the whole row
theorem cover8 (i : S1x64.Idx) : ∃ t : Fin cfg4.N, (cfg4.win 8).flush t = true ∧ i ∈ ((cfg4.win 8).blk t).view.set := by
  refine ⟨t4_9, (flush4_8 t4_9).mpr rfl, ?_⟩
  show i ∈ ((View.whole main_v34_1).slice (win4_8.rect t4_9)).set
  rw [View.set_slice_whole, Rect.mem_set_unit]
  intro a
  rw [(idx_row t4_9 a).2.2.2.2.2.2.1, Nat.zero_mul, Nat.zero_add]
  exact ⟨Nat.zero_le _, (i a).isLt⟩

theorem cover9 (i : S1x64.Idx) : ∃ t : Fin cfg4.N, (cfg4.win 9).flush t = true ∧ i ∈ ((cfg4.win 9).blk t).view.set := by
  refine ⟨t4_9, (flush4_9 t4_9).mpr rfl, ?_⟩
  show i ∈ ((View.whole main_v34_2).slice (win4_9.rect t4_9)).set
  rw [View.set_slice_whole, Rect.mem_set_unit]
  intro a
  rw [(idx_row t4_9 a).2.2.2.2.2.2.2, Nat.zero_mul, Nat.zero_add]
  exact ⟨Nat.zero_le _, (i a).isLt⟩

theorem out_mean2 : Spec.toRow (out8 W c) = Spec.mean (R2 W c) := by
  rw [show out8 W c = Spec.ofRow (Spec.mean (R2 W c)) from (dat W c).arrAt_eq_of_cover 8 _ (flushed8_eq W c) cover8]
  rfl

theorem out_var2 : Spec.toRow (out9 W c) = Spec.varK (R2 W c) := by
  rw [show out9 W c = Spec.ofRow (Spec.varK (R2 W c)) from (dat W c).arrAt_eq_of_cover 9 _ (flushed9_eq W c) cover9]
  rfl

end Cert.KernelIdeal.Hand.R4

end
-- ==== Proof.KI.R5.Value1.lean ====
import proofs.«412604_j76897094468164_1_alg».proof.Proof.KI.R5.Dat
import proofs.«412604_j76897094468164_1_alg».proof.Proof.KI.ValueLib

noncomputable section

namespace Cert.KernelIdeal.Hand.R5

open Cert.KernelIdeal Cert.KernelIdeal.Gen Cert.KernelIdeal.Hand
open Idealize.ShloMosaic Idealize.ShloMosaic.TcCoe Idealize.ShloMosaic.ValueIdx
open scoped BigOperators

theorem pay2_at (x : Vec Ideal S10000x64 .f32) (mu va g be : Vec Ideal S1x64 .f32) (r : Fin 10000) (q : Fin 64) :
    k5_pay2 x mu va g be (ix2 r q)
      = (x (ix2 r q) - mu (ix2 (0 : Fin 1) q)) * Ideal.rsqrt (va (ix2 (0 : Fin 1) q) + Cert.Spec.cEps) * g (ix2 (0 : Fin 1) q) + be (ix2 (0 : Fin 1) q) := by
  unfold k5_pay2
  simp only [shapeCast_self, addf_apply, mulf_apply, subf_apply, broadcastTo_1b_ab_apply]
  rfl

theorem pay1_at (q : Fin 64) : k5_pay1 (F := Ideal) (ix2 (0 : Fin 1) q) = 0 := by
  unfold k5_pay1
  rw [shapeCast_self]
  exact Ideal.ofBits_zero_f32

theorem pay3_at (x : Vec Ideal S10000x64 .f32) (mu va g be s : Vec Ideal S1x64 .f32) (q : Fin 64) :
    k5_pay3 x mu va g be s (ix2 (0 : Fin 1) q) = s (ix2 (0 : Fin 1) q) + ∑ r : Fin 10000, k5_pay2 x mu va g be (ix2 r q) :=
  acc_at (k5_pay2 x mu va g be) s _ _ _ _ _ q

end Cert.KernelIdeal.Hand.R5

end
-- ==== Proof.KI.R5.Value.lean ====
import proofs.«412604_j76897094468164_1_alg».proof.Proof.KI.R5.Dat
import proofs.«412604_j76897094468164_1_alg».proof.Proof.KI.R5.Value1

noncomputable section

namespace Cert.KernelIdeal.Hand.R5

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec5 0)
abbrev arr1 : FVec Ideal S1x64 .f32 := V W c (Pipeline.arrRef spec5 1)
abbrev arr2 : FVec Ideal S1x64 .f32 := V W c (Pipeline.arrRef spec5 2)
abbrev arr3 : FVec Ideal S1x64 .f32 := V W c (Pipeline.arrRef spec5 3)
abbrev arr4 : FVec Ideal S1x64 .f32 := V W c (Pipeline.arrRef spec5 4)

abbrev H : Spec.Mat 100000 64 :=
  Spec.bn (Spec.toMat (arr0 W c)) (Spec.toRow (arr1 W c)) (Spec.toRow (arr2 W c)) (Spec.toRow (arr3 W c)) (Spec.toRow (arr4 W c))

theorem idx_blk : ∀ t : Fin cfg5.N, win5_0.index t (0 : Fin 2) = t.val ∧ win5_0.index t (1 : Fin 2) = 0
    ∧ win5_5.index t (0 : Fin 2) = t.val ∧ win5_5.index t (1 : Fin 2) = 0 :=
  (by decide +kernel : ∀ t : Fin grid5.N, _)

theorem idx_row : ∀ (t : Fin cfg5.N) (a : Fin 2), win5_1.index t a = 0 ∧ win5_2.index t a = 0 ∧ win5_3.index t a = 0
    ∧ win5_4.index t a = 0 ∧ win5_6.index t a = 0 :=
  (by decide +kernel : ∀ (t : Fin grid5.N) (a : Fin 2), _)

-- every parameter row enters a block whole
theorem rows_at (t : Fin cfg5.N) : (∀ j, iblk W c 1 t j = arr1 W c j) ∧ (∀ j, iblk W c 2 t j = arr2 W c j)
    ∧ (∀ j, iblk W c 3 t j = arr3 W c j) ∧ (∀ j, iblk W c 4 t j = arr4 W c j) :=
  ⟨fun j => row_rd (arr1 W c) fun a => win5_1.rect_emb_val_of_index_zero t a (idx_row t a).1 j,
   fun j => row_rd (arr2 W c) fun a => win5_2.rect_emb_val_of_index_zero t a (idx_row t a).2.1 j,
   fun j => row_rd (arr3 W c) fun a => win5_3.rect_emb_val_of_index_zero t a (idx_row t a).2.2.1 j,
   fun j => row_rd (arr4 W c) fun a => win5_4.rect_emb_val_of_index_zero t a (idx_row t a).2.2.2.1 j⟩

-- the input's block at point t is its rows 10000 t … 10000 t + 9999
theorem blk0_at (t : Fin cfg5.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win5_0.rect_emb_val t (ix2 p q) (0 : Fin 2)).trans ((congrArg (· * 10000 + p.val) (idx_blk t).1).trans hr.symm))
    (win5_0.rect_emb_val_of_index_zero t (1 : Fin 2) (idx_blk t).2.1 (ix2 p q)))

-- so the block stored at point t is the same rows of the normalised matrix
theorem hAt_at (t : Fin cfg5.N) (p : Fin 10000) (q : Fin 64) (r : Fin 100000) (hr : r.val = t.val * 10000 + p.val) :
    hAt W c t (ix2 p q) = H W c r q := by
  obtain ⟨h1, h2, h3, h4⟩ := rows_at W c t
  unfold hAt
  rw [pay2_at, blk0_at W c t p q r hr, h1, h2, h3, h4]
  rfl

-- one point adds its block's column sums to the carried row
theorem sAt_at (n : ℕ) (hn : n < cfg5.N) (s : Vec Ideal S1x64 .f32) (q : Fin 64) :
    sAt W c ⟨n, hn⟩ s (ix2 (0 : Fin 1) q)
      = s (ix2 (0 : Fin 1) q) + ∑ j ∈ Finset.range 10000, colSeq (H W c) q (n * 10000 + j) :=
  have h10 : n < 10 := by have : cfg5.N = 10 := N_5; omega
  (pay3_at _ _ _ _ _ s q).trans (congrArg _ (blk_range _ q n h10 _ fun p =>
    hAt_at W c ⟨n, hn⟩ p q ⟨n * 10000 + p.val, by have := p.isLt; omega⟩ rfl))

-- after point n the carried row holds the column sums over the rows below 10000 (n + 1)
theorem scratch_at : ∀ (n : ℕ) (hn : n < cfg5.N) (q : Fin 64),
    (outsAt W c n hn).2.2 (ix2 (0 : Fin 1) q) = ∑ i ∈ Finset.range (n * 10000 + 10000), colSeq (H W c) q i
  | 0, hn, q => by
    rw [outsAt_zero]
    show sAt W c ⟨0, hn⟩ (k5_pay1 (F := Ideal)) (ix2 (0 : Fin 1) q) = _
    rw [sAt_at, pay1_at, Finset.sum_range_add, Nat.zero_mul, Finset.sum_range_zero]
  | n + 1, hn, q => by
    rw [outsAt_succ]
    show sAt W c ⟨n + 1, hn⟩ (outsAt W c n (Nat.lt_of_succ_lt hn)).2.2 (ix2 (0 : Fin 1) q) = _
    rw [sAt_at, Finset.sum_range_add, Nat.succ_mul, scratch_at n _ q]

theorem flushed5_eq (t : Fin cfg5.N) :
    (dat W c).flushed 5 t = ((cfg5.win 5).blk t).view.read (Elt Ideal) (Spec.ofMat (H W c)) := by
  funext j
  obtain ⟨p, q, rfl⟩ : ∃ (p : Fin 10000) (q : Fin 64), j = ix2 p q := ⟨j 0, j 1, eq_ix2 j⟩
  show (outsAt W c t.val t.isLt).1 (ix2 p q)
    = H W c (((cfg5.win 5).blk t).view.emb (ix2 p q) 0) (((cfg5.win 5).blk t).view.emb (ix2 p q) 1)
  rw [show (outsAt W c t.val t.isLt).1 = hAt W c t from by obtain ⟨n, hn⟩ := t; cases n <;> rfl,
    show ((cfg5.win 5).blk t).view.emb (ix2 p q) 1 = q from
      Fin.ext (win5_5.rect_emb_val_of_index_zero t (1 : Fin 2) (idx_blk t).2.2.2 _)]
  exact hAt_at W c t p q _
    ((win5_5.rect_emb_val t (ix2 p q) (0 : Fin 2)).trans (congrArg (· * 10000 + p.val) (idx_blk t).2.2.1))

theorem cover5 (i : S100000x64.Idx) : ∃ t : Fin cfg5.N, (cfg5.win 5).flush t = true ∧ i ∈ ((cfg5.win 5).blk t).view.set := by
  have h0 : (i 0).val < 100000 := (i 0).isLt
  have h1 : (i 1).val < 64 := (i 1).isLt
  have hN : cfg5.N = 10 := N_5
  have ht : (i 0).val / 10000 < cfg5.N := by omega
  obtain ⟨-, -, e0, e1⟩ := idx_blk ⟨(i 0).val / 10000, ht⟩
  refine ⟨⟨(i 0).val / 10000, ht⟩, flush5_5 _, ?_⟩
  show i ∈ ((View.whole main_v35_0).slice (win5_5.rect ⟨(i 0).val / 10000, ht⟩)).set
  rw [View.set_slice_whole, Rect.mem_set_unit]
  intro a
  match a with
  | ⟨0, _⟩ =>
    show win5_5.index _ (0 : Fin 2) * 10000 ≤ (i 0).val ∧ (i 0).val < win5_5.index _ (0 : Fin 2) * 10000 + 10000
    rw [e0]; dsimp only; omega
  | ⟨1, _⟩ =>
    show win5_5.index _ (1 : Fin 2) * 64 ≤ (i 1).val ∧ (i 1).val < win5_5.index _ (1 : Fin 2) * 64 + 64
    rw [e1]; omega

theorem out_h :
    Cert.Spec.toMat (n := 100000) (k := 64) ((dat W c).arrAt 5 cfg5.N)
      = Cert.Spec.bn (Cert.Spec.toMat (arr0 W c)) (Cert.Spec.toRow (arr1 W c)) (Cert.Spec.toRow (arr2 W c))
          (Cert.Spec.toRow (arr3 W c)) (Cert.Spec.toRow (arr4 W c)) := by
  rw [(dat W c).arrAt_eq_of_cover 5 (Spec.ofMat (H W c)) (fun t _ => flushed5_eq W c t) cover5]
  rfl

theorem read6 (G : Spec.Row 64) (t : Fin cfg5.N) (q : Fin 64) :
    ((cfg5.win 6).blk t).view.read (Elt Ideal) (Spec.ofRow G) (ix2 (0 : Fin 1) q) = G q :=
  row_rd (i := ((cfg5.win 6).blk t).view.emb (ix2 (0 : Fin 1) q)) (j := ix2 (0 : Fin 1) q) (Spec.ofRow G) fun a =>
    win5_6.rect_emb_val_of_index_zero t a (idx_row t a).2.2.2.2 _

theorem flushed6_eq (t : Fin cfg5.N) (hf : (cfg5.win 6).flush t = true) :
    (dat W c).flushed 6 t = ((cfg5.win 6).blk t).view.read (Elt Ideal) (Spec.ofRow (Spec.colsum (H W c))) :=
  Spec.eq_of_toRow_eq (funext fun q => by
    show (outsAt W c t.val t.isLt).2.1 (ix2 (0 : Fin 1) q)
      = ((cfg5.win 6).blk t).view.read (Elt Ideal) (Spec.ofRow (Spec.colsum (H W c))) (ix2 (0 : Fin 1) q)
    rw [read6, outsAt_gsum, colsum_eq_range]
    have h9 : t.val = 9 := by have := (flush5_6 t).mp hf; have := t.isLt; have : cfg5.N = 10 := N_5; omega
    obtain ⟨n, hn⟩ := t
    obtain rfl : n = 9 := h9
    exact scratch_at W c 9 hn q)

-- the last point's block of the row is the whole row
theorem cover6 (i : S1x64.Idx) : ∃ t : Fin cfg5.N, (cfg5.win 6).flush t = true ∧ i ∈ ((cfg5.win 6).blk t).view.set := by
  refine ⟨t5_9, (flush5_6 t5_9).mpr rfl, ?_⟩
  show i ∈ ((View.whole main_v35_1).slice (win5_6.rect t5_9)).set
  rw [View.set_slice_whole, Rect.mem_set_unit]
  intro a
  rw [(idx_row t5_9 a).2.2.2.2, Nat.zero_mul, Nat.zero_add]
  exact ⟨Nat.zero_le _, (i a).isLt⟩

theorem out_gsum :
    Cert.Spec.toRow (k := 64) ((dat W c).arrAt 6 cfg5.N)
      = Cert.Spec.colsum (Cert.Spec.bn (Cert.Spec.toMat (arr0 W c)) (Cert.Spec.toRow (arr1 W c)) (Cert.Spec.toRow (arr2 W c))
          (Cert.Spec.toRow (arr3 W c)) (Cert.Spec.toRow (arr4 W c))) := by
  rw [(dat W c).arrAt_eq_of_cover 6 (Spec.ofRow (Spec.colsum (H W c))) (flushed6_eq W c) cover6]
  rfl

end Cert.KernelIdeal.Hand.R5

end
-- ==== Proof.KI.Chain1.lean ====
import proofs.«412604_j76897094468164_1_alg».proof.Proof.KI.Vals
import proofs.«412604_j76897094468164_1_alg».proof.Proof.KI.R3.Value
import proofs.«412604_j76897094468164_1_alg».proof.Proof.KI.R4.Value
import proofs.«412604_j76897094468164_1_alg».proof.Proof.KI.R5.Value
import proofs.«412604_j76897094468164_1_alg».proof.Proof.Math.Net

noncomputable section

namespace Cert.KernelIdeal.Hand

open Cert.KernelIdeal Cert.KernelIdeal.Gen
open Idealize.ShloMosaic Idealize.ShloMosaic.TcCoe
open Idealize.SL Idealize.SL.Sem
open Cert.Spec

variable (m : (ℓ : Loc nD τ sig) → Buf (Elt Ideal) ℓ)

theorem keep6 (c : Dev nD) (b : Ref sig .tc) (h : b ∉ hostOps3_W) : W6 m c b = W5 m c b :=
  StableHlo.after_of_writes_sub hostOps3 _ hostOps3_writes h

theorem keep7 (c : Dev nD) (b : Ref sig .tc) (h : ∀ w, Pipeline.arrRef spec3 w ≠ b) : W7 m c b = W6 m c b :=
  R3.Wexit_of_ne (W6 m) c b h

theorem keep8 (c : Dev nD) (b : Ref sig .tc) (h : b ∉ hostOps4_W) : W8 m c b = W7 m c b :=
  StableHlo.after_of_writes_sub hostOps4 _ hostOps4_writes h

theorem keep9 (c : Dev nD) (b : Ref sig .tc) (h : ∀ w, Pipeline.arrRef spec4 w ≠ b) : W9 m c b = W8 m c b :=
  R4.Wexit_of_ne (W8 m) c b h

theorem keep10 (c : Dev nD) (b : Ref sig .tc) (h : ∀ w, Pipeline.arrRef spec5 w ≠ b) : W10 m c b = W9 m c b :=
  R5.Wexit_of_ne (W9 m) c b h

theorem layer1_of (c : Dev nD) (a : Mat NN DD) (P : LayerP)
    (hagg : toMat (n := 100000) (k := 64) (W6 m c main_v46) = a)
    (hW1 : toMat (n := 64) (k := 64) (W6 m c main_v66) = P.W1)
    (hb1 : toRow (k := 64) (W6 m c main_v49) = P.b1)
    (hg1 : toRow (k := 64) (W6 m c main_v52) = P.g1)
    (hbe1 : toRow (k := 64) (W6 m c main_v55) = P.be1)
    (hW2 : toMat (n := 64) (k := 64) (W8 m c main_v69) = P.W2)
    (hb2 : toRow (k := 64) (W6 m c main_v58) = P.b2)
    (hg2 : toRow (k := 64) (W6 m c main_v61) = P.g2)
    (hbe2 : toRow (k := 64) (W6 m c main_v64) = P.be2) :
    toMat (n := 100000) (k := 64) (W10 m c main_v71_0) = layerK a P
      ∧ toRow (k := 64) (W10 m c main_v71_1) = colsum (layerK a P) := by

  have t1 : toMat (n := 100000) (k := 64) (W7 m c main_v67_0) = lin a P.W1 P.b1 := by
    rw [← hagg, ← hW1, ← hb1]
    exact (congrArg (toMat (n := 100000) (k := 64)) (R3.Wexit_arr (W6 m) c 3)).trans (R3.out_t1 (W6 m) c)
  have mu1 : toRow (k := 64) (W7 m c main_v67_1) = mean (lin a P.W1 P.b1) := by
    rw [← hagg, ← hW1, ← hb1]
    exact (congrArg (toRow (k := 64)) (R3.Wexit_arr (W6 m) c 4)).trans (R3.out_mean (W6 m) c)
  have va1 : toRow (k := 64) (W7 m c main_v67_2) = varK (lin a P.W1 P.b1) := by
    rw [← hagg, ← hW1, ← hb1]
    exact (congrArg (toRow (k := 64)) (R3.Wexit_arr (W6 m) c 5)).trans (R3.out_var (W6 m) c)

  have e0 : W8 m c main_v67_0 = W7 m c main_v67_0 := keep8 m c _ (by decide)
  have e1 : W8 m c main_v67_1 = W7 m c main_v67_1 := keep8 m c _ (by decide)
  have e2 : W8 m c main_v67_2 = W7 m c main_v67_2 := keep8 m c _ (by decide)
  have e3 : W8 m c main_v52 = W6 m c main_v52 := (keep8 m c _ (by decide)).trans (keep7 m c _ (by decide))
  have e4 : W8 m c main_v55 = W6 m c main_v55 := (keep8 m c _ (by decide)).trans (keep7 m c _ (by decide))
  have e6 : W8 m c main_v58 = W6 m c main_v58 := (keep8 m c _ (by decide)).trans (keep7 m c _ (by decide))

  let r2 : Mat NN DD := relu (lin (relu (bn (lin a P.W1 P.b1) (mean (lin a P.W1 P.b1)) (varK (lin a P.W1 P.b1)) P.g1 P.be1)) P.W2 P.b2)
  have in1 : relu (lin (relu (bn (toMat (n := 100000) (k := 64) (W8 m c main_v67_0)) (toRow (k := 64) (W8 m c main_v67_1)) (toRow (k := 64) (W8 m c main_v67_2))
      (toRow (k := 64) (W8 m c main_v52)) (toRow (k := 64) (W8 m c main_v55)))) (toMat (n := 64) (k := 64) (W8 m c main_v69)) (toRow (k := 64) (W8 m c main_v58))) = r2 := by
    rw [e0, e1, e2, e3, e4, e6, t1, mu1, va1, hg1, hbe1, hW2, hb2]
  have t2 : toMat (n := 100000) (k := 64) (W9 m c main_v70_0) = r2 := by
    rw [← in1]
    exact (congrArg (toMat (n := 100000) (k := 64)) (R4.Wexit_arr (W8 m) c 7)).trans (R4.out_relu2 (W8 m) c)
  have mu2 : toRow (k := 64) (W9 m c main_v70_1) = mean r2 := by
    rw [← in1]
    exact (congrArg (toRow (k := 64)) (R4.Wexit_arr (W8 m) c 8)).trans (R4.out_mean2 (W8 m) c)
  have va2 : toRow (k := 64) (W9 m c main_v70_2) = varK r2 := by
    rw [← in1]
    exact (congrArg (toRow (k := 64)) (R4.Wexit_arr (W8 m) c 9)).trans (R4.out_var2 (W8 m) c)

  have f3 : W9 m c main_v61 = W6 m c main_v61 :=
    (keep9 m c _ (by decide)).trans ((keep8 m c _ (by decide)).trans (keep7 m c _ (by decide)))
  have f4 : W9 m c main_v64 = W6 m c main_v64 :=
    (keep9 m c _ (by decide)).trans ((keep8 m c _ (by decide)).trans (keep7 m c _ (by decide)))
  have in2 : bn (toMat (n := 100000) (k := 64) (W9 m c main_v70_0)) (toRow (k := 64) (W9 m c main_v70_1)) (toRow (k := 64) (W9 m c main_v70_2))
      (toRow (k := 64) (W9 m c main_v61)) (toRow (k := 64) (W9 m c main_v64)) = layerK a P := by
    rw [t2, mu2, va2, f3, f4, hg2, hbe2]
    rfl
  constructor
  · rw [← in2]
    exact (congrArg (toMat (n := 100000) (k := 64)) (R5.Wexit_arr (W9 m) c 5)).trans (R5.out_h (W9 m) c)
  · rw [← in2]
    exact (congrArg (toRow (k := 64)) (R5.Wexit_arr (W9 m) c 6)).trans (R5.out_gsum (W9 m) c)

end Cert.KernelIdeal.Hand

end
-- ==== Proof.KI.R6.Value1.lean ====
import proofs.«412604_j76897094468164_1_alg».proof.Proof.KI.R6.Dat
import proofs.«412604_j76897094468164_1_alg».proof.Proof.KI.ValueLib
import proofs.«412604_j76897094468164_1_alg».proof.Proof.LibDot

noncomputable section

namespace Cert.KernelIdeal.Hand.R6

open Cert.KernelIdeal Cert.KernelIdeal.Gen Cert.KernelIdeal.Hand
open Idealize.ShloMosaic Idealize.ShloMosaic.TcCoe Idealize.ShloMosaic.ValueIdx
open scoped BigOperators

theorem pay5_at (x : Vec Ideal S10000x64 .f32) (w : Vec Ideal S64x64 .f32) (b : Vec Ideal S1x64 .f32) (r : Fin 10000) (q : Fin 64) :
    k6_pay5 x w b (ix2 r q) = (∑ k : Fin 64, x (ix2 r k) * w (ix2 k q)) + b (ix2 (0 : Fin 1) q) := by
  unfold k6_pay5
  simp only [shapeCast_self]
  rw [addf_apply]
  exact congrArg₂ (· + ·)
    (Cert.LibDot.matmul_zero_at dot_S10000x64_S64x64_S10000x64_1_0_0_1_n_n rfl rfl rfl rfl rfl rfl none _ _ r q)
    (broadcastTo_1b_ab_apply b broadcasts_S1x64_S10000x64 r q)

theorem pay6_at (x : Vec Ideal S10000x64 .f32) (w : Vec Ideal S64x64 .f32) (b s : Vec Ideal S1x64 .f32) (q : Fin 64) :
    k6_pay6 x w b s (ix2 (0 : Fin 1) q) = s (ix2 (0 : Fin 1) q) + ∑ r : Fin 10000, k6_pay5 x w b (ix2 r q) :=
  acc_at (k6_pay5 x w b) s _ _ _ _ _ q

theorem pay7_at (x : Vec Ideal S10000x64 .f32) (w : Vec Ideal S64x64 .f32) (b s : Vec Ideal S1x64 .f32) (q : Fin 64) :
    k6_pay7 x w b s (ix2 (0 : Fin 1) q)
      = s (ix2 (0 : Fin 1) q) + ∑ r : Fin 10000, k6_pay5 x w b (ix2 r q) * k6_pay5 x w b (ix2 r q) :=
  acc_at (mulf (k6_pay5 x w b) (k6_pay5 x w b)) s _ _ _ _ _ q

theorem pay3_at (q : Fin 64) : (k6_pay3 (F := Ideal)) (ix2 (0 : Fin 1) q) = 0 := by
  unfold k6_pay3
  rw [shapeCast_self]
  exact Ideal.ofBits_zero_f32

theorem pay4_at (q : Fin 64) : (k6_pay4 (F := Ideal)) (ix2 (0 : Fin 1) q) = 0 := pay3_at q

end Cert.KernelIdeal.Hand.R6

end
-- ==== Proof.KI.R6.Value2.lean ====
import proofs.«412604_j76897094468164_1_alg».proof.Proof.KI.R6.Value1

noncomputable section

namespace Cert.KernelIdeal.Hand.R6

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec6 0)
abbrev arr1 : FVec Ideal S64x64 .f32 := V W c (Pipeline.arrRef spec6 1)
abbrev arr2 : FVec Ideal S1x64 .f32 := V W c (Pipeline.arrRef spec6 2)

abbrev Tm : Spec.Mat 100000 64 := Spec.lin (Spec.toMat (arr0 W c)) (Spec.toMat (arr1 W c)) (Spec.toRow (arr2 W c))

abbrev Tsq : Spec.Mat 100000 64 := fun r q => Tm W c r q * Tm W c r q

theorem idx_blk : ∀ t : Fin cfg6.N, win6_0.index t (0 : Fin 2) = t.val ∧ win6_0.index t (1 : Fin 2) = 0
    ∧ win6_3.index t (0 : Fin 2) = t.val ∧ win6_3.index t (1 : Fin 2) = 0 :=
  (by decide +kernel : ∀ t : Fin grid6.N, _)

theorem idx_row : ∀ (t : Fin cfg6.N) (a : Fin 2),
    win6_1.index t a = 0 ∧ win6_2.index t a = 0 ∧ win6_4.index t a = 0 ∧ win6_5.index t a = 0 :=
  (by decide +kernel : ∀ (t : Fin grid6.N) (a : Fin 2), _)

-- the weights and the bias enter a block whole
theorem rows_at (t : Fin cfg6.N) : (∀ j, iblk W c 1 t j = arr1 W c j) ∧ (∀ j, iblk W c 2 t j = arr2 W c j) :=
  ⟨fun j => row_rd (arr1 W c) fun a => win6_1.rect_emb_val_of_index_zero t a (idx_row t a).1 j,
   fun j => row_rd (arr2 W c) fun a => win6_2.rect_emb_val_of_index_zero t a (idx_row t a).2.1 j⟩

-- the features' block at point t is rows 10000 t … 10000 t + 9999
theorem blk0_at (t : Fin cfg6.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win6_0.rect_emb_val t (ix2 p q) (0 : Fin 2)).trans ((congrArg (· * 10000 + p.val) (idx_blk t).1).trans hr.symm))
    (win6_0.rect_emb_val_of_index_zero t (1 : Fin 2) (idx_blk t).2.1 (ix2 p q)))

-- what one point computes from the carried rows s0 and s1
abbrev outs (t : Fin cfg6.N) (s0 s1 : Vec Ideal S1x64 .f32) :=
  stepOuts (iblk W c 0 t) (iblk W c 1 t) (iblk W c 2 t) s0 s1

-- the block stored at point t is the same rows of T
theorem tblk_at (t : Fin cfg6.N) (p : Fin 10000) (q : Fin 64) (r : Fin 100000) (hr : r.val = t.val * 10000 + p.val) :
    k6_pay5 (iblk W c 0 t) (iblk W c 1 t) (iblk W c 2 t) (ix2 p q) = Tm W c r q := by
  rw [pay5_at]
  simp only [(rows_at W c t).1, (rows_at W c t).2, fun k => blk0_at W c t p k r hr]
  rfl

-- one point adds its block's column sums, of the entries and of their squares, to the two carried rows
theorem step_at (n : ℕ) (hn : n < cfg6.N) (s0 s1 : Vec Ideal S1x64 .f32) (q : Fin 64) :
    (outs W c ⟨n, hn⟩ s0 s1).2.2.2.1 (ix2 (0 : Fin 1) q)
      = s0 (ix2 (0 : Fin 1) q) + ∑ j ∈ Finset.range 10000, colSeq (Tm W c) q (n * 10000 + j)
    ∧ (outs W c ⟨n, hn⟩ s0 s1).2.2.2.2 (ix2 (0 : Fin 1) q)
      = s1 (ix2 (0 : Fin 1) q) + ∑ j ∈ Finset.range 10000, colSeq (Tsq W c) q (n * 10000 + j) :=
  have h10 : n < 10 := by have : cfg6.N = 10 := N_6; omega
  ⟨(pay6_at _ _ _ _ q).trans (congrArg _ (blk_range _ q n h10 _ fun p =>
      tblk_at W c ⟨n, hn⟩ p q ⟨n * 10000 + p.val, by have := p.isLt; omega⟩ rfl)),
   (pay7_at _ _ _ _ q).trans (congrArg _ (blk_range (Tsq W c) q n h10 _ fun p => by
      rw [tblk_at W c ⟨n, hn⟩ p q ⟨n * 10000 + p.val, by have := p.isLt; omega⟩ rfl]))⟩

-- after point n the carried rows hold the column sums over the rows below 10000 (n + 1)
theorem sums_at : ∀ (n : ℕ) (hn : n < cfg6.N) (q : Fin 64),
    (outsAt W c n hn).2.2.2.1 (ix2 (0 : Fin 1) q) = ∑ i ∈ Finset.range (n * 10000 + 10000), colSeq (Tm W c) q i
    ∧ (outsAt W c n hn).2.2.2.2 (ix2 (0 : Fin 1) q) = ∑ i ∈ Finset.range (n * 10000 + 10000), colSeq (Tsq W c) q i
  | 0, hn, q => by
    rw [outsAt_zero, (step_at W c 0 hn _ _ q).1, (step_at W c 0 hn _ _ q).2, pay3_at, pay4_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg6.N) : ∃ s0 s1, outsAt W c n hn = outs W c ⟨n, hn⟩ s0 s1 := by
  cases n <;> exact ⟨_, _, rfl⟩

-- at the last point the stored mean and variance are those of T's columns
theorem stats_last (hn : 9 < cfg6.N) (q : Fin 64) :
    (outsAt W c 9 hn).2.1 (ix2 (0 : Fin 1) q) = Spec.mean (Tm W c) q
    ∧ (outsAt W c 9 hn).2.2.1 (ix2 (0 : Fin 1) q) = Spec.varK (Tm W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

end Cert.KernelIdeal.Hand.R6

end
-- ==== Proof.KI.R6.Value.lean ====
import proofs.«412604_j76897094468164_1_alg».proof.Proof.KI.R6.Value2

noncomputable section

namespace Cert.KernelIdeal.Hand.R6

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

theorem flushed3_eq (t : Fin cfg6.N) :
    (dat W c).flushed 3 t = ((cfg6.win 3).blk t).view.read (Elt Ideal) (Spec.ofMat (Tm W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = Tm W c (((cfg6.win 3).blk t).view.emb (ix2 p q) 0) (((cfg6.win 3).blk t).view.emb (ix2 p q) 1)
  rw [h, show ((cfg6.win 3).blk t).view.emb (ix2 p q) 1 = q from
    Fin.ext (win6_3.rect_emb_val_of_index_zero t (1 : Fin 2) (idx_blk t).2.2.2 _)]
  exact tblk_at W c t p q _
    ((win6_3.rect_emb_val t (ix2 p q) (0 : Fin 2)).trans (congrArg (· * 10000 + p.val) (idx_blk t).2.2.1))

theorem cover3 (i : S100000x64.Idx) : ∃ t : Fin cfg6.N, (cfg6.win 3).flush t = true ∧ i ∈ ((cfg6.win 3).blk t).view.set := by
  have h0 : (i 0).val < 100000 := (i 0).isLt
  have h1 : (i 1).val < 64 := (i 1).isLt
  have hN : cfg6.N = 10 := N_6
  have ht : (i 0).val / 10000 < cfg6.N := by omega
  obtain ⟨-, -, e0, e1⟩ := idx_blk ⟨(i 0).val / 10000, ht⟩
  refine ⟨⟨(i 0).val / 10000, ht⟩, flush6_3 _, ?_⟩
  show i ∈ ((View.whole main_v31_0).slice (win6_3.rect ⟨(i 0).val / 10000, ht⟩)).set
  rw [View.set_slice_whole, Rect.mem_set_unit]
  intro a
  match a with
  | ⟨0, _⟩ =>
    show win6_3.index _ (0 : Fin 2) * 10000 ≤ (i 0).val ∧ (i 0).val < win6_3.index _ (0 : Fin 2) * 10000 + 10000
    rw [e0]; dsimp only; omega
  | ⟨1, _⟩ =>
    show win6_3.index _ (1 : Fin 2) * 64 ≤ (i 1).val ∧ (i 1).val < win6_3.index _ (1 : Fin 2) * 64 + 64
    rw [e1]; omega

theorem out_t1 :
    Cert.Spec.toMat (n := 100000) (k := 64) ((dat W c).arrAt 3 cfg6.N)
      = Cert.Spec.lin (Cert.Spec.toMat (n := 100000) (k := 64) (V W c (Pipeline.arrRef spec6 0)))
          (Cert.Spec.toMat (n := 64) (k := 64) (V W c (Pipeline.arrRef spec6 1)))
          (Cert.Spec.toRow (k := 64) (V W c (Pipeline.arrRef spec6 2))) := by
  rw [(dat W c).arrAt_eq_of_cover 3 (Spec.ofMat (Tm W c)) (fun t _ => flushed3_eq W c t) cover3]
  rfl

theorem last_of (t : Fin cfg6.N) (h : t.val % 10 = 9) : t.val = 9 := by
  have := t.isLt; have : cfg6.N = 10 := N_6; omega

theorem flushed4_eq (t : Fin cfg6.N) (hf : (cfg6.win 4).flush t = true) :
    (dat W c).flushed 4 t = ((cfg6.win 4).blk t).view.read (Elt Ideal) (Spec.ofRow (Spec.mean (Tm W c))) :=
  Spec.eq_of_toRow_eq (funext fun q => by
    show (outsAt W c t.val t.isLt).2.1 (ix2 (0 : Fin 1) q)
      = Spec.mean (Tm W c) (((cfg6.win 4).blk t).view.emb (ix2 (0 : Fin 1) q) 1)
    rw [show ((cfg6.win 4).blk t).view.emb (ix2 (0 : Fin 1) q) 1 = q from
      Fin.ext (win6_4.rect_emb_val_of_index_zero t (1 : Fin 2) (idx_row t 1).2.2.1 _)]
    obtain ⟨n, hn⟩ := t
    obtain rfl : n = 9 := last_of ⟨n, hn⟩ ((flush6_4 _).mp hf)
    exact (stats_last W c hn q).1)

theorem flushed5_eq (t : Fin cfg6.N) (hf : (cfg6.win 5).flush t = true) :
    (dat W c).flushed 5 t = ((cfg6.win 5).blk t).view.read (Elt Ideal) (Spec.ofRow (Spec.varK (Tm W c))) :=
  Spec.eq_of_toRow_eq (funext fun q => by
    show (outsAt W c t.val t.isLt).2.2.1 (ix2 (0 : Fin 1) q)
      = Spec.varK (Tm W c) (((cfg6.win 5).blk t).view.emb (ix2 (0 : Fin 1) q) 1)
    rw [show ((cfg6.win 5).blk t).view.emb (ix2 (0 : Fin 1) q) 1 = q from
      Fin.ext (win6_5.rect_emb_val_of_index_zero t (1 : Fin 2) (idx_row t 1).2.2.2 _)]
    obtain ⟨n, hn⟩ := t
    obtain rfl : n = 9 := last_of ⟨n, hn⟩ ((flush6_5 _).mp hf)
    exact (stats_last W c hn q).2)

-- the last point's block of a row is the whole row
theorem cover4 (i : S1x64.Idx) : ∃ t : Fin cfg6.N, (cfg6.win 4).flush t = true ∧ i ∈ ((cfg6.win 4).blk t).view.set := by
  refine ⟨t6_9, (flush6_4 t6_9).mpr rfl, ?_⟩
  show i ∈ ((View.whole main_v31_1).slice (win6_4.rect t6_9)).set
  rw [View.set_slice_whole, Rect.mem_set_unit]
  intro a
  rw [(idx_row t6_9 a).2.2.1, Nat.zero_mul, Nat.zero_add]
  exact ⟨Nat.zero_le _, (i a).isLt⟩

theorem cover5 (i : S1x64.Idx) : ∃ t : Fin cfg6.N, (cfg6.win 5).flush t = true ∧ i ∈ ((cfg6.win 5).blk t).view.set := by
  refine ⟨t6_9, (flush6_5 t6_9).mpr rfl, ?_⟩
  show i ∈ ((View.whole main_v31_2).slice (win6_5.rect t6_9)).set
  rw [View.set_slice_whole, Rect.mem_set_unit]
  intro a
  rw [(idx_row t6_9 a).2.2.2, Nat.zero_mul, Nat.zero_add]
  exact ⟨Nat.zero_le _, (i a).isLt⟩

theorem out_mean :
    Cert.Spec.toRow (k := 64) ((dat W c).arrAt 4 cfg6.N)
      = Cert.Spec.mean (Cert.Spec.lin (Cert.Spec.toMat (n := 100000) (k := 64) (V W c (Pipeline.arrRef spec6 0)))
          (Cert.Spec.toMat (n := 64) (k := 64) (V W c (Pipeline.arrRef spec6 1)))
          (Cert.Spec.toRow (k := 64) (V W c (Pipeline.arrRef spec6 2)))) := by
  rw [(dat W c).arrAt_eq_of_cover 4 (Spec.ofRow (Spec.mean (Tm W c))) (flushed4_eq W c) cover4]
  rfl

theorem out_var :
    Cert.Spec.toRow (k := 64) ((dat W c).arrAt 5 cfg6.N)
      = Cert.Spec.varK (Cert.Spec.lin (Cert.Spec.toMat (n := 100000) (k := 64) (V W c (Pipeline.arrRef spec6 0)))
          (Cert.Spec.toMat (n := 64) (k := 64) (V W c (Pipeline.arrRef spec6 1)))
          (Cert.Spec.toRow (k := 64) (V W c (Pipeline.arrRef spec6 2)))) := by
  rw [(dat W c).arrAt_eq_of_cover 5 (Spec.ofRow (Spec.varK (Tm W c))) (flushed5_eq W c) cover5]
  rfl

end Cert.KernelIdeal.Hand.R6

end
-- ==== Proof.KI.R7.Value1.lean ====
import proofs.«412604_j76897094468164_1_alg».proof.Proof.KI.ValueLib
import proofs.«412604_j76897094468164_1_alg».proof.Proof.LibDot

noncomputable section

namespace Cert.KernelIdeal.Hand.R7

open Cert.KernelIdeal Cert.KernelIdeal.Gen Cert.KernelIdeal.Hand
open Idealize.ShloMosaic Idealize.ShloMosaic.TcCoe Idealize.ShloMosaic.ValueIdx
open scoped BigOperators

theorem pay1_at (r : FVec Ideal S10000x64 .f32) (s : Vec Ideal S1x64 .f32) (q : Fin 64) :
    k7_pay1 r s (ix2 (0 : Fin 1) q) = s (ix2 (0 : Fin 1) q) + ∑ p : Fin 10000, r (ix2 p q) :=
  acc_at r s _ _ _ _ _ q

theorem pay2_at (r : FVec Ideal S10000x64 .f32) (s : Vec Ideal S1x64 .f32) (q : Fin 64) :
    k7_pay2 r s (ix2 (0 : Fin 1) q) = s (ix2 (0 : Fin 1) q) + ∑ p : Fin 10000, r (ix2 p q) * r (ix2 p q) :=
  acc_at (mulf r r) s _ _ _ _ _ q

theorem pay5_at (j : S1x64.Idx) : (k7_pay5 (F := Ideal)) j = 0 := by
  unfold k7_pay5
  rw [shapeCast_self]
  exact Ideal.ofBits_zero_f32

theorem pay6_at (j : S1x64.Idx) : (k7_pay6 (F := Ideal)) j = 0 := pay5_at j

theorem rsqrt_at (v : FVec Ideal S1x64 .f32) (j : S1x64.Idx) : rsqrt v j = Ideal.rsqrt (v j) := rfl

theorem mm_at (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) :=
  Cert.LibDot.matmul_zero_at dot_S10000x64_S64x64_S10000x64_1_0_0_1_n_n rfl rfl rfl rfl rfl rfl none a w p q

theorem pay7_at (x : Vec Ideal S10000x64 .f32) (mu va g be : Vec Ideal S1x64 .f32) (w : Vec Ideal S64x64 .f32)
    (b : Vec Ideal S1x64 .f32) (p : Fin 10000) (q : Fin 64) :
    k7_pay7 x mu va g be w b (ix2 p q)
      = max ((∑ k : Fin 64, max ((x (ix2 p k) - mu (ix2 (0 : Fin 1) k)) * Ideal.rsqrt (va (ix2 (0 : Fin 1) k) + Spec.cEps) * g (ix2 (0 : Fin 1) k)
            + be (ix2 (0 : Fin 1) k)) 0 * w (ix2 k q)) + b (ix2 (0 : Fin 1) q)) 0 := by
  unfold k7_pay7
  simp only [maximumf_apply, addf_apply, broadcast_apply, broadcastTo_1b_ab_apply, mm_at, truncf_apply, shapeCast_self, mulf_apply,
    subf_apply, rsqrt_at]
  rw [show (FloatOps.ofBits (F := Ideal) .f32 0x00000000#32 : EReal) = 0 from Ideal.ofBits_zero_f32]
  rfl

end Cert.KernelIdeal.Hand.R7

end
-- ==== Proof.KI.R7.Value.lean ====
import proofs.«412604_j76897094468164_1_alg».proof.Proof.KI.R7.Dat
import proofs.«412604_j76897094468164_1_alg».proof.Proof.KI.R7.Value1

noncomputable section

namespace Cert.KernelIdeal.Hand.R7

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec7 0)
abbrev arr1 : FVec Ideal S1x64 .f32 := V W c (Pipeline.arrRef spec7 1)
abbrev arr2 : FVec Ideal S1x64 .f32 := V W c (Pipeline.arrRef spec7 2)
abbrev arr3 : FVec Ideal S1x64 .f32 := V W c (Pipeline.arrRef spec7 3)
abbrev arr4 : FVec Ideal S1x64 .f32 := V W c (Pipeline.arrRef spec7 4)
abbrev arr5 : FVec Ideal S64x64 .f32 := V W c (Pipeline.arrRef spec7 5)
abbrev arr6 : FVec Ideal S1x64 .f32 := V W c (Pipeline.arrRef spec7 6)

abbrev R2 : Spec.Mat 100000 64 :=
  Spec.relu (Spec.lin (Spec.relu (Spec.bn (Spec.toMat (arr0 W c)) (Spec.toRow (arr1 W c)) (Spec.toRow (arr2 W c))
    (Spec.toRow (arr3 W c)) (Spec.toRow (arr4 W c)))) (Spec.toMat (arr5 W c)) (Spec.toRow (arr6 W c)))

abbrev Rsq : Spec.Mat 100000 64 := fun r q => R2 W c r q * R2 W c r q

theorem idx_blk : ∀ t : Fin cfg7.N, win7_0.index t (0 : Fin 2) = t.val ∧ win7_0.index t (1 : Fin 2) = 0
    ∧ win7_7.index t (0 : Fin 2) = t.val ∧ win7_7.index t (1 : Fin 2) = 0 :=
  (by decide +kernel : ∀ t : Fin grid7.N, _)

theorem idx_row : ∀ (t : Fin cfg7.N) (a : Fin 2), win7_1.index t a = 0 ∧ win7_2.index t a = 0 ∧ win7_3.index t a = 0
    ∧ win7_4.index t a = 0 ∧ win7_5.index t a = 0 ∧ win7_6.index t a = 0 ∧ win7_8.index t a = 0 ∧ win7_9.index t a = 0 :=
  (by decide +kernel : ∀ (t : Fin grid7.N) (a : Fin 2), _)

-- every parameter array enters a block whole
theorem rows_at (t : Fin cfg7.N) :
    (∀ j, iblk W c 1 t j = arr1 W c j) ∧ (∀ j, iblk W c 2 t j = arr2 W c j) ∧ (∀ j, iblk W c 3 t j = arr3 W c j)
    ∧ (∀ j, iblk W c 4 t j = arr4 W c j) ∧ (∀ j, iblk W c 5 t j = arr5 W c j) ∧ (∀ j, iblk W c 6 t j = arr6 W c j) :=
  ⟨fun j => row_rd (arr1 W c) fun a => win7_1.rect_emb_val_of_index_zero t a (idx_row t a).1 j,
   fun j => row_rd (arr2 W c) fun a => win7_2.rect_emb_val_of_index_zero t a (idx_row t a).2.1 j,
   fun j => row_rd (arr3 W c) fun a => win7_3.rect_emb_val_of_index_zero t a (idx_row t a).2.2.1 j,
   fun j => row_rd (arr4 W c) fun a => win7_4.rect_emb_val_of_index_zero t a (idx_row t a).2.2.2.1 j,
   fun j => row_rd (arr5 W c) fun a => win7_5.rect_emb_val_of_index_zero t a (idx_row t a).2.2.2.2.1 j,
   fun j => row_rd (arr6 W c) fun a => win7_6.rect_emb_val_of_index_zero t a (idx_row t a).2.2.2.2.2.1 j⟩

-- the first array's block at point t is its rows 10000 t … 10000 t + 9999
theorem blk0_at (t : Fin cfg7.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win7_0.rect_emb_val t (ix2 p q) (0 : Fin 2)).trans ((congrArg (· * 10000 + p.val) (idx_blk t).1).trans hr.symm))
    (win7_0.rect_emb_val_of_index_zero t (1 : Fin 2) (idx_blk t).2.1 (ix2 p q)))

-- so the block stored at point t is the same rows of the result
theorem relu_at (t : Fin cfg7.N) (p : Fin 10000) (q : Fin 64) (r : Fin 100000) (hr : r.val = t.val * 10000 + p.val) :
    relu W c t (ix2 p q) = R2 W c r q := by
  obtain ⟨h1, h2, h3, h4, h5, h6⟩ := rows_at W c t
  unfold relu
  rw [pay7_at]
  simp only [h1, h2, h3, h4, h5, h6, fun k => blk0_at W c t p k r hr]
  rfl

-- one point adds its block's column sums, of the entries and of their squares, to the two carried rows
theorem step_at (n : ℕ) (hn : n < cfg7.N) (s0 s1 : Vec Ideal S1x64 .f32) (q : Fin 64) :
    (step (relu W c ⟨n, hn⟩) s0 s1).2.2.2.1 (ix2 (0 : Fin 1) q)
      = s0 (ix2 (0 : Fin 1) q) + ∑ j ∈ Finset.range 10000, colSeq (R2 W c) q (n * 10000 + j)
    ∧ (step (relu W c ⟨n, hn⟩) s0 s1).2.2.2.2 (ix2 (0 : Fin 1) q)
      = s1 (ix2 (0 : Fin 1) q) + ∑ j ∈ Finset.range 10000, colSeq (Rsq W c) q (n * 10000 + j) :=
  have h10 : n < 10 := by have : cfg7.N = 10 := N_7; omega
  ⟨(pay1_at _ _ q).trans (congrArg _ (blk_range _ q n h10 _ fun p =>
      relu_at W c ⟨n, hn⟩ p q ⟨n * 10000 + p.val, by have := p.isLt; omega⟩ rfl)),
   (pay2_at _ _ q).trans (congrArg _ (blk_range (Rsq W c) q n h10 _ fun p => by
      rw [relu_at W c ⟨n, hn⟩ p q ⟨n * 10000 + p.val, by have := p.isLt; omega⟩ rfl]))⟩

-- after point n the carried rows hold the column sums over the rows below 10000 (n + 1)
theorem sums_at : ∀ (n : ℕ) (hn : n < cfg7.N) (q : Fin 64),
    (outsAt W c n hn).2.2.2.1 (ix2 (0 : Fin 1) q) = ∑ i ∈ Finset.range (n * 10000 + 10000), colSeq (R2 W c) q i
    ∧ (outsAt W c n hn).2.2.2.2 (ix2 (0 : Fin 1) q) = ∑ i ∈ Finset.range (n * 10000 + 10000), colSeq (Rsq W c) q i
  | 0, hn, q => by
    rw [outsAt_zero, (step_at W c 0 hn _ _ q).1, (step_at W c 0 hn _ _ q).2, pay5_at, pay6_at,
      Finset.sum_range_add, Finset.sum_range_add, Nat.zero_mul, Finset.sum_range_zero, Finset.sum_range_zero]
    exact ⟨rfl, rfl⟩
  | n + 1, hn, q => by
    rw [outsAt_succ, (step_at W c (n + 1) hn _ _ q).1, (step_at W c (n + 1) hn _ _ q).2,
      Finset.sum_range_add, Finset.sum_range_add, Nat.succ_mul, (sums_at n _ q).1, (sums_at n _ q).2]
    exact ⟨rfl, rfl⟩

theorem outs_step (n : ℕ) (hn : n < cfg7.N) : ∃ s0 s1, outsAt W c n hn = step (relu W c ⟨n, hn⟩) s0 s1 := by
  cases n <;> exact ⟨_, _, rfl⟩

-- at the last point the stored mean and variance are those of the result's columns
theorem stats_last (hn : 9 < cfg7.N) (q : Fin 64) :
    (outsAt W c 9 hn).2.1 (ix2 (0 : Fin 1) q) = Spec.mean (R2 W c) q
    ∧ (outsAt W c 9 hn).2.2.1 (ix2 (0 : Fin 1) q) = Spec.varK (R2 W c) q := by
  obtain ⟨s0, s1, h⟩ := outs_step W c 9 hn
  obtain ⟨h0, h1⟩ := sums_at W c 9 hn q
  rw [h] at h0 h1 ⊢
  unfold Spec.varK Spec.mean
  rw [colsum_eq_range, colsum_eq_range]
  exact ⟨congrArg (Ideal.div · Spec.cN) h0,
    congrArg₂ (fun a b : EReal => Ideal.div a Spec.cN - Ideal.div b Spec.cN * Ideal.div b Spec.cN) h1 h0⟩

theorem flushed7_eq (t : Fin cfg7.N) :
    (dat W c).flushed 7 t = ((cfg7.win 7).blk t).view.read (Elt Ideal) (Spec.ofMat (R2 W c)) := by
  obtain ⟨s0, s1, h⟩ := outs_step W c t.val t.isLt
  funext j
  obtain ⟨p, q, rfl⟩ : ∃ (p : Fin 10000) (q : Fin 64), j = ix2 p q := ⟨j 0, j 1, eq_ix2 j⟩
  show (outsAt W c t.val t.isLt).1 (ix2 p q)
    = R2 W c (((cfg7.win 7).blk t).view.emb (ix2 p q) 0) (((cfg7.win 7).blk t).view.emb (ix2 p q) 1)
  rw [h, show ((cfg7.win 7).blk t).view.emb (ix2 p q) 1 = q from
    Fin.ext (win7_7.rect_emb_val_of_index_zero t (1 : Fin 2) (idx_blk t).2.2.2 _)]
  exact relu_at W c t p q _
    ((win7_7.rect_emb_val t (ix2 p q) (0 : Fin 2)).trans (congrArg (· * 10000 + p.val) (idx_blk t).2.2.1))

theorem cover7 (i : S100000x64.Idx) : ∃ t : Fin cfg7.N, (cfg7.win 7).flush t = true ∧ i ∈ ((cfg7.win 7).blk t).view.set := by
  have h0 : (i 0).val < 100000 := (i 0).isLt
  have h1 : (i 1).val < 64 := (i 1).isLt
  have hN : cfg7.N = 10 := N_7
  have ht : (i 0).val / 10000 < cfg7.N := by omega
  obtain ⟨-, -, e0, e1⟩ := idx_blk ⟨(i 0).val / 10000, ht⟩
  refine ⟨⟨(i 0).val / 10000, ht⟩, flush7_7 _, ?_⟩
  show i ∈ ((View.whole main_v34_0).slice (win7_7.rect ⟨(i 0).val / 10000, ht⟩)).set
  rw [View.set_slice_whole, Rect.mem_set_unit]
  intro a
  match a with
  | ⟨0, _⟩ =>
    show win7_7.index _ (0 : Fin 2) * 10000 ≤ (i 0).val ∧ (i 0).val < win7_7.index _ (0 : Fin 2) * 10000 + 10000
    rw [e0]; dsimp only; omega
  | ⟨1, _⟩ =>
    show win7_7.index _ (1 : Fin 2) * 64 ≤ (i 1).val ∧ (i 1).val < win7_7.index _ (1 : Fin 2) * 64 + 64
    rw [e1]; omega

abbrev out7 : FVec Ideal S100000x64 .f32 := (dat W c).arrAt 7 cfg7.N
abbrev out8 : FVec Ideal S1x64 .f32 := (dat W c).arrAt 8 cfg7.N
abbrev out9 : FVec Ideal S1x64 .f32 := (dat W c).arrAt 9 cfg7.N

theorem out_relu2 : Spec.toMat (out7 W c) = R2 W c := by
  rw [show out7 W c = Spec.ofMat (R2 W c) from
    (dat W c).arrAt_eq_of_cover 7 _ (fun t _ => flushed7_eq W c t) cover7]
  rfl

theorem last_of (t : Fin cfg7.N) (h : t.val % 10 = 9) : t.val = 9 := by
  have := t.isLt; have : cfg7.N = 10 := N_7; omega

theorem flushed8_eq (t : Fin cfg7.N) (hf : (cfg7.win 8).flush t = true) :
    (dat W c).flushed 8 t = ((cfg7.win 8).blk t).view.read (Elt Ideal) (Spec.ofRow (Spec.mean (R2 W c))) :=
  Spec.eq_of_toRow_eq (funext fun q => by
    show (outsAt W c t.val t.isLt).2.1 (ix2 (0 : Fin 1) q)
      = Spec.mean (R2 W c) (((cfg7.win 8).blk t).view.emb (ix2 (0 : Fin 1) q) 1)
    rw [show ((cfg7.win 8).blk t).view.emb (ix2 (0 : Fin 1) q) 1 = q from
      Fin.ext (win7_8.rect_emb_val_of_index_zero t (1 : Fin 2) (idx_row t 1).2.2.2.2.2.2.1 _)]
    obtain ⟨n, hn⟩ := t
    obtain rfl : n = 9 := last_of ⟨n, hn⟩ ((flush7_8 _).mp hf)
    exact (stats_last W c hn q).1)

theorem flushed9_eq (t : Fin cfg7.N) (hf : (cfg7.win 9).flush t = true) :
    (dat W c).flushed 9 t = ((cfg7.win 9).blk t).view.read (Elt Ideal) (Spec.ofRow (Spec.varK (R2 W c))) :=
  Spec.eq_of_toRow_eq (funext fun q => by
    show (outsAt W c t.val t.isLt).2.2.1 (ix2 (0 : Fin 1) q)
      = Spec.varK (R2 W c) (((cfg7.win 9).blk t).view.emb (ix2 (0 : Fin 1) q) 1)
    rw [show ((cfg7.win 9).blk t).view.emb (ix2 (0 : Fin 1) q) 1 = q from
      Fin.ext (win7_9.rect_emb_val_of_index_zero t (1 : Fin 2) (idx_row t 1).2.2.2.2.2.2.2 _)]
    obtain ⟨n, hn⟩ := t
    obtain rfl : n = 9 := last_of ⟨n, hn⟩ ((flush7_9 _).mp hf)
    exact (stats_last W c hn q).2)

-- the last point's block of a row is the whole row
theorem cover8 (i : S1x64.Idx) : ∃ t : Fin cfg7.N, (cfg7.win 8).flush t = true ∧ i ∈ ((cfg7.win 8).blk t).view.set := by
  refine ⟨t7_9, (flush7_8 t7_9).mpr rfl, ?_⟩
  show i ∈ ((View.whole main_v34_1).slice (win7_8.rect t7_9)).set
  rw [View.set_slice_whole, Rect.mem_set_unit]
  intro a
  rw [(idx_row t7_9 a).2.2.2.2.2.2.1, Nat.zero_mul, Nat.zero_add]
  exact ⟨Nat.zero_le _, (i a).isLt⟩

theorem cover9 (i : S1x64.Idx) : ∃ t : Fin cfg7.N, (cfg7.win 9).flush t = true ∧ i ∈ ((cfg7.win 9).blk t).view.set := by
  refine ⟨t7_9, (flush7_9 t7_9).mpr rfl, ?_⟩
  show i ∈ ((View.whole main_v34_2).slice (win7_9.rect t7_9)).set
  rw [View.set_slice_whole, Rect.mem_set_unit]
  intro a
  rw [(idx_row t7_9 a).2.2.2.2.2.2.2, Nat.zero_mul, Nat.zero_add]
  exact ⟨Nat.zero_le _, (i a).isLt⟩

theorem out_mean2 : Spec.toRow (out8 W c) = Spec.mean (R2 W c) := by
  rw [show out8 W c = Spec.ofRow (Spec.mean (R2 W c)) from (dat W c).arrAt_eq_of_cover 8 _ (flushed8_eq W c) cover8]
  rfl

theorem out_var2 : Spec.toRow (out9 W c) = Spec.varK (R2 W c) := by
  rw [show out9 W c = Spec.ofRow (Spec.varK (R2 W c)) from (dat W c).arrAt_eq_of_cover 9 _ (flushed9_eq W c) cover9]
  rfl

end Cert.KernelIdeal.Hand.R7

end
-- ==== Proof.KI.R8.Value1.lean ====
import proofs.«412604_j76897094468164_1_alg».proof.Proof.KI.R8.Dat
import proofs.«412604_j76897094468164_1_alg».proof.Proof.KI.ValueLib

noncomputable section

namespace Cert.KernelIdeal.Hand.R8

open Cert.KernelIdeal Cert.KernelIdeal.Gen Cert.KernelIdeal.Hand
open Idealize.ShloMosaic Idealize.ShloMosaic.TcCoe Idealize.ShloMosaic.ValueIdx
open scoped BigOperators

theorem pay2_at (x : Vec Ideal S10000x64 .f32) (mu va g be : Vec Ideal S1x64 .f32) (r : Fin 10000) (q : Fin 64) :
    k8_pay2 x mu va g be (ix2 r q)
      = (x (ix2 r q) - mu (ix2 (0 : Fin 1) q)) * Ideal.rsqrt (va (ix2 (0 : Fin 1) q) + Cert.Spec.cEps) * g (ix2 (0 : Fin 1) q) + be (ix2 (0 : Fin 1) q) := by
  unfold k8_pay2
  simp only [shapeCast_self, addf_apply, mulf_apply, subf_apply, broadcastTo_1b_ab_apply]
  rfl

theorem pay1_at (q : Fin 64) : k8_pay1 (F := Ideal) (ix2 (0 : Fin 1) q) = 0 := by
  unfold k8_pay1
  rw [shapeCast_self]
  exact Ideal.ofBits_zero_f32

theorem pay3_at (x : Vec Ideal S10000x64 .f32) (mu va g be s : Vec Ideal S1x64 .f32) (q : Fin 64) :
    k8_pay3 x mu va g be s (ix2 (0 : Fin 1) q) = s (ix2 (0 : Fin 1) q) + ∑ r : Fin 10000, k8_pay2 x mu va g be (ix2 r q) :=
  acc_at (k8_pay2 x mu va g be) s _ _ _ _ _ q

end Cert.KernelIdeal.Hand.R8

end
-- ==== Proof.KI.R8.Value.lean ====
import proofs.«412604_j76897094468164_1_alg».proof.Proof.KI.R8.Dat
import proofs.«412604_j76897094468164_1_alg».proof.Proof.KI.R8.Value1

noncomputable section

namespace Cert.KernelIdeal.Hand.R8

open Cert.KernelIdeal Cert.KernelIdeal.Gen Cert.KernelIdeal.Hand
open Idealize.ShloMosaic Idealize.ShloMosaic.TcCoe Idealize.ShloMosaic.ValueIdx
open scoped BigOperators

variable (W : Dev nD → Valuation τ sig (Elt Ideal)) (c : Dev nD)

abbrev arr0 : FVec Ideal S100000x64 .f32 := V W c (Pipeline.arrRef spec8 0)
abbrev arr1 : FVec Ideal S1x64 .f32 := V W c (Pipeline.arrRef spec8 1)
abbrev arr2 : FVec Ideal S1x64 .f32 := V W c (Pipeline.arrRef spec8 2)
abbrev arr3 : FVec Ideal S1x64 .f32 := V W c (Pipeline.arrRef spec8 3)
abbrev arr4 : FVec Ideal S1x64 .f32 := V W c (Pipeline.arrRef spec8 4)

abbrev H : Spec.Mat 100000 64 :=
  Spec.bn (Spec.toMat (arr0 W c)) (Spec.toRow (arr1 W c)) (Spec.toRow (arr2 W c)) (Spec.toRow (arr3 W c)) (Spec.toRow (arr4 W c))

theorem idx_blk : ∀ t : Fin cfg8.N, win8_0.index t (0 : Fin 2) = t.val ∧ win8_0.index t (1 : Fin 2) = 0
    ∧ win8_5.index t (0 : Fin 2) = t.val ∧ win8_5.index t (1 : Fin 2) = 0 :=
  (by decide +kernel : ∀ t : Fin grid8.N, _)

theorem idx_row : ∀ (t : Fin cfg8.N) (a : Fin 2), win8_1.index t a = 0 ∧ win8_2.index t a = 0 ∧ win8_3.index t a = 0
    ∧ win8_4.index t a = 0 ∧ win8_6.index t a = 0 :=
  (by decide +kernel : ∀ (t : Fin grid8.N) (a : Fin 2), _)

-- every parameter row enters a block whole
theorem rows_at (t : Fin cfg8.N) : (∀ j, iblk W c 1 t j = arr1 W c j) ∧ (∀ j, iblk W c 2 t j = arr2 W c j)
    ∧ (∀ j, iblk W c 3 t j = arr3 W c j) ∧ (∀ j, iblk W c 4 t j = arr4 W c j) :=
  ⟨fun j => row_rd (arr1 W c) fun a => win8_1.rect_emb_val_of_index_zero t a (idx_row t a).1 j,
   fun j => row_rd (arr2 W c) fun a => win8_2.rect_emb_val_of_index_zero t a (idx_row t a).2.1 j,
   fun j => row_rd (arr3 W c) fun a => win8_3.rect_emb_val_of_index_zero t a (idx_row t a).2.2.1 j,
   fun j => row_rd (arr4 W c) fun a => win8_4.rect_emb_val_of_index_zero t a (idx_row t a).2.2.2.1 j⟩

-- the input's block at point t is its rows 10000 t … 10000 t + 9999
theorem blk0_at (t : Fin cfg8.N) (p : Fin 10000) (q : Fin 64) (r : Fin 100000) (hr : r.val = t.val * 10000 + p.val) :
    iblk W c 0 t (ix2 p q) = arr0 W c (ix2 r q) := by
  show arr0 W c _ = _
  exact congrArg _ (Shape.idx_ext₂
    ((win8_0.rect_emb_val t (ix2 p q) (0 : Fin 2)).trans ((congrArg (· * 10000 + p.val) (idx_blk t).1).trans hr.symm))
    (win8_0.rect_emb_val_of_index_zero t (1 : Fin 2) (idx_blk t).2.1 (ix2 p q)))

-- so the block stored at point t is the same rows of the normalised matrix
theorem hAt_at (t : Fin cfg8.N) (p : Fin 10000) (q : Fin 64) (r : Fin 100000) (hr : r.val = t.val * 10000 + p.val) :
    hAt W c t (ix2 p q) = H W c r q := by
  obtain ⟨h1, h2, h3, h4⟩ := rows_at W c t
  unfold hAt
  rw [pay2_at, blk0_at W c t p q r hr, h1, h2, h3, h4]
  rfl

-- one point adds its block's column sums to the carried row
theorem sAt_at (n : ℕ) (hn : n < cfg8.N) (s : Vec Ideal S1x64 .f32) (q : Fin 64) :
    sAt W c ⟨n, hn⟩ s (ix2 (0 : Fin 1) q)
      = s (ix2 (0 : Fin 1) q) + ∑ j ∈ Finset.range 10000, colSeq (H W c) q (n * 10000 + j) :=
  have h10 : n < 10 := by have : cfg8.N = 10 := N_8; omega
  (pay3_at _ _ _ _ _ s q).trans (congrArg _ (blk_range _ q n h10 _ fun p =>
    hAt_at W c ⟨n, hn⟩ p q ⟨n * 10000 + p.val, by have := p.isLt; omega⟩ rfl))

-- after point n the carried row holds the column sums over the rows below 10000 (n + 1)
theorem scratch_at : ∀ (n : ℕ) (hn : n < cfg8.N) (q : Fin 64),
    (outsAt W c n hn).2.2 (ix2 (0 : Fin 1) q) = ∑ i ∈ Finset.range (n * 10000 + 10000), colSeq (H W c) q i
  | 0, hn, q => by
    rw [outsAt_zero]
    show sAt W c ⟨0, hn⟩ (k8_pay1 (F := Ideal)) (ix2 (0 : Fin 1) q) = _
    rw [sAt_at, pay1_at, Finset.sum_range_add, Nat.zero_mul, Finset.sum_range_zero]
  | n + 1, hn, q => by
    rw [outsAt_succ]
    show sAt W c ⟨n + 1, hn⟩ (outsAt W c n (Nat.lt_of_succ_lt hn)).2.2 (ix2 (0 : Fin 1) q) = _
    rw [sAt_at, Finset.sum_range_add, Nat.succ_mul, scratch_at n _ q]

theorem flushed5_eq (t : Fin cfg8.N) :
    (dat W c).flushed 5 t = ((cfg8.win 5).blk t).view.read (Elt Ideal) (Spec.ofMat (H W c)) := by
  funext j
  obtain ⟨p, q, rfl⟩ : ∃ (p : Fin 10000) (q : Fin 64), j = ix2 p q := ⟨j 0, j 1, eq_ix2 j⟩
  show (outsAt W c t.val t.isLt).1 (ix2 p q)
    = H W c (((cfg8.win 5).blk t).view.emb (ix2 p q) 0) (((cfg8.win 5).blk t).view.emb (ix2 p q) 1)
  rw [show (outsAt W c t.val t.isLt).1 = hAt W c t from by obtain ⟨n, hn⟩ := t; cases n <;> rfl,
    show ((cfg8.win 5).blk t).view.emb (ix2 p q) 1 = q from
      Fin.ext (win8_5.rect_emb_val_of_index_zero t (1 : Fin 2) (idx_blk t).2.2.2 _)]
  exact hAt_at W c t p q _
    ((win8_5.rect_emb_val t (ix2 p q) (0 : Fin 2)).trans (congrArg (· * 10000 + p.val) (idx_blk t).2.2.1))

theorem cover5 (i : S100000x64.Idx) : ∃ t : Fin cfg8.N, (cfg8.win 5).flush t = true ∧ i ∈ ((cfg8.win 5).blk t).view.set := by
  have h0 : (i 0).val < 100000 := (i 0).isLt
  have h1 : (i 1).val < 64 := (i 1).isLt
  have hN : cfg8.N = 10 := N_8
  have ht : (i 0).val / 10000 < cfg8.N := by omega
  obtain ⟨-, -, e0, e1⟩ := idx_blk ⟨(i 0).val / 10000, ht⟩
  refine ⟨⟨(i 0).val / 10000, ht⟩, flush8_5 _, ?_⟩
  show i ∈ ((View.whole main_v35_0).slice (win8_5.rect ⟨(i 0).val / 10000, ht⟩)).set
  rw [View.set_slice_whole, Rect.mem_set_unit]
  intro a
  match a with
  | ⟨0, _⟩ =>
    show win8_5.index _ (0 : Fin 2) * 10000 ≤ (i 0).val ∧ (i 0).val < win8_5.index _ (0 : Fin 2) * 10000 + 10000
    rw [e0]; dsimp only; omega
  | ⟨1, _⟩ =>
    show win8_5.index _ (1 : Fin 2) * 64 ≤ (i 1).val ∧ (i 1).val < win8_5.index _ (1 : Fin 2) * 64 + 64
    rw [e1]; omega

theorem out_h :
    Cert.Spec.toMat (n := 100000) (k := 64) ((dat W c).arrAt 5 cfg8.N)
      = Cert.Spec.bn (Cert.Spec.toMat (arr0 W c)) (Cert.Spec.toRow (arr1 W c)) (Cert.Spec.toRow (arr2 W c))
          (Cert.Spec.toRow (arr3 W c)) (Cert.Spec.toRow (arr4 W c)) := by
  rw [(dat W c).arrAt_eq_of_cover 5 (Spec.ofMat (H W c)) (fun t _ => flushed5_eq W c t) cover5]
  rfl

theorem read6 (G : Spec.Row 64) (t : Fin cfg8.N) (q : Fin 64) :
    ((cfg8.win 6).blk t).view.read (Elt Ideal) (Spec.ofRow G) (ix2 (0 : Fin 1) q) = G q :=
  row_rd (i := ((cfg8.win 6).blk t).view.emb (ix2 (0 : Fin 1) q)) (j := ix2 (0 : Fin 1) q) (Spec.ofRow G) fun a =>
    win8_6.rect_emb_val_of_index_zero t a (idx_row t a).2.2.2.2 _

theorem flushed6_eq (t : Fin cfg8.N) (hf : (cfg8.win 6).flush t = true) :
    (dat W c).flushed 6 t = ((cfg8.win 6).blk t).view.read (Elt Ideal) (Spec.ofRow (Spec.colsum (H W c))) :=
  Spec.eq_of_toRow_eq (funext fun q => by
    show (outsAt W c t.val t.isLt).2.1 (ix2 (0 : Fin 1) q)
      = ((cfg8.win 6).blk t).view.read (Elt Ideal) (Spec.ofRow (Spec.colsum (H W c))) (ix2 (0 : Fin 1) q)
    rw [read6, outsAt_gsum, colsum_eq_range]
    have h9 : t.val = 9 := by have := (flush8_6 t).mp hf; have := t.isLt; have : cfg8.N = 10 := N_8; omega
    obtain ⟨n, hn⟩ := t
    obtain rfl : n = 9 := h9
    exact scratch_at W c 9 hn q)

-- the last point's block of the row is the whole row
theorem cover6 (i : S1x64.Idx) : ∃ t : Fin cfg8.N, (cfg8.win 6).flush t = true ∧ i ∈ ((cfg8.win 6).blk t).view.set := by
  refine ⟨t8_9, (flush8_6 t8_9).mpr rfl, ?_⟩
  show i ∈ ((View.whole main_v35_1).slice (win8_6.rect t8_9)).set
  rw [View.set_slice_whole, Rect.mem_set_unit]
  intro a
  rw [(idx_row t8_9 a).2.2.2.2, Nat.zero_mul, Nat.zero_add]
  exact ⟨Nat.zero_le _, (i a).isLt⟩

theorem out_gsum :
    Cert.Spec.toRow (k := 64) ((dat W c).arrAt 6 cfg8.N)
      = Cert.Spec.colsum (Cert.Spec.bn (Cert.Spec.toMat (arr0 W c)) (Cert.Spec.toRow (arr1 W c)) (Cert.Spec.toRow (arr2 W c))
          (Cert.Spec.toRow (arr3 W c)) (Cert.Spec.toRow (arr4 W c))) := by
  rw [(dat W c).arrAt_eq_of_cover 6 (Spec.ofRow (Spec.colsum (H W c))) (flushed6_eq W c) cover6]
  rfl

end Cert.KernelIdeal.Hand.R8

end
-- ==== Proof.KI.Chain2.lean ====
import proofs.«412604_j76897094468164_1_alg».proof.Proof.KI.Vals
import proofs.«412604_j76897094468164_1_alg».proof.Proof.KI.R6.Value
import proofs.«412604_j76897094468164_1_alg».proof.Proof.KI.R7.Value
import proofs.«412604_j76897094468164_1_alg».proof.Proof.KI.R8.Value
import proofs.«412604_j76897094468164_1_alg».proof.Proof.Math.Net

noncomputable section

namespace Cert.KernelIdeal.Hand

open Cert.KernelIdeal Cert.KernelIdeal.Gen
open Idealize.ShloMosaic Idealize.ShloMosaic.TcCoe
open Idealize.SL Idealize.SL.Sem
open Cert.Spec

variable (m : (ℓ : Loc nD τ sig) → Buf (Elt Ideal) ℓ)

theorem keep11 (c : Dev nD) (b : Ref sig .tc) (h : b ∉ hostOps6_W) : W11 m c b = W10 m c b :=
  StableHlo.after_of_writes_sub hostOps6 _ hostOps6_writes h

theorem keep12 (c : Dev nD) (b : Ref sig .tc) (h : ∀ w, Pipeline.arrRef spec6 w ≠ b) : W12 m c b = W11 m c b :=
  R6.Wexit_of_ne (W11 m) c b h

theorem keep13 (c : Dev nD) (b : Ref sig .tc) (h : b ∉ hostOps7_W) : W13 m c b = W12 m c b :=
  StableHlo.after_of_writes_sub hostOps7 _ hostOps7_writes h

theorem keep14 (c : Dev nD) (b : Ref sig .tc) (h : ∀ w, Pipeline.arrRef spec7 w ≠ b) : W14 m c b = W13 m c b :=
  R7.Wexit_of_ne (W13 m) c b h

theorem keep15 (c : Dev nD) (b : Ref sig .tc) (h : ∀ w, Pipeline.arrRef spec8 w ≠ b) : W15 m c b = W14 m c b :=
  R8.Wexit_of_ne (W14 m) c b h

theorem layer2_of (c : Dev nD) (a : Mat NN DD) (P : LayerP)
    (hagg : toMat (n := 100000) (k := 64) (W11 m c main_v82) = a)
    (hW1 : toMat (n := 64) (k := 64) (W11 m c main_v102) = P.W1)
    (hb1 : toRow (k := 64) (W11 m c main_v85) = P.b1)
    (hg1 : toRow (k := 64) (W11 m c main_v88) = P.g1)
    (hbe1 : toRow (k := 64) (W11 m c main_v91) = P.be1)
    (hW2 : toMat (n := 64) (k := 64) (W13 m c main_v105) = P.W2)
    (hb2 : toRow (k := 64) (W11 m c main_v94) = P.b2)
    (hg2 : toRow (k := 64) (W11 m c main_v97) = P.g2)
    (hbe2 : toRow (k := 64) (W11 m c main_v100) = P.be2) :
    toMat (n := 100000) (k := 64) (W15 m c main_v107_0) = layerK a P
      ∧ toRow (k := 64) (W15 m c main_v107_1) = colsum (layerK a P) := by

  have t1 : toMat (n := 100000) (k := 64) (W12 m c main_v103_0) = lin a P.W1 P.b1 := by
    rw [← hagg, ← hW1, ← hb1]
    exact (congrArg (toMat (n := 100000) (k := 64)) (R6.Wexit_arr (W11 m) c 3)).trans (R6.out_t1 (W11 m) c)
  have mu1 : toRow (k := 64) (W12 m c main_v103_1) = mean (lin a P.W1 P.b1) := by
    rw [← hagg, ← hW1, ← hb1]
    exact (congrArg (toRow (k := 64)) (R6.Wexit_arr (W11 m) c 4)).trans (R6.out_mean (W11 m) c)
  have va1 : toRow (k := 64) (W12 m c main_v103_2) = varK (lin a P.W1 P.b1) := by
    rw [← hagg, ← hW1, ← hb1]
    exact (congrArg (toRow (k := 64)) (R6.Wexit_arr (W11 m) c 5)).trans (R6.out_var (W11 m) c)

  have e0 : W13 m c main_v103_0 = W12 m c main_v103_0 := keep13 m c _ (by decide)
  have e1 : W13 m c main_v103_1 = W12 m c main_v103_1 := keep13 m c _ (by decide)
  have e2 : W13 m c main_v103_2 = W12 m c main_v103_2 := keep13 m c _ (by decide)
  have e3 : W13 m c main_v88 = W11 m c main_v88 := (keep13 m c _ (by decide)).trans (keep12 m c _ (by decide))
  have e4 : W13 m c main_v91 = W11 m c main_v91 := (keep13 m c _ (by decide)).trans (keep12 m c _ (by decide))
  have e6 : W13 m c main_v94 = W11 m c main_v94 := (keep13 m c _ (by decide)).trans (keep12 m c _ (by decide))

  let r2 : Mat NN DD := relu (lin (relu (bn (lin a P.W1 P.b1) (mean (lin a P.W1 P.b1)) (varK (lin a P.W1 P.b1)) P.g1 P.be1)) P.W2 P.b2)
  have in1 : relu (lin (relu (bn (toMat (n := 100000) (k := 64) (W13 m c main_v103_0)) (toRow (k := 64) (W13 m c main_v103_1)) (toRow (k := 64) (W13 m c main_v103_2))
      (toRow (k := 64) (W13 m c main_v88)) (toRow (k := 64) (W13 m c main_v91)))) (toMat (n := 64) (k := 64) (W13 m c main_v105)) (toRow (k := 64) (W13 m c main_v94))) = r2 := by
    rw [e0, e1, e2, e3, e4, e6, t1, mu1, va1, hg1, hbe1, hW2, hb2]
  have t2 : toMat (n := 100000) (k := 64) (W14 m c main_v106_0) = r2 := by
    rw [← in1]
    exact (congrArg (toMat (n := 100000) (k := 64)) (R7.Wexit_arr (W13 m) c 7)).trans (R7.out_relu2 (W13 m) c)
  have mu2 : toRow (k := 64) (W14 m c main_v106_1) = mean r2 := by
    rw [← in1]
    exact (congrArg (toRow (k := 64)) (R7.Wexit_arr (W13 m) c 8)).trans (R7.out_mean2 (W13 m) c)
  have va2 : toRow (k := 64) (W14 m c main_v106_2) = varK r2 := by
    rw [← in1]
    exact (congrArg (toRow (k := 64)) (R7.Wexit_arr (W13 m) c 9)).trans (R7.out_var2 (W13 m) c)

  have f3 : W14 m c main_v97 = W11 m c main_v97 :=
    (keep14 m c _ (by decide)).trans ((keep13 m c _ (by decide)).trans (keep12 m c _ (by decide)))
  have f4 : W14 m c main_v100 = W11 m c main_v100 :=
    (keep14 m c _ (by decide)).trans ((keep13 m c _ (by decide)).trans (keep12 m c _ (by decide)))
  have in2 : bn (toMat (n := 100000) (k := 64) (W14 m c main_v106_0)) (toRow (k := 64) (W14 m c main_v106_1)) (toRow (k := 64) (W14 m c main_v106_2))
      (toRow (k := 64) (W14 m c main_v97)) (toRow (k := 64) (W14 m c main_v100)) = layerK a P := by
    rw [t2, mu2, va2, f3, f4, hg2, hbe2]
    rfl
  constructor
  · rw [← in2]
    exact (congrArg (toMat (n := 100000) (k := 64)) (R8.Wexit_arr (W14 m) c 5)).trans (R8.out_h (W14 m) c)
  · rw [← in2]
    exact (congrArg (toRow (k := 64)) (R8.Wexit_arr (W14 m) c 6)).trans (R8.out_gsum (W14 m) c)

end Cert.KernelIdeal.Hand

end
-- ==== Proof.KI.HostA.lean ====
import proofs.«412604_j76897094468164_1_alg».proof.Proof.Gen.KernelIdeal.Regions
import proofs.«412604_j76897094468164_1_alg».proof.Proof.Math.Net
import Idealize.ShloMosaic.Lib.StableHlo.Run
import Idealize.ShloMosaic.Lib.ValueLayout

noncomputable section

namespace Cert.KernelIdeal.Hand

open Cert.KernelIdeal Cert.KernelIdeal.Gen Cert.Spec
open Idealize.ShloMosaic Idealize.ShloMosaic.TcCoe
open Idealize.SL Idealize.SL.Sem

theorem row_read (X : (⟨2, ![3, 64]⟩ : Shape).Idx → EReal) (o : ℕ) (hs : S3x64.Slices ![o, 0] S1x64)
    (h1 : S1x64.ShapeCasts S64) (h2 : S64.ShapeCasts S1x64) (l : Fin 3) (hl : l.val = o) (q : Fin 64) :
    shapeCast S1x64 (shapeCast S64 (extractStridedSlice S1x64 ![o, 0] X hs) h1) h2 (ValueIdx.ix2 (0 : Fin 1) q)
      = X (ValueIdx.ix2 l q) := by
  rw [ValueIdx.shapeCast_a_1a_apply, ValueIdx.shapeCast_1a_a_apply]
  exact ValueIdx.slice2_axis0_apply o X hs (0 : Fin 1) q l (by rw [hl]; rfl)

theorem toRow_row_read (X : (⟨2, ![3, 64]⟩ : Shape).Idx → EReal) (o : ℕ) (hs : S3x64.Slices ![o, 0] S1x64)
    (h1 : S1x64.ShapeCasts S64) (h2 : S64.ShapeCasts S1x64) (l : Fin 3) (hl : l.val = o) :
    toRow (shapeCast S1x64 (shapeCast S64 (extractStridedSlice S1x64 ![o, 0] X hs) h1) h2)
      = fun q => X (ValueIdx.ix2 l q) :=
  funext fun q => row_read X o hs h1 h2 l hl q

theorem mat_read (X : (⟨3, ![3, 64, 64]⟩ : Shape).Idx → EReal) (o : ℕ) (hs : S3x64x64.Slices ![o, 0, 0] S1x64x64)
    (h1 : S1x64x64.ShapeCasts S64x64) (l : Fin 3) (hl : l.val = o) (i q : Fin 64) :
    shapeCast S64x64 (extractStridedSlice S1x64x64 ![o, 0, 0] X hs) h1 (ValueIdx.ix2 i q)
      = X (ValueIdx.ix3 l i q) := by
  rw [ValueIdx.shapeCast_1ab_ab_apply]
  refine extractStridedSlice_apply _ _ _ _ _ (fun ax => ?_)
  match ax with
  | ⟨0, _⟩ => exact hl.trans (Nat.add_zero o).symm
  | ⟨1, _⟩ => exact (Nat.zero_add _).symm
  | ⟨2, _⟩ => exact (Nat.zero_add _).symm

theorem toMat_mat_read (X : (⟨3, ![3, 64, 64]⟩ : Shape).Idx → EReal) (o : ℕ) (hs : S3x64x64.Slices ![o, 0, 0] S1x64x64)
    (h1 : S1x64x64.ShapeCasts S64x64) (l : Fin 3) (hl : l.val = o) :
    toMat (shapeCast S64x64 (extractStridedSlice S1x64x64 ![o, 0, 0] X hs) h1)
      = fun i q => X (ValueIdx.ix3 l i q) :=
  funext fun i => funext fun q => mat_read X o hs h1 l hl i q

def aggV (h : FVec Ideal S100000x64 .f32) (src dst : IVec S3200000 32) : FVec Ideal S100000x64 .f32 :=
  addf h (Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src))))

variable (Win : Valuation τ sig (Elt Ideal))

abbrev Pin (l : Fin 3) : LayerP :=
  paramsOf l (Win (Proc.devRef .tc main_arg3)) (Win (Proc.devRef .tc main_arg4)) (Win (Proc.devRef .tc main_arg5)) (Win (Proc.devRef .tc main_arg6))
    (Win (Proc.devRef .tc main_arg7)) (Win (Proc.devRef .tc main_arg8)) (Win (Proc.devRef .tc main_arg9)) (Win (Proc.devRef .tc main_arg10))

theorem hostA_agg_0 :
    StableHlo.after hostOps0 Win (Proc.devRef .tc main_v10)
      = aggV (Win (Proc.devRef .tc main_arg0)) (Win (Proc.devRef .tc main_arg1)) (Win (Proc.devRef .tc main_arg2)) := by
  show StableHlo.after hostOps0 _ (Proc.devRef .tc main_v10) = _
  after_results_simp
  rfl

theorem hostA_b1_0 :
    toRow (StableHlo.after hostOps0 Win (Proc.devRef .tc main_v13) : S1x64.Idx → EReal) = (Pin Win 0).b1 := by
  have e : (StableHlo.after hostOps0 Win (Proc.devRef .tc main_v13) : S1x64.Idx → EReal)
      = shapeCast S1x64 (shapeCast S64 (extractStridedSlice S1x64 ![0, 0] (Win (Proc.devRef .tc main_arg4)) slices_S3x64_S1x64_0_0) shapeCasts_S1x64_S64) shapeCasts_S64_S1x64 := by
    show StableHlo.after hostOps0 _ (Proc.devRef .tc main_v13) = _
    after_results_simp
    rfl
  exact (congrArg toRow e).trans (toRow_row_read _ 0 _ _ _ 0 rfl)

theorem hostA_g1_0 :
    toRow (StableHlo.after hostOps0 Win (Proc.devRef .tc main_v16) : S1x64.Idx → EReal) = (Pin Win 0).g1 := by
  have e : (StableHlo.after hostOps0 Win (Proc.devRef .tc main_v16) : S1x64.Idx → EReal)
      = shapeCast S1x64 (shapeCast S64 (extractStridedSlice S1x64 ![0, 0] (Win (Proc.devRef .tc main_arg5)) slices_S3x64_S1x64_0_0) shapeCasts_S1x64_S64) shapeCasts_S64_S1x64 := by
    show StableHlo.after hostOps0 _ (Proc.devRef .tc main_v16) = _
    after_results_simp
    rfl
  exact (congrArg toRow e).trans (toRow_row_read _ 0 _ _ _ 0 rfl)

theorem hostA_be1_0 :
    toRow (StableHlo.after hostOps0 Win (Proc.devRef .tc main_v19) : S1x64.Idx → EReal) = (Pin Win 0).be1 := by
  have e : (StableHlo.after hostOps0 Win (Proc.devRef .tc main_v19) : S1x64.Idx → EReal)
      = shapeCast S1x64 (shapeCast S64 (extractStridedSlice S1x64 ![0, 0] (Win (Proc.devRef .tc main_arg6)) slices_S3x64_S1x64_0_0) shapeCasts_S1x64_S64) shapeCasts_S64_S1x64 := by
    show StableHlo.after hostOps0 _ (Proc.devRef .tc main_v19) = _
    after_results_simp
    rfl
  exact (congrArg toRow e).trans (toRow_row_read _ 0 _ _ _ 0 rfl)

theorem hostA_b2_0 :
    toRow (StableHlo.after hostOps0 Win (Proc.devRef .tc main_v22) : S1x64.Idx → EReal) = (Pin Win 0).b2 := by
  have e : (StableHlo.after hostOps0 Win (Proc.devRef .tc main_v22) : S1x64.Idx → EReal)
      = shapeCast S1x64 (shapeCast S64 (extractStridedSlice S1x64 ![0, 0] (Win (Proc.devRef .tc main_arg8)) slices_S3x64_S1x64_0_0) shapeCasts_S1x64_S64) shapeCasts_S64_S1x64 := by
    show StableHlo.after hostOps0 _ (Proc.devRef .tc main_v22) = _
    after_results_simp
    rfl
  exact (congrArg toRow e).trans (toRow_row_read _ 0 _ _ _ 0 rfl)

theorem hostA_g2_0 :
    toRow (StableHlo.after hostOps0 Win (Proc.devRef .tc main_v25) : S1x64.Idx → EReal) = (Pin Win 0).g2 := by
  have e : (StableHlo.after hostOps0 Win (Proc.devRef .tc main_v25) : S1x64.Idx → EReal)
      = shapeCast S1x64 (shapeCast S64 (extractStridedSlice S1x64 ![0, 0] (Win (Proc.devRef .tc main_arg9)) slices_S3x64_S1x64_0_0) shapeCasts_S1x64_S64) shapeCasts_S64_S1x64 := by
    show StableHlo.after hostOps0 _ (Proc.devRef .tc main_v25) = _
    after_results_simp
    rfl
  exact (congrArg toRow e).trans (toRow_row_read _ 0 _ _ _ 0 rfl)

theorem hostA_be2_0 :
    toRow (StableHlo.after hostOps0 Win (Proc.devRef .tc main_v28) : S1x64.Idx → EReal) = (Pin Win 0).be2 := by
  have e : (StableHlo.after hostOps0 Win (Proc.devRef .tc main_v28) : S1x64.Idx → EReal)
      = shapeCast S1x64 (shapeCast S64 (extractStridedSlice S1x64 ![0, 0] (Win (Proc.devRef .tc main_arg10)) slices_S3x64_S1x64_0_0) shapeCasts_S1x64_S64) shapeCasts_S64_S1x64 := by
    show StableHlo.after hostOps0 _ (Proc.devRef .tc main_v28) = _
    after_results_simp
    rfl
  exact (congrArg toRow e).trans (toRow_row_read _ 0 _ _ _ 0 rfl)

theorem hostA_W1_0 :
    toMat (StableHlo.after hostOps0 Win (Proc.devRef .tc main_v30) : S64x64.Idx → EReal) = (Pin Win 0).W1 := by
  have e : (StableHlo.after hostOps0 Win (Proc.devRef .tc main_v30) : S64x64.Idx → EReal)
      = shapeCast S64x64 (extractStridedSlice S1x64x64 ![0, 0, 0] (Win (Proc.devRef .tc main_arg3)) slices_S3x64x64_S1x64x64_0_0_0) shapeCasts_S1x64x64_S64x64 := by
    show StableHlo.after hostOps0 _ (Proc.devRef .tc main_v30) = _
    after_results_simp
    rfl
  exact (congrArg toMat e).trans (toMat_mat_read _ 0 _ _ 0 rfl)

theorem hostB_W2_0 :
    toMat (StableHlo.after hostOps1 Win (Proc.devRef .tc main_v33) : S64x64.Idx → EReal) = (Pin Win 0).W2 := by
  have e : (StableHlo.after hostOps1 Win (Proc.devRef .tc main_v33) : S64x64.Idx → EReal)
      = shapeCast S64x64 (extractStridedSlice S1x64x64 ![0, 0, 0] (Win (Proc.devRef .tc main_arg7)) slices_S3x64x64_S1x64x64_0_0_0) shapeCasts_S1x64x64_S64x64 := by
    show StableHlo.after hostOps1 _ (Proc.devRef .tc main_v33) = _
    after_results_simp
    rfl
  exact (congrArg toMat e).trans (toMat_mat_read _ 0 _ _ 0 rfl)

theorem hostA_agg_1 :
    StableHlo.after hostOps3 Win (Proc.devRef .tc main_v46)
      = aggV (Win (Proc.devRef .tc main_v35_0)) (Win (Proc.devRef .tc main_arg1)) (Win (Proc.devRef .tc main_arg2)) := by
  show StableHlo.after hostOps3 _ (Proc.devRef .tc main_v46) = _
  after_results_simp
  rfl

theorem hostA_b1_1 :
    toRow (StableHlo.after hostOps3 Win (Proc.devRef .tc main_v49) : S1x64.Idx → EReal) = (Pin Win 1).b1 := by
  have e : (StableHlo.after hostOps3 Win (Proc.devRef .tc main_v49) : S1x64.Idx → EReal)
      = shapeCast S1x64 (shapeCast S64 (extractStridedSlice S1x64 ![1, 0] (Win (Proc.devRef .tc main_arg4)) slices_S3x64_S1x64_1_0) shapeCasts_S1x64_S64) shapeCasts_S64_S1x64 := by
    show StableHlo.after hostOps3 _ (Proc.devRef .tc main_v49) = _
    after_results_simp
    rfl
  exact (congrArg toRow e).trans (toRow_row_read _ 1 _ _ _ 1 rfl)

theorem hostA_g1_1 :
    toRow (StableHlo.after hostOps3 Win (Proc.devRef .tc main_v52) : S1x64.Idx → EReal) = (Pin Win 1).g1 := by
  have e : (StableHlo.after hostOps3 Win (Proc.devRef .tc main_v52) : S1x64.Idx → EReal)
      = shapeCast S1x64 (shapeCast S64 (extractStridedSlice S1x64 ![1, 0] (Win (Proc.devRef .tc main_arg5)) slices_S3x64_S1x64_1_0) shapeCasts_S1x64_S64) shapeCasts_S64_S1x64 := by
    show StableHlo.after hostOps3 _ (Proc.devRef .tc main_v52) = _
    after_results_simp
    rfl
  exact (congrArg toRow e).trans (toRow_row_read _ 1 _ _ _ 1 rfl)

theorem hostA_be1_1 :
    toRow (StableHlo.after hostOps3 Win (Proc.devRef .tc main_v55) : S1x64.Idx → EReal) = (Pin Win 1).be1 := by
  have e : (StableHlo.after hostOps3 Win (Proc.devRef .tc main_v55) : S1x64.Idx → EReal)
      = shapeCast S1x64 (shapeCast S64 (extractStridedSlice S1x64 ![1, 0] (Win (Proc.devRef .tc main_arg6)) slices_S3x64_S1x64_1_0) shapeCasts_S1x64_S64) shapeCasts_S64_S1x64 := by
    show StableHlo.after hostOps3 _ (Proc.devRef .tc main_v55) = _
    after_results_simp
    rfl
  exact (congrArg toRow e).trans (toRow_row_read _ 1 _ _ _ 1 rfl)

theorem hostA_b2_1 :
    toRow (StableHlo.after hostOps3 Win (Proc.devRef .tc main_v58) : S1x64.Idx → EReal) = (Pin Win 1).b2 := by
  have e : (StableHlo.after hostOps3 Win (Proc.devRef .tc main_v58) : S1x64.Idx → EReal)
      = shapeCast S1x64 (shapeCast S64 (extractStridedSlice S1x64 ![1, 0] (Win (Proc.devRef .tc main_arg8)) slices_S3x64_S1x64_1_0) shapeCasts_S1x64_S64) shapeCasts_S64_S1x64 := by
    show StableHlo.after hostOps3 _ (Proc.devRef .tc main_v58) = _
    after_results_simp
    rfl
  exact (congrArg toRow e).trans (toRow_row_read _ 1 _ _ _ 1 rfl)

theorem hostA_g2_1 :
    toRow (StableHlo.after hostOps3 Win (Proc.devRef .tc main_v61) : S1x64.Idx → EReal) = (Pin Win 1).g2 := by
  have e : (StableHlo.after hostOps3 Win (Proc.devRef .tc main_v61) : S1x64.Idx → EReal)
      = shapeCast S1x64 (shapeCast S64 (extractStridedSlice S1x64 ![1, 0] (Win (Proc.devRef .tc main_arg9)) slices_S3x64_S1x64_1_0) shapeCasts_S1x64_S64) shapeCasts_S64_S1x64 := by
    show StableHlo.after hostOps3 _ (Proc.devRef .tc main_v61) = _
    after_results_simp
    rfl
  exact (congrArg toRow e).trans (toRow_row_read _ 1 _ _ _ 1 rfl)

theorem hostA_be2_1 :
    toRow (StableHlo.after hostOps3 Win (Proc.devRef .tc main_v64) : S1x64.Idx → EReal) = (Pin Win 1).be2 := by
  have e : (StableHlo.after hostOps3 Win (Proc.devRef .tc main_v64) : S1x64.Idx → EReal)
      = shapeCast S1x64 (shapeCast S64 (extractStridedSlice S1x64 ![1, 0] (Win (Proc.devRef .tc main_arg10)) slices_S3x64_S1x64_1_0) shapeCasts_S1x64_S64) shapeCasts_S64_S1x64 := by
    show StableHlo.after hostOps3 _ (Proc.devRef .tc main_v64) = _
    after_results_simp
    rfl
  exact (congrArg toRow e).trans (toRow_row_read _ 1 _ _ _ 1 rfl)

theorem hostA_W1_1 :
    toMat (StableHlo.after hostOps3 Win (Proc.devRef .tc main_v66) : S64x64.Idx → EReal) = (Pin Win 1).W1 := by
  have e : (StableHlo.after hostOps3 Win (Proc.devRef .tc main_v66) : S64x64.Idx → EReal)
      = shapeCast S64x64 (extractStridedSlice S1x64x64 ![1, 0, 0] (Win (Proc.devRef .tc main_arg3)) slices_S3x64x64_S1x64x64_1_0_0) shapeCasts_S1x64x64_S64x64 := by
    show StableHlo.after hostOps3 _ (Proc.devRef .tc main_v66) = _
    after_results_simp
    rfl
  exact (congrArg toMat e).trans (toMat_mat_read _ 1 _ _ 1 rfl)

theorem hostB_W2_1 :
    toMat (StableHlo.after hostOps4 Win (Proc.devRef .tc main_v69) : S64x64.Idx → EReal) = (Pin Win 1).W2 := by
  have e : (StableHlo.after hostOps4 Win (Proc.devRef .tc main_v69) : S64x64.Idx → EReal)
      = shapeCast S64x64 (extractStridedSlice S1x64x64 ![1, 0, 0] (Win (Proc.devRef .tc main_arg7)) slices_S3x64x64_S1x64x64_1_0_0) shapeCasts_S1x64x64_S64x64 := by
    show StableHlo.after hostOps4 _ (Proc.devRef .tc main_v69) = _
    after_results_simp
    rfl
  exact (congrArg toMat e).trans (toMat_mat_read _ 1 _ _ 1 rfl)

theorem hostA_agg_2 :
    StableHlo.after hostOps6 Win (Proc.devRef .tc main_v82)
      = aggV (Win (Proc.devRef .tc main_v71_0)) (Win (Proc.devRef .tc main_arg1)) (Win (Proc.devRef .tc main_arg2)) := by
  show StableHlo.after hostOps6 _ (Proc.devRef .tc main_v82) = _
  after_results_simp
  rfl

theorem hostA_b1_2 :
    toRow (StableHlo.after hostOps6 Win (Proc.devRef .tc main_v85) : S1x64.Idx → EReal) = (Pin Win 2).b1 := by
  have e : (StableHlo.after hostOps6 Win (Proc.devRef .tc main_v85) : S1x64.Idx → EReal)
      = shapeCast S1x64 (shapeCast S64 (extractStridedSlice S1x64 ![2, 0] (Win (Proc.devRef .tc main_arg4)) slices_S3x64_S1x64_2_0) shapeCasts_S1x64_S64) shapeCasts_S64_S1x64 := by
    show StableHlo.after hostOps6 _ (Proc.devRef .tc main_v85) = _
    after_results_simp
    rfl
  exact (congrArg toRow e).trans (toRow_row_read _ 2 _ _ _ 2 rfl)

theorem hostA_g1_2 :
    toRow (StableHlo.after hostOps6 Win (Proc.devRef .tc main_v88) : S1x64.Idx → EReal) = (Pin Win 2).g1 := by
  have e : (StableHlo.after hostOps6 Win (Proc.devRef .tc main_v88) : S1x64.Idx → EReal)
      = shapeCast S1x64 (shapeCast S64 (extractStridedSlice S1x64 ![2, 0] (Win (Proc.devRef .tc main_arg5)) slices_S3x64_S1x64_2_0) shapeCasts_S1x64_S64) shapeCasts_S64_S1x64 := by
    show StableHlo.after hostOps6 _ (Proc.devRef .tc main_v88) = _
    after_results_simp
    rfl
  exact (congrArg toRow e).trans (toRow_row_read _ 2 _ _ _ 2 rfl)

theorem hostA_be1_2 :
    toRow (StableHlo.after hostOps6 Win (Proc.devRef .tc main_v91) : S1x64.Idx → EReal) = (Pin Win 2).be1 := by
  have e : (StableHlo.after hostOps6 Win (Proc.devRef .tc main_v91) : S1x64.Idx → EReal)
      = shapeCast S1x64 (shapeCast S64 (extractStridedSlice S1x64 ![2, 0] (Win (Proc.devRef .tc main_arg6)) slices_S3x64_S1x64_2_0) shapeCasts_S1x64_S64) shapeCasts_S64_S1x64 := by
    show StableHlo.after hostOps6 _ (Proc.devRef .tc main_v91) = _
    after_results_simp
    rfl
  exact (congrArg toRow e).trans (toRow_row_read _ 2 _ _ _ 2 rfl)

theorem hostA_b2_2 :
    toRow (StableHlo.after hostOps6 Win (Proc.devRef .tc main_v94) : S1x64.Idx → EReal) = (Pin Win 2).b2 := by
  have e : (StableHlo.after hostOps6 Win (Proc.devRef .tc main_v94) : S1x64.Idx → EReal)
      = shapeCast S1x64 (shapeCast S64 (extractStridedSlice S1x64 ![2, 0] (Win (Proc.devRef .tc main_arg8)) slices_S3x64_S1x64_2_0) shapeCasts_S1x64_S64) shapeCasts_S64_S1x64 := by
    show StableHlo.after hostOps6 _ (Proc.devRef .tc main_v94) = _
    after_results_simp
    rfl
  exact (congrArg toRow e).trans (toRow_row_read _ 2 _ _ _ 2 rfl)

theorem hostA_g2_2 :
    toRow (StableHlo.after hostOps6 Win (Proc.devRef .tc main_v97) : S1x64.Idx → EReal) = (Pin Win 2).g2 := by
  have e : (StableHlo.after hostOps6 Win (Proc.devRef .tc main_v97) : S1x64.Idx → EReal)
      = shapeCast S1x64 (shapeCast S64 (extractStridedSlice S1x64 ![2, 0] (Win (Proc.devRef .tc main_arg9)) slices_S3x64_S1x64_2_0) shapeCasts_S1x64_S64) shapeCasts_S64_S1x64 := by
    show StableHlo.after hostOps6 _ (Proc.devRef .tc main_v97) = _
    after_results_simp
    rfl
  exact (congrArg toRow e).trans (toRow_row_read _ 2 _ _ _ 2 rfl)

theorem hostA_be2_2 :
    toRow (StableHlo.after hostOps6 Win (Proc.devRef .tc main_v100) : S1x64.Idx → EReal) = (Pin Win 2).be2 := by
  have e : (StableHlo.after hostOps6 Win (Proc.devRef .tc main_v100) : S1x64.Idx → EReal)
      = shapeCast S1x64 (shapeCast S64 (extractStridedSlice S1x64 ![2, 0] (Win (Proc.devRef .tc main_arg10)) slices_S3x64_S1x64_2_0) shapeCasts_S1x64_S64) shapeCasts_S64_S1x64 := by
    show StableHlo.after hostOps6 _ (Proc.devRef .tc main_v100) = _
    after_results_simp
    rfl
  exact (congrArg toRow e).trans (toRow_row_read _ 2 _ _ _ 2 rfl)

theorem hostA_W1_2 :
    toMat (StableHlo.after hostOps6 Win (Proc.devRef .tc main_v102) : S64x64.Idx → EReal) = (Pin Win 2).W1 := by
  have e : (StableHlo.after hostOps6 Win (Proc.devRef .tc main_v102) : S64x64.Idx → EReal)
      = shapeCast S64x64 (extractStridedSlice S1x64x64 ![2, 0, 0] (Win (Proc.devRef .tc main_arg3)) slices_S3x64x64_S1x64x64_2_0_0) shapeCasts_S1x64x64_S64x64 := by
    show StableHlo.after hostOps6 _ (Proc.devRef .tc main_v102) = _
    after_results_simp
    rfl
  exact (congrArg toMat e).trans (toMat_mat_read _ 2 _ _ 2 rfl)

theorem hostB_W2_2 :
    toMat (StableHlo.after hostOps7 Win (Proc.devRef .tc main_v105) : S64x64.Idx → EReal) = (Pin Win 2).W2 := by
  have e : (StableHlo.after hostOps7 Win (Proc.devRef .tc main_v105) : S64x64.Idx → EReal)
      = shapeCast S64x64 (extractStridedSlice S1x64x64 ![2, 0, 0] (Win (Proc.devRef .tc main_arg7)) slices_S3x64x64_S1x64x64_2_0_0) shapeCasts_S1x64x64_S64x64 := by
    show StableHlo.after hostOps7 _ (Proc.devRef .tc main_v105) = _
    after_results_simp
    rfl
  exact (congrArg toMat e).trans (toMat_mat_read _ 2 _ _ 2 rfl)

end Cert.KernelIdeal.Hand

end
-- ==== Proof.KI.HostT.lean ====
import proofs.«412604_j76897094468164_1_alg».proof.Proof.Gen.KernelIdeal.Regions
import proofs.«412604_j76897094468164_1_alg».proof.Proof.Math.Net
import Idealize.ShloMosaic.Lib.StableHlo.Run
import Idealize.ShloMosaic.Lib.Pipeline.Value

noncomputable section

namespace Cert.KernelIdeal.Hand

open Cert.KernelIdeal Cert.KernelIdeal.Gen Cert.Spec
open Idealize.ShloMosaic Idealize.ShloMosaic.TcCoe
open Idealize.SL Idealize.SL.Sem

theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

theorem concat3_apply {n : ℕ} (x0 x1 x2 : (⟨2, ![n, 64]⟩ : Shape).Idx → EReal)
    (h : Shape.Concatenates [(⟨2, ![n, 64]⟩ : Shape), ⟨2, ![n, 64]⟩, ⟨2, ![n, 64]⟩] ⟨2, ![n, 192]⟩ 1) (r : Fin n) (q : Fin 192) :
    concatenate (⟨2, ![n, 192]⟩ : Shape) 1 [⟨(⟨2, ![n, 64]⟩ : Shape), x0⟩, ⟨(⟨2, ![n, 64]⟩ : Shape), x1⟩, ⟨(⟨2, ![n, 64]⟩ : Shape), x2⟩] h (ValueIdx.ix2 r q)
      = if h0 : q.val < 64 then x0 (ValueIdx.ix2 r ⟨q.val, h0⟩)
        else if h1 : q.val < 128 then x1 (ValueIdx.ix2 r ⟨q.val - 64, by have := q.isLt; show q.val - 64 < 64; omega⟩)
        else x2 (ValueIdx.ix2 r ⟨q.val - 128, by have := q.isLt; show q.val - 128 < 64; omega⟩) := by
  have hq := q.isLt
  split_ifs with h0 h1
  · refine concatenate_apply_piece (t := (⟨2, ![n, 192]⟩ : Shape)) 1 [⟨(⟨2, ![n, 64]⟩ : Shape), x0⟩, ⟨(⟨2, ![n, 64]⟩ : Shape), x1⟩, ⟨(⟨2, ![n, 64]⟩ : Shape), x2⟩] h (ValueIdx.ix2 r q) 0 (by show (0 : ℕ) < 3; omega) _ x0 rfl rfl 0 rfl _ (fun b hb => ?_) ?_
    · match b with
      | ⟨0, _⟩ => rfl
      | ⟨1, _⟩ => exact absurd rfl hb
    · show 0 + q.val = q.val
      omega
  · refine concatenate_apply_piece (t := (⟨2, ![n, 192]⟩ : Shape)) 1 [⟨(⟨2, ![n, 64]⟩ : Shape), x0⟩, ⟨(⟨2, ![n, 64]⟩ : Shape), x1⟩, ⟨(⟨2, ![n, 64]⟩ : Shape), x2⟩] h (ValueIdx.ix2 r q) 1 (by show (1 : ℕ) < 3; omega) _ x1 rfl rfl 64 rfl _ (fun b hb => ?_) ?_
    · match b with
      | ⟨0, _⟩ => rfl
      | ⟨1, _⟩ => exact absurd rfl hb
    · show 64 + (q.val - 64) = q.val
      omega
  · refine concatenate_apply_piece (t := (⟨2, ![n, 192]⟩ : Shape)) 1 [⟨(⟨2, ![n, 64]⟩ : Shape), x0⟩, ⟨(⟨2, ![n, 64]⟩ : Shape), x1⟩, ⟨(⟨2, ![n, 64]⟩ : Shape), x2⟩] h (ValueIdx.ix2 r q) 2 (by show (2 : ℕ) < 3; omega) _ x2 rfl rfl 128 rfl _ (fun b hb => ?_) ?_
    · match b with
      | ⟨0, _⟩ => rfl
      | ⟨1, _⟩ => exact absurd rfl hb
    · show 128 + (q.val - 128) = q.val
      omega

variable (Win : Valuation τ sig (Elt Ideal))

theorem tail_v108 :
    (StableHlo.after hostOps9 Win (Proc.devRef .tc main_v108) : S100000x192.Idx → EReal)
      = concatenate S100000x192 1 [⟨S100000x64, Win (Proc.devRef .tc main_v35_0)⟩, ⟨S100000x64, Win (Proc.devRef .tc main_v71_0)⟩, ⟨S100000x64, Win (Proc.devRef .tc main_v107_0)⟩]
          concatenates_S100000x64_S100000x64_S100000x64_S100000x192_d1 := by
  show StableHlo.after hostOps9 _ (Proc.devRef .tc main_v108) = _
  simp only [StableHlo.after_cons, StableHlo.after_nil]
  rw [StableHlo.nary_result_ne]; rotate_left; decide
  rw [nary3_result]
  rfl

theorem tail_v109 :
    (StableHlo.after hostOps9 Win (Proc.devRef .tc main_v109) : S1x192.Idx → EReal)
      = concatenate S1x192 1 [⟨S1x64, Win (Proc.devRef .tc main_v35_1)⟩, ⟨S1x64, Win (Proc.devRef .tc main_v71_1)⟩, ⟨S1x64, Win (Proc.devRef .tc main_v107_1)⟩]
          concatenates_S1x64_S1x64_S1x64_S1x192_d1 := by
  show StableHlo.after hostOps9 _ (Proc.devRef .tc main_v109) = _
  simp only [StableHlo.after_cons, StableHlo.after_nil]
  rw [nary3_result]
  repeat (rw [StableHlo.nary_result_ne]; rotate_left; decide)
  rfl

theorem tail_node :
    toMat (StableHlo.after hostOps9 Win (Proc.devRef .tc main_v108) : S100000x192.Idx → EReal)
      = nodeM ⟨toMat (Win (Proc.devRef .tc main_v35_0) : S100000x64.Idx → EReal),
               toMat (Win (Proc.devRef .tc main_v71_0) : S100000x64.Idx → EReal),
               toMat (Win (Proc.devRef .tc main_v107_0) : S100000x64.Idx → EReal)⟩ := by
  funext r q
  show (StableHlo.after hostOps9 Win (Proc.devRef .tc main_v108) : S100000x192.Idx → EReal) (ValueIdx.ix2 r q) = _
  rw [tail_v108]
  exact concat3_apply _ _ _ _ r q

theorem tail_graph (q : Fin 192) :
    toRow (StableHlo.after hostOps9 Win (Proc.devRef .tc main_v109) : S1x192.Idx → EReal) q
      = if h : q.val < 64 then toRow (Win (Proc.devRef .tc main_v35_1) : S1x64.Idx → EReal) ⟨q.val, h⟩
        else if h' : q.val < 128 then toRow (Win (Proc.devRef .tc main_v71_1) : S1x64.Idx → EReal) ⟨q.val - 64, by have := q.isLt; show q.val - 64 < 64; omega⟩
        else toRow (Win (Proc.devRef .tc main_v107_1) : S1x64.Idx → EReal) ⟨q.val - 128, by have := q.isLt; show q.val - 128 < 64; omega⟩ := by
  show (StableHlo.after hostOps9 Win (Proc.devRef .tc main_v109) : S1x192.Idx → EReal) (ValueIdx.ix2 (0 : Fin 1) q) = _
  rw [tail_v109]
  exact concat3_apply _ _ _ _ (0 : Fin 1) q

end Cert.KernelIdeal.Hand

end
-- ==== Proof.KI.Chain.lean ====
import proofs.«412604_j76897094468164_1_alg».proof.Proof.KI.Chain0
import proofs.«412604_j76897094468164_1_alg».proof.Proof.KI.Chain1
import proofs.«412604_j76897094468164_1_alg».proof.Proof.KI.Chain2
import proofs.«412604_j76897094468164_1_alg».proof.Proof.KI.HostA
import proofs.«412604_j76897094468164_1_alg».proof.Proof.KI.HostT

noncomputable section

namespace Cert.KernelIdeal.Hand

open Cert.KernelIdeal Cert.KernelIdeal.Gen
open Idealize.ShloMosaic Idealize.ShloMosaic.TcCoe
open Idealize.SL Idealize.SL.Sem
open Cert.Spec

variable (m : (ℓ : Loc nD τ sig) → Buf (Elt Ideal) ℓ)

abbrev argRefs : List (Ref sig .tc) := [main_arg0, main_arg1, main_arg2, main_arg3, main_arg4, main_arg5, main_arg6, main_arg7, main_arg8, main_arg9, main_arg10]

theorem args1 (c : Dev nD) (b : Ref sig .tc) (hb : b ∈ argRefs) : W1 m c b = W0 m c b :=
  keep1 m c b ((by decide : ∀ b ∈ argRefs, b ∉ hostOps0_W) b hb)
theorem args2 (c : Dev nD) (b : Ref sig .tc) (hb : b ∈ argRefs) : W2 m c b = W0 m c b :=
  (keep2 m c b ((by decide : ∀ b ∈ argRefs, ∀ w, Pipeline.arrRef spec0 w ≠ b) b hb)).trans (args1 m c b hb)
theorem args3 (c : Dev nD) (b : Ref sig .tc) (hb : b ∈ argRefs) : W3 m c b = W0 m c b :=
  (keep3 m c b ((by decide : ∀ b ∈ argRefs, b ∉ hostOps1_W) b hb)).trans (args2 m c b hb)
theorem args4 (c : Dev nD) (b : Ref sig .tc) (hb : b ∈ argRefs) : W4 m c b = W0 m c b :=
  (keep4 m c b ((by decide : ∀ b ∈ argRefs, ∀ w, Pipeline.arrRef spec1 w ≠ b) b hb)).trans (args3 m c b hb)
theorem args5 (c : Dev nD) (b : Ref sig .tc) (hb : b ∈ argRefs) : W5 m c b = W0 m c b :=
  (keep5 m c b ((by decide : ∀ b ∈ argRefs, ∀ w, Pipeline.arrRef spec2 w ≠ b) b hb)).trans (args4 m c b hb)
theorem args6 (c : Dev nD) (b : Ref sig .tc) (hb : b ∈ argRefs) : W6 m c b = W0 m c b :=
  (keep6 m c b ((by decide : ∀ b ∈ argRefs, b ∉ hostOps3_W) b hb)).trans (args5 m c b hb)
theorem args7 (c : Dev nD) (b : Ref sig .tc) (hb : b ∈ argRefs) : W7 m c b = W0 m c b :=
  (keep7 m c b ((by decide : ∀ b ∈ argRefs, ∀ w, Pipeline.arrRef spec3 w ≠ b) b hb)).trans (args6 m c b hb)
theorem args8 (c : Dev nD) (b : Ref sig .tc) (hb : b ∈ argRefs) : W8 m c b = W0 m c b :=
  (keep8 m c b ((by decide : ∀ b ∈ argRefs, b ∉ hostOps4_W) b hb)).trans (args7 m c b hb)
theorem args9 (c : Dev nD) (b : Ref sig .tc) (hb : b ∈ argRefs) : W9 m c b = W0 m c b :=
  (keep9 m c b ((by decide : ∀ b ∈ argRefs, ∀ w, Pipeline.arrRef spec4 w ≠ b) b hb)).trans (args8 m c b hb)
theorem args10 (c : Dev nD) (b : Ref sig .tc) (hb : b ∈ argRefs) : W10 m c b = W0 m c b :=
  (keep10 m c b ((by decide : ∀ b ∈ argRefs, ∀ w, Pipeline.arrRef spec5 w ≠ b) b hb)).trans (args9 m c b hb)
theorem args11 (c : Dev nD) (b : Ref sig .tc) (hb : b ∈ argRefs) : W11 m c b = W0 m c b :=
  (keep11 m c b ((by decide : ∀ b ∈ argRefs, b ∉ hostOps6_W) b hb)).trans (args10 m c b hb)
theorem args12 (c : Dev nD) (b : Ref sig .tc) (hb : b ∈ argRefs) : W12 m c b = W0 m c b :=
  (keep12 m c b ((by decide : ∀ b ∈ argRefs, ∀ w, Pipeline.arrRef spec6 w ≠ b) b hb)).trans (args11 m c b hb)

abbrev outRefs1 : List (Ref sig .tc) := [main_v35_0, main_v35_1]
abbrev outRefs2 : List (Ref sig .tc) := [main_v71_0, main_v71_1]

theorem out1_keep (c : Dev nD) (b : Ref sig .tc) (hb : b ∈ outRefs1) : W15 m c b = W5 m c b :=
  (keep15 m c b ((by decide : ∀ b ∈ outRefs1, ∀ w, Pipeline.arrRef spec8 w ≠ b) b hb)).trans <|
  (keep14 m c b ((by decide : ∀ b ∈ outRefs1, ∀ w, Pipeline.arrRef spec7 w ≠ b) b hb)).trans <|
  (keep13 m c b ((by decide : ∀ b ∈ outRefs1, b ∉ hostOps7_W) b hb)).trans <|
  (keep12 m c b ((by decide : ∀ b ∈ outRefs1, ∀ w, Pipeline.arrRef spec6 w ≠ b) b hb)).trans <|
  (keep11 m c b ((by decide : ∀ b ∈ outRefs1, b ∉ hostOps6_W) b hb)).trans <|
  (keep10 m c b ((by decide : ∀ b ∈ outRefs1, ∀ w, Pipeline.arrRef spec5 w ≠ b) b hb)).trans <|
  (keep9 m c b ((by decide : ∀ b ∈ outRefs1, ∀ w, Pipeline.arrRef spec4 w ≠ b) b hb)).trans <|
  (keep8 m c b ((by decide : ∀ b ∈ outRefs1, b ∉ hostOps4_W) b hb)).trans <|
  (keep7 m c b ((by decide : ∀ b ∈ outRefs1, ∀ w, Pipeline.arrRef spec3 w ≠ b) b hb)).trans <|
  (keep6 m c b ((by decide : ∀ b ∈ outRefs1, b ∉ hostOps3_W) b hb))

theorem out2_keep (c : Dev nD) (b : Ref sig .tc) (hb : b ∈ outRefs2) : W15 m c b = W10 m c b :=
  (keep15 m c b ((by decide : ∀ b ∈ outRefs2, ∀ w, Pipeline.arrRef spec8 w ≠ b) b hb)).trans <|
  (keep14 m c b ((by decide : ∀ b ∈ outRefs2, ∀ w, Pipeline.arrRef spec7 w ≠ b) b hb)).trans <|
  (keep13 m c b ((by decide : ∀ b ∈ outRefs2, b ∉ hostOps7_W) b hb)).trans <|
  (keep12 m c b ((by decide : ∀ b ∈ outRefs2, ∀ w, Pipeline.arrRef spec6 w ≠ b) b hb)).trans <|
  (keep11 m c b ((by decide : ∀ b ∈ outRefs2, b ∉ hostOps6_W) b hb))

abbrev aggM (c : Dev nD) : Mat NN DD → Mat NN DD := fun h =>
  toMat (n := 100000) (k := 64) (aggV (ofMat h) (m ((c : Thread nD τ).loc main_arg1)) (m ((c : Thread nD τ).loc main_arg2)))

abbrev Pk (c : Dev nD) (l : Fin 3) : LayerP :=
  paramsOf l (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

abbrev X0 (c : Dev nD) : Mat NN DD := toMat (n := 100000) (k := 64) (m ((c : Thread nD τ).loc main_arg0))

abbrev H1 (c : Dev nD) : Mat NN DD := layerK (aggM m c (X0 m c)) (Pk m c 0)
abbrev H2 (c : Dev nD) : Mat NN DD := layerK (aggM m c (H1 m c)) (Pk m c 1)
abbrev H3 (c : Dev nD) : Mat NN DD := layerK (aggM m c (H2 m c)) (Pk m c 2)

theorem aggV_congr {h h' : FVec Ideal S100000x64 .f32} {s s' d d' : IVec S3200000 32} (eh : h = h') (es : s = s') (ed : d = d') :
    aggV h s d = aggV h' s' d' := by subst eh es ed; rfl

theorem params2 (c : Dev nD) (l : Fin 3) :
    paramsOf l (W2 m c main_arg3) (W2 m c main_arg4) (W2 m c main_arg5) (W2 m c main_arg6) (W2 m c main_arg7) (W2 m c main_arg8) (W2 m c main_arg9) (W2 m c main_arg10) = Pk m c l := by
  rw [args2 m c main_arg3 (by decide), args2 m c main_arg4 (by decide), args2 m c main_arg5 (by decide), args2 m c main_arg6 (by decide), args2 m c main_arg7 (by decide), args2 m c main_arg8 (by decide), args2 m c main_arg9 (by decide), args2 m c main_arg10 (by decide)]

theorem params5 (c : Dev nD) (l : Fin 3) :
    paramsOf l (W5 m c main_arg3) (W5 m c main_arg4) (W5 m c main_arg5) (W5 m c main_arg6) (W5 m c main_arg7) (W5 m c main_arg8) (W5 m c main_arg9) (W5 m c main_arg10) = Pk m c l := by
  rw [args5 m c main_arg3 (by decide), args5 m c main_arg4 (by decide), args5 m c main_arg5 (by decide), args5 m c main_arg6 (by decide), args5 m c main_arg7 (by decide), args5 m c main_arg8 (by decide), args5 m c main_arg9 (by decide), args5 m c main_arg10 (by decide)]

theorem params7 (c : Dev nD) (l : Fin 3) :
    paramsOf l (W7 m c main_arg3) (W7 m c main_arg4) (W7 m c main_arg5) (W7 m c main_arg6) (W7 m c main_arg7) (W7 m c main_arg8) (W7 m c main_arg9) (W7 m c main_arg10) = Pk m c l := by
  rw [args7 m c main_arg3 (by decide), args7 m c main_arg4 (by decide), args7 m c main_arg5 (by decide), args7 m c main_arg6 (by decide), args7 m c main_arg7 (by decide), args7 m c main_arg8 (by decide), args7 m c main_arg9 (by decide), args7 m c main_arg10 (by decide)]

theorem params10 (c : Dev nD) (l : Fin 3) :
    paramsOf l (W10 m c main_arg3) (W10 m c main_arg4) (W10 m c main_arg5) (W10 m c main_arg6) (W10 m c main_arg7) (W10 m c main_arg8) (W10 m c main_arg9) (W10 m c main_arg10) = Pk m c l := by
  rw [args10 m c main_arg3 (by decide), args10 m c main_arg4 (by decide), args10 m c main_arg5 (by decide), args10 m c main_arg6 (by decide), args10 m c main_arg7 (by decide), args10 m c main_arg8 (by decide), args10 m c main_arg9 (by decide), args10 m c main_arg10 (by decide)]

theorem params12 (c : Dev nD) (l : Fin 3) :
    paramsOf l (W12 m c main_arg3) (W12 m c main_arg4) (W12 m c main_arg5) (W12 m c main_arg6) (W12 m c main_arg7) (W12 m c main_arg8) (W12 m c main_arg9) (W12 m c main_arg10) = Pk m c l := by
  rw [args12 m c main_arg3 (by decide), args12 m c main_arg4 (by decide), args12 m c main_arg5 (by decide), args12 m c main_arg6 (by decide), args12 m c main_arg7 (by decide), args12 m c main_arg8 (by decide), args12 m c main_arg9 (by decide), args12 m c main_arg10 (by decide)]

theorem kernel_h1 (c : Dev nD) :
    toMat (n := 100000) (k := 64) (W5 m c main_v35_0) = H1 m c
      ∧ toRow (k := 64) (W5 m c main_v35_1) = colsum (H1 m c) :=
  layer0_of m c (aggM m c (X0 m c)) (Pk m c 0)
    ((congrArg (toMat (n := 100000) (k := 64)) (hostA_agg_0 (W0 m c))).trans
      (congrArg (toMat (n := 100000) (k := 64)) (aggV_congr (ofMat_toMat _).symm rfl rfl)))
    (hostA_W1_0 (W0 m c))
    (hostA_b1_0 (W0 m c))
    (hostA_g1_0 (W0 m c))
    (hostA_be1_0 (W0 m c))
    ((hostB_W2_0 (W2 m c)).trans (congrArg LayerP.W2 (params2 m c 0)))
    (hostA_b2_0 (W0 m c))
    (hostA_g2_0 (W0 m c))
    (hostA_be2_0 (W0 m c))

theorem kernel_h2 (c : Dev nD) :
    toMat (n := 100000) (k := 64) (W10 m c main_v71_0) = H2 m c
      ∧ toRow (k := 64) (W10 m c main_v71_1) = colsum (H2 m c) :=
  layer1_of m c (aggM m c (H1 m c)) (Pk m c 1)
    ((congrArg (toMat (n := 100000) (k := 64)) (hostA_agg_1 (W5 m c))).trans
      (congrArg (toMat (n := 100000) (k := 64)) (aggV_congr ((ofMat_toMat _).symm.trans (congrArg ofMat (kernel_h1 m c).1))
        (args5 m c main_arg1 (by decide)) (args5 m c main_arg2 (by decide)))))
    ((hostA_W1_1 (W5 m c)).trans (congrArg LayerP.W1 (params5 m c 1)))
    ((hostA_b1_1 (W5 m c)).trans (congrArg LayerP.b1 (params5 m c 1)))
    ((hostA_g1_1 (W5 m c)).trans (congrArg LayerP.g1 (params5 m c 1)))
    ((hostA_be1_1 (W5 m c)).trans (congrArg LayerP.be1 (params5 m c 1)))
    ((hostB_W2_1 (W7 m c)).trans (congrArg LayerP.W2 (params7 m c 1)))
    ((hostA_b2_1 (W5 m c)).trans (congrArg LayerP.b2 (params5 m c 1)))
    ((hostA_g2_1 (W5 m c)).trans (congrArg LayerP.g2 (params5 m c 1)))
    ((hostA_be2_1 (W5 m c)).trans (congrArg LayerP.be2 (params5 m c 1)))

theorem kernel_h3 (c : Dev nD) :
    toMat (n := 100000) (k := 64) (W15 m c main_v107_0) = H3 m c
      ∧ toRow (k := 64) (W15 m c main_v107_1) = colsum (H3 m c) :=
  layer2_of m c (aggM m c (H2 m c)) (Pk m c 2)
    ((congrArg (toMat (n := 100000) (k := 64)) (hostA_agg_2 (W10 m c))).trans
      (congrArg (toMat (n := 100000) (k := 64)) (aggV_congr ((ofMat_toMat _).symm.trans (congrArg ofMat (kernel_h2 m c).1))
        (args10 m c main_arg1 (by decide)) (args10 m c main_arg2 (by decide)))))
    ((hostA_W1_2 (W10 m c)).trans (congrArg LayerP.W1 (params10 m c 2)))
    ((hostA_b1_2 (W10 m c)).trans (congrArg LayerP.b1 (params10 m c 2)))
    ((hostA_g1_2 (W10 m c)).trans (congrArg LayerP.g1 (params10 m c 2)))
    ((hostA_be1_2 (W10 m c)).trans (congrArg LayerP.be1 (params10 m c 2)))
    ((hostB_W2_2 (W12 m c)).trans (congrArg LayerP.W2 (params12 m c 2)))
    ((hostA_b2_2 (W10 m c)).trans (congrArg LayerP.b2 (params10 m c 2)))
    ((hostA_g2_2 (W10 m c)).trans (congrArg LayerP.g2 (params10 m c 2)))
    ((hostA_be2_2 (W10 m c)).trans (congrArg LayerP.be2 (params10 m c 2)))

abbrev kernelNet (c : Dev nD) : NetOut := net layerK (aggM m c) (X0 m c) (Pk m c 0) (Pk m c 1) (Pk m c 2)

theorem kernel_node (c : Dev nD) :
    toMat (n := 100000) (k := 192) (W16 m c main_v108) = nodeM (kernelNet m c) := by
  have e1 : toMat (W15 m c (Proc.devRef .tc main_v35_0) : S100000x64.Idx → EReal) = H1 m c :=
    (congrArg (toMat (n := 100000) (k := 64)) (out1_keep m c main_v35_0 (by decide))).trans (kernel_h1 m c).1
  have e2 : toMat (W15 m c (Proc.devRef .tc main_v71_0) : S100000x64.Idx → EReal) = H2 m c :=
    (congrArg (toMat (n := 100000) (k := 64)) (out2_keep m c main_v71_0 (by decide))).trans (kernel_h2 m c).1
  have e3 : toMat (W15 m c (Proc.devRef .tc main_v107_0) : S100000x64.Idx → EReal) = H3 m c := (kernel_h3 m c).1
  refine (tail_node (W15 m c)).trans ?_
  rw [e1, e2, e3]
  rfl

theorem kernel_graph (c : Dev nD) :
    toRow (k := 192) (W16 m c main_v109) = graphM (kernelNet m c) := by
  have g1 : toRow (W15 m c (Proc.devRef .tc main_v35_1) : S1x64.Idx → EReal) = colsum (H1 m c) :=
    (congrArg (toRow (k := 64)) (out1_keep m c main_v35_1 (by decide))).trans (kernel_h1 m c).2
  have g2 : toRow (W15 m c (Proc.devRef .tc main_v71_1) : S1x64.Idx → EReal) = colsum (H2 m c) :=
    (congrArg (toRow (k := 64)) (out2_keep m c main_v71_1 (by decide))).trans (kernel_h2 m c).2
  have g3 : toRow (W15 m c (Proc.devRef .tc main_v107_1) : S1x64.Idx → EReal) = colsum (H3 m c) := (kernel_h3 m c).2
  funext q
  refine (tail_graph (W15 m c) q).trans ?_
  rw [g1, g2, g3, graphM_apply]
  rfl

end Cert.KernelIdeal.Hand

end
-- ==== Proof.RI.Ops.lean ====
import proofs.«412604_j76897094468164_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ nullary main_c (constantI S_ 32 0#32),
    unary main_c main_v0 (broadcastInDim S3200000 ![] bcast_S_S3200000 : (⟨S_, .i32⟩ : BufTy).Contents (Elt F) → (⟨S3200000, .i32⟩ : BufTy).Contents (Elt F)),
    binary main_arg1 main_v0 main_v1 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v2 (broadcastInDim S3200000 ![] bcast_S_S3200000 : (⟨S_, .i32⟩ : BufTy).Contents (Elt F) → (⟨S3200000, .i32⟩ : BufTy).Contents (Elt F)),
    binary main_arg1 main_v2 main_v3 (addi : (⟨S3200000, .i32⟩ : BufTy).Contents (Elt F) → (⟨S3200000, .i32⟩ : BufTy).Contents (Elt F) → (⟨S3200000, .i32⟩ : BufTy).Contents (Elt F)),
    ternary main_v1 main_v3 main_arg1 main_v4 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v4 main_v5 (broadcastInDim S3200000x1 ![0] bcast_S3200000_S3200000x1_0 : (⟨S3200000, .i32⟩ : BufTy).Contents (Elt F) → (⟨S3200000x1, .i32⟩ : BufTy).Contents (Elt F)),
    binary main_arg0 main_v5 main_v6 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst (constant S_ .f32 0x00000000#32),
    unary main_cst main_v7 (broadcastInDim S100000x64 ![] bcast_S_S100000x64 : (⟨S_, .f32⟩ : BufTy).Contents (Elt F) → (⟨S100000x64, .f32⟩ : BufTy).Contents (Elt F)),
    unary main_arg2 main_v8 (broadcastInDim S3200000x1 ![0] bcast_S3200000_S3200000x1_0 : (⟨S3200000, .i32⟩ : BufTy).Contents (Elt F) → (⟨S3200000x1, .i32⟩ : BufTy).Contents (Elt F)),
    ternary main_v7 main_v8 main_v6 main_v9 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_arg0 main_v9 main_v10 (addf : (⟨S100000x64, .f32⟩ : BufTy).Contents (Elt F) → (⟨S100000x64, .f32⟩ : BufTy).Contents (Elt F) → (⟨S100000x64, .f32⟩ : BufTy).Contents (Elt F)),
    unary main_arg3 main_v11 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v11 main_v12 rfl shapeCasts_S1x64x64_S64x64,
    binary main_v10 main_v12 main_v13 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v14 ((extractStridedSlice S1x64 ![0, 0] · slices_S3x64_S1x64_0_0) : (⟨S3x64, .f32⟩ : BufTy).Contents (Elt F) → (⟨S1x64, .f32⟩ : BufTy).Contents (Elt F)),
    reshape main_v14 main_v15 rfl shapeCasts_S1x64_S64,
    unary main_v15 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v13 main_v17 main_v18 (addf : (⟨S100000x64, .f32⟩ : BufTy).Contents (Elt F) → (⟨S100000x64, .f32⟩ : BufTy).Contents (Elt F) → (⟨S100000x64, .f32⟩ : BufTy).Contents (Elt F)),
    unary main_arg5 main_v19 ((extractStridedSlice S1x64 ![0, 0] · slices_S3x64_S1x64_0_0) : (⟨S3x64, .f32⟩ : BufTy).Contents (Elt F) → (⟨S1x64, .f32⟩ : BufTy).Contents (Elt F)),
    reshape main_v19 main_v20 rfl shapeCasts_S1x64_S64,
    unary main_arg6 main_v21 ((extractStridedSlice S1x64 ![0, 0] · slices_S3x64_S1x64_0_0) : (⟨S3x64, .f32⟩ : BufTy).Contents (Elt F) → (⟨S1x64, .f32⟩ : BufTy).Contents (Elt F)),
    reshape main_v21 main_v22 rfl shapeCasts_S1x64_S64,
    nullary main_cst_1 (constant S_ .f32 0x00000000#32),
    binary main_v18 main_cst_1 main_v23 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v24 (broadcastInDim S64 ![] bcast_S_S64 : (⟨S_, .f32⟩ : BufTy).Contents (Elt F) → (⟨S64, .f32⟩ : BufTy).Contents (Elt F)),
    binary main_v23 main_v24 main_v25 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v25 main_v27 (broadcastInDim S1x64 ![1] bcast_S64_S1x64_1 : (⟨S64, .f32⟩ : BufTy).Contents (Elt F) → (⟨S1x64, .f32⟩ : BufTy).Contents (Elt F)),
    unary main_v27 main_v28 (broadcastInDim S100000x64 ![0, 1] bcast_S1x64_S100000x64_0_1 : (⟨S1x64, .f32⟩ : BufTy).Contents (Elt F) → (⟨S100000x64, .f32⟩ : BufTy).Contents (Elt F)),
    binary main_v18 main_v28 main_v29 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v30 (broadcastInDim S64 ![] bcast_S_S64 : (⟨S_, .f32⟩ : BufTy).Contents (Elt F) → (⟨S64, .f32⟩ : BufTy).Contents (Elt F)),
    binary main_v26 main_v30 main_v31 (addf : (⟨S64, .f32⟩ : BufTy).Contents (Elt F) → (⟨S64, .f32⟩ : BufTy).Contents (Elt F) → (⟨S64, .f32⟩ : BufTy).Contents (Elt F)),
    unary main_v31 main_v32 (Host.rsqrt : (⟨S64, .f32⟩ : BufTy).Contents (Elt F) → (⟨S64, .f32⟩ : BufTy).Contents (Elt F)),
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v29 main_v34 main_v35 (mulf : (⟨S100000x64, .f32⟩ : BufTy).Contents (Elt F) → (⟨S100000x64, .f32⟩ : BufTy).Contents (Elt F) → (⟨S100000x64, .f32⟩ : BufTy).Contents (Elt F)),
    unary main_v20 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v35 main_v37 main_v38 (mulf : (⟨S100000x64, .f32⟩ : BufTy).Contents (Elt F) → (⟨S100000x64, .f32⟩ : BufTy).Contents (Elt F) → (⟨S100000x64, .f32⟩ : BufTy).Contents (Elt F)),
    unary main_v22 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v38 main_v40 main_v41 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v41) main_call1.v0 main_call1.v1 maximumf,
    unary main_arg7 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v43 main_v44 rfl shapeCasts_S1x64x64_S64x64,
    binary main_v42 main_v44 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v45 main_v49 main_v50 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v50) main_call2.v0 main_call2.v1 maximumf,
    unary main_arg9 main_v52 ((extractStridedSlice S1x64 ![0, 0] · slices_S3x64_S1x64_0_0) : (⟨S3x64, .f32⟩ : BufTy).Contents (Elt F) → (⟨S1x64, .f32⟩ : BufTy).Contents (Elt F)),
    reshape main_v52 main_v53 rfl shapeCasts_S1x64_S64,
    unary main_arg10 main_v54 ((extractStridedSlice S1x64 ![0, 0] · slices_S3x64_S1x64_0_0) : (⟨S3x64, .f32⟩ : BufTy).Contents (Elt F) → (⟨S1x64, .f32⟩ : BufTy).Contents (Elt F)),
    reshape main_v54 main_v55 rfl shapeCasts_S1x64_S64,
    nullary main_cst_5 (constant S_ .f32 0x00000000#32),
    binary main_v51 main_cst_5 main_v56 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    nullary main_c_7 (constantI S_ 32 0#32),
    TRef.nullary main_call3.cst (constant S_ .f32 0x00000000#32),
    TRef.binary (.of main_v51) main_call3.cst main_call3.v0 (fun x v => Host.reduceAdd x v reducesTo_S100000x64_S64_d0 h_S_),
    TRef.unary main_call3.v0 main_call3.v1 (broadcastInDim S1x64 ![1] bcast_S64_S1x64_1),
    TRef.nullary main_call3.cst_0 (constant S_ .f32 0x47C35000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S100000x64 ![0, 1] bcast_S1x64_S100000x64_0_1),
    TRef.binary (.of main_v51) main_call3.v4 main_call3.v5 subf,
    TRef.binary main_call3.v5 main_call3.v5 main_call3.v6 mulf,
    TRef.unary (.of main_c_7) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v58 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v51 main_v61 main_v62 (subf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v63 (broadcastInDim S64 ![] bcast_S_S64 : (⟨S_, .f32⟩ : BufTy).Contents (Elt F) → (⟨S64, .f32⟩ : BufTy).Contents (Elt F)),
    binary main_v59 main_v63 main_v64 (addf : (⟨S64, .f32⟩ : BufTy).Contents (Elt F) → (⟨S64, .f32⟩ : BufTy).Contents (Elt F) → (⟨S64, .f32⟩ : BufTy).Contents (Elt F)),
    unary main_v64 main_v65 (Host.rsqrt : (⟨S64, .f32⟩ : BufTy).Contents (Elt F) → (⟨S64, .f32⟩ : BufTy).Contents (Elt F)),
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v62 main_v67 main_v68 (mulf : (⟨S100000x64, .f32⟩ : BufTy).Contents (Elt F) → (⟨S100000x64, .f32⟩ : BufTy).Contents (Elt F) → (⟨S100000x64, .f32⟩ : BufTy).Contents (Elt F)),
    unary main_v53 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (mulf : (⟨S100000x64, .f32⟩ : BufTy).Contents (Elt F) → (⟨S100000x64, .f32⟩ : BufTy).Contents (Elt F) → (⟨S100000x64, .f32⟩ : BufTy).Contents (Elt F)),
    unary main_v55 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)) ]

abbrev opsL1 : List (HloOp τ sig (Elt F)) :=
  [ nullary main_c_9 (constantI S_ 32 0#32),
    unary main_c_9 main_v75 (broadcastInDim S3200000 ![] bcast_S_S3200000 : (⟨S_, .i32⟩ : BufTy).Contents (Elt F) → (⟨S3200000, .i32⟩ : BufTy).Contents (Elt F)),
    binary main_arg1 main_v75 main_v76 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v77 (broadcastInDim S3200000 ![] bcast_S_S3200000 : (⟨S_, .i32⟩ : BufTy).Contents (Elt F) → (⟨S3200000, .i32⟩ : BufTy).Contents (Elt F)),
    binary main_arg1 main_v77 main_v78 (addi : (⟨S3200000, .i32⟩ : BufTy).Contents (Elt F) → (⟨S3200000, .i32⟩ : BufTy).Contents (Elt F) → (⟨S3200000, .i32⟩ : BufTy).Contents (Elt F)),
    ternary main_v76 main_v78 main_arg1 main_v79 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v79 main_v80 (broadcastInDim S3200000x1 ![0] bcast_S3200000_S3200000x1_0 : (⟨S3200000, .i32⟩ : BufTy).Contents (Elt F) → (⟨S3200000x1, .i32⟩ : BufTy).Contents (Elt F)),
    binary main_v74 main_v80 main_v81 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_11 (constant S_ .f32 0x00000000#32),
    unary main_cst_11 main_v82 (broadcastInDim S100000x64 ![] bcast_S_S100000x64 : (⟨S_, .f32⟩ : BufTy).Contents (Elt F) → (⟨S100000x64, .f32⟩ : BufTy).Contents (Elt F)),
    unary main_arg2 main_v83 (broadcastInDim S3200000x1 ![0] bcast_S3200000_S3200000x1_0 : (⟨S3200000, .i32⟩ : BufTy).Contents (Elt F) → (⟨S3200000x1, .i32⟩ : BufTy).Contents (Elt F)),
    ternary main_v82 main_v83 main_v81 main_v84 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v74 main_v84 main_v85 (addf : (⟨S100000x64, .f32⟩ : BufTy).Contents (Elt F) → (⟨S100000x64, .f32⟩ : BufTy).Contents (Elt F) → (⟨S100000x64, .f32⟩ : BufTy).Contents (Elt F)),
    unary main_arg3 main_v86 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v89 ((extractStridedSlice S1x64 ![1, 0] · slices_S3x64_S1x64_1_0) : (⟨S3x64, .f32⟩ : BufTy).Contents (Elt F) → (⟨S1x64, .f32⟩ : BufTy).Contents (Elt F)),
    reshape main_v89 main_v90 rfl shapeCasts_S1x64_S64,
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v88 main_v92 main_v93 (addf : (⟨S100000x64, .f32⟩ : BufTy).Contents (Elt F) → (⟨S100000x64, .f32⟩ : BufTy).Contents (Elt F) → (⟨S100000x64, .f32⟩ : BufTy).Contents (Elt F)),
    unary main_arg5 main_v94 ((extractStridedSlice S1x64 ![1, 0] · slices_S3x64_S1x64_1_0) : (⟨S3x64, .f32⟩ : BufTy).Contents (Elt F) → (⟨S1x64, .f32⟩ : BufTy).Contents (Elt F)),
    reshape main_v94 main_v95 rfl shapeCasts_S1x64_S64,
    unary main_arg6 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    nullary main_cst_12 (constant S_ .f32 0x00000000#32),
    binary main_v93 main_cst_12 main_v98 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_13 (constant S_ .f32 0x47C35000#32),
    unary main_cst_13 main_v99 (broadcastInDim S64 ![] bcast_S_S64 : (⟨S_, .f32⟩ : BufTy).Contents (Elt F) → (⟨S64, .f32⟩ : BufTy).Contents (Elt F)),
    binary main_v98 main_v99 main_v100 (Host.divf : (⟨S64, .f32⟩ : BufTy).Contents (Elt F) → (⟨S64, .f32⟩ : BufTy).Contents (Elt F) → (⟨S64, .f32⟩ : BufTy).Contents (Elt F)),
    nullary main_c_14 (constantI S_ 32 0#32),
    TRef.nullary main_call4.cst (constant S_ .f32 0x00000000#32),
    TRef.binary (.of main_v93) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v93) main_call4.v4 main_call4.v5 subf,
    TRef.binary main_call4.v5 main_call4.v5 main_call4.v6 mulf,
    TRef.unary (.of main_c_14) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v100 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v93 main_v103 main_v104 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v105 (broadcastInDim S64 ![] bcast_S_S64 : (⟨S_, .f32⟩ : BufTy).Contents (Elt F) → (⟨S64, .f32⟩ : BufTy).Contents (Elt F)),
    binary main_v101 main_v105 main_v106 (addf : (⟨S64, .f32⟩ : BufTy).Contents (Elt F) → (⟨S64, .f32⟩ : BufTy).Contents (Elt F) → (⟨S64, .f32⟩ : BufTy).Contents (Elt F)),
    unary main_v106 main_v107 (Host.rsqrt : (⟨S64, .f32⟩ : BufTy).Contents (Elt F) → (⟨S64, .f32⟩ : BufTy).Contents (Elt F)),
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v104 main_v109 main_v110 (mulf : (⟨S100000x64, .f32⟩ : BufTy).Contents (Elt F) → (⟨S100000x64, .f32⟩ : BufTy).Contents (Elt F) → (⟨S100000x64, .f32⟩ : BufTy).Contents (Elt F)),
    unary main_v95 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v110 main_v112 main_v113 (mulf : (⟨S100000x64, .f32⟩ : BufTy).Contents (Elt F) → (⟨S100000x64, .f32⟩ : BufTy).Contents (Elt F) → (⟨S100000x64, .f32⟩ : BufTy).Contents (Elt F)),
    unary main_v97 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v113 main_v115 main_v116 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v116) main_call5.v0 main_call5.v1 maximumf,
    unary main_arg7 main_v118 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v118 main_v119 rfl shapeCasts_S1x64x64_S64x64,
    binary main_v117 main_v119 main_v120 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v121 ((extractStridedSlice S1x64 ![1, 0] · slices_S3x64_S1x64_1_0) : (⟨S3x64, .f32⟩ : BufTy).Contents (Elt F) → (⟨S1x64, .f32⟩ : BufTy).Contents (Elt F)),
    reshape main_v121 main_v122 rfl shapeCasts_S1x64_S64,
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v120 main_v124 main_v125 (addf : (⟨S100000x64, .f32⟩ : BufTy).Contents (Elt F) → (⟨S100000x64, .f32⟩ : BufTy).Contents (Elt F) → (⟨S100000x64, .f32⟩ : BufTy).Contents (Elt F)),
    TRef.nullary main_call6.cst (constant S_ .f32 0x00000000#32),
    TRef.unary main_call6.cst main_call6.v0 (broadcastInDim S100000x64 ![] bcast_S_S100000x64),
    TRef.binary (.of main_v125) main_call6.v0 main_call6.v1 maximumf,
    unary main_arg9 main_v127 ((extractStridedSlice S1x64 ![1, 0] · slices_S3x64_S1x64_1_0) : (⟨S3x64, .f32⟩ : BufTy).Contents (Elt F) → (⟨S1x64, .f32⟩ : BufTy).Contents (Elt F)),
    reshape main_v127 main_v128 rfl shapeCasts_S1x64_S64,
    unary main_arg10 main_v129 ((extractStridedSlice S1x64 ![1, 0] · slices_S3x64_S1x64_1_0) : (⟨S3x64, .f32⟩ : BufTy).Contents (Elt F) → (⟨S1x64, .f32⟩ : BufTy).Contents (Elt F)),
    reshape main_v129 main_v130 rfl shapeCasts_S1x64_S64,
    nullary main_cst_16 (constant S_ .f32 0x00000000#32),
    binary main_v126 main_cst_16 main_v131 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v132 (broadcastInDim S64 ![] bcast_S_S64 : (⟨S_, .f32⟩ : BufTy).Contents (Elt F) → (⟨S64, .f32⟩ : BufTy).Contents (Elt F)),
    binary main_v131 main_v132 main_v133 (Host.divf : (⟨S64, .f32⟩ : BufTy).Contents (Elt F) → (⟨S64, .f32⟩ : BufTy).Contents (Elt F) → (⟨S64, .f32⟩ : BufTy).Contents (Elt F)),
    nullary main_c_18 (constantI S_ 32 0#32),
    TRef.nullary main_call7.cst (constant S_ .f32 0x00000000#32),
    TRef.binary (.of main_v126) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (.of main_v126) main_call7.v4 main_call7.v5 subf,
    TRef.binary main_call7.v5 main_call7.v5 main_call7.v6 mulf,
    TRef.unary (.of main_c_18) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S64 ![] bcast_S_S64),
    TRef.ternary main_call7.v12 main_call7.v11 main_call7.call0.v1 main_call7.call0.v2 (fun p a b => select (broadcastInDim S64 ![] bcast_S_S64 p) a b),
    unary main_v133 main_v135 (broadcastInDim S1x64 ![1] bcast_S64_S1x64_1 : (⟨S64, .f32⟩ : BufTy).Contents (Elt F) → (⟨S1x64, .f32⟩ : BufTy).Contents (Elt F)),
    unary main_v135 main_v136 (broadcastInDim S100000x64 ![0, 1] bcast_S1x64_S100000x64_0_1 : (⟨S1x64, .f32⟩ : BufTy).Contents (Elt F) → (⟨S100000x64, .f32⟩ : BufTy).Contents (Elt F)),
    binary main_v126 main_v136 main_v137 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v138 (broadcastInDim S64 ![] bcast_S_S64 : (⟨S_, .f32⟩ : BufTy).Contents (Elt F) → (⟨S64, .f32⟩ : BufTy).Contents (Elt F)),
    binary main_v134 main_v138 main_v139 (addf : (⟨S64, .f32⟩ : BufTy).Contents (Elt F) → (⟨S64, .f32⟩ : BufTy).Contents (Elt F) → (⟨S64, .f32⟩ : BufTy).Contents (Elt F)),
    unary main_v139 main_v140 (Host.rsqrt : (⟨S64, .f32⟩ : BufTy).Contents (Elt F) → (⟨S64, .f32⟩ : BufTy).Contents (Elt F)),
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v137 main_v142 main_v143 (mulf : (⟨S100000x64, .f32⟩ : BufTy).Contents (Elt F) → (⟨S100000x64, .f32⟩ : BufTy).Contents (Elt F) → (⟨S100000x64, .f32⟩ : BufTy).Contents (Elt F)),
    unary main_v128 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v143 main_v145 main_v146 (mulf : (⟨S100000x64, .f32⟩ : BufTy).Contents (Elt F) → (⟨S100000x64, .f32⟩ : BufTy).Contents (Elt F) → (⟨S100000x64, .f32⟩ : BufTy).Contents (Elt F)),
    unary main_v130 main_v147 (broadcastInDim S1x64 ![1] bcast_S64_S1x64_1 : (⟨S64, .f32⟩ : BufTy).Contents (Elt F) → (⟨S1x64, .f32⟩ : BufTy).Contents (Elt F)),
    unary main_v147 main_v148 (broadcastInDim S100000x64 ![0, 1] bcast_S1x64_S100000x64_0_1 : (⟨S1x64, .f32⟩ : BufTy).Contents (Elt F) → (⟨S100000x64, .f32⟩ : BufTy).Contents (Elt F)),
    binary main_v146 main_v148 main_v149 (addf : (⟨S100000x64, .f32⟩ : BufTy).Contents (Elt F) → (⟨S100000x64, .f32⟩ : BufTy).Contents (Elt F) → (⟨S100000x64, .f32⟩ : BufTy).Contents (Elt F)) ]

abbrev opsL2 : List (HloOp τ sig (Elt F)) :=
  [ nullary main_c_20 (constantI S_ 32 0#32),
    unary main_c_20 main_v150 (broadcastInDim S3200000 ![] bcast_S_S3200000 : (⟨S_, .i32⟩ : BufTy).Contents (Elt F) → (⟨S3200000, .i32⟩ : BufTy).Contents (Elt F)),
    binary main_arg1 main_v150 main_v151 (cmpi .slt : (⟨S3200000, .i32⟩ : BufTy).Contents (Elt F) → (⟨S3200000, .i32⟩ : BufTy).Contents (Elt F) → (⟨S3200000, .i1⟩ : BufTy).Contents (Elt F)),
    nullary main_c_21 (constantI S_ 32 100000#32),
    unary main_c_21 main_v152 (broadcastInDim S3200000 ![] bcast_S_S3200000 : (⟨S_, .i32⟩ : BufTy).Contents (Elt F) → (⟨S3200000, .i32⟩ : BufTy).Contents (Elt F)),
    binary main_arg1 main_v152 main_v153 (addi : (⟨S3200000, .i32⟩ : BufTy).Contents (Elt F) → (⟨S3200000, .i32⟩ : BufTy).Contents (Elt F) → (⟨S3200000, .i32⟩ : BufTy).Contents (Elt F)),
    ternary main_v151 main_v153 main_arg1 main_v154 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v154 main_v155 (broadcastInDim S3200000x1 ![0] bcast_S3200000_S3200000x1_0 : (⟨S3200000, .i32⟩ : BufTy).Contents (Elt F) → (⟨S3200000x1, .i32⟩ : BufTy).Contents (Elt F)),
    binary main_v149 main_v155 main_v156 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_22 (constant S_ .f32 0x00000000#32),
    unary main_cst_22 main_v157 (broadcastInDim S100000x64 ![] bcast_S_S100000x64 : (⟨S_, .f32⟩ : BufTy).Contents (Elt F) → (⟨S100000x64, .f32⟩ : BufTy).Contents (Elt F)),
    unary main_arg2 main_v158 (broadcastInDim S3200000x1 ![0] bcast_S3200000_S3200000x1_0 : (⟨S3200000, .i32⟩ : BufTy).Contents (Elt F) → (⟨S3200000x1, .i32⟩ : BufTy).Contents (Elt F)),
    ternary main_v157 main_v158 main_v156 main_v159 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v149 main_v159 main_v160 (addf : (⟨S100000x64, .f32⟩ : BufTy).Contents (Elt F) → (⟨S100000x64, .f32⟩ : BufTy).Contents (Elt F) → (⟨S100000x64, .f32⟩ : BufTy).Contents (Elt F)),
    unary main_arg3 main_v161 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v161 main_v162 rfl shapeCasts_S1x64x64_S64x64,
    binary main_v160 main_v162 main_v163 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v164 ((extractStridedSlice S1x64 ![2, 0] · slices_S3x64_S1x64_2_0) : (⟨S3x64, .f32⟩ : BufTy).Contents (Elt F) → (⟨S1x64, .f32⟩ : BufTy).Contents (Elt F)),
    reshape main_v164 main_v165 rfl shapeCasts_S1x64_S64,
    unary main_v165 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v163 main_v167 main_v168 (addf : (⟨S100000x64, .f32⟩ : BufTy).Contents (Elt F) → (⟨S100000x64, .f32⟩ : BufTy).Contents (Elt F) → (⟨S100000x64, .f32⟩ : BufTy).Contents (Elt F)),
    unary main_arg5 main_v169 ((extractStridedSlice S1x64 ![2, 0] · slices_S3x64_S1x64_2_0) : (⟨S3x64, .f32⟩ : BufTy).Contents (Elt F) → (⟨S1x64, .f32⟩ : BufTy).Contents (Elt F)),
    reshape main_v169 main_v170 rfl shapeCasts_S1x64_S64,
    unary main_arg6 main_v171 ((extractStridedSlice S1x64 ![2, 0] · slices_S3x64_S1x64_2_0) : (⟨S3x64, .f32⟩ : BufTy).Contents (Elt F) → (⟨S1x64, .f32⟩ : BufTy).Contents (Elt F)),
    reshape main_v171 main_v172 rfl shapeCasts_S1x64_S64,
    nullary main_cst_23 (constant S_ .f32 0x00000000#32),
    binary main_v168 main_cst_23 main_v173 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v174 (broadcastInDim S64 ![] bcast_S_S64 : (⟨S_, .f32⟩ : BufTy).Contents (Elt F) → (⟨S64, .f32⟩ : BufTy).Contents (Elt F)),
    binary main_v173 main_v174 main_v175 (Host.divf : (⟨S64, .f32⟩ : BufTy).Contents (Elt F) → (⟨S64, .f32⟩ : BufTy).Contents (Elt F) → (⟨S64, .f32⟩ : BufTy).Contents (Elt F)),
    nullary main_c_25 (constantI S_ 32 0#32),
    TRef.nullary main_call8.cst (constant S_ .f32 0x00000000#32),
    TRef.binary (.of main_v168) main_call8.cst main_call8.v0 (fun x v => Host.reduceAdd x v reducesTo_S100000x64_S64_d0 h_S_),
    TRef.unary main_call8.v0 main_call8.v1 (broadcastInDim S1x64 ![1] bcast_S64_S1x64_1),
    TRef.nullary main_call8.cst_0 (constant S_ .f32 0x47C35000#32),
    TRef.unary main_call8.cst_0 main_call8.v2 (broadcastInDim S1x64 ![] bcast_S_S1x64),
    TRef.binary main_call8.v1 main_call8.v2 main_call8.v3 Host.divf,
    TRef.unary main_call8.v3 main_call8.v4 (broadcastInDim S100000x64 ![0, 1] bcast_S1x64_S100000x64_0_1),
    TRef.binary (.of main_v168) main_call8.v4 main_call8.v5 subf,
    TRef.binary main_call8.v5 main_call8.v5 main_call8.v6 mulf,
    TRef.unary (.of main_c_25) main_call8.v7 (sitofp .f32),
    TRef.nullary main_call8.cst_1 (constant S_ .f32 0x47C35000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x64_S64_d0 h_S_),
    TRef.unary main_call8.v8 main_call8.v10 (broadcastInDim S64 ![] bcast_S_S64),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S64 ![] bcast_S_S64),
    TRef.ternary main_call8.v12 main_call8.v11 main_call8.call0.v1 main_call8.call0.v2 (fun p a b => select (broadcastInDim S64 ![] bcast_S_S64 p) a b),
    unary main_v175 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v168 main_v178 main_v179 (subf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3727C5AC#32),
    unary main_cst_26 main_v180 (broadcastInDim S64 ![] bcast_S_S64 : (⟨S_, .f32⟩ : BufTy).Contents (Elt F) → (⟨S64, .f32⟩ : BufTy).Contents (Elt F)),
    binary main_v176 main_v180 main_v181 (addf : (⟨S64, .f32⟩ : BufTy).Contents (Elt F) → (⟨S64, .f32⟩ : BufTy).Contents (Elt F) → (⟨S64, .f32⟩ : BufTy).Contents (Elt F)),
    unary main_v181 main_v182 (Host.rsqrt : (⟨S64, .f32⟩ : BufTy).Contents (Elt F) → (⟨S64, .f32⟩ : BufTy).Contents (Elt F)),
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S100000x64 ![0, 1] bcast_S1x64_S100000x64_0_1 : (⟨S1x64, .f32⟩ : BufTy).Contents (Elt F) → (⟨S100000x64, .f32⟩ : BufTy).Contents (Elt F)),
    binary main_v179 main_v184 main_v185 (mulf : (⟨S100000x64, .f32⟩ : BufTy).Contents (Elt F) → (⟨S100000x64, .f32⟩ : BufTy).Contents (Elt F) → (⟨S100000x64, .f32⟩ : BufTy).Contents (Elt F)),
    unary main_v170 main_v186 (broadcastInDim S1x64 ![1] bcast_S64_S1x64_1 : (⟨S64, .f32⟩ : BufTy).Contents (Elt F) → (⟨S1x64, .f32⟩ : BufTy).Contents (Elt F)),
    unary main_v186 main_v187 (broadcastInDim S100000x64 ![0, 1] bcast_S1x64_S100000x64_0_1 : (⟨S1x64, .f32⟩ : BufTy).Contents (Elt F) → (⟨S100000x64, .f32⟩ : BufTy).Contents (Elt F)),
    binary main_v185 main_v187 main_v188 (mulf : (⟨S100000x64, .f32⟩ : BufTy).Contents (Elt F) → (⟨S100000x64, .f32⟩ : BufTy).Contents (Elt F) → (⟨S100000x64, .f32⟩ : BufTy).Contents (Elt F)),
    unary main_v172 main_v189 (broadcastInDim S1x64 ![1] bcast_S64_S1x64_1 : (⟨S64, .f32⟩ : BufTy).Contents (Elt F) → (⟨S1x64, .f32⟩ : BufTy).Contents (Elt F)),
    unary main_v189 main_v190 (broadcastInDim S100000x64 ![0, 1] bcast_S1x64_S100000x64_0_1 : (⟨S1x64, .f32⟩ : BufTy).Contents (Elt F) → (⟨S100000x64, .f32⟩ : BufTy).Contents (Elt F)),
    binary main_v188 main_v190 main_v191 (addf : (⟨S100000x64, .f32⟩ : BufTy).Contents (Elt F) → (⟨S100000x64, .f32⟩ : BufTy).Contents (Elt F) → (⟨S100000x64, .f32⟩ : BufTy).Contents (Elt F)),
    TRef.nullary main_call9.cst (constant S_ .f32 0x00000000#32),
    TRef.unary main_call9.cst main_call9.v0 (broadcastInDim S100000x64 ![] bcast_S_S100000x64),
    TRef.binary (.of main_v191) main_call9.v0 main_call9.v1 maximumf,
    unary main_arg7 main_v193 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v193 main_v194 rfl shapeCasts_S1x64x64_S64x64,
    binary main_v192 main_v194 main_v195 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v196 ((extractStridedSlice S1x64 ![2, 0] · slices_S3x64_S1x64_2_0) : (⟨S3x64, .f32⟩ : BufTy).Contents (Elt F) → (⟨S1x64, .f32⟩ : BufTy).Contents (Elt F)),
    reshape main_v196 main_v197 rfl shapeCasts_S1x64_S64,
    unary main_v197 main_v198 (broadcastInDim S1x64 ![1] bcast_S64_S1x64_1 : (⟨S64, .f32⟩ : BufTy).Contents (Elt F) → (⟨S1x64, .f32⟩ : BufTy).Contents (Elt F)),
    unary main_v198 main_v199 (broadcastInDim S100000x64 ![0, 1] bcast_S1x64_S100000x64_0_1 : (⟨S1x64, .f32⟩ : BufTy).Contents (Elt F) → (⟨S100000x64, .f32⟩ : BufTy).Contents (Elt F)),
    binary main_v195 main_v199 main_v200 (addf : (⟨S100000x64, .f32⟩ : BufTy).Contents (Elt F) → (⟨S100000x64, .f32⟩ : BufTy).Contents (Elt F) → (⟨S100000x64, .f32⟩ : BufTy).Contents (Elt F)),
    TRef.nullary main_call10.cst (constant S_ .f32 0x00000000#32),
    TRef.unary main_call10.cst main_call10.v0 (broadcastInDim S100000x64 ![] bcast_S_S100000x64),
    TRef.binary (.of main_v200) main_call10.v0 main_call10.v1 maximumf,
    unary main_arg9 main_v202 ((extractStridedSlice S1x64 ![2, 0] · slices_S3x64_S1x64_2_0) : (⟨S3x64, .f32⟩ : BufTy).Contents (Elt F) → (⟨S1x64, .f32⟩ : BufTy).Contents (Elt F)),
    reshape main_v202 main_v203 rfl shapeCasts_S1x64_S64,
    unary main_arg10 main_v204 ((extractStridedSlice S1x64 ![2, 0] · slices_S3x64_S1x64_2_0) : (⟨S3x64, .f32⟩ : BufTy).Contents (Elt F) → (⟨S1x64, .f32⟩ : BufTy).Contents (Elt F)),
    reshape main_v204 main_v205 rfl shapeCasts_S1x64_S64,
    nullary main_cst_27 (constant S_ .f32 0x00000000#32),
    binary main_v201 main_cst_27 main_v206 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v207 (broadcastInDim S64 ![] bcast_S_S64 : (⟨S_, .f32⟩ : BufTy).Contents (Elt F) → (⟨S64, .f32⟩ : BufTy).Contents (Elt F)),
    binary main_v206 main_v207 main_v208 (Host.divf : (⟨S64, .f32⟩ : BufTy).Contents (Elt F) → (⟨S64, .f32⟩ : BufTy).Contents (Elt F) → (⟨S64, .f32⟩ : BufTy).Contents (Elt F)),
    nullary main_c_29 (constantI S_ 32 0#32),
    TRef.nullary main_call11.cst (constant S_ .f32 0x00000000#32),
    TRef.binary (.of main_v201) main_call11.cst main_call11.v0 (fun x v => Host.reduceAdd x v reducesTo_S100000x64_S64_d0 h_S_),
    TRef.unary main_call11.v0 main_call11.v1 (broadcastInDim S1x64 ![1] bcast_S64_S1x64_1),
    TRef.nullary main_call11.cst_0 (constant S_ .f32 0x47C35000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S100000x64 ![0, 1] bcast_S1x64_S100000x64_0_1),
    TRef.binary (.of main_v201) main_call11.v4 main_call11.v5 subf,
    TRef.binary main_call11.v5 main_call11.v5 main_call11.v6 mulf,
    TRef.unary (.of main_c_29) main_call11.v7 (sitofp .f32),
    TRef.nullary main_call11.cst_1 (constant S_ .f32 0x47C35000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S100000x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b),
    unary main_v208 main_v210 (broadcastInDim S1x64 ![1] bcast_S64_S1x64_1 : (⟨S64, .f32⟩ : BufTy).Contents (Elt F) → (⟨S1x64, .f32⟩ : BufTy).Contents (Elt F)),
    unary main_v210 main_v211 (broadcastInDim S100000x64 ![0, 1] bcast_S1x64_S100000x64_0_1 : (⟨S1x64, .f32⟩ : BufTy).Contents (Elt F) → (⟨S100000x64, .f32⟩ : BufTy).Contents (Elt F)),
    binary main_v201 main_v211 main_v212 (subf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3727C5AC#32),
    unary main_cst_30 main_v213 (broadcastInDim S64 ![] bcast_S_S64 : (⟨S_, .f32⟩ : BufTy).Contents (Elt F) → (⟨S64, .f32⟩ : BufTy).Contents (Elt F)),
    binary main_v209 main_v213 main_v214 (addf : (⟨S64, .f32⟩ : BufTy).Contents (Elt F) → (⟨S64, .f32⟩ : BufTy).Contents (Elt F) → (⟨S64, .f32⟩ : BufTy).Contents (Elt F)),
    unary main_v214 main_v215 (Host.rsqrt : (⟨S64, .f32⟩ : BufTy).Contents (Elt F) → (⟨S64, .f32⟩ : BufTy).Contents (Elt F)),
    unary main_v215 main_v216 (broadcastInDim S1x64 ![1] bcast_S64_S1x64_1 : (⟨S64, .f32⟩ : BufTy).Contents (Elt F) → (⟨S1x64, .f32⟩ : BufTy).Contents (Elt F)),
    unary main_v216 main_v217 (broadcastInDim S100000x64 ![0, 1] bcast_S1x64_S100000x64_0_1 : (⟨S1x64, .f32⟩ : BufTy).Contents (Elt F) → (⟨S100000x64, .f32⟩ : BufTy).Contents (Elt F)),
    binary main_v212 main_v217 main_v218 (mulf : (⟨S100000x64, .f32⟩ : BufTy).Contents (Elt F) → (⟨S100000x64, .f32⟩ : BufTy).Contents (Elt F) → (⟨S100000x64, .f32⟩ : BufTy).Contents (Elt F)),
    unary main_v203 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v218 main_v220 main_v221 (mulf : (⟨S100000x64, .f32⟩ : BufTy).Contents (Elt F) → (⟨S100000x64, .f32⟩ : BufTy).Contents (Elt F) → (⟨S100000x64, .f32⟩ : BufTy).Contents (Elt F)),
    unary main_v205 main_v222 (broadcastInDim S1x64 ![1] bcast_S64_S1x64_1 : (⟨S64, .f32⟩ : BufTy).Contents (Elt F) → (⟨S1x64, .f32⟩ : BufTy).Contents (Elt F)),
    unary main_v222 main_v223 (broadcastInDim S100000x64 ![0, 1] bcast_S1x64_S100000x64_0_1 : (⟨S1x64, .f32⟩ : BufTy).Contents (Elt F) → (⟨S100000x64, .f32⟩ : BufTy).Contents (Elt F)),
    binary main_v221 main_v223 main_v224 (addf : (⟨S100000x64, .f32⟩ : BufTy).Contents (Elt F) → (⟨S100000x64, .f32⟩ : BufTy).Contents (Elt F) → (⟨S100000x64, .f32⟩ : BufTy).Contents (Elt F)) ]

abbrev opsT : List (HloOp τ sig (Elt F)) :=
  [ nary ![main_v74, main_v149, main_v224] main_v225 (fun u => concatenate S100000x192 1 [⟨S100000x64, u 0⟩, ⟨S100000x64, u 1⟩, ⟨S100000x64, u 2⟩] concatenates_S100000x64_S100000x64_S100000x64_S100000x192_d1),
    nullary main_cst_31 (constant S_ .f32 0x00000000#32),
    binary main_v225 main_cst_31 main_v226 ((fun x v => Host.reduceAdd x v reducesTo_S100000x192_S192_d0 h_S_) : (⟨S100000x192, .f32⟩ : BufTy).Contents (Elt F) → (⟨S_, .f32⟩ : BufTy).Contents (Elt F) → (⟨S192, .f32⟩ : BufTy).Contents (Elt F)),
    unary main_v226 main_v227 (broadcastInDim S1x192 ![1] bcast_S192_S1x192_1 : (⟨S192, .f32⟩ : BufTy).Contents (Elt F) → (⟨S1x192, .f32⟩ : BufTy).Contents (Elt F)) ]

abbrev ops : List (HloOp τ sig (Elt F)) := opsL0 ++ opsL1 ++ opsL2 ++ opsT

end Cert.ReferenceIdeal.Hand

end
-- ==== Proof.RI.Run.lean ====
import proofs.«412604_j76897094468164_1_alg».proof.Proof.RI.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem main_part0_eq (c : Dev nD) : main_part0 (F := F) c = seq (opsL0.take 85) := rfl
set_option maxRecDepth 16384 in
theorem main_part1_eq (c : Dev nD) : main_part1 (F := F) c = seq (opsL0.drop 85 ++ opsL1.take 55) := rfl
set_option maxRecDepth 16384 in
theorem main_part2_eq (c : Dev nD) : main_part2 (F := F) c = seq (opsL1.drop 55 ++ opsL2.take 8) := rfl
set_option maxRecDepth 16384 in
theorem main_part3_eq (c : Dev nD) : main_part3 (F := F) c = seq ((opsL2.drop 8).take 85) := rfl
set_option maxRecDepth 16384 in
theorem main_part4_eq (c : Dev nD) : main_part4 (F := F) c = seq (opsL2.drop 93 ++ opsT) := rfl

theorem ops_windows : (ops : List (HloOp τ sig (Elt F)))
    = opsL0.take 85 ++ ((opsL0.drop 85 ++ opsL1.take 55) ++ ((opsL1.drop 55 ++ opsL2.take 8)
        ++ ((opsL2.drop 8).take 85 ++ (opsL2.drop 93 ++ opsT)))) := by
  have h0 := List.take_append_drop 85 (opsL0 : List (HloOp τ sig (Elt F)))
  have h1 := List.take_append_drop 55 (opsL1 : List (HloOp τ sig (Elt F)))
  have h2 := List.take_append_drop 8 (opsL2 : List (HloOp τ sig (Elt F)))
  have h3 := List.take_append_drop 85 ((opsL2 : List (HloOp τ sig (Elt F))).drop 8)
  rw [List.drop_drop] at h3
  conv_lhs => rw [show (ops : List (HloOp τ sig (Elt F))) = opsL0 ++ opsL1 ++ opsL2 ++ opsT from rfl, ← h0, ← h1, ← h2, ← h3]
  simp only [List.append_assoc]

theorem main_eq (c : Dev nD) : main (F := F) c = seq ops := by
  rw [ops_windows]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

def argRefs : List (Ref sig .tc) :=
  [main_arg0, main_arg1, main_arg2, main_arg3, main_arg4, main_arg5, main_arg6, main_arg7, main_arg8, main_arg9, main_arg10]

structure Tame (op : HloOp τ sig (Elt F)) : Prop where
  sub : op.bufs ⊆ tcRefs τ sig
  fresh : op.fresh = ∅
  keeps : ∀ a ∈ argRefs, Proc.devRef (τ := τ) .tc a ∉ op.writes

theorem tame_of {op : HloOp τ sig (Elt F)} {y : Ref sig .tc} (hb : op.bufs ⊆ tcRefs τ sig) (hf : op.fresh = ∅)
    (hw : op.writes = {Proc.devRef .tc y}) (hy : y ∉ argRefs) : Tame op :=
  ⟨hb, hf, fun a ha h => hy (by
    rw [hw, Finset.mem_singleton] at h
    exact Proc.devRef_injective _ h ▸ ha)⟩

section Builders

variable {x a b c y : Ref sig .tc}

theorem tame_nullary (v : y.ty.Contents (Elt F)) (hy) (h : y ∉ argRefs) : Tame (nullary (τ := τ) y v hy) :=
  tame_of (nullary_bufs_sub ..) rfl (nullary_writes ..) h
theorem tame_unary (f : x.ty.Contents (Elt F) → y.ty.Contents (Elt F)) (hx hy) (h : y ∉ argRefs) :
    Tame (unary (τ := τ) x y f hx hy) :=
  tame_of (unary_bufs_sub ..) rfl (unary_writes ..) h
theorem tame_binary (f : a.ty.Contents (Elt F) → b.ty.Contents (Elt F) → y.ty.Contents (Elt F)) (ha hb hy)
    (h : y ∉ argRefs) : Tame (binary (τ := τ) a b y f ha hb hy) :=
  tame_of (binary_bufs_sub ..) rfl (binary_writes ..) h
theorem tame_ternary (f : c.ty.Contents (Elt F) → a.ty.Contents (Elt F) → b.ty.Contents (Elt F) → y.ty.Contents (Elt F))
    (hc ha hb hy) (h : y ∉ argRefs) : Tame (ternary (τ := τ) c a b y f hc ha hb hy) :=
  tame_of (ternary_bufs_sub ..) rfl (ternary_writes ..) h
theorem tame_reshape (he hn hx hy) (h : y ∉ argRefs) : Tame (reshape (τ := τ) (Val := Elt F) x y he hn hx hy) :=
  tame_of (reshape_bufs_sub ..) rfl (reshape_writes ..) h
theorem tame_nary {n : Nat} (xs : Fin n → Ref sig .tc) (f : ((k : Fin n) → (xs k).ty.Contents (Elt F)) → y.ty.Contents (Elt F))
    (hxs hy) (h : y ∉ argRefs) : Tame (nary (τ := τ) xs y f hxs hy) :=
  tame_of (nary_bufs_sub ..) rfl (nary_writes ..) h

end Builders

macro "tame_list" : tactic =>
  `(tactic| (simp only [List.Forall]
             repeat' apply And.intro
             all_goals
               first
                 | exact tame_unary _ _ _ (by decide)
                 | exact tame_binary _ _ _ _ (by decide)
                 | exact tame_nullary _ _ (by decide)
                 | exact tame_reshape _ _ _ _ (by decide)
                 | exact tame_ternary _ _ _ _ _ (by decide)
                 | exact tame_nary _ _ _ _ (by decide)))

set_option maxRecDepth 8192 in
theorem opsL0_tame : (opsL0 : List (HloOp τ sig (Elt F))).Forall Tame := by tame_list
set_option maxRecDepth 8192 in
theorem opsL1_tame : (opsL1 : List (HloOp τ sig (Elt F))).Forall Tame := by tame_list
set_option maxRecDepth 8192 in
theorem opsL2_tame : (opsL2 : List (HloOp τ sig (Elt F))).Forall Tame := by tame_list
theorem opsT_tame : (opsT : List (HloOp τ sig (Elt F))).Forall Tame := by tame_list

theorem ops_tame : (ops : List (HloOp τ sig (Elt F))).Forall Tame :=
  List.forall_append.mpr ⟨List.forall_append.mpr ⟨List.forall_append.mpr ⟨opsL0_tame, opsL1_tame⟩, opsL2_tame⟩, opsT_tame⟩

theorem ops_sub : (ops : List (HloOp τ sig (Elt F))).Forall fun op => op.bufs ⊆ tcRefs τ sig :=
  ops_tame.imp fun _ h => h.sub

theorem ops_fresh : ∀ op ∈ (ops : List (HloOp τ sig (Elt F))), op.fresh = ∅ :=
  fun op h => (List.forall_iff_forall_mem.mp ops_tame op h).fresh

theorem kept_arg (V : Valuation τ sig (Elt F)) {a : Ref sig .tc} (ha : a ∈ argRefs) :
    after ops V (Proc.devRef .tc a) = V (Proc.devRef .tc a) :=
  after_of_forall_not_mem ops V fun op h => (List.forall_iff_forall_mem.mp ops_tame op h).keeps a ha

theorem kept_arg0 (V : Valuation τ sig (Elt F)) : after ops V (Proc.devRef .tc main_arg0) = V (Proc.devRef .tc main_arg0) := kept_arg V (by decide)
theorem kept_arg1 (V : Valuation τ sig (Elt F)) : after ops V (Proc.devRef .tc main_arg1) = V (Proc.devRef .tc main_arg1) := kept_arg V (by decide)
theorem kept_arg2 (V : Valuation τ sig (Elt F)) : after ops V (Proc.devRef .tc main_arg2) = V (Proc.devRef .tc main_arg2) := kept_arg V (by decide)
theorem kept_arg3 (V : Valuation τ sig (Elt F)) : after ops V (Proc.devRef .tc main_arg3) = V (Proc.devRef .tc main_arg3) := kept_arg V (by decide)
theorem kept_arg4 (V : Valuation τ sig (Elt F)) : after ops V (Proc.devRef .tc main_arg4) = V (Proc.devRef .tc main_arg4) := kept_arg V (by decide)
theorem kept_arg5 (V : Valuation τ sig (Elt F)) : after ops V (Proc.devRef .tc main_arg5) = V (Proc.devRef .tc main_arg5) := kept_arg V (by decide)
theorem kept_arg6 (V : Valuation τ sig (Elt F)) : after ops V (Proc.devRef .tc main_arg6) = V (Proc.devRef .tc main_arg6) := kept_arg V (by decide)
theorem kept_arg7 (V : Valuation τ sig (Elt F)) : after ops V (Proc.devRef .tc main_arg7) = V (Proc.devRef .tc main_arg7) := kept_arg V (by decide)
theorem kept_arg8 (V : Valuation τ sig (Elt F)) : after ops V (Proc.devRef .tc main_arg8) = V (Proc.devRef .tc main_arg8) := kept_arg V (by decide)
theorem kept_arg9 (V : Valuation τ sig (Elt F)) : after ops V (Proc.devRef .tc main_arg9) = V (Proc.devRef .tc main_arg9) := kept_arg V (by decide)
theorem kept_arg10 (V : Valuation τ sig (Elt F)) : after ops V (Proc.devRef .tc main_arg10) = V (Proc.devRef .tc main_arg10) := kept_arg V (by decide)

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_arg0).trans (kept_arg0 _), (h c main_arg1).trans (kept_arg1 _), (h c main_arg2).trans (kept_arg2 _),
        (h c main_arg3).trans (kept_arg3 _), (h c main_arg4).trans (kept_arg4 _), (h c main_arg5).trans (kept_arg5 _),
        (h c main_arg6).trans (kept_arg6 _), (h c main_arg7).trans (kept_arg7 _), (h c main_arg8).trans (kept_arg8 _),
        (h c main_arg9).trans (kept_arg9 _), (h c main_arg10).trans (kept_arg10 _)⟩)
    (run_after m ρ)

end Cert.ReferenceIdeal.Hand

end
-- ==== Proof.Math.Consts.lean ====
import proofs.«412604_j76897094468164_1_alg».proof.Proof.Math.Spec

noncomputable section

namespace Cert.Spec

open Idealize.ShloMosaic

theorem cN_eq : cN = ((100000 : ℝ) : EReal) := by
  simp [cN, Ideal.ofBits, Ideal.ieee, -EReal.coe_mul]; norm_num

theorem cEps_eq : cEps = (((10995116 : ℝ) * (2 : ℝ) ^ (-40 : ℤ) : ℝ) : EReal) := by
  simp [cEps, Ideal.ofBits, Ideal.ieee, -EReal.coe_mul]

theorem cEps_pos : ∃ e : ℝ, 0 < e ∧ cEps = (e : EReal) :=
  ⟨(10995116 : ℝ) * (2 : ℝ) ^ (-40 : ℤ), by positivity, cEps_eq⟩

theorem cN_ne_zero : (100000 : ℝ) ≠ 0 := by norm_num

end Cert.Spec

end
-- ==== Proof.RI.ValueL.lean ====
import proofs.«412604_j76897094468164_1_alg».proof.Proof.RI.Ops
import proofs.«412604_j76897094468164_1_alg».proof.Proof.Math.Net
import proofs.«412604_j76897094468164_1_alg».proof.Proof.Math.Consts
import proofs.«412604_j76897094468164_1_alg».proof.Proof.LibDot
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

abbrev A2 : Type := FVec Ideal S100000x64 .f32

abbrev A1 : Type := FVec Ideal S64 .f32

def bc2 (v : A1) : A2 :=
  broadcastInDim S100000x64 ![0, 1] bcast_S1x64_S100000x64_0_1 (broadcastInDim S1x64 ![1] bcast_S64_S1x64_1 v)

def aggV (h : FVec Ideal S100000x64 .f32) (src dst : IVec S3200000 32) : FVec Ideal S100000x64 .f32 :=
  addf h (Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Host.gather gather_S100000x64_S3200000x1_S3200000x64_1_0_n_n_0_1_164 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src))))

def linV (x : A2) (w : FVec Ideal S64x64 .f32) (b : A1) : A2 :=
  addf (Host.dotGeneral dot_S100000x64_S64x64_S100000x64_1_0_0_1_n_n none x w) (bc2 b)

def sumV (x : A2) : A1 := Host.reduceAdd x (constant S_ .f32 0x00000000#32) reducesTo_S100000x64_S64_d0 h_S_

def meanV (x : A2) : A1 := Host.divf (sumV x) (broadcastInDim S64 ![] bcast_S_S64 (constant S_ .f32 0x47C35000#32))

def varV (x : A2) : A1 :=
  let m : A2 := broadcastInDim S100000x64 ![0, 1] bcast_S1x64_S100000x64_0_1
    (Host.divf (broadcastInDim S1x64 ![1] bcast_S64_S1x64_1 (sumV x)) (broadcastInDim S1x64 ![] bcast_S_S1x64 (constant S_ .f32 0x47C35000#32)))
  let dv : A2 := subf x m
  let n : FVec Ideal S_ .f32 := subf (constant S_ .f32 0x47C35000#32) (sitofp .f32 (constantI S_ 32 0#32))
  select (broadcastInDim S64 ![] bcast_S_S64 (cmpf .ogt n (constant S_ .f32 0x00000000#32)))
    (Host.divf (Host.reduceAdd (mulf dv dv) (constant S_ .f32 0x00000000#32) reducesTo_S100000x64_S64_d0 h_S_) (broadcastInDim S64 ![] bcast_S_S64 n))
    (broadcastInDim S64 ![] bcast_S_S64 (id (constant S_ .f32 0x7FC00000#32)))

def bnV (x : A2) (g be : A1) : A2 :=
  addf (mulf (mulf (subf x (bc2 (meanV x)))
    (bc2 (Host.rsqrt (addf (varV x) (broadcastInDim S64 ![] bcast_S_S64 (constant S_ .f32 0x3727C5AC#32)))))) (bc2 g)) (bc2 be)

def reluV (x : A2) : A2 := maximumf x (broadcastInDim S100000x64 ![] bcast_S_S100000x64 (constant S_ .f32 0x00000000#32))

def layerV (a : A2) (w1 : FVec Ideal S64x64 .f32) (b1 g1 be1 : A1) (w2 : FVec Ideal S64x64 .f32) (b2 g2 be2 : A1) : A2 :=
  bnV (reluV (linV (reluV (bnV (linV a w1 b1) g1 be1)) w2 b2)) g2 be2

theorem ofBits_zero_f32 : Ideal.ofBits .f32 0x00000000#32 = 0 := by simp [Ideal.ofBits, Ideal.ieee]

theorem bc2_apply (v : A1) (r : Fin 100000) (q : Fin 64) : bc2 v (ix2 r q) = v (ix1 q) := by
  unfold bc2
  rw [broadcastInDim_apply _ _ _ _ (ix2 (0 : Fin 1) q) (fun a => by
        match a with
        | ⟨0, _⟩ => rfl
        | ⟨1, _⟩ => rfl),
      broadcastInDim_apply _ _ _ _ (ix1 q) (fun a => by
        match a with
        | ⟨0, _⟩ => rfl)]

theorem sumV_apply (x : A2) (q : Fin 64) : sumV x (ix1 q) = ∑ r : Fin 100000, x (ix2 r q) := by
  have h : S100000x64.Reduces [0] S64 := by decide
  unfold sumV
  rw [hostReduceAdd_apply, Ideal.hostReduceAdd_single reducesTo_S100000x64_S64_d0 h, constant_apply, ofBits_zero_f32, zero_add]
  refine Finset.sum_congr rfl fun r _ => congrArg x ?_
  funext a
  match a with
  | ⟨0, _⟩ => rfl
  | ⟨1, _⟩ => rfl

theorem meanV_apply (x : A2) (q : Fin 64) : meanV x (ix1 q) = mean (toMat x) q := by
  unfold meanV mean colsum
  rw [hostDivf_apply, sumV_apply, broadcastInDim_scalar_apply, constant_apply]
  rfl

theorem linV_toMat (x : A2) (w : FVec Ideal S64x64 .f32) (b : A1) :
    toMat (linV x w b) = lin (toMat x) (toMat w) (fun q => b (ix1 q)) := by
  funext r q
  show linV x w b (ix2 r q) = _
  unfold linV lin Host.dotGeneral
  rw [addf_apply, bc2_apply,
    Cert.LibDot.dotGeneral_at dot_S100000x64_S64x64_S100000x64_1_0_0_1_n_n rfl rfl rfl rfl rfl rfl]
  rfl

theorem reluV_toMat (x : A2) : toMat (reluV x) = relu (toMat x) := by
  funext r q
  show reluV x (ix2 r q) = _
  unfold reluV relu
  rw [maximumf_apply, broadcastInDim_scalar_apply, constant_apply, ofBits_zero_f32]
  rfl

theorem meanB_apply (x : A2) (r : Fin 100000) (q : Fin 64) :
    (broadcastInDim S100000x64 ![0, 1] bcast_S1x64_S100000x64_0_1
      (Host.divf (broadcastInDim S1x64 ![1] bcast_S64_S1x64_1 (sumV x))
        (broadcastInDim S1x64 ![] bcast_S_S1x64 (constant S_ .f32 0x47C35000#32))) : A2) (ix2 r q)
      = mean (toMat x) q := by
  rw [broadcastInDim_apply _ _ _ _ (ix2 (0 : Fin 1) q) (fun a => by
        match a with
        | ⟨0, _⟩ => rfl
        | ⟨1, _⟩ => rfl),
    hostDivf_apply,
    broadcastInDim_apply _ _ _ _ (ix1 q) (fun a => by
        match a with
        | ⟨0, _⟩ => rfl),
    sumV_apply, broadcastInDim_scalar_apply, constant_apply]
  rfl

theorem nV_apply :
    (subf (constant S_ .f32 0x47C35000#32) (sitofp .f32 (constantI S_ 32 0#32)) : FVec Ideal S_ .f32) ix0 = cN := by
  show cN - ((((0#32 : BitVec 32).toInt : ℝ)) : EReal) = cN
  simp

theorem cN_pos : (0 : EReal) < cN := by
  rw [cN_eq]
  exact_mod_cast (by norm_num : (0 : ℝ) < 100000)

theorem varV_apply (x : A2) (q : Fin 64) : varV x (ix1 q) = varR (toMat x) q := by
  simp only [varV]
  rw [select_apply]
  have hc : (broadcastInDim S64 ![] bcast_S_S64
      (cmpf .ogt (subf (constant S_ .f32 0x47C35000#32) (sitofp .f32 (constantI S_ 32 0#32)) : FVec Ideal S_ .f32)
        (constant S_ .f32 0x00000000#32))) (ix1 q) = 1#1 := by
    rw [broadcastInDim_scalar_apply, cmpf_apply, nV_apply, constant_apply, ofBits_zero_f32, Ideal.cmpf_def]
    simp [Ideal.cmp, cN_pos]
  rw [hc, select_one, hostDivf_apply, broadcastInDim_scalar_apply, nV_apply]
  show Ideal.div (sumV _ (ix1 q)) cN = _
  rw [sumV_apply]
  unfold varR colsum
  refine congrArg (fun s => Ideal.div s cN) (Finset.sum_congr rfl fun r _ => ?_)
  rw [mulf_apply, subf_apply, meanB_apply]
  rfl

theorem bnV_toMat (x : A2) (g be : A1) :
    toMat (bnV x g be) = bn (toMat x) (mean (toMat x)) (varR (toMat x)) (fun q => g (ix1 q)) (fun q => be (ix1 q)) := by
  funext r q
  show bnV x g be (ix2 r q) = _
  unfold bnV bn
  rw [addf_apply, mulf_apply, mulf_apply, subf_apply, bc2_apply, bc2_apply, bc2_apply, bc2_apply, meanV_apply]
  show (_ - _) * Ideal.rsqrt (addf (varV x) _ (ix1 q)) * _ + _ = _
  rw [addf_apply, varV_apply, broadcastInDim_scalar_apply, constant_apply]
  rfl

theorem layerV_toMat (a : A2) (w1 : FVec Ideal S64x64 .f32) (b1 g1 be1 : A1) (w2 : FVec Ideal S64x64 .f32) (b2 g2 be2 : A1) :
    toMat (layerV a w1 b1 g1 be1 w2 b2 g2 be2)
      = layerR (toMat a) ⟨toMat w1, fun q => b1 (ix1 q), fun q => g1 (ix1 q), fun q => be1 (ix1 q),
          toMat w2, fun q => b2 (ix1 q), fun q => g2 (ix1 q), fun q => be2 (ix1 q)⟩ := by
  unfold layerV layerR layerWith
  simp only [bnV_toMat, reluV_toMat, linV_toMat]

theorem wSlice_apply (l : Fin 3) (o : Nat) (ho : o = l.val) (a : FVec Ideal S3x64x64 .f32)
    (h : S3x64x64.Slices ![o, 0, 0] S1x64x64) (i q : Fin 64) :
    shapeCast S64x64 (extractStridedSlice S1x64x64 ![o, 0, 0] a h) shapeCasts_S1x64x64_S64x64 (ix2 i q) = a (ix3 l i q) := by
  rw [shapeCast_1ab_ab_apply]
  exact extractStridedSlice_apply _ _ _ _ _ (fun ax => by
    match ax with
    | ⟨0, _⟩ => exact ho.symm
    | ⟨1, _⟩ => exact (Nat.zero_add _).symm
    | ⟨2, _⟩ => exact (Nat.zero_add _).symm)

theorem rSlice_apply (l : Fin 3) (o : Nat) (ho : o = l.val) (a : FVec Ideal S3x64 .f32)
    (h : S3x64.Slices ![o, 0] S1x64) (q : Fin 64) :
    shapeCast S64 (extractStridedSlice S1x64 ![o, 0] a h) shapeCasts_S1x64_S64 (ix1 q) = a (ix2 l q) := by
  rw [shapeCast_1a_a_apply]
  exact slice2_axis0_apply o a h (0 : Fin 1) q l (by rw [ho]; rfl)

theorem params_eq (l : Fin 3) (o : Nat) (ho : o = l.val)
    (a3 : FVec Ideal S3x64x64 .f32) (a4 a5 a6 : FVec Ideal S3x64 .f32) (a7 : FVec Ideal S3x64x64 .f32) (a8 a9 a10 : FVec Ideal S3x64 .f32)
    (hw : S3x64x64.Slices ![o, 0, 0] S1x64x64) (hr : S3x64.Slices ![o, 0] S1x64) :
    (⟨toMat (shapeCast S64x64 (extractStridedSlice S1x64x64 ![o, 0, 0] a3 hw) shapeCasts_S1x64x64_S64x64),
      fun q => shapeCast S64 (extractStridedSlice S1x64 ![o, 0] a4 hr) shapeCasts_S1x64_S64 (ix1 q),
      fun q => shapeCast S64 (extractStridedSlice S1x64 ![o, 0] a5 hr) shapeCasts_S1x64_S64 (ix1 q),
      fun q => shapeCast S64 (extractStridedSlice S1x64 ![o, 0] a6 hr) shapeCasts_S1x64_S64 (ix1 q),
      toMat (shapeCast S64x64 (extractStridedSlice S1x64x64 ![o, 0, 0] a7 hw) shapeCasts_S1x64x64_S64x64),
      fun q => shapeCast S64 (extractStridedSlice S1x64 ![o, 0] a8 hr) shapeCasts_S1x64_S64 (ix1 q),
      fun q => shapeCast S64 (extractStridedSlice S1x64 ![o, 0] a9 hr) shapeCasts_S1x64_S64 (ix1 q),
      fun q => shapeCast S64 (extractStridedSlice S1x64 ![o, 0] a10 hr) shapeCasts_S1x64_S64 (ix1 q)⟩ : LayerP)
      = paramsOf l a3 a4 a5 a6 a7 a8 a9 a10 := by
  unfold paramsOf
  congr 1
  · funext i q; exact wSlice_apply l o ho a3 hw i q
  · funext q; exact rSlice_apply l o ho a4 hr q
  · funext q; exact rSlice_apply l o ho a5 hr q
  · funext q; exact rSlice_apply l o ho a6 hr q
  · funext i q; exact wSlice_apply l o ho a7 hw i q
  · funext q; exact rSlice_apply l o ho a8 hr q
  · funext q; exact rSlice_apply l o ho a9 hr q
  · funext q; exact rSlice_apply l o ho a10 hr q

abbrev aggM (src dst : IVec S3200000 32) : Mat NN DD → Mat NN DD := fun h => toMat (aggV (ofMat h) src dst)

theorem layer_val (l : Fin 3) (o : Nat) (ho : o = l.val) (h : A2) (src dst : IVec S3200000 32)
    (a3 : FVec Ideal S3x64x64 .f32) (a4 a5 a6 : FVec Ideal S3x64 .f32) (a7 : FVec Ideal S3x64x64 .f32) (a8 a9 a10 : FVec Ideal S3x64 .f32)
    (hw : S3x64x64.Slices ![o, 0, 0] S1x64x64) (hr : S3x64.Slices ![o, 0] S1x64) :
    toMat (layerV (aggV h src dst)
      (shapeCast S64x64 (extractStridedSlice S1x64x64 ![o, 0, 0] a3 hw) shapeCasts_S1x64x64_S64x64)
      (shapeCast S64 (extractStridedSlice S1x64 ![o, 0] a4 hr) shapeCasts_S1x64_S64)
      (shapeCast S64 (extractStridedSlice S1x64 ![o, 0] a5 hr) shapeCasts_S1x64_S64)
      (shapeCast S64 (extractStridedSlice S1x64 ![o, 0] a6 hr) shapeCasts_S1x64_S64)
      (shapeCast S64x64 (extractStridedSlice S1x64x64 ![o, 0, 0] a7 hw) shapeCasts_S1x64x64_S64x64)
      (shapeCast S64 (extractStridedSlice S1x64 ![o, 0] a8 hr) shapeCasts_S1x64_S64)
      (shapeCast S64 (extractStridedSlice S1x64 ![o, 0] a9 hr) shapeCasts_S1x64_S64)
      (shapeCast S64 (extractStridedSlice S1x64 ![o, 0] a10 hr) shapeCasts_S1x64_S64))
      = layerR (aggM src dst (toMat h)) (paramsOf l a3 a4 a5 a6 a7 a8 a9 a10) := by
  rw [layerV_toMat, params_eq l o ho a3 a4 a5 a6 a7 a8 a9 a10 hw hr]
  show _ = layerR (toMat (aggV (ofMat (toMat h)) src dst)) _
  rw [ofMat_toMat]

end Cert.ReferenceIdeal.Hand

end
-- ==== Proof.RI.Run0.lean ====
import proofs.«412604_j76897094468164_1_alg».proof.Proof.RI.ValueL

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

set_option maxRecDepth 8192 in
set_option maxHeartbeats 1000000 in

theorem run0_term (V : Valuation τ sig (Elt Ideal)) :
    after opsL0 V (Proc.devRef .tc main_v74)
      = layerV (aggV (V (Proc.devRef .tc main_arg0)) (V (Proc.devRef .tc main_arg1)) (V (Proc.devRef .tc main_arg2)))
          (shapeCast S64x64 (extractStridedSlice S1x64x64 ![0, 0, 0] (V (Proc.devRef .tc main_arg3)) slices_S3x64x64_S1x64x64_0_0_0) shapeCasts_S1x64x64_S64x64)
          (shapeCast S64 (extractStridedSlice S1x64 ![0, 0] (V (Proc.devRef .tc main_arg4)) slices_S3x64_S1x64_0_0) shapeCasts_S1x64_S64)
          (shapeCast S64 (extractStridedSlice S1x64 ![0, 0] (V (Proc.devRef .tc main_arg5)) slices_S3x64_S1x64_0_0) shapeCasts_S1x64_S64)
          (shapeCast S64 (extractStridedSlice S1x64 ![0, 0] (V (Proc.devRef .tc main_arg6)) slices_S3x64_S1x64_0_0) shapeCasts_S1x64_S64)
          (shapeCast S64x64 (extractStridedSlice S1x64x64 ![0, 0, 0] (V (Proc.devRef .tc main_arg7)) slices_S3x64x64_S1x64x64_0_0_0) shapeCasts_S1x64x64_S64x64)
          (shapeCast S64 (extractStridedSlice S1x64 ![0, 0] (V (Proc.devRef .tc main_arg8)) slices_S3x64_S1x64_0_0) shapeCasts_S1x64_S64)
          (shapeCast S64 (extractStridedSlice S1x64 ![0, 0] (V (Proc.devRef .tc main_arg9)) slices_S3x64_S1x64_0_0) shapeCasts_S1x64_S64)
          (shapeCast S64 (extractStridedSlice S1x64 ![0, 0] (V (Proc.devRef .tc main_arg10)) slices_S3x64_S1x64_0_0) shapeCasts_S1x64_S64) := by
  after_results_simp
  rfl

theorem layer0_val (V : Valuation τ sig (Elt Ideal)) :
    toMat (after opsL0 V (Proc.devRef .tc main_v74))
      = layerR (aggM (V (Proc.devRef .tc main_arg1)) (V (Proc.devRef .tc main_arg2)) (toMat (V (Proc.devRef .tc main_arg0))))
          (paramsOf 0 (V (Proc.devRef .tc main_arg3)) (V (Proc.devRef .tc main_arg4)) (V (Proc.devRef .tc main_arg5))
            (V (Proc.devRef .tc main_arg6)) (V (Proc.devRef .tc main_arg7)) (V (Proc.devRef .tc main_arg8))
            (V (Proc.devRef .tc main_arg9)) (V (Proc.devRef .tc main_arg10))) := by
  rw [run0_term]
  exact layer_val 0 0 rfl _ _ _ _ _ _ _ _ _ _ _ slices_S3x64x64_S1x64x64_0_0_0 slices_S3x64_S1x64_0_0

end Cert.ReferenceIdeal.Hand

end
-- ==== Proof.RI.Run1.lean ====
import proofs.«412604_j76897094468164_1_alg».proof.Proof.RI.ValueL

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

set_option maxRecDepth 8192 in
set_option maxHeartbeats 1000000 in

theorem run1_term (V : Valuation τ sig (Elt Ideal)) :
    after opsL1 V (Proc.devRef .tc main_v149)
      = layerV (aggV (V (Proc.devRef .tc main_v74)) (V (Proc.devRef .tc main_arg1)) (V (Proc.devRef .tc main_arg2)))
          (shapeCast S64x64 (extractStridedSlice S1x64x64 ![1, 0, 0] (V (Proc.devRef .tc main_arg3)) slices_S3x64x64_S1x64x64_1_0_0) shapeCasts_S1x64x64_S64x64)
          (shapeCast S64 (extractStridedSlice S1x64 ![1, 0] (V (Proc.devRef .tc main_arg4)) slices_S3x64_S1x64_1_0) shapeCasts_S1x64_S64)
          (shapeCast S64 (extractStridedSlice S1x64 ![1, 0] (V (Proc.devRef .tc main_arg5)) slices_S3x64_S1x64_1_0) shapeCasts_S1x64_S64)
          (shapeCast S64 (extractStridedSlice S1x64 ![1, 0] (V (Proc.devRef .tc main_arg6)) slices_S3x64_S1x64_1_0) shapeCasts_S1x64_S64)
          (shapeCast S64x64 (extractStridedSlice S1x64x64 ![1, 0, 0] (V (Proc.devRef .tc main_arg7)) slices_S3x64x64_S1x64x64_1_0_0) shapeCasts_S1x64x64_S64x64)
          (shapeCast S64 (extractStridedSlice S1x64 ![1, 0] (V (Proc.devRef .tc main_arg8)) slices_S3x64_S1x64_1_0) shapeCasts_S1x64_S64)
          (shapeCast S64 (extractStridedSlice S1x64 ![1, 0] (V (Proc.devRef .tc main_arg9)) slices_S3x64_S1x64_1_0) shapeCasts_S1x64_S64)
          (shapeCast S64 (extractStridedSlice S1x64 ![1, 0] (V (Proc.devRef .tc main_arg10)) slices_S3x64_S1x64_1_0) shapeCasts_S1x64_S64) := by
  after_results_simp
  rfl

theorem layer1_val (V : Valuation τ sig (Elt Ideal)) :
    toMat (after opsL1 V (Proc.devRef .tc main_v149))
      = layerR (aggM (V (Proc.devRef .tc main_arg1)) (V (Proc.devRef .tc main_arg2)) (toMat (V (Proc.devRef .tc main_v74))))
          (paramsOf 1 (V (Proc.devRef .tc main_arg3)) (V (Proc.devRef .tc main_arg4)) (V (Proc.devRef .tc main_arg5))
            (V (Proc.devRef .tc main_arg6)) (V (Proc.devRef .tc main_arg7)) (V (Proc.devRef .tc main_arg8))
            (V (Proc.devRef .tc main_arg9)) (V (Proc.devRef .tc main_arg10))) := by
  rw [run1_term]
  exact layer_val 1 1 rfl _ _ _ _ _ _ _ _ _ _ _ slices_S3x64x64_S1x64x64_1_0_0 slices_S3x64_S1x64_1_0

end Cert.ReferenceIdeal.Hand

end
-- ==== Proof.RI.Run2.lean ====
import proofs.«412604_j76897094468164_1_alg».proof.Proof.RI.ValueL

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

set_option maxRecDepth 8192 in
set_option maxHeartbeats 1000000 in

theorem run2_term (V : Valuation τ sig (Elt Ideal)) :
    after opsL2 V (Proc.devRef .tc main_v224)
      = layerV (aggV (V (Proc.devRef .tc main_v149)) (V (Proc.devRef .tc main_arg1)) (V (Proc.devRef .tc main_arg2)))
          (shapeCast S64x64 (extractStridedSlice S1x64x64 ![2, 0, 0] (V (Proc.devRef .tc main_arg3)) slices_S3x64x64_S1x64x64_2_0_0) shapeCasts_S1x64x64_S64x64)
          (shapeCast S64 (extractStridedSlice S1x64 ![2, 0] (V (Proc.devRef .tc main_arg4)) slices_S3x64_S1x64_2_0) shapeCasts_S1x64_S64)
          (shapeCast S64 (extractStridedSlice S1x64 ![2, 0] (V (Proc.devRef .tc main_arg5)) slices_S3x64_S1x64_2_0) shapeCasts_S1x64_S64)
          (shapeCast S64 (extractStridedSlice S1x64 ![2, 0] (V (Proc.devRef .tc main_arg6)) slices_S3x64_S1x64_2_0) shapeCasts_S1x64_S64)
          (shapeCast S64x64 (extractStridedSlice S1x64x64 ![2, 0, 0] (V (Proc.devRef .tc main_arg7)) slices_S3x64x64_S1x64x64_2_0_0) shapeCasts_S1x64x64_S64x64)
          (shapeCast S64 (extractStridedSlice S1x64 ![2, 0] (V (Proc.devRef .tc main_arg8)) slices_S3x64_S1x64_2_0) shapeCasts_S1x64_S64)
          (shapeCast S64 (extractStridedSlice S1x64 ![2, 0] (V (Proc.devRef .tc main_arg9)) slices_S3x64_S1x64_2_0) shapeCasts_S1x64_S64)
          (shapeCast S64 (extractStridedSlice S1x64 ![2, 0] (V (Proc.devRef .tc main_arg10)) slices_S3x64_S1x64_2_0) shapeCasts_S1x64_S64) := by
  after_results_simp
  rfl

theorem layer2_val (V : Valuation τ sig (Elt Ideal)) :
    toMat (after opsL2 V (Proc.devRef .tc main_v224))
      = layerR (aggM (V (Proc.devRef .tc main_arg1)) (V (Proc.devRef .tc main_arg2)) (toMat (V (Proc.devRef .tc main_v149))))
          (paramsOf 2 (V (Proc.devRef .tc main_arg3)) (V (Proc.devRef .tc main_arg4)) (V (Proc.devRef .tc main_arg5))
            (V (Proc.devRef .tc main_arg6)) (V (Proc.devRef .tc main_arg7)) (V (Proc.devRef .tc main_arg8))
            (V (Proc.devRef .tc main_arg9)) (V (Proc.devRef .tc main_arg10))) := by
  rw [run2_term]
  exact layer_val 2 2 rfl _ _ _ _ _ _ _ _ _ _ _ slices_S3x64x64_S1x64x64_2_0_0 slices_S3x64_S1x64_2_0

end Cert.ReferenceIdeal.Hand

end
-- ==== Proof.RI.Frame.lean ====
import proofs.«412604_j76897094468164_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem sub_at (W : List (Ref sig .tc)) (k : Nat) (h : k < W.length) :
    ({Proc.devRef (τ := τ) .tc W[k]} : Finset (DevRef τ sig)) ⊆ (W.map (Proc.devRef (τ := τ) .tc)).toFinset := by
  rw [Finset.singleton_subset_iff, List.mem_toFinset]
  exact List.mem_map_of_mem (List.getElem_mem h)

noncomputable def writesL0 : List (Ref sig .tc) :=
  [main_c, main_v0, main_v1, main_c_0, main_v2, main_v3, main_v4, main_v5, main_v6, main_cst, main_v7, main_v8, main_v9,
   main_v10, main_v11, main_v12, main_v13, main_v14, main_v15, main_v16, main_v17, main_v18, main_v19, main_v20, main_v21,
   main_v22, main_cst_1, main_v23, main_cst_2, main_v24, main_v25, main_c_3, main_call0.cst.ref, main_call0.v0.ref,
   main_call0.v1.ref, main_call0.cst_0.ref, main_call0.v2.ref, main_call0.v3.ref, main_call0.v4.ref, main_call0.v5.ref,
   main_call0.v6.ref, main_call0.v7.ref, main_call0.cst_1.ref, main_call0.v8.ref, main_call0.cst_2.ref, main_call0.v9.ref,
   main_call0.v10.ref, main_call0.v11.ref, main_call0.cst_3.ref, main_call0.v12.ref, main_call0.cst_4.ref,
   main_call0.call0.v0.ref, main_call0.call0.v1.ref, main_call0.call0.v2.ref, main_v27, main_v28, main_v29, main_cst_4,
   main_v30, main_v31, main_v32, main_v33, main_v34, main_v35, main_v36, main_v37, main_v38, main_v39, main_v40, main_v41,
   main_call1.cst.ref, main_call1.v0.ref, main_call1.v1.ref, main_v43, main_v44, main_v45, main_v46, main_v47, main_v48,
   main_v49, main_v50, main_call2.cst.ref, main_call2.v0.ref, main_call2.v1.ref, main_v52, main_v53, main_v54, main_v55,
   main_cst_5, main_v56, main_cst_6, main_v57, main_v58, main_c_7, main_call3.cst.ref, main_call3.v0.ref, main_call3.v1.ref,
   main_call3.cst_0.ref, main_call3.v2.ref, main_call3.v3.ref, main_call3.v4.ref, main_call3.v5.ref, main_call3.v6.ref,
   main_call3.v7.ref, main_call3.cst_1.ref, main_call3.v8.ref, main_call3.cst_2.ref, main_call3.v9.ref, main_call3.v10.ref,
   main_call3.v11.ref, main_call3.cst_3.ref, main_call3.v12.ref, main_call3.cst_4.ref, main_call3.call0.v0.ref,
   main_call3.call0.v1.ref, main_call3.call0.v2.ref, main_v60, main_v61, main_v62, main_cst_8, main_v63, main_v64, main_v65,
   main_v66, main_v67, main_v68, main_v69, main_v70, main_v71, main_v72, main_v73, main_v74]

theorem writesL0_sub : (opsL0 : List (HloOp τ sig (Elt F))).Forall fun op => op.writes ⊆ ((writesL0).map (Proc.devRef (τ := τ) .tc)).toFinset :=
  ⟨sub_at writesL0 0 (by decide), sub_at writesL0 1 (by decide), sub_at writesL0 2 (by decide), sub_at writesL0 3 (by decide),
   sub_at writesL0 4 (by decide), sub_at writesL0 5 (by decide), sub_at writesL0 6 (by decide), sub_at writesL0 7 (by decide),
   sub_at writesL0 8 (by decide), sub_at writesL0 9 (by decide), sub_at writesL0 10 (by decide), sub_at writesL0 11 (by decide),
   sub_at writesL0 12 (by decide), sub_at writesL0 13 (by decide), sub_at writesL0 14 (by decide), sub_at writesL0 15 (by decide),
   sub_at writesL0 16 (by decide), sub_at writesL0 17 (by decide), sub_at writesL0 18 (by decide), sub_at writesL0 19 (by decide),
   sub_at writesL0 20 (by decide), sub_at writesL0 21 (by decide), sub_at writesL0 22 (by decide), sub_at writesL0 23 (by decide),
   sub_at writesL0 24 (by decide), sub_at writesL0 25 (by decide), sub_at writesL0 26 (by decide), sub_at writesL0 27 (by decide),
   sub_at writesL0 28 (by decide), sub_at writesL0 29 (by decide), sub_at writesL0 30 (by decide), sub_at writesL0 31 (by decide),
   sub_at writesL0 32 (by decide), sub_at writesL0 33 (by decide), sub_at writesL0 34 (by decide), sub_at writesL0 35 (by decide),
   sub_at writesL0 36 (by decide), sub_at writesL0 37 (by decide), sub_at writesL0 38 (by decide), sub_at writesL0 39 (by decide),
   sub_at writesL0 40 (by decide), sub_at writesL0 41 (by decide), sub_at writesL0 42 (by decide), sub_at writesL0 43 (by decide),
   sub_at writesL0 44 (by decide), sub_at writesL0 45 (by decide), sub_at writesL0 46 (by decide), sub_at writesL0 47 (by decide),
   sub_at writesL0 48 (by decide), sub_at writesL0 49 (by decide), sub_at writesL0 50 (by decide), sub_at writesL0 51 (by decide),
   sub_at writesL0 52 (by decide), sub_at writesL0 53 (by decide), sub_at writesL0 54 (by decide), sub_at writesL0 55 (by decide),
   sub_at writesL0 56 (by decide), sub_at writesL0 57 (by decide), sub_at writesL0 58 (by decide), sub_at writesL0 59 (by decide),
   sub_at writesL0 60 (by decide), sub_at writesL0 61 (by decide), sub_at writesL0 62 (by decide), sub_at writesL0 63 (by decide),
   sub_at writesL0 64 (by decide), sub_at writesL0 65 (by decide), sub_at writesL0 66 (by decide), sub_at writesL0 67 (by decide),
   sub_at writesL0 68 (by decide), sub_at writesL0 69 (by decide), sub_at writesL0 70 (by decide), sub_at writesL0 71 (by decide),
   sub_at writesL0 72 (by decide), sub_at writesL0 73 (by decide), sub_at writesL0 74 (by decide), sub_at writesL0 75 (by decide),
   sub_at writesL0 76 (by decide), sub_at writesL0 77 (by decide), sub_at writesL0 78 (by decide), sub_at writesL0 79 (by decide),
   sub_at writesL0 80 (by decide), sub_at writesL0 81 (by decide), sub_at writesL0 82 (by decide), sub_at writesL0 83 (by decide),
   sub_at writesL0 84 (by decide), sub_at writesL0 85 (by decide), sub_at writesL0 86 (by decide), sub_at writesL0 87 (by decide),
   sub_at writesL0 88 (by decide), sub_at writesL0 89 (by decide), sub_at writesL0 90 (by decide), sub_at writesL0 91 (by decide),
   sub_at writesL0 92 (by decide), sub_at writesL0 93 (by decide), sub_at writesL0 94 (by decide), sub_at writesL0 95 (by decide),
   sub_at writesL0 96 (by decide), sub_at writesL0 97 (by decide), sub_at writesL0 98 (by decide), sub_at writesL0 99 (by decide),
   sub_at writesL0 100 (by decide), sub_at writesL0 101 (by decide), sub_at writesL0 102 (by decide), sub_at writesL0 103 (by decide),
   sub_at writesL0 104 (by decide), sub_at writesL0 105 (by decide), sub_at writesL0 106 (by decide), sub_at writesL0 107 (by decide),
   sub_at writesL0 108 (by decide), sub_at writesL0 109 (by decide), sub_at writesL0 110 (by decide), sub_at writesL0 111 (by decide),
   sub_at writesL0 112 (by decide), sub_at writesL0 113 (by decide), sub_at writesL0 114 (by decide), sub_at writesL0 115 (by decide),
   sub_at writesL0 116 (by decide), sub_at writesL0 117 (by decide), sub_at writesL0 118 (by decide), sub_at writesL0 119 (by decide),
   sub_at writesL0 120 (by decide), sub_at writesL0 121 (by decide), sub_at writesL0 122 (by decide), sub_at writesL0 123 (by decide),
   sub_at writesL0 124 (by decide), sub_at writesL0 125 (by decide), sub_at writesL0 126 (by decide), sub_at writesL0 127 (by decide),
   sub_at writesL0 128 (by decide), sub_at writesL0 129 (by decide), sub_at writesL0 130 (by decide), sub_at writesL0 131 (by decide)⟩

theorem frameL0 (V : Valuation τ sig (Elt F)) {r : Ref sig .tc} (hr : r ∉ writesL0) :
    after opsL0 V (Proc.devRef .tc r) = V (Proc.devRef .tc r) :=
  after_of_writes_sub opsL0 V writesL0_sub hr

noncomputable def writesL1 : List (Ref sig .tc) :=
  [main_c_9, main_v75, main_v76, main_c_10, main_v77, main_v78, main_v79, main_v80, main_v81, main_cst_11, main_v82, main_v83,
   main_v84, main_v85, main_v86, main_v87, main_v88, main_v89, main_v90, main_v91, main_v92, main_v93, main_v94, main_v95,
   main_v96, main_v97, main_cst_12, main_v98, main_cst_13, main_v99, main_v100, main_c_14, main_call4.cst.ref,
   main_call4.v0.ref, main_call4.v1.ref, main_call4.cst_0.ref, main_call4.v2.ref, main_call4.v3.ref, main_call4.v4.ref,
   main_call4.v5.ref, main_call4.v6.ref, main_call4.v7.ref, main_call4.cst_1.ref, main_call4.v8.ref, main_call4.cst_2.ref,
   main_call4.v9.ref, main_call4.v10.ref, main_call4.v11.ref, main_call4.cst_3.ref, main_call4.v12.ref, main_call4.cst_4.ref,
   main_call4.call0.v0.ref, main_call4.call0.v1.ref, main_call4.call0.v2.ref, main_v102, main_v103, main_v104, main_cst_15,
   main_v105, main_v106, main_v107, main_v108, main_v109, main_v110, main_v111, main_v112, main_v113, main_v114, main_v115,
   main_v116, main_call5.cst.ref, main_call5.v0.ref, main_call5.v1.ref, main_v118, main_v119, main_v120, main_v121, main_v122,
   main_v123, main_v124, main_v125, main_call6.cst.ref, main_call6.v0.ref, main_call6.v1.ref, main_v127, main_v128, main_v129,
   main_v130, main_cst_16, main_v131, main_cst_17, main_v132, main_v133, main_c_18, main_call7.cst.ref, main_call7.v0.ref,
   main_call7.v1.ref, main_call7.cst_0.ref, main_call7.v2.ref, main_call7.v3.ref, main_call7.v4.ref, main_call7.v5.ref,
   main_call7.v6.ref, main_call7.v7.ref, main_call7.cst_1.ref, main_call7.v8.ref, main_call7.cst_2.ref, main_call7.v9.ref,
   main_call7.v10.ref, main_call7.v11.ref, main_call7.cst_3.ref, main_call7.v12.ref, main_call7.cst_4.ref,
   main_call7.call0.v0.ref, main_call7.call0.v1.ref, main_call7.call0.v2.ref, main_v135, main_v136, main_v137, main_cst_19,
   main_v138, main_v139, main_v140, main_v141, main_v142, main_v143, main_v144, main_v145, main_v146, main_v147, main_v148,
   main_v149]

theorem writesL1_sub : (opsL1 : List (HloOp τ sig (Elt F))).Forall fun op => op.writes ⊆ ((writesL1).map (Proc.devRef (τ := τ) .tc)).toFinset :=
  ⟨sub_at writesL1 0 (by decide), sub_at writesL1 1 (by decide), sub_at writesL1 2 (by decide), sub_at writesL1 3 (by decide),
   sub_at writesL1 4 (by decide), sub_at writesL1 5 (by decide), sub_at writesL1 6 (by decide), sub_at writesL1 7 (by decide),
   sub_at writesL1 8 (by decide), sub_at writesL1 9 (by decide), sub_at writesL1 10 (by decide), sub_at writesL1 11 (by decide),
   sub_at writesL1 12 (by decide), sub_at writesL1 13 (by decide), sub_at writesL1 14 (by decide), sub_at writesL1 15 (by decide),
   sub_at writesL1 16 (by decide), sub_at writesL1 17 (by decide), sub_at writesL1 18 (by decide), sub_at writesL1 19 (by decide),
   sub_at writesL1 20 (by decide), sub_at writesL1 21 (by decide), sub_at writesL1 22 (by decide), sub_at writesL1 23 (by decide),
   sub_at writesL1 24 (by decide), sub_at writesL1 25 (by decide), sub_at writesL1 26 (by decide), sub_at writesL1 27 (by decide),
   sub_at writesL1 28 (by decide), sub_at writesL1 29 (by decide), sub_at writesL1 30 (by decide), sub_at writesL1 31 (by decide),
   sub_at writesL1 32 (by decide), sub_at writesL1 33 (by decide), sub_at writesL1 34 (by decide), sub_at writesL1 35 (by decide),
   sub_at writesL1 36 (by decide), sub_at writesL1 37 (by decide), sub_at writesL1 38 (by decide), sub_at writesL1 39 (by decide),
   sub_at writesL1 40 (by decide), sub_at writesL1 41 (by decide), sub_at writesL1 42 (by decide), sub_at writesL1 43 (by decide),
   sub_at writesL1 44 (by decide), sub_at writesL1 45 (by decide), sub_at writesL1 46 (by decide), sub_at writesL1 47 (by decide),
   sub_at writesL1 48 (by decide), sub_at writesL1 49 (by decide), sub_at writesL1 50 (by decide), sub_at writesL1 51 (by decide),
   sub_at writesL1 52 (by decide), sub_at writesL1 53 (by decide), sub_at writesL1 54 (by decide), sub_at writesL1 55 (by decide),
   sub_at writesL1 56 (by decide), sub_at writesL1 57 (by decide), sub_at writesL1 58 (by decide), sub_at writesL1 59 (by decide),
   sub_at writesL1 60 (by decide), sub_at writesL1 61 (by decide), sub_at writesL1 62 (by decide), sub_at writesL1 63 (by decide),
   sub_at writesL1 64 (by decide), sub_at writesL1 65 (by decide), sub_at writesL1 66 (by decide), sub_at writesL1 67 (by decide),
   sub_at writesL1 68 (by decide), sub_at writesL1 69 (by decide), sub_at writesL1 70 (by decide), sub_at writesL1 71 (by decide),
   sub_at writesL1 72 (by decide), sub_at writesL1 73 (by decide), sub_at writesL1 74 (by decide), sub_at writesL1 75 (by decide),
   sub_at writesL1 76 (by decide), sub_at writesL1 77 (by decide), sub_at writesL1 78 (by decide), sub_at writesL1 79 (by decide),
   sub_at writesL1 80 (by decide), sub_at writesL1 81 (by decide), sub_at writesL1 82 (by decide), sub_at writesL1 83 (by decide),
   sub_at writesL1 84 (by decide), sub_at writesL1 85 (by decide), sub_at writesL1 86 (by decide), sub_at writesL1 87 (by decide),
   sub_at writesL1 88 (by decide), sub_at writesL1 89 (by decide), sub_at writesL1 90 (by decide), sub_at writesL1 91 (by decide),
   sub_at writesL1 92 (by decide), sub_at writesL1 93 (by decide), sub_at writesL1 94 (by decide), sub_at writesL1 95 (by decide),
   sub_at writesL1 96 (by decide), sub_at writesL1 97 (by decide), sub_at writesL1 98 (by decide), sub_at writesL1 99 (by decide),
   sub_at writesL1 100 (by decide), sub_at writesL1 101 (by decide), sub_at writesL1 102 (by decide), sub_at writesL1 103 (by decide),
   sub_at writesL1 104 (by decide), sub_at writesL1 105 (by decide), sub_at writesL1 106 (by decide), sub_at writesL1 107 (by decide),
   sub_at writesL1 108 (by decide), sub_at writesL1 109 (by decide), sub_at writesL1 110 (by decide), sub_at writesL1 111 (by decide),
   sub_at writesL1 112 (by decide), sub_at writesL1 113 (by decide), sub_at writesL1 114 (by decide), sub_at writesL1 115 (by decide),
   sub_at writesL1 116 (by decide), sub_at writesL1 117 (by decide), sub_at writesL1 118 (by decide), sub_at writesL1 119 (by decide),
   sub_at writesL1 120 (by decide), sub_at writesL1 121 (by decide), sub_at writesL1 122 (by decide), sub_at writesL1 123 (by decide),
   sub_at writesL1 124 (by decide), sub_at writesL1 125 (by decide), sub_at writesL1 126 (by decide), sub_at writesL1 127 (by decide),
   sub_at writesL1 128 (by decide), sub_at writesL1 129 (by decide), sub_at writesL1 130 (by decide), sub_at writesL1 131 (by decide)⟩

theorem frameL1 (V : Valuation τ sig (Elt F)) {r : Ref sig .tc} (hr : r ∉ writesL1) :
    after opsL1 V (Proc.devRef .tc r) = V (Proc.devRef .tc r) :=
  after_of_writes_sub opsL1 V writesL1_sub hr

noncomputable def writesL2 : List (Ref sig .tc) :=
  [main_c_20, main_v150, main_v151, main_c_21, main_v152, main_v153, main_v154, main_v155, main_v156, main_cst_22, main_v157,
   main_v158, main_v159, main_v160, main_v161, main_v162, main_v163, main_v164, main_v165, main_v166, main_v167, main_v168,
   main_v169, main_v170, main_v171, main_v172, main_cst_23, main_v173, main_cst_24, main_v174, main_v175, main_c_25,
   main_call8.cst.ref, main_call8.v0.ref, main_call8.v1.ref, main_call8.cst_0.ref, main_call8.v2.ref, main_call8.v3.ref,
   main_call8.v4.ref, main_call8.v5.ref, main_call8.v6.ref, main_call8.v7.ref, main_call8.cst_1.ref, main_call8.v8.ref,
   main_call8.cst_2.ref, main_call8.v9.ref, main_call8.v10.ref, main_call8.v11.ref, main_call8.cst_3.ref, main_call8.v12.ref,
   main_call8.cst_4.ref, main_call8.call0.v0.ref, main_call8.call0.v1.ref, main_call8.call0.v2.ref, main_v177, main_v178,
   main_v179, main_cst_26, main_v180, main_v181, main_v182, main_v183, main_v184, main_v185, main_v186, main_v187, main_v188,
   main_v189, main_v190, main_v191, main_call9.cst.ref, main_call9.v0.ref, main_call9.v1.ref, main_v193, main_v194, main_v195,
   main_v196, main_v197, main_v198, main_v199, main_v200, main_call10.cst.ref, main_call10.v0.ref, main_call10.v1.ref,
   main_v202, main_v203, main_v204, main_v205, main_cst_27, main_v206, main_cst_28, main_v207, main_v208, main_c_29,
   main_call11.cst.ref, main_call11.v0.ref, main_call11.v1.ref, main_call11.cst_0.ref, main_call11.v2.ref, main_call11.v3.ref,
   main_call11.v4.ref, main_call11.v5.ref, main_call11.v6.ref, main_call11.v7.ref, main_call11.cst_1.ref, main_call11.v8.ref,
   main_call11.cst_2.ref, main_call11.v9.ref, main_call11.v10.ref, main_call11.v11.ref, main_call11.cst_3.ref,
   main_call11.v12.ref, main_call11.cst_4.ref, main_call11.call0.v0.ref, main_call11.call0.v1.ref, main_call11.call0.v2.ref,
   main_v210, main_v211, main_v212, main_cst_30, main_v213, main_v214, main_v215, main_v216, main_v217, main_v218, main_v219,
   main_v220, main_v221, main_v222, main_v223, main_v224]

theorem writesL2_sub : (opsL2 : List (HloOp τ sig (Elt F))).Forall fun op => op.writes ⊆ ((writesL2).map (Proc.devRef (τ := τ) .tc)).toFinset :=
  ⟨sub_at writesL2 0 (by decide), sub_at writesL2 1 (by decide), sub_at writesL2 2 (by decide), sub_at writesL2 3 (by decide),
   sub_at writesL2 4 (by decide), sub_at writesL2 5 (by decide), sub_at writesL2 6 (by decide), sub_at writesL2 7 (by decide),
   sub_at writesL2 8 (by decide), sub_at writesL2 9 (by decide), sub_at writesL2 10 (by decide), sub_at writesL2 11 (by decide),
   sub_at writesL2 12 (by decide), sub_at writesL2 13 (by decide), sub_at writesL2 14 (by decide), sub_at writesL2 15 (by decide),
   sub_at writesL2 16 (by decide), sub_at writesL2 17 (by decide), sub_at writesL2 18 (by decide), sub_at writesL2 19 (by decide),
   sub_at writesL2 20 (by decide), sub_at writesL2 21 (by decide), sub_at writesL2 22 (by decide), sub_at writesL2 23 (by decide),
   sub_at writesL2 24 (by decide), sub_at writesL2 25 (by decide), sub_at writesL2 26 (by decide), sub_at writesL2 27 (by decide),
   sub_at writesL2 28 (by decide), sub_at writesL2 29 (by decide), sub_at writesL2 30 (by decide), sub_at writesL2 31 (by decide),
   sub_at writesL2 32 (by decide), sub_at writesL2 33 (by decide), sub_at writesL2 34 (by decide), sub_at writesL2 35 (by decide),
   sub_at writesL2 36 (by decide), sub_at writesL2 37 (by decide), sub_at writesL2 38 (by decide), sub_at writesL2 39 (by decide),
   sub_at writesL2 40 (by decide), sub_at writesL2 41 (by decide), sub_at writesL2 42 (by decide), sub_at writesL2 43 (by decide),
   sub_at writesL2 44 (by decide), sub_at writesL2 45 (by decide), sub_at writesL2 46 (by decide), sub_at writesL2 47 (by decide),
   sub_at writesL2 48 (by decide), sub_at writesL2 49 (by decide), sub_at writesL2 50 (by decide), sub_at writesL2 51 (by decide),
   sub_at writesL2 52 (by decide), sub_at writesL2 53 (by decide), sub_at writesL2 54 (by decide), sub_at writesL2 55 (by decide),
   sub_at writesL2 56 (by decide), sub_at writesL2 57 (by decide), sub_at writesL2 58 (by decide), sub_at writesL2 59 (by decide),
   sub_at writesL2 60 (by decide), sub_at writesL2 61 (by decide), sub_at writesL2 62 (by decide), sub_at writesL2 63 (by decide),
   sub_at writesL2 64 (by decide), sub_at writesL2 65 (by decide), sub_at writesL2 66 (by decide), sub_at writesL2 67 (by decide),
   sub_at writesL2 68 (by decide), sub_at writesL2 69 (by decide), sub_at writesL2 70 (by decide), sub_at writesL2 71 (by decide),
   sub_at writesL2 72 (by decide), sub_at writesL2 73 (by decide), sub_at writesL2 74 (by decide), sub_at writesL2 75 (by decide),
   sub_at writesL2 76 (by decide), sub_at writesL2 77 (by decide), sub_at writesL2 78 (by decide), sub_at writesL2 79 (by decide),
   sub_at writesL2 80 (by decide), sub_at writesL2 81 (by decide), sub_at writesL2 82 (by decide), sub_at writesL2 83 (by decide),
   sub_at writesL2 84 (by decide), sub_at writesL2 85 (by decide), sub_at writesL2 86 (by decide), sub_at writesL2 87 (by decide),
   sub_at writesL2 88 (by decide), sub_at writesL2 89 (by decide), sub_at writesL2 90 (by decide), sub_at writesL2 91 (by decide),
   sub_at writesL2 92 (by decide), sub_at writesL2 93 (by decide), sub_at writesL2 94 (by decide), sub_at writesL2 95 (by decide),
   sub_at writesL2 96 (by decide), sub_at writesL2 97 (by decide), sub_at writesL2 98 (by decide), sub_at writesL2 99 (by decide),
   sub_at writesL2 100 (by decide), sub_at writesL2 101 (by decide), sub_at writesL2 102 (by decide), sub_at writesL2 103 (by decide),
   sub_at writesL2 104 (by decide), sub_at writesL2 105 (by decide), sub_at writesL2 106 (by decide), sub_at writesL2 107 (by decide),
   sub_at writesL2 108 (by decide), sub_at writesL2 109 (by decide), sub_at writesL2 110 (by decide), sub_at writesL2 111 (by decide),
   sub_at writesL2 112 (by decide), sub_at writesL2 113 (by decide), sub_at writesL2 114 (by decide), sub_at writesL2 115 (by decide),
   sub_at writesL2 116 (by decide), sub_at writesL2 117 (by decide), sub_at writesL2 118 (by decide), sub_at writesL2 119 (by decide),
   sub_at writesL2 120 (by decide), sub_at writesL2 121 (by decide), sub_at writesL2 122 (by decide), sub_at writesL2 123 (by decide),
   sub_at writesL2 124 (by decide), sub_at writesL2 125 (by decide), sub_at writesL2 126 (by decide), sub_at writesL2 127 (by decide),
   sub_at writesL2 128 (by decide), sub_at writesL2 129 (by decide), sub_at writesL2 130 (by decide), sub_at writesL2 131 (by decide)⟩

theorem frameL2 (V : Valuation τ sig (Elt F)) {r : Ref sig .tc} (hr : r ∉ writesL2) :
    after opsL2 V (Proc.devRef .tc r) = V (Proc.devRef .tc r) :=
  after_of_writes_sub opsL2 V writesL2_sub hr

end Cert.ReferenceIdeal.Hand

end
-- ==== Proof.RI.Value.lean ====
import proofs.«412604_j76897094468164_1_alg».proof.Proof.RI.Run0
import proofs.«412604_j76897094468164_1_alg».proof.Proof.RI.Run1
import proofs.«412604_j76897094468164_1_alg».proof.Proof.RI.Run2
import proofs.«412604_j76897094468164_1_alg».proof.Proof.RI.Frame
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

def catV (x y z : A2) : FVec Ideal S100000x192 .f32 :=
  concatenate S100000x192 1 [⟨S100000x64, x⟩, ⟨S100000x64, y⟩, ⟨S100000x64, z⟩]
    concatenates_S100000x64_S100000x64_S100000x64_S100000x192_d1

def graphV (c : FVec Ideal S100000x192 .f32) : FVec Ideal S1x192 .f32 :=
  broadcastInDim S1x192 ![1] bcast_S192_S1x192_1
    (Host.reduceAdd c (constant S_ .f32 0x00000000#32) reducesTo_S100000x192_S192_d0 h_S_)

theorem tail_node (V : Valuation τ sig (Elt Ideal)) :
    after opsT V (Proc.devRef .tc main_v225)
      = catV (V (Proc.devRef .tc main_v74)) (V (Proc.devRef .tc main_v149)) (V (Proc.devRef .tc main_v224)) := by
  after_results
  rfl

theorem tail_graph (V : Valuation τ sig (Elt Ideal)) :
    after opsT V (Proc.devRef .tc main_v227)
      = graphV (catV (V (Proc.devRef .tc main_v74)) (V (Proc.devRef .tc main_v149)) (V (Proc.devRef .tc main_v224))) := by
  after_results
  rfl

theorem catV_toMat (x y z : A2) : toMat (catV x y z) = nodeM ⟨toMat x, toMat y, toMat z⟩ := by
  funext r q
  show catV x y z (ix2 r q) = _
  unfold catV nodeM
  split_ifs with h h'
  · exact concatenate_apply_piece (1 : Fin 2) [⟨S100000x64, x⟩, ⟨S100000x64, y⟩, ⟨S100000x64, z⟩] _ (ix2 r q) 0 (by simp) S100000x64 x rfl rfl 0 rfl (ix2 r ⟨q.val, h⟩)
      (fun b hb => by
        match b with
        | ⟨0, _⟩ => rfl
        | ⟨1, _⟩ => exact absurd rfl hb) (Nat.zero_add _)
  · exact concatenate_apply_piece (1 : Fin 2) [⟨S100000x64, x⟩, ⟨S100000x64, y⟩, ⟨S100000x64, z⟩] _ (ix2 r q) 1 (by simp) S100000x64 y rfl rfl 64 rfl
      (ix2 r ⟨q.val - 64, by have := q.isLt; omega⟩)
      (fun b hb => by
        match b with
        | ⟨0, _⟩ => rfl
        | ⟨1, _⟩ => exact absurd rfl hb) (by show 64 + (q.val - 64) = q.val; omega)
  · exact concatenate_apply_piece (1 : Fin 2) [⟨S100000x64, x⟩, ⟨S100000x64, y⟩, ⟨S100000x64, z⟩] _ (ix2 r q) 2 (by simp) S100000x64 z rfl rfl 128 rfl
      (ix2 r ⟨q.val - 128, by have := q.isLt; omega⟩)
      (fun b hb => by
        match b with
        | ⟨0, _⟩ => rfl
        | ⟨1, _⟩ => exact absurd rfl hb) (by show 128 + (q.val - 128) = q.val; omega)

theorem graphV_toRow (c : FVec Ideal S100000x192 .f32) : toRow (graphV c) = colsum (toMat c) := by
  have h : S100000x192.Reduces [0] S192 := by decide
  funext q
  show graphV c (ix2 (0 : Fin 1) q) = _
  unfold graphV colsum
  rw [broadcastInDim_apply _ _ _ _ (ix1 q) (fun a => by
        match a with
        | ⟨0, _⟩ => rfl),
    hostReduceAdd_apply, Ideal.hostReduceAdd_single reducesTo_S100000x192_S192_d0 h, constant_apply, ofBits_zero_f32, zero_add]
  refine Finset.sum_congr rfl fun r _ => congrArg c ?_
  funext a
  match a with
  | ⟨0, _⟩ => rfl
  | ⟨1, _⟩ => rfl

theorem ops_cut (U : Valuation τ sig (Elt Ideal)) :
    after ops U = after opsT (after opsL2 (after opsL1 (after opsL0 U))) := by
  show after (opsL0 ++ opsL1 ++ opsL2 ++ opsT) U = _
  rw [after_append, after_append, after_append]

abbrev refNet (U : Valuation τ sig (Elt Ideal)) : NetOut :=
  (net layerR (aggM (U (Proc.devRef .tc main_arg1)) (U (Proc.devRef .tc main_arg2))) (toMat (U (Proc.devRef .tc main_arg0)))
        (paramsOf 0 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 1 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 2 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10))))

theorem args_L0 (U : Valuation τ sig (Elt Ideal)) :
    after opsL0 U (Proc.devRef .tc main_arg1) = U (Proc.devRef .tc main_arg1)
    ∧ after opsL0 U (Proc.devRef .tc main_arg2) = U (Proc.devRef .tc main_arg2)
    ∧ after opsL0 U (Proc.devRef .tc main_arg3) = U (Proc.devRef .tc main_arg3)
    ∧ after opsL0 U (Proc.devRef .tc main_arg4) = U (Proc.devRef .tc main_arg4)
    ∧ after opsL0 U (Proc.devRef .tc main_arg5) = U (Proc.devRef .tc main_arg5)
    ∧ after opsL0 U (Proc.devRef .tc main_arg6) = U (Proc.devRef .tc main_arg6)
    ∧ after opsL0 U (Proc.devRef .tc main_arg7) = U (Proc.devRef .tc main_arg7)
    ∧ after opsL0 U (Proc.devRef .tc main_arg8) = U (Proc.devRef .tc main_arg8)
    ∧ after opsL0 U (Proc.devRef .tc main_arg9) = U (Proc.devRef .tc main_arg9)
    ∧ after opsL0 U (Proc.devRef .tc main_arg10) = U (Proc.devRef .tc main_arg10) :=
  ⟨frameL0 U (by decide), frameL0 U (by decide), frameL0 U (by decide), frameL0 U (by decide), frameL0 U (by decide), frameL0 U (by decide), frameL0 U (by decide), frameL0 U (by decide), frameL0 U (by decide), frameL0 U (by decide)⟩

theorem args_L1 (U : Valuation τ sig (Elt Ideal)) :
    after opsL1 (after opsL0 U) (Proc.devRef .tc main_arg1) = U (Proc.devRef .tc main_arg1)
    ∧ after opsL1 (after opsL0 U) (Proc.devRef .tc main_arg2) = U (Proc.devRef .tc main_arg2)
    ∧ after opsL1 (after opsL0 U) (Proc.devRef .tc main_arg3) = U (Proc.devRef .tc main_arg3)
    ∧ after opsL1 (after opsL0 U) (Proc.devRef .tc main_arg4) = U (Proc.devRef .tc main_arg4)
    ∧ after opsL1 (after opsL0 U) (Proc.devRef .tc main_arg5) = U (Proc.devRef .tc main_arg5)
    ∧ after opsL1 (after opsL0 U) (Proc.devRef .tc main_arg6) = U (Proc.devRef .tc main_arg6)
    ∧ after opsL1 (after opsL0 U) (Proc.devRef .tc main_arg7) = U (Proc.devRef .tc main_arg7)
    ∧ after opsL1 (after opsL0 U) (Proc.devRef .tc main_arg8) = U (Proc.devRef .tc main_arg8)
    ∧ after opsL1 (after opsL0 U) (Proc.devRef .tc main_arg9) = U (Proc.devRef .tc main_arg9)
    ∧ after opsL1 (after opsL0 U) (Proc.devRef .tc main_arg10) = U (Proc.devRef .tc main_arg10) := by
  obtain ⟨e1, e2, e3, e4, e5, e6, e7, e8, e9, e10⟩ := args_L0 U
  exact ⟨(frameL1 _ (by decide)).trans e1, (frameL1 _ (by decide)).trans e2, (frameL1 _ (by decide)).trans e3,
    (frameL1 _ (by decide)).trans e4, (frameL1 _ (by decide)).trans e5, (frameL1 _ (by decide)).trans e6,
    (frameL1 _ (by decide)).trans e7, (frameL1 _ (by decide)).trans e8, (frameL1 _ (by decide)).trans e9,
    (frameL1 _ (by decide)).trans e10⟩

theorem h1_val (U : Valuation τ sig (Elt Ideal)) :
    toMat (after opsL2 (after opsL1 (after opsL0 U)) (Proc.devRef .tc main_v74)) = (refNet U).h1 := by
  rw [frameL2 _ (by decide), frameL1 _ (by decide), layer0_val]
  rfl

theorem h2_val (U : Valuation τ sig (Elt Ideal)) :
    toMat (after opsL2 (after opsL1 (after opsL0 U)) (Proc.devRef .tc main_v149)) = (refNet U).h2 := by
  obtain ⟨e1, e2, e3, e4, e5, e6, e7, e8, e9, e10⟩ := args_L0 U
  rw [frameL2 _ (by decide), layer1_val, e1, e2, e3, e4, e5, e6, e7, e8, e9, e10, layer0_val]
  rfl

theorem h3_val (U : Valuation τ sig (Elt Ideal)) :
    toMat (after opsL2 (after opsL1 (after opsL0 U)) (Proc.devRef .tc main_v224)) = (refNet U).h3 := by
  obtain ⟨e1, e2, e3, e4, e5, e6, e7, e8, e9, e10⟩ := args_L0 U
  obtain ⟨f1, f2, f3, f4, f5, f6, f7, f8, f9, f10⟩ := args_L1 U
  rw [layer2_val, f1, f2, f3, f4, f5, f6, f7, f8, f9, f10, layer1_val, e1, e2, e3, e4, e5, e6, e7, e8, e9, e10, layer0_val]
  rfl

theorem ref_node (U : Valuation τ sig (Elt Ideal)) :
    toMat (StableHlo.after ops U (Proc.devRef .tc main_v225))
      = nodeM (net layerR (aggM (U (Proc.devRef .tc main_arg1)) (U (Proc.devRef .tc main_arg2))) (toMat (U (Proc.devRef .tc main_arg0)))
        (paramsOf 0 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 1 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 2 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))) := by
  rw [ops_cut, tail_node, catV_toMat, h1_val, h2_val, h3_val]

theorem ref_graph (U : Valuation τ sig (Elt Ideal)) :
    toRow (StableHlo.after ops U (Proc.devRef .tc main_v227))
      = graphM (net layerR (aggM (U (Proc.devRef .tc main_arg1)) (U (Proc.devRef .tc main_arg2))) (toMat (U (Proc.devRef .tc main_arg0)))
        (paramsOf 0 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 1 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))
        (paramsOf 2 (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)))) := by
  rw [ops_cut, tail_graph, graphV_toRow, catV_toMat, h1_val, h2_val, h3_val]
  rfl

end Cert.ReferenceIdeal.Hand

end
-- ==== Proof.Math.Finite.lean ====
import proofs.«412604_j76897094468164_1_alg».proof.Pre_finite_inputs
import proofs.«412604_j76897094468164_1_alg».proof.Proof.Gen.Pre_finite_inputs
import Idealize.ShloMosaic.PureOps.Ideal
import Idealize.ShloMosaic.Lib.ReduceAll

namespace Cert.Pre_finite_inputs.Hand

open Idealize.ShloMosaic

instance subsingleton_S_ : Subsingleton S_.Idx := ⟨fun a b => funext fun d => d.elim0⟩

theorem inf_pattern : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) : ∃ v : ℝ, x = (v : EReal) := by
  rw [inf_pattern] at h
  induction x using EReal.rec with
  | bot => exact absurd h (by simp [Ideal.cmp])
  | coe v => exact ⟨v, rfl⟩
  | top => exact absurd h (by simp [Ideal.cmp])

theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant (F := Ideal) S_ .f32 0x7F800000#32))) init hr hu j = 1#1) :
    ∀ i, ∃ v : ℝ, a i = (v : EReal) := fun i =>
  real_of_abs_lt_top (a i) (Host.reduce_andi_all _ init hr hu j e i)

theorem real_of_pre [Cert.Pre_finite_inputs.Facts]
    (a0 : FVec Ideal S100000x64 .f32) (a1 : IVec S3200000 32) (a2 : IVec S3200000 32)
    (a3 : FVec Ideal S3x64x64 .f32) (a4 : FVec Ideal S3x64 .f32) (a5 : FVec Ideal S3x64 .f32)
    (a6 : FVec Ideal S3x64 .f32) (a7 : FVec Ideal S3x64x64 .f32) (a8 : FVec Ideal S3x64 .f32)
    (a9 : FVec Ideal S3x64 .f32) (a10 : FVec Ideal S3x64 .f32)
    (h : Cert.Pre_finite_inputs.fn (F := Ideal) a0 a1 a2 a3 a4 a5 a6 a7 a8 a9 a10 = fun _ => 1#1) :
    (∀ i, ∃ v : ℝ, a0 i = (v : EReal)) ∧ (∀ i, ∃ v : ℝ, a3 i = (v : EReal)) ∧ (∀ i, ∃ v : ℝ, a4 i = (v : EReal))
    ∧ (∀ i, ∃ v : ℝ, a5 i = (v : EReal)) ∧ (∀ i, ∃ v : ℝ, a6 i = (v : EReal)) ∧ (∀ i, ∃ v : ℝ, a7 i = (v : EReal))
    ∧ (∀ i, ∃ v : ℝ, a8 i = (v : EReal)) ∧ (∀ i, ∃ v : ℝ, a9 i = (v : EReal)) ∧ (∀ i, ∃ v : ℝ, a10 i = (v : EReal)) := by
  have h0 := congrFun h (fun d => d.elim0)
  simp only [fn, fn_part1, fn_part2, Idealize.ShloMosaic.andi, IntOp.andi_eq_one] at h0
  obtain ⟨⟨⟨⟨⟨⟨⟨⟨e0, e3⟩, e4⟩, e5⟩, e6⟩, e7⟩, e8⟩, e9⟩, e10⟩ := h0
  exact ⟨real_of_all a0 _ _ _ _ _ e0, real_of_all a3 _ _ _ _ _ e3, real_of_all a4 _ _ _ _ _ e4,
    real_of_all a5 _ _ _ _ _ e5, real_of_all a6 _ _ _ _ _ e6, real_of_all a7 _ _ _ _ _ e7,
    real_of_all a8 _ _ _ _ _ e8, real_of_all a9 _ _ _ _ _ e9, real_of_all a10 _ _ _ _ _ e10⟩

end Cert.Pre_finite_inputs.Hand
-- ==== Proof.Math.Real.lean ====
import proofs.«412604_j76897094468164_1_alg».proof.Proof.Math.Consts
import Mathlib.Data.EReal.Inv
import Mathlib.Algebra.BigOperators.Ring.Finset
import Mathlib.Algebra.BigOperators.Fin
import Mathlib.Algebra.Order.BigOperators.Group.Finset

noncomputable section

namespace Cert.Spec

open Idealize.ShloMosaic

variable {n k j : ℕ}

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

def cm (x : Fin n → Fin k → ℝ) : Mat n k := fun r q => (x r q : EReal)

def cr (x : Fin k → ℝ) : Row k := fun q => (x q : EReal)

theorem realMat_cm (x : Fin n → Fin k → ℝ) : RealMat (cm x) := fun r q => ⟨x r q, rfl⟩
theorem realRow_cr (x : Fin k → ℝ) : RealRow (cr x) := fun q => ⟨x q, rfl⟩

theorem RealMat.exists_cm {x : Mat n k} (hx : RealMat x) : ∃ y : Fin n → Fin k → ℝ, x = cm y := by
  choose y hy using hx
  exact ⟨y, funext fun r => funext fun q => hy r q⟩

theorem RealRow.exists_cr {x : Row k} (hx : RealRow x) : ∃ y : Fin k → ℝ, x = cr y := by
  choose y hy using hx
  exact ⟨y, funext fun q => hy q⟩

theorem div_cN (s : ℝ) : Ideal.div (s : EReal) cN = ((s * (1 / 100000) : ℝ) : EReal) := by
  rw [cN_eq, Ideal.div_coe cN_ne_zero, ← EReal.coe_mul]

theorem lin_cm (x : Fin n → Fin k → ℝ) (w : Fin k → Fin j → ℝ) (b : Fin j → ℝ) :
    lin (cm x) (cm w) (cr b) = cm fun r q => (∑ i, x r i * w i q) + b q := by
  funext r q
  simp only [lin, cm, cr, EReal.coe_add, coe_sum, EReal.coe_mul]

theorem relu_cm (x : Fin n → Fin k → ℝ) : relu (cm x) = cm fun r q => max (x r q) 0 := by
  funext r q
  simp only [relu, cm]
  rw [← EReal.coe_zero, coe_max]

theorem colsum_cm (x : Fin n → Fin k → ℝ) : colsum (cm x) = cr fun q => ∑ r, x r q := by
  funext q
  simp only [colsum, cm, cr, coe_sum]

theorem mean_cm (x : Fin n → Fin k → ℝ) : mean (cm x) = cr fun q => (∑ r, x r q) * (1 / 100000) := by
  funext q
  simp only [mean, colsum_cm]
  simp only [cr, div_cN]

theorem varK_cm (x : Fin n → Fin k → ℝ) :
    varK (cm x) = cr fun q => (∑ r, x r q * x r q) * (1 / 100000)
      - ((∑ r, x r q) * (1 / 100000)) * ((∑ r, x r q) * (1 / 100000)) := by
  funext q
  have h : (fun r q => cm x r q * cm x r q) = cm fun r q => x r q * x r q := by
    funext r q; simp only [cm, EReal.coe_mul]
  simp only [varK, mean_cm, h, colsum_cm]
  simp only [cr, div_cN, EReal.coe_sub, EReal.coe_mul]

theorem varR_cm (x : Fin n → Fin k → ℝ) :
    varR (cm x) = cr fun q => (∑ r, (x r q - (∑ r, x r q) * (1 / 100000))
      * (x r q - (∑ r, x r q) * (1 / 100000))) * (1 / 100000) := by
  funext q
  have h : (fun r q => (cm x r q - mean (cm x) q) * (cm x r q - mean (cm x) q))
      = cm fun r q => (x r q - (∑ r, x r q) * (1 / 100000)) * (x r q - (∑ r, x r q) * (1 / 100000)) := by
    funext r q; simp only [mean_cm]; simp only [cm, cr, EReal.coe_mul, EReal.coe_sub]
  simp only [varR, h, colsum_cm]
  simp only [cr, div_cN]

theorem bn_cm (x : Fin n → Fin k → ℝ) (mu va g be : Fin k → ℝ) (hva : ∀ q, 0 ≤ va q) :
    ∃ y : Fin n → Fin k → ℝ, bn (cm x) (cr mu) (cr va) (cr g) (cr be) = cm y := by
  obtain ⟨e, he, hce⟩ := cEps_pos
  refine ⟨fun r q => (x r q - mu q) * (Real.sqrt (va q + e))⁻¹ * g q + be q, ?_⟩
  funext r q
  have hpos : 0 < va q + e := add_pos_of_nonneg_of_pos (hva q) he
  have hrs : Ideal.rsqrt ((va q : EReal) + cEps) = (((Real.sqrt (va q + e))⁻¹ : ℝ) : EReal) := by
    rw [hce, ← EReal.coe_add, Ideal.rsqrt_coe, if_neg (not_lt.2 hpos.le), if_neg hpos.ne']
  simp only [bn, cm, cr, hrs, EReal.coe_add, EReal.coe_mul, EReal.coe_sub]

theorem real_lin {x : Mat n k} {w : Mat k j} {b : Row j} (hx : RealMat x) (hw : RealMat w) (hb : RealRow b) :
    RealMat (lin x w b) := by
  obtain ⟨x, rfl⟩ := hx.exists_cm
  obtain ⟨w, rfl⟩ := hw.exists_cm
  obtain ⟨b, rfl⟩ := hb.exists_cr
  rw [lin_cm]; exact realMat_cm _

theorem real_relu {x : Mat n k} (hx : RealMat x) : RealMat (relu x) := by
  obtain ⟨x, rfl⟩ := hx.exists_cm
  rw [relu_cm]; exact realMat_cm _

theorem real_mean {x : Mat n k} (hx : RealMat x) : RealRow (mean x) := by
  obtain ⟨x, rfl⟩ := hx.exists_cm
  rw [mean_cm]; exact realRow_cr _

theorem real_bn {x : Mat n k} {mu va g be : Row k} (hx : RealMat x) (hmu : RealRow mu)
    (hva : ∀ q, ∃ v : ℝ, 0 ≤ v ∧ va q = (v : EReal)) (hg : RealRow g) (hbe : RealRow be) :
    RealMat (bn x mu va g be) := by
  obtain ⟨x, rfl⟩ := hx.exists_cm
  obtain ⟨mu, rfl⟩ := hmu.exists_cr
  obtain ⟨g, rfl⟩ := hg.exists_cr
  obtain ⟨be, rfl⟩ := hbe.exists_cr
  choose v hv0 hv using hva
  obtain rfl : va = cr v := funext hv
  obtain ⟨y, hy⟩ := bn_cm x mu v g be hv0
  rw [hy]; exact realMat_cm _

end Cert.Spec

end
-- ==== Proof.Math.Algebra.lean ====
import proofs.«412604_j76897094468164_1_alg».proof.Proof.Math.Real

noncomputable section

namespace Cert.Spec

open Idealize.ShloMosaic

variable {n k j : ℕ}

theorem sum_sq_dev (x : Fin NN → ℝ) (m : ℝ) :
    ∑ r : Fin NN, (x r - m) * (x r - m) = (∑ r, x r * x r) - 2 * m * (∑ r, x r) + 100000 * (m * m) := by
  have h : ∀ r, (x r - m) * (x r - m) = x r * x r - 2 * m * x r + m * m := fun r => by ring
  simp only [h, Finset.sum_add_distrib, Finset.sum_sub_distrib, ← Finset.mul_sum, Fin.sum_const, nsmul_eq_mul]
  norm_num
  ring

theorem var_real (x : Fin NN → ℝ) :
    (∑ r, x r * x r) * (1 / 100000) - ((∑ r, x r) * (1 / 100000)) * ((∑ r, x r) * (1 / 100000))
      = (∑ r, (x r - (∑ r, x r) * (1 / 100000)) * (x r - (∑ r, x r) * (1 / 100000))) * (1 / 100000) := by
  rw [sum_sq_dev]; ring

theorem varK_eq_varR {k : ℕ} (x : Mat NN k) (hx : RealMat x) : varK x = varR x := by
  obtain ⟨x, rfl⟩ := hx.exists_cm
  rw [varK_cm, varR_cm]
  funext q
  exact congrArg Real.toEReal (var_real fun r => x r q)

theorem varR_nonneg {k : ℕ} {x : Mat NN k} (hx : RealMat x) (q : Fin k) :
    ∃ v : ℝ, 0 ≤ v ∧ varR x q = (v : EReal) := by
  obtain ⟨x, rfl⟩ := hx.exists_cm
  refine ⟨_, ?_, by rw [varR_cm]; rfl⟩
  exact mul_nonneg (Finset.sum_nonneg fun r _ => mul_self_nonneg _) (by norm_num)

theorem real_mid (a : Mat NN DD) (P : LayerP) (ha : RealMat a) (hP : RealP P) :
    RealMat (relu (lin (relu (bn (lin a P.W1 P.b1) (mean (lin a P.W1 P.b1)) (varR (lin a P.W1 P.b1)) P.g1 P.be1))
      P.W2 P.b2)) := by
  obtain ⟨hW1, hb1, hg1, hbe1, hW2, hb2, -, -⟩ := hP
  have ht1 : RealMat (lin a P.W1 P.b1) := real_lin ha hW1 hb1
  exact real_relu (real_lin (real_relu (real_bn ht1 (real_mean ht1) (varR_nonneg ht1) hg1 hbe1)) hW2 hb2)

theorem layerK_eq_layerR (a : Mat NN DD) (P : LayerP) (ha : RealMat a) (hP : RealP P) :
    layerK a P = layerR a P := by
  have ht1 : RealMat (lin a P.W1 P.b1) := real_lin ha hP.1 hP.2.1
  have e1 := varK_eq_varR _ ht1
  have e2 := varK_eq_varR _ (real_mid a P ha hP)
  simp only [layerK, layerR, layerWith]
  rw [e1, e2]

theorem real_layerR (a : Mat NN DD) (P : LayerP) (ha : RealMat a) (hP : RealP P) : RealMat (layerR a P) := by
  have hr2 := real_mid a P ha hP
  obtain ⟨-, -, -, -, -, -, hg2, hbe2⟩ := hP
  simp only [layerR, layerWith]
  exact real_bn hr2 (real_mean hr2) (varR_nonneg hr2) hg2 hbe2

end Cert.Spec

end
-- ==== Proof.Math.NetEq.lean ====
import proofs.«412604_j76897094468164_1_alg».proof.Proof.Math.Algebra
import proofs.«412604_j76897094468164_1_alg».proof.Proof.Math.Net

noncomputable section

namespace Cert.Spec

open Idealize.ShloMosaic

theorem real_paramsOf (l : Fin 3)
    {w1 : (⟨3, ![3, 64, 64]⟩ : Shape).Idx → EReal} {b1 g1 be1 : (⟨2, ![3, 64]⟩ : Shape).Idx → EReal}
    {w2 : (⟨3, ![3, 64, 64]⟩ : Shape).Idx → EReal} {b2 g2 be2 : (⟨2, ![3, 64]⟩ : Shape).Idx → EReal}
    (hw1 : ∀ i, ∃ v : ℝ, w1 i = (v : EReal)) (hb1 : ∀ i, ∃ v : ℝ, b1 i = (v : EReal))
    (hg1 : ∀ i, ∃ v : ℝ, g1 i = (v : EReal)) (hbe1 : ∀ i, ∃ v : ℝ, be1 i = (v : EReal))
    (hw2 : ∀ i, ∃ v : ℝ, w2 i = (v : EReal)) (hb2 : ∀ i, ∃ v : ℝ, b2 i = (v : EReal))
    (hg2 : ∀ i, ∃ v : ℝ, g2 i = (v : EReal)) (hbe2 : ∀ i, ∃ v : ℝ, be2 i = (v : EReal)) :
    RealP (paramsOf l w1 b1 g1 be1 w2 b2 g2 be2) :=
  ⟨fun _ _ => hw1 _, fun _ => hb1 _, fun _ => hg1 _, fun _ => hbe1 _,
    fun _ _ => hw2 _, fun _ => hb2 _, fun _ => hg2 _, fun _ => hbe2 _⟩

theorem real_toMat {n k : ℕ} {v : (⟨2, ![n, k]⟩ : Shape).Idx → EReal} (h : ∀ i, ∃ r : ℝ, v i = (r : EReal)) :
    RealMat (toMat v) := fun _ _ => h _

theorem real_ofMat {n k : ℕ} {M : Mat n k} (h : RealMat M) : ∀ i, ∃ r : ℝ, ofMat M i = (r : EReal) :=
  fun i => h (i 0) (i 1)

theorem net_K_eq_R (agg : Mat NN DD → Mat NN DD) (hagg : ∀ h, RealMat h → RealMat (agg h)) (x : Mat NN DD)
    (hx : RealMat x) (P0 P1 P2 : LayerP) (h0 : RealP P0) (h1 : RealP P1) (h2 : RealP P2) :
    net layerK agg x P0 P1 P2 = net layerR agg x P0 P1 P2 := by
  have a0 : RealMat (agg x) := hagg x hx
  have e1 := layerK_eq_layerR (agg x) P0 a0 h0
  have a1 : RealMat (agg (layerR (agg x) P0)) := hagg _ (real_layerR _ P0 a0 h0)
  have e2 := layerK_eq_layerR _ P1 a1 h1
  have a2 : RealMat (agg (layerR (agg (layerR (agg x) P0)) P1)) := hagg _ (real_layerR _ P1 a1 h1)
  have e3 := layerK_eq_layerR _ P2 a2 h2
  simp only [net]
  rw [e1, e2, e3]

end Cert.Spec

end
-- ==== Proof.Math.AggReal.lean ====
import Idealize.ShloMosaic.PureOps.Ideal
import Idealize.ShloMosaic.PureOps.Contract
import Idealize.ShloMosaic.PureOps.ShapeOps
import Idealize.ShloMosaic.PureOps.Vector
import Mathlib.Data.EReal.Operations
import Mathlib.Algebra.BigOperators.Group.Finset.Basic

noncomputable section

namespace Cert.Spec

open Idealize.ShloMosaic

theorem real_add_sum {ι : Type} (a : EReal) (s : Finset ι) (f : ι → EReal) (ha : ∃ v : ℝ, a = (v : EReal))
    (hf : ∀ j, ∃ v : ℝ, f j = (v : EReal)) : ∃ v : ℝ, a + ∑ j ∈ s, f j = (v : EReal) := by
  classical
  obtain ⟨va, rfl⟩ := ha
  induction s using Finset.induction_on with
  | empty => exact ⟨va, by simp⟩
  | insert b s hb ih =>
    obtain ⟨vs, hvs⟩ := ih
    obtain ⟨vb, hvb⟩ := hf b
    refine ⟨vb + vs, ?_⟩
    rw [Finset.sum_insert hb, add_left_comm, hvs, hvb, EReal.coe_add]

theorem real_scatterAdd {s si su : Shape} (d : ScatterDims s si su) {w : ℕ} (x : FVec Ideal s .f32)
    (idx : IVec si w) (upd : FVec Ideal su .f32) (hx : ∀ i, ∃ v : ℝ, x i = (v : EReal))
    (hu : ∀ j, ∃ v : ℝ, upd j = (v : EReal)) :
    ∀ i, ∃ v : ℝ, Host.scatterAdd d x idx upd i = (v : EReal) := by
  intro i
  show ∃ v : ℝ, Ideal.hostScatterAdd d x idx upd i = (v : EReal)
  unfold Ideal.hostScatterAdd
  exact real_add_sum (x i) _ upd (hx i) hu

theorem real_gather {s si so : Shape} (d : GatherDims s si so) {w : ℕ} (x : FVec Ideal s .f32) (idx : IVec si w)
    (hx : ∀ i, ∃ v : ℝ, x i = (v : EReal)) : ∀ j, ∃ v : ℝ, Host.gather d x idx j = (v : EReal) :=
  fun j => hx (d.operandIdx j idx)

theorem real_addf {s : Shape} (x y : FVec Ideal s .f32) (hx : ∀ i, ∃ v : ℝ, x i = (v : EReal))
    (hy : ∀ i, ∃ v : ℝ, y i = (v : EReal)) : ∀ i, ∃ v : ℝ, addf x y i = (v : EReal) := by
  intro i
  obtain ⟨a, ha⟩ := hx i
  obtain ⟨b, hb⟩ := hy i
  refine ⟨a + b, ?_⟩
  show x i + y i = _
  rw [ha, hb, EReal.coe_add]

theorem zero_pattern : Ideal.ofBits .f32 0x00000000#32 = ((0 : ℝ) : EReal) := by
  simp [Ideal.ofBits, Ideal.ieee]

theorem real_bcast_zero (t : Shape) (h : (⟨0, ![]⟩ : Shape).BroadcastsInDim t ![]) (i : t.Idx) :
    broadcastInDim t ![] h (constant (F := Ideal) (⟨0, ![]⟩ : Shape) .f32 0x00000000#32) i = ((0 : ℝ) : EReal) :=
  zero_pattern

theorem real_bcast_zero_exists (t : Shape) (h : (⟨0, ![]⟩ : Shape).BroadcastsInDim t ![]) :
    ∀ i, ∃ v : ℝ, broadcastInDim t ![] h (constant (F := Ideal) (⟨0, ![]⟩ : Shape) .f32 0x00000000#32) i
      = (v : EReal) :=
  fun i => ⟨0, real_bcast_zero t h i⟩

end Cert.Spec

end
-- ==== Proof.Final.AggK.lean ====
import proofs.«412604_j76897094468164_1_alg».proof.Proof.KI.HostA
import proofs.«412604_j76897094468164_1_alg».proof.Proof.RI.ValueL
import proofs.«412604_j76897094468164_1_alg».proof.Proof.Math.AggReal
import proofs.«412604_j76897094468164_1_alg».proof.Proof.Math.NetEq

noncomputable section

namespace Cert.Final

open Idealize.ShloMosaic Cert.Spec

theorem real_aggV (h : FVec Ideal Cert.KernelIdeal.S100000x64 .f32) (src dst : IVec Cert.KernelIdeal.S3200000 32)
    (hh : ∀ i, ∃ v : ℝ, h i = (v : EReal)) : ∀ i, ∃ v : ℝ, Cert.KernelIdeal.Hand.aggV h src dst i = (v : EReal) := by
  unfold Cert.KernelIdeal.Hand.aggV
  exact real_addf _ _ hh (real_scatterAdd _ _ _ _ (real_bcast_zero_exists _ _) (real_gather _ _ _ hh))

theorem real_aggM (src dst : IVec Cert.KernelIdeal.S3200000 32) (h : Mat NN DD) (hh : RealMat h) :
    RealMat (toMat (Cert.KernelIdeal.Hand.aggV (ofMat h) src dst)) :=
  real_toMat (real_aggV _ src dst (real_ofMat hh))

end Cert.Final

end
-- ==== Proof.lean ====
import proofs.«412604_j76897094468164_1_alg».proof.Defs
import proofs.«412604_j76897094468164_1_alg».proof.Proof.Gen.Kernel
import proofs.«412604_j76897094468164_1_alg».proof.Proof.Gen.KernelIdeal
import proofs.«412604_j76897094468164_1_alg».proof.Proof.Gen.ReferenceIdeal
import proofs.«412604_j76897094468164_1_alg».proof.Proof.Gen.Pre_finite_inputs
import proofs.«412604_j76897094468164_1_alg».proof.Proof.K.Frame
import proofs.«412604_j76897094468164_1_alg».proof.Proof.KI.Results
import proofs.«412604_j76897094468164_1_alg».proof.Proof.KI.Chain
import proofs.«412604_j76897094468164_1_alg».proof.Proof.RI.Run
import proofs.«412604_j76897094468164_1_alg».proof.Proof.RI.Value
import proofs.«412604_j76897094468164_1_alg».proof.Proof.Math.Finite
import proofs.«412604_j76897094468164_1_alg».proof.Proof.Math.NetEq
import proofs.«412604_j76897094468164_1_alg».proof.Proof.Final.AggK

noncomputable section

namespace Cert.Proof

open Idealize.ShloMosaic Idealize.ShloMosaic.TcCoe Idealize.SL.Sem Cert.Spec

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

theorem nets_agree
    (m : (ℓ : Loc Cert.KernelIdeal.nD Cert.KernelIdeal.τ Cert.KernelIdeal.sig) → Buf (Elt Ideal) ℓ)
    (U : Valuation Cert.ReferenceIdeal.τ Cert.ReferenceIdeal.sig (Elt Ideal)) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) = fun _ => 1#1)
    (e0 : U (Proc.devRef .tc Cert.ReferenceIdeal.main_arg0) = m ((c.tc : Thread Cert.KernelIdeal.nD Cert.KernelIdeal.τ).loc Cert.KernelIdeal.main_arg0))
    (e1 : U (Proc.devRef .tc Cert.ReferenceIdeal.main_arg1) = m ((c.tc : Thread Cert.KernelIdeal.nD Cert.KernelIdeal.τ).loc Cert.KernelIdeal.main_arg1))
    (e2 : U (Proc.devRef .tc Cert.ReferenceIdeal.main_arg2) = m ((c.tc : Thread Cert.KernelIdeal.nD Cert.KernelIdeal.τ).loc Cert.KernelIdeal.main_arg2))
    (e3 : U (Proc.devRef .tc Cert.ReferenceIdeal.main_arg3) = m ((c.tc : Thread Cert.KernelIdeal.nD Cert.KernelIdeal.τ).loc Cert.KernelIdeal.main_arg3))
    (e4 : U (Proc.devRef .tc Cert.ReferenceIdeal.main_arg4) = m ((c.tc : Thread Cert.KernelIdeal.nD Cert.KernelIdeal.τ).loc Cert.KernelIdeal.main_arg4))
    (e5 : U (Proc.devRef .tc Cert.ReferenceIdeal.main_arg5) = m ((c.tc : Thread Cert.KernelIdeal.nD Cert.KernelIdeal.τ).loc Cert.KernelIdeal.main_arg5))
    (e6 : U (Proc.devRef .tc Cert.ReferenceIdeal.main_arg6) = m ((c.tc : Thread Cert.KernelIdeal.nD Cert.KernelIdeal.τ).loc Cert.KernelIdeal.main_arg6))
    (e7 : U (Proc.devRef .tc Cert.ReferenceIdeal.main_arg7) = m ((c.tc : Thread Cert.KernelIdeal.nD Cert.KernelIdeal.τ).loc Cert.KernelIdeal.main_arg7))
    (e8 : U (Proc.devRef .tc Cert.ReferenceIdeal.main_arg8) = m ((c.tc : Thread Cert.KernelIdeal.nD Cert.KernelIdeal.τ).loc Cert.KernelIdeal.main_arg8))
    (e9 : U (Proc.devRef .tc Cert.ReferenceIdeal.main_arg9) = m ((c.tc : Thread Cert.KernelIdeal.nD Cert.KernelIdeal.τ).loc Cert.KernelIdeal.main_arg9))
    (e10 : U (Proc.devRef .tc Cert.ReferenceIdeal.main_arg10) = m ((c.tc : Thread Cert.KernelIdeal.nD Cert.KernelIdeal.τ).loc Cert.KernelIdeal.main_arg10)) :
    net layerR (Cert.ReferenceIdeal.Hand.aggM (U (Proc.devRef .tc Cert.ReferenceIdeal.main_arg1)) (U (Proc.devRef .tc Cert.ReferenceIdeal.main_arg2)))
        (toMat (U (Proc.devRef .tc Cert.ReferenceIdeal.main_arg0)))
        (paramsOf 0 (U (Proc.devRef .tc Cert.ReferenceIdeal.main_arg3)) (U (Proc.devRef .tc Cert.ReferenceIdeal.main_arg4)) (U (Proc.devRef .tc Cert.ReferenceIdeal.main_arg5)) (U (Proc.devRef .tc Cert.ReferenceIdeal.main_arg6)) (U (Proc.devRef .tc Cert.ReferenceIdeal.main_arg7)) (U (Proc.devRef .tc Cert.ReferenceIdeal.main_arg8)) (U (Proc.devRef .tc Cert.ReferenceIdeal.main_arg9)) (U (Proc.devRef .tc Cert.ReferenceIdeal.main_arg10)))
        (paramsOf 1 (U (Proc.devRef .tc Cert.ReferenceIdeal.main_arg3)) (U (Proc.devRef .tc Cert.ReferenceIdeal.main_arg4)) (U (Proc.devRef .tc Cert.ReferenceIdeal.main_arg5)) (U (Proc.devRef .tc Cert.ReferenceIdeal.main_arg6)) (U (Proc.devRef .tc Cert.ReferenceIdeal.main_arg7)) (U (Proc.devRef .tc Cert.ReferenceIdeal.main_arg8)) (U (Proc.devRef .tc Cert.ReferenceIdeal.main_arg9)) (U (Proc.devRef .tc Cert.ReferenceIdeal.main_arg10)))
        (paramsOf 2 (U (Proc.devRef .tc Cert.ReferenceIdeal.main_arg3)) (U (Proc.devRef .tc Cert.ReferenceIdeal.main_arg4)) (U (Proc.devRef .tc Cert.ReferenceIdeal.main_arg5)) (U (Proc.devRef .tc Cert.ReferenceIdeal.main_arg6)) (U (Proc.devRef .tc Cert.ReferenceIdeal.main_arg7)) (U (Proc.devRef .tc Cert.ReferenceIdeal.main_arg8)) (U (Proc.devRef .tc Cert.ReferenceIdeal.main_arg9)) (U (Proc.devRef .tc Cert.ReferenceIdeal.main_arg10)))
      = Cert.KernelIdeal.Hand.kernelNet m c := by
  rw [e0, e1, e2, e3, e4, e5, e6, e7, e8, e9, e10]
  obtain ⟨r0, r3, r4, r5, r6, r7, r8, r9, r10⟩ := Cert.Pre_finite_inputs.Hand.real_of_pre _ _ _ _ _ _ _ _ _ _ _ hpre
  unfold Cert.KernelIdeal.Hand.kernelNet
  rw [net_K_eq_R _ (fun h hh => Cert.Final.real_aggM _ _ h hh) _ (real_toMat r0) _ _ _
    (real_paramsOf 0 r3 r4 r5 r6 r7 r8 r9 r10) (real_paramsOf 1 r3 r4 r5 r6 r7 r8 r9 r10) (real_paramsOf 2 r3 r4 r5 r6 r7 r8 r9 r10)]
  rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W16 m c Cert.KernelIdeal.main_v109,
    fun c => Cert.KernelIdeal.Hand.W16 m c Cert.KernelIdeal.main_v108, Cert.KernelIdeal.Hand.run_results m g, ?_⟩
  refine (θ_run Cert.ReferenceIdeal.defs _ _).mono (fun r h c => ?_) (Cert.ReferenceIdeal.Hand.run_after m' g')
  obtain ⟨e0, e1, e2, e3, e4, e5, e6, e7, e8, e9, e10⟩ := hagree c
  have hn := nets_agree m (StableHlo.launchContents m' c) c (hpre c) e0 e1 e2 e3 e4 e5 e6 e7 e8 e9 e10
  refine ⟨?_, ?_, (h c _).trans (Cert.ReferenceIdeal.Hand.kept_arg0 _), (h c _).trans (Cert.ReferenceIdeal.Hand.kept_arg1 _),
    (h c _).trans (Cert.ReferenceIdeal.Hand.kept_arg2 _), (h c _).trans (Cert.ReferenceIdeal.Hand.kept_arg3 _),
    (h c _).trans (Cert.ReferenceIdeal.Hand.kept_arg4 _), (h c _).trans (Cert.ReferenceIdeal.Hand.kept_arg5 _),
    (h c _).trans (Cert.ReferenceIdeal.Hand.kept_arg6 _), (h c _).trans (Cert.ReferenceIdeal.Hand.kept_arg7 _),
    (h c _).trans (Cert.ReferenceIdeal.Hand.kept_arg8 _), (h c _).trans (Cert.ReferenceIdeal.Hand.kept_arg9 _),
    (h c _).trans (Cert.ReferenceIdeal.Hand.kept_arg10 _)⟩
  · refine (h c _).trans (eq_of_toRow_eq ?_)
    exact ((Cert.ReferenceIdeal.Hand.ref_graph _).trans (congrArg graphM hn)).trans (Cert.KernelIdeal.Hand.kernel_graph m c).symm
  · refine (h c _).trans (eq_of_toMat_eq ?_)
    exact ((Cert.ReferenceIdeal.Hand.ref_node _).trans (congrArg nodeM hn)).trans (Cert.KernelIdeal.Hand.kernel_node m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
